-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x1024x1024 : Shape := ⟨3, ![1, 1024, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel

variable [Facts]

def fn {F : FTy → Type} [FloatOps F] (main_arg0 : FVec F S1x1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  main_v3
-- ==== Pre_finite_inputs_ReferenceIdeal.lean ====
abbrev S8x1024x1024 : Shape := ⟨3, ![8, 1024, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel

variable [Facts]

def fn {F : FTy → Type} [FloatOps F] (main_arg0 : FVec F S8x1024x1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  main_v3
-- ==== Kernel.lean ====
abbrev S1x1024x1024 : Shape := ⟨3, ![1, 1024, 1024]⟩
abbrev S1024x1024 : Shape := ⟨2, ![1024, 1024]⟩
abbrev S344x512 : Shape := ⟨2, ![344, 512]⟩
abbrev S344x256 : Shape := ⟨2, ![344, 256]⟩
abbrev S344x128 : Shape := ⟨2, ![344, 128]⟩
abbrev S336x512 : Shape := ⟨2, ![336, 512]⟩
abbrev S336x256 : Shape := ⟨2, ![336, 256]⟩
abbrev S336x128 : Shape := ⟨2, ![336, 128]⟩
abbrev S3x3 : Shape := ⟨2, ![3, 3]⟩
abbrev S3 : Shape := ⟨1, ![3]⟩
abbrev S_ : Shape := ⟨0, ![]⟩
abbrev S1x1 : Shape := ⟨2, ![1, 1]⟩
abbrev S1x344x512 : Shape := ⟨3, ![1, 344, 512]⟩
abbrev S1x336x512 : Shape := ⟨3, ![1, 336, 512]⟩
abbrev S1 : Shape := ⟨1, ![1]⟩

abbrev nBuf : Space → Nat
  | .hbm => 2
  | .vmem => 10
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .local _ .vmem, ⟨0, _⟩ => ⟨S1024x1024, .f32⟩
  | .local _ .vmem, ⟨1, _⟩ => ⟨S344x512, .f32⟩
  | .local _ .vmem, ⟨2, _⟩ => ⟨S344x256, .f32⟩
  | .local _ .vmem, ⟨3, _⟩ => ⟨S344x128, .f32⟩
  | .local _ .vmem, ⟨4, _⟩ => ⟨S336x512, .f32⟩
  | .local _ .vmem, ⟨5, _⟩ => ⟨S336x256, .f32⟩
  | .local _ .vmem, ⟨6, _⟩ => ⟨S336x128, .f32⟩
  | .local _ .vmem, ⟨7, _⟩ => ⟨S344x512, .f32⟩
  | .local _ .vmem, ⟨8, _⟩ => ⟨S344x256, .f32⟩
  | .local _ .vmem, ⟨9, _⟩ => ⟨S344x128, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_1 : BitVec 32 := 1#32
  let v9 : BitVec 32 := Scalar.xori v7 c1_i32_1
  let c3_i32_2 : BitVec 32 := 3#32
  let v10 : BitVec 32 := Scalar.andi v9 c3_i32_2
  let c1_i32_3 : BitVec 32 := 1#32
  let v11 : BitVec 32 := Scalar.shrsi v10 c1_i32_3
  let v12 : BitVec 32 := Scalar.xori v10 v11
  let c4_i32_4 : BitVec 32 := 4#32
  let v13 : BitVec 32 := Scalar.andi v9 c4_i32_4
  let v14 : BitVec 32 := Scalar.ori v12 v13
  let c1_i32_6 : BitVec 32 := 1#32
  let v15 : BitVec 32 := Scalar.muli v14 c1_i32_6
  let v16 : BitVec 32 := Scalar.addi c0_i32 v15
  v16.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32 : BitVec 32 := 2#32
  let v17 : BitVec 32 := Scalar.xori v7 c2_i32
  let c3_i32_7 : BitVec 32 := 3#32
  let v18 : BitVec 32 := Scalar.andi v17 c3_i32_7
  let c1_i32_8 : BitVec 32 := 1#32
  let v19 : BitVec 32 := Scalar.shrsi v18 c1_i32_8
  let v20 : BitVec 32 := Scalar.xori v18 v19
  let c4_i32_9 : BitVec 32 := 4#32
  let v21 : BitVec 32 := Scalar.andi v17 c4_i32_9
  let v22 : BitVec 32 := Scalar.ori v20 v21
  let c1_i32_11 : BitVec 32 := 1#32
  let v23 : BitVec 32 := Scalar.muli v22 c1_i32_11
  let v24 : BitVec 32 := Scalar.addi c0_i32_12 v23
  v24.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c4_i32_13 : BitVec 32 := 4#32
  let v25 : BitVec 32 := Scalar.xori v7 c4_i32_13
  let c3_i32_14 : BitVec 32 := 3#32
  let v26 : BitVec 32 := Scalar.andi v25 c3_i32_14
  let c1_i32_15 : BitVec 32 := 1#32
  let v27 : BitVec 32 := Scalar.shrsi v26 c1_i32_15
  let v28 : BitVec 32 := Scalar.xori v26 v27
  let c4_i32_16 : BitVec 32 := 4#32
  let v29 : BitVec 32 := Scalar.andi v25 c4_i32_16
  let v30 : BitVec 32 := Scalar.ori v28 v29
  let c1_i32_18 : BitVec 32 := 1#32
  let v31 : BitVec 32 := Scalar.muli v30 c1_i32_18
  let v32 : BitVec 32 := Scalar.addi c0_i32_19 v31
  v32.toNat
def k0_mult1 (d0 : Dev nD) : BitVec 32 :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_23 : BitVec 32 := 1#32
  let v35 : BitVec 1 := Scalar.cmpi .eq v34 c1_i32_23
  let c0_i32_24 : BitVec 32 := 0#32
  let c512_i32 : BitVec 32 := 512#32
  let v36 : BitVec 32 := Scalar.select v35 c0_i32_24 c512_i32
  let v37 : BitVec 32 := Scalar.addi c0_i32_25 v36
  v37
def k0_off1 (d0 : Dev nD) (c0_i32_24 : BitVec 32) (c512_i32 : BitVec 32) : Fin 3 → Nat :=
  let c0_i32_132 : BitVec 32 := 0#32
  let c0_i32_139 : BitVec 32 := 0#32
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_23 : BitVec 32 := 1#32
  let v35 : BitVec 1 := Scalar.cmpi .eq v34 c1_i32_23
  let v36 : BitVec 32 := Scalar.select v35 c0_i32_24 c512_i32
  let v37 : BitVec 32 := Scalar.addi c0_i32_25 v36
  let v159 : BitVec 32 := v37
  ![0, 0, v159.toNat]
def k0_off1_at (r : Fin 2) : BitVec 32 × BitVec 32 :=
  if r.val < 1 then
    (0#32, 512#32)
  else
    (512#32, 0#32)
def k0_dev4 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_30 : BitVec 32 := 1#32
  let v41 : BitVec 32 := Scalar.xori v7 c1_i32_30
  let c3_i32_31 : BitVec 32 := 3#32
  let v42 : BitVec 32 := Scalar.andi v41 c3_i32_31
  let c1_i32_32 : BitVec 32 := 1#32
  let v43 : BitVec 32 := Scalar.shrsi v42 c1_i32_32
  let v44 : BitVec 32 := Scalar.xori v42 v43
  let c4_i32_33 : BitVec 32 := 4#32
  let v45 : BitVec 32 := Scalar.andi v41 c4_i32_33
  let v46 : BitVec 32 := Scalar.ori v44 v45
  let c1_i32_137 : BitVec 32 := 1#32
  let v160 : BitVec 32 := Scalar.muli v46 c1_i32_137
  let v161 : BitVec 32 := Scalar.addi c0_i32_138 v160
  v161.toNat
def k0_mult2 (d0 : Dev nD) : BitVec 32 :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_58 : BitVec 32 := 1#32
  let v77 : BitVec 1 := Scalar.cmpi .eq v76 c1_i32_58
  let c0_i32_59 : BitVec 32 := 0#32
  let c512_i32_60 : BitVec 32 := 512#32
  let v78 : BitVec 32 := Scalar.select v77 c0_i32_59 c512_i32_60
  let v79 : BitVec 32 := Scalar.addi c0_i32_61 v78
  v79
def k0_off2 (d0 : Dev nD) (c0_i32_59 : BitVec 32) (c512_i32_60 : BitVec 32) : Fin 3 → Nat :=
  let c0_i32_140 : BitVec 32 := 0#32
  let c344_i32 : BitVec 32 := 344#32
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_58 : BitVec 32 := 1#32
  let v77 : BitVec 1 := Scalar.cmpi .eq v76 c1_i32_58
  let v78 : BitVec 32 := Scalar.select v77 c0_i32_59 c512_i32_60
  let v79 : BitVec 32 := Scalar.addi c0_i32_61 v78
  let v168 : BitVec 32 := v79
  ![0, 344, v168.toNat]
def k0_off2_at (r : Fin 2) : BitVec 32 × BitVec 32 :=
  if r.val < 1 then
    (0#32, 512#32)
  else
    (512#32, 0#32)
def k0_dev5 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_66 : BitVec 32 := 2#32
  let v83 : BitVec 32 := Scalar.xori v7 c2_i32_66
  let c3_i32_67 : BitVec 32 := 3#32
  let v84 : BitVec 32 := Scalar.andi v83 c3_i32_67
  let c1_i32_68 : BitVec 32 := 1#32
  let v85 : BitVec 32 := Scalar.shrsi v84 c1_i32_68
  let v86 : BitVec 32 := Scalar.xori v84 v85
  let c4_i32_69 : BitVec 32 := 4#32
  let v87 : BitVec 32 := Scalar.andi v83 c4_i32_69
  let v88 : BitVec 32 := Scalar.ori v86 v87
  let c1_i32_145 : BitVec 32 := 1#32
  let v169 : BitVec 32 := Scalar.muli v88 c1_i32_145
  let v170 : BitVec 32 := Scalar.addi c0_i32_146 v169
  v170.toNat
def k0_mult3 (d0 : Dev nD) : BitVec 32 :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_96 : BitVec 32 := 1#32
  let v119 : BitVec 1 := Scalar.cmpi .eq v118 c1_i32_96
  let c0_i32_97 : BitVec 32 := 0#32
  let c512_i32_98 : BitVec 32 := 512#32
  let v120 : BitVec 32 := Scalar.select v119 c0_i32_97 c512_i32_98
  let v121 : BitVec 32 := Scalar.addi c0_i32_99 v120
  v121
def k0_off3 (d0 : Dev nD) (c0_i32_97 : BitVec 32) (c512_i32_98 : BitVec 32) : Fin 3 → Nat :=
  let c0_i32_147 : BitVec 32 := 0#32
  let c680_i32 : BitVec 32 := 680#32
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_96 : BitVec 32 := 1#32
  let v119 : BitVec 1 := Scalar.cmpi .eq v118 c1_i32_96
  let v120 : BitVec 32 := Scalar.select v119 c0_i32_97 c512_i32_98
  let v121 : BitVec 32 := Scalar.addi c0_i32_99 v120
  let v177 : BitVec 32 := v121
  ![0, 680, v177.toNat]
def k0_off3_at (r : Fin 2) : BitVec 32 × BitVec 32 :=
  if r.val < 1 then
    (0#32, 512#32)
  else
    (512#32, 0#32)
def k0_dev6 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c4_i32_104 : BitVec 32 := 4#32
  let v125 : BitVec 32 := Scalar.xori v7 c4_i32_104
  let c3_i32_105 : BitVec 32 := 3#32
  let v126 : BitVec 32 := Scalar.andi v125 c3_i32_105
  let c1_i32_106 : BitVec 32 := 1#32
  let v127 : BitVec 32 := Scalar.shrsi v126 c1_i32_106
  let v128 : BitVec 32 := Scalar.xori v126 v127
  let c4_i32_107 : BitVec 32 := 4#32
  let v129 : BitVec 32 := Scalar.andi v125 c4_i32_107
  let v130 : BitVec 32 := Scalar.ori v128 v129
  let c1_i32_152 : BitVec 32 := 1#32
  let v178 : BitVec 32 := Scalar.muli v130 c1_i32_152
  let v179 : BitVec 32 := Scalar.addi c0_i32_153 v178
  v179.toNat
def k0_mult4 (d0 : Dev nD) : BitVec 32 :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_26 : BitVec 32 := 1#32
  let v38 : BitVec 1 := Scalar.cmpi .eq v34 c1_i32_26
  let c512_i32_27 : BitVec 32 := 512#32
  let c0_i32_28 : BitVec 32 := 0#32
  let v39 : BitVec 32 := Scalar.select v38 c512_i32_27 c0_i32_28
  let v40 : BitVec 32 := Scalar.addi c0_i32_29 v39
  v40
def k0_off4 (d0 : Dev nD) : Fin 2 → Nat :=
  let c0_i32_156 : BitVec 32 := 0#32
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_26 : BitVec 32 := 1#32
  let v38 : BitVec 1 := Scalar.cmpi .eq v34 c1_i32_26
  let c512_i32_27 : BitVec 32 := 512#32
  let c0_i32_28 : BitVec 32 := 0#32
  let v39 : BitVec 32 := Scalar.select v38 c512_i32_27 c0_i32_28
  let v40 : BitVec 32 := Scalar.addi c0_i32_29 v39
  let v186 : BitVec 32 := v40
  ![0, v186.toNat]
def k0_mult5 (d0 : Dev nD) : BitVec 32 :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_62 : BitVec 32 := 1#32
  let v80 : BitVec 1 := Scalar.cmpi .eq v76 c1_i32_62
  let c512_i32_63 : BitVec 32 := 512#32
  let c0_i32_64 : BitVec 32 := 0#32
  let v81 : BitVec 32 := Scalar.select v80 c512_i32_63 c0_i32_64
  let v82 : BitVec 32 := Scalar.addi c0_i32_65 v81
  v82
def k0_off5 (d0 : Dev nD) : Fin 2 → Nat :=
  let c344_i32_160 : BitVec 32 := 344#32
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_62 : BitVec 32 := 1#32
  let v80 : BitVec 1 := Scalar.cmpi .eq v76 c1_i32_62
  let c512_i32_63 : BitVec 32 := 512#32
  let c0_i32_64 : BitVec 32 := 0#32
  let v81 : BitVec 32 := Scalar.select v80 c512_i32_63 c0_i32_64
  let v82 : BitVec 32 := Scalar.addi c0_i32_65 v81
  let v192 : BitVec 32 := v82
  ![344, v192.toNat]
def k0_mult6 (d0 : Dev nD) : BitVec 32 :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_100 : BitVec 32 := 1#32
  let v122 : BitVec 1 := Scalar.cmpi .eq v118 c1_i32_100
  let c512_i32_101 : BitVec 32 := 512#32
  let c0_i32_102 : BitVec 32 := 0#32
  let v123 : BitVec 32 := Scalar.select v122 c512_i32_101 c0_i32_102
  let v124 : BitVec 32 := Scalar.addi c0_i32_103 v123
  v124
def k0_off6 (d0 : Dev nD) : Fin 2 → Nat :=
  let c680_i32_164 : BitVec 32 := 680#32
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_100 : BitVec 32 := 1#32
  let v122 : BitVec 1 := Scalar.cmpi .eq v118 c1_i32_100
  let c512_i32_101 : BitVec 32 := 512#32
  let c0_i32_102 : BitVec 32 := 0#32
  let v123 : BitVec 32 := Scalar.select v122 c512_i32_101 c0_i32_102
  let v124 : BitVec 32 := Scalar.addi c0_i32_103 v123
  let v198 : BitVec 32 := v124
  ![680, v198.toNat]
def k0_mult7 (d0 : Dev nD) : BitVec 32 :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_26 : BitVec 32 := 1#32
  let v38 : BitVec 1 := Scalar.cmpi .eq v34 c1_i32_26
  let c512_i32_27 : BitVec 32 := 512#32
  let c0_i32_28 : BitVec 32 := 0#32
  let v39 : BitVec 32 := Scalar.select v38 c512_i32_27 c0_i32_28
  let v40 : BitVec 32 := Scalar.addi c0_i32_29 v39
  v40
def k0_off7 (d0 : Dev nD) : Fin 2 → Nat :=
  let c0 : Index := 0#32
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_26 : BitVec 32 := 1#32
  let v38 : BitVec 1 := Scalar.cmpi .eq v34 c1_i32_26
  let c512_i32_27 : BitVec 32 := 512#32
  let c0_i32_28 : BitVec 32 := 0#32
  let v39 : BitVec 32 := Scalar.select v38 c512_i32_27 c0_i32_28
  let v40 : BitVec 32 := Scalar.addi c0_i32_29 v39
  let v219 : BitVec 32 := v40
  let v220 : Index := Scalar.indexCast v219
  ![0, v220.toNat]
def k0_mult8 (d0 : Dev nD) : BitVec 32 :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_26 : BitVec 32 := 1#32
  let v38 : BitVec 1 := Scalar.cmpi .eq v34 c1_i32_26
  let c512_i32_27 : BitVec 32 := 512#32
  let c0_i32_28 : BitVec 32 := 0#32
  let v39 : BitVec 32 := Scalar.select v38 c512_i32_27 c0_i32_28
  let v40 : BitVec 32 := Scalar.addi c0_i32_29 v39
  let c1_i32_34 : BitVec 32 := 1#32
  let v47 : BitVec 32 := Scalar.shrsi v7 c1_i32_34
  let c1_i32_35 : BitVec 32 := 1#32
  let v48 : BitVec 32 := Scalar.andi v47 c1_i32_35
  let c1_i32_36 : BitVec 32 := 1#32
  let v49 : BitVec 1 := Scalar.cmpi .eq v48 c1_i32_36
  let c0_i32_37 : BitVec 32 := 0#32
  let c256_i32 : BitVec 32 := 256#32
  let v50 : BitVec 32 := Scalar.select v49 c0_i32_37 c256_i32
  let v51 : BitVec 32 := Scalar.addi v40 v50
  v51
def k0_off8 (d0 : Dev nD) (c0_i32_37 : BitVec 32) (c256_i32 : BitVec 32) : Fin 2 → Nat :=
  let c0_i32_194 : BitVec 32 := 0#32
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_26 : BitVec 32 := 1#32
  let v38 : BitVec 1 := Scalar.cmpi .eq v34 c1_i32_26
  let c512_i32_27 : BitVec 32 := 512#32
  let c0_i32_28 : BitVec 32 := 0#32
  let v39 : BitVec 32 := Scalar.select v38 c512_i32_27 c0_i32_28
  let v40 : BitVec 32 := Scalar.addi c0_i32_29 v39
  let c1_i32_34 : BitVec 32 := 1#32
  let v47 : BitVec 32 := Scalar.shrsi v7 c1_i32_34
  let c1_i32_35 : BitVec 32 := 1#32
  let v48 : BitVec 32 := Scalar.andi v47 c1_i32_35
  let c1_i32_36 : BitVec 32 := 1#32
  let v49 : BitVec 1 := Scalar.cmpi .eq v48 c1_i32_36
  let v50 : BitVec 32 := Scalar.select v49 c0_i32_37 c256_i32
  let v51 : BitVec 32 := Scalar.addi v40 v50
  let v228 : BitVec 32 := v51
  ![0, v228.toNat]
def k0_off8_at (r : Fin 2) : BitVec 32 × BitVec 32 :=
  if r.val < 1 then
    (0#32, 256#32)
  else
    (256#32, 0#32)
def k0_dev7 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_41 : BitVec 32 := 2#32
  let v55 : BitVec 32 := Scalar.xori v7 c2_i32_41
  let c3_i32_42 : BitVec 32 := 3#32
  let v56 : BitVec 32 := Scalar.andi v55 c3_i32_42
  let c1_i32_43 : BitVec 32 := 1#32
  let v57 : BitVec 32 := Scalar.shrsi v56 c1_i32_43
  let v58 : BitVec 32 := Scalar.xori v56 v57
  let c4_i32_44 : BitVec 32 := 4#32
  let v59 : BitVec 32 := Scalar.andi v55 c4_i32_44
  let v60 : BitVec 32 := Scalar.ori v58 v59
  let c1_i32_192 : BitVec 32 := 1#32
  let v229 : BitVec 32 := Scalar.muli v60 c1_i32_192
  let v230 : BitVec 32 := Scalar.addi c0_i32_193 v229
  v230.toNat
def k0_mult9 (d0 : Dev nD) : BitVec 32 :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_62 : BitVec 32 := 1#32
  let v80 : BitVec 1 := Scalar.cmpi .eq v76 c1_i32_62
  let c512_i32_63 : BitVec 32 := 512#32
  let c0_i32_64 : BitVec 32 := 0#32
  let v81 : BitVec 32 := Scalar.select v80 c512_i32_63 c0_i32_64
  let v82 : BitVec 32 := Scalar.addi c0_i32_65 v81
  v82
def k0_off9 (d0 : Dev nD) : Fin 2 → Nat :=
  let c344 : Index := 344#32
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_62 : BitVec 32 := 1#32
  let v80 : BitVec 1 := Scalar.cmpi .eq v76 c1_i32_62
  let c512_i32_63 : BitVec 32 := 512#32
  let c0_i32_64 : BitVec 32 := 0#32
  let v81 : BitVec 32 := Scalar.select v80 c512_i32_63 c0_i32_64
  let v82 : BitVec 32 := Scalar.addi c0_i32_65 v81
  let v251 : BitVec 32 := v82
  let v252 : Index := Scalar.indexCast v251
  ![344, v252.toNat]
def k0_mult10 (d0 : Dev nD) : BitVec 32 :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_62 : BitVec 32 := 1#32
  let v80 : BitVec 1 := Scalar.cmpi .eq v76 c1_i32_62
  let c512_i32_63 : BitVec 32 := 512#32
  let c0_i32_64 : BitVec 32 := 0#32
  let v81 : BitVec 32 := Scalar.select v80 c512_i32_63 c0_i32_64
  let v82 : BitVec 32 := Scalar.addi c0_i32_65 v81
  let c2_i32_70 : BitVec 32 := 2#32
  let v89 : BitVec 32 := Scalar.shrsi v7 c2_i32_70
  let c1_i32_71 : BitVec 32 := 1#32
  let v90 : BitVec 32 := Scalar.andi v89 c1_i32_71
  let c1_i32_72 : BitVec 32 := 1#32
  let v91 : BitVec 1 := Scalar.cmpi .eq v90 c1_i32_72
  let c0_i32_73 : BitVec 32 := 0#32
  let c256_i32_74 : BitVec 32 := 256#32
  let v92 : BitVec 32 := Scalar.select v91 c0_i32_73 c256_i32_74
  let v93 : BitVec 32 := Scalar.addi v82 v92
  v93
def k0_off10 (d0 : Dev nD) (c0_i32_73 : BitVec 32) (c256_i32_74 : BitVec 32) : Fin 2 → Nat :=
  let c344_i32_223 : BitVec 32 := 344#32
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_62 : BitVec 32 := 1#32
  let v80 : BitVec 1 := Scalar.cmpi .eq v76 c1_i32_62
  let c512_i32_63 : BitVec 32 := 512#32
  let c0_i32_64 : BitVec 32 := 0#32
  let v81 : BitVec 32 := Scalar.select v80 c512_i32_63 c0_i32_64
  let v82 : BitVec 32 := Scalar.addi c0_i32_65 v81
  let c2_i32_70 : BitVec 32 := 2#32
  let v89 : BitVec 32 := Scalar.shrsi v7 c2_i32_70
  let c1_i32_71 : BitVec 32 := 1#32
  let v90 : BitVec 32 := Scalar.andi v89 c1_i32_71
  let c1_i32_72 : BitVec 32 := 1#32
  let v91 : BitVec 1 := Scalar.cmpi .eq v90 c1_i32_72
  let v92 : BitVec 32 := Scalar.select v91 c0_i32_73 c256_i32_74
  let v93 : BitVec 32 := Scalar.addi v82 v92
  let v260 : BitVec 32 := v93
  ![344, v260.toNat]
def k0_off10_at (r : Fin 2) : BitVec 32 × BitVec 32 :=
  if r.val < 1 then
    (0#32, 256#32)
  else
    (256#32, 0#32)
def k0_dev8 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c4_i32_78 : BitVec 32 := 4#32
  let v97 : BitVec 32 := Scalar.xori v7 c4_i32_78
  let c3_i32_79 : BitVec 32 := 3#32
  let v98 : BitVec 32 := Scalar.andi v97 c3_i32_79
  let c1_i32_80 : BitVec 32 := 1#32
  let v99 : BitVec 32 := Scalar.shrsi v98 c1_i32_80
  let v100 : BitVec 32 := Scalar.xori v98 v99
  let c4_i32_81 : BitVec 32 := 4#32
  let v101 : BitVec 32 := Scalar.andi v97 c4_i32_81
  let v102 : BitVec 32 := Scalar.ori v100 v101
  let c1_i32_221 : BitVec 32 := 1#32
  let v261 : BitVec 32 := Scalar.muli v102 c1_i32_221
  let v262 : BitVec 32 := Scalar.addi c0_i32_222 v261
  v262.toNat
def k0_mult11 (d0 : Dev nD) : BitVec 32 :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_100 : BitVec 32 := 1#32
  let v122 : BitVec 1 := Scalar.cmpi .eq v118 c1_i32_100
  let c512_i32_101 : BitVec 32 := 512#32
  let c0_i32_102 : BitVec 32 := 0#32
  let v123 : BitVec 32 := Scalar.select v122 c512_i32_101 c0_i32_102
  let v124 : BitVec 32 := Scalar.addi c0_i32_103 v123
  v124
def k0_off11 (d0 : Dev nD) : Fin 2 → Nat :=
  let c680 : Index := 680#32
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_100 : BitVec 32 := 1#32
  let v122 : BitVec 1 := Scalar.cmpi .eq v118 c1_i32_100
  let c512_i32_101 : BitVec 32 := 512#32
  let c0_i32_102 : BitVec 32 := 0#32
  let v123 : BitVec 32 := Scalar.select v122 c512_i32_101 c0_i32_102
  let v124 : BitVec 32 := Scalar.addi c0_i32_103 v123
  let v283 : BitVec 32 := v124
  let v284 : Index := Scalar.indexCast v283
  ![680, v284.toNat]
def k0_mult12 (d0 : Dev nD) : BitVec 32 :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_100 : BitVec 32 := 1#32
  let v122 : BitVec 1 := Scalar.cmpi .eq v118 c1_i32_100
  let c512_i32_101 : BitVec 32 := 512#32
  let c0_i32_102 : BitVec 32 := 0#32
  let v123 : BitVec 32 := Scalar.select v122 c512_i32_101 c0_i32_102
  let v124 : BitVec 32 := Scalar.addi c0_i32_103 v123
  let c0_i32_108 : BitVec 32 := 0#32
  let v131 : BitVec 32 := Scalar.shrsi v7 c0_i32_108
  let c1_i32_109 : BitVec 32 := 1#32
  let v132 : BitVec 32 := Scalar.andi v131 c1_i32_109
  let c1_i32_110 : BitVec 32 := 1#32
  let v133 : BitVec 1 := Scalar.cmpi .eq v132 c1_i32_110
  let c0_i32_111 : BitVec 32 := 0#32
  let c256_i32_112 : BitVec 32 := 256#32
  let v134 : BitVec 32 := Scalar.select v133 c0_i32_111 c256_i32_112
  let v135 : BitVec 32 := Scalar.addi v124 v134
  v135
def k0_off12 (d0 : Dev nD) (c0_i32_111 : BitVec 32) (c256_i32_112 : BitVec 32) : Fin 2 → Nat :=
  let c680_i32_252 : BitVec 32 := 680#32
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_100 : BitVec 32 := 1#32
  let v122 : BitVec 1 := Scalar.cmpi .eq v118 c1_i32_100
  let c512_i32_101 : BitVec 32 := 512#32
  let c0_i32_102 : BitVec 32 := 0#32
  let v123 : BitVec 32 := Scalar.select v122 c512_i32_101 c0_i32_102
  let v124 : BitVec 32 := Scalar.addi c0_i32_103 v123
  let c0_i32_108 : BitVec 32 := 0#32
  let v131 : BitVec 32 := Scalar.shrsi v7 c0_i32_108
  let c1_i32_109 : BitVec 32 := 1#32
  let v132 : BitVec 32 := Scalar.andi v131 c1_i32_109
  let c1_i32_110 : BitVec 32 := 1#32
  let v133 : BitVec 1 := Scalar.cmpi .eq v132 c1_i32_110
  let v134 : BitVec 32 := Scalar.select v133 c0_i32_111 c256_i32_112
  let v135 : BitVec 32 := Scalar.addi v124 v134
  let v292 : BitVec 32 := v135
  ![680, v292.toNat]
def k0_off12_at (r : Fin 2) : BitVec 32 × BitVec 32 :=
  if r.val < 1 then
    (0#32, 256#32)
  else
    (256#32, 0#32)
def k0_dev9 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_116 : BitVec 32 := 1#32
  let v139 : BitVec 32 := Scalar.xori v7 c1_i32_116
  let c3_i32_117 : BitVec 32 := 3#32
  let v140 : BitVec 32 := Scalar.andi v139 c3_i32_117
  let c1_i32_118 : BitVec 32 := 1#32
  let v141 : BitVec 32 := Scalar.shrsi v140 c1_i32_118
  let v142 : BitVec 32 := Scalar.xori v140 v141
  let c4_i32_119 : BitVec 32 := 4#32
  let v143 : BitVec 32 := Scalar.andi v139 c4_i32_119
  let v144 : BitVec 32 := Scalar.ori v142 v143
  let c1_i32_250 : BitVec 32 := 1#32
  let v293 : BitVec 32 := Scalar.muli v144 c1_i32_250
  let v294 : BitVec 32 := Scalar.addi c0_i32_251 v293
  v294.toNat
def k0_mult13 (d0 : Dev nD) : BitVec 32 :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_26 : BitVec 32 := 1#32
  let v38 : BitVec 1 := Scalar.cmpi .eq v34 c1_i32_26
  let c512_i32_27 : BitVec 32 := 512#32
  let c0_i32_28 : BitVec 32 := 0#32
  let v39 : BitVec 32 := Scalar.select v38 c512_i32_27 c0_i32_28
  let v40 : BitVec 32 := Scalar.addi c0_i32_29 v39
  let c1_i32_34 : BitVec 32 := 1#32
  let v47 : BitVec 32 := Scalar.shrsi v7 c1_i32_34
  let c1_i32_35 : BitVec 32 := 1#32
  let v48 : BitVec 32 := Scalar.andi v47 c1_i32_35
  let c1_i32_38 : BitVec 32 := 1#32
  let v52 : BitVec 1 := Scalar.cmpi .eq v48 c1_i32_38
  let c256_i32_39 : BitVec 32 := 256#32
  let c0_i32_40 : BitVec 32 := 0#32
  let v53 : BitVec 32 := Scalar.select v52 c256_i32_39 c0_i32_40
  let v54 : BitVec 32 := Scalar.addi v40 v53
  v54
def k0_off13 (d0 : Dev nD) : Fin 2 → Nat :=
  let c0_266 : Index := 0#32
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_26 : BitVec 32 := 1#32
  let v38 : BitVec 1 := Scalar.cmpi .eq v34 c1_i32_26
  let c512_i32_27 : BitVec 32 := 512#32
  let c0_i32_28 : BitVec 32 := 0#32
  let v39 : BitVec 32 := Scalar.select v38 c512_i32_27 c0_i32_28
  let v40 : BitVec 32 := Scalar.addi c0_i32_29 v39
  let c1_i32_34 : BitVec 32 := 1#32
  let v47 : BitVec 32 := Scalar.shrsi v7 c1_i32_34
  let c1_i32_35 : BitVec 32 := 1#32
  let v48 : BitVec 32 := Scalar.andi v47 c1_i32_35
  let c1_i32_38 : BitVec 32 := 1#32
  let v52 : BitVec 1 := Scalar.cmpi .eq v48 c1_i32_38
  let c256_i32_39 : BitVec 32 := 256#32
  let c0_i32_40 : BitVec 32 := 0#32
  let v53 : BitVec 32 := Scalar.select v52 c256_i32_39 c0_i32_40
  let v54 : BitVec 32 := Scalar.addi v40 v53
  let v308 : BitVec 32 := v54
  let v309 : Index := Scalar.indexCast v308
  ![0, v309.toNat]
def k0_mult14 (d0 : Dev nD) : BitVec 32 :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_26 : BitVec 32 := 1#32
  let v38 : BitVec 1 := Scalar.cmpi .eq v34 c1_i32_26
  let c512_i32_27 : BitVec 32 := 512#32
  let c0_i32_28 : BitVec 32 := 0#32
  let v39 : BitVec 32 := Scalar.select v38 c512_i32_27 c0_i32_28
  let v40 : BitVec 32 := Scalar.addi c0_i32_29 v39
  let c1_i32_34 : BitVec 32 := 1#32
  let v47 : BitVec 32 := Scalar.shrsi v7 c1_i32_34
  let c1_i32_35 : BitVec 32 := 1#32
  let v48 : BitVec 32 := Scalar.andi v47 c1_i32_35
  let c1_i32_38 : BitVec 32 := 1#32
  let v52 : BitVec 1 := Scalar.cmpi .eq v48 c1_i32_38
  let c256_i32_39 : BitVec 32 := 256#32
  let c0_i32_40 : BitVec 32 := 0#32
  let v53 : BitVec 32 := Scalar.select v52 c256_i32_39 c0_i32_40
  let v54 : BitVec 32 := Scalar.addi v40 v53
  let c2_i32_45 : BitVec 32 := 2#32
  let v61 : BitVec 32 := Scalar.shrsi v7 c2_i32_45
  let c1_i32_46 : BitVec 32 := 1#32
  let v62 : BitVec 32 := Scalar.andi v61 c1_i32_46
  let c1_i32_47 : BitVec 32 := 1#32
  let v63 : BitVec 1 := Scalar.cmpi .eq v62 c1_i32_47
  let c0_i32_48 : BitVec 32 := 0#32
  let c128_i32 : BitVec 32 := 128#32
  let v64 : BitVec 32 := Scalar.select v63 c0_i32_48 c128_i32
  let v65 : BitVec 32 := Scalar.addi v54 v64
  v65
def k0_off14 (d0 : Dev nD) (c0_i32_48 : BitVec 32) (c128_i32 : BitVec 32) : Fin 2 → Nat :=
  let c0_i32_276 : BitVec 32 := 0#32
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_26 : BitVec 32 := 1#32
  let v38 : BitVec 1 := Scalar.cmpi .eq v34 c1_i32_26
  let c512_i32_27 : BitVec 32 := 512#32
  let c0_i32_28 : BitVec 32 := 0#32
  let v39 : BitVec 32 := Scalar.select v38 c512_i32_27 c0_i32_28
  let v40 : BitVec 32 := Scalar.addi c0_i32_29 v39
  let c1_i32_34 : BitVec 32 := 1#32
  let v47 : BitVec 32 := Scalar.shrsi v7 c1_i32_34
  let c1_i32_35 : BitVec 32 := 1#32
  let v48 : BitVec 32 := Scalar.andi v47 c1_i32_35
  let c1_i32_38 : BitVec 32 := 1#32
  let v52 : BitVec 1 := Scalar.cmpi .eq v48 c1_i32_38
  let c256_i32_39 : BitVec 32 := 256#32
  let c0_i32_40 : BitVec 32 := 0#32
  let v53 : BitVec 32 := Scalar.select v52 c256_i32_39 c0_i32_40
  let v54 : BitVec 32 := Scalar.addi v40 v53
  let c2_i32_45 : BitVec 32 := 2#32
  let v61 : BitVec 32 := Scalar.shrsi v7 c2_i32_45
  let c1_i32_46 : BitVec 32 := 1#32
  let v62 : BitVec 32 := Scalar.andi v61 c1_i32_46
  let c1_i32_47 : BitVec 32 := 1#32
  let v63 : BitVec 1 := Scalar.cmpi .eq v62 c1_i32_47
  let v64 : BitVec 32 := Scalar.select v63 c0_i32_48 c128_i32
  let v65 : BitVec 32 := Scalar.addi v54 v64
  let v317 : BitVec 32 := v65
  ![0, v317.toNat]
def k0_off14_at (r : Fin 2) : BitVec 32 × BitVec 32 :=
  if r.val < 1 then
    (0#32, 128#32)
  else
    (128#32, 0#32)
def k0_dev10 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c4_i32_52 : BitVec 32 := 4#32
  let v69 : BitVec 32 := Scalar.xori v7 c4_i32_52
  let c3_i32_53 : BitVec 32 := 3#32
  let v70 : BitVec 32 := Scalar.andi v69 c3_i32_53
  let c1_i32_54 : BitVec 32 := 1#32
  let v71 : BitVec 32 := Scalar.shrsi v70 c1_i32_54
  let v72 : BitVec 32 := Scalar.xori v70 v71
  let c4_i32_55 : BitVec 32 := 4#32
  let v73 : BitVec 32 := Scalar.andi v69 c4_i32_55
  let v74 : BitVec 32 := Scalar.ori v72 v73
  let c1_i32_274 : BitVec 32 := 1#32
  let v318 : BitVec 32 := Scalar.muli v74 c1_i32_274
  let v319 : BitVec 32 := Scalar.addi c0_i32_275 v318
  v319.toNat
def k0_mult15 (d0 : Dev nD) : BitVec 32 :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_62 : BitVec 32 := 1#32
  let v80 : BitVec 1 := Scalar.cmpi .eq v76 c1_i32_62
  let c512_i32_63 : BitVec 32 := 512#32
  let c0_i32_64 : BitVec 32 := 0#32
  let v81 : BitVec 32 := Scalar.select v80 c512_i32_63 c0_i32_64
  let v82 : BitVec 32 := Scalar.addi c0_i32_65 v81
  let c2_i32_70 : BitVec 32 := 2#32
  let v89 : BitVec 32 := Scalar.shrsi v7 c2_i32_70
  let c1_i32_71 : BitVec 32 := 1#32
  let v90 : BitVec 32 := Scalar.andi v89 c1_i32_71
  let c1_i32_75 : BitVec 32 := 1#32
  let v94 : BitVec 1 := Scalar.cmpi .eq v90 c1_i32_75
  let c256_i32_76 : BitVec 32 := 256#32
  let c0_i32_77 : BitVec 32 := 0#32
  let v95 : BitVec 32 := Scalar.select v94 c256_i32_76 c0_i32_77
  let v96 : BitVec 32 := Scalar.addi v82 v95
  v96
def k0_off15 (d0 : Dev nD) : Fin 2 → Nat :=
  let c344_290 : Index := 344#32
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_62 : BitVec 32 := 1#32
  let v80 : BitVec 1 := Scalar.cmpi .eq v76 c1_i32_62
  let c512_i32_63 : BitVec 32 := 512#32
  let c0_i32_64 : BitVec 32 := 0#32
  let v81 : BitVec 32 := Scalar.select v80 c512_i32_63 c0_i32_64
  let v82 : BitVec 32 := Scalar.addi c0_i32_65 v81
  let c2_i32_70 : BitVec 32 := 2#32
  let v89 : BitVec 32 := Scalar.shrsi v7 c2_i32_70
  let c1_i32_71 : BitVec 32 := 1#32
  let v90 : BitVec 32 := Scalar.andi v89 c1_i32_71
  let c1_i32_75 : BitVec 32 := 1#32
  let v94 : BitVec 1 := Scalar.cmpi .eq v90 c1_i32_75
  let c256_i32_76 : BitVec 32 := 256#32
  let c0_i32_77 : BitVec 32 := 0#32
  let v95 : BitVec 32 := Scalar.select v94 c256_i32_76 c0_i32_77
  let v96 : BitVec 32 := Scalar.addi v82 v95
  let v333 : BitVec 32 := v96
  let v334 : Index := Scalar.indexCast v333
  ![344, v334.toNat]
def k0_mult16 (d0 : Dev nD) : BitVec 32 :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_62 : BitVec 32 := 1#32
  let v80 : BitVec 1 := Scalar.cmpi .eq v76 c1_i32_62
  let c512_i32_63 : BitVec 32 := 512#32
  let c0_i32_64 : BitVec 32 := 0#32
  let v81 : BitVec 32 := Scalar.select v80 c512_i32_63 c0_i32_64
  let v82 : BitVec 32 := Scalar.addi c0_i32_65 v81
  let c2_i32_70 : BitVec 32 := 2#32
  let v89 : BitVec 32 := Scalar.shrsi v7 c2_i32_70
  let c1_i32_71 : BitVec 32 := 1#32
  let v90 : BitVec 32 := Scalar.andi v89 c1_i32_71
  let c1_i32_75 : BitVec 32 := 1#32
  let v94 : BitVec 1 := Scalar.cmpi .eq v90 c1_i32_75
  let c256_i32_76 : BitVec 32 := 256#32
  let c0_i32_77 : BitVec 32 := 0#32
  let v95 : BitVec 32 := Scalar.select v94 c256_i32_76 c0_i32_77
  let v96 : BitVec 32 := Scalar.addi v82 v95
  let c0_i32_82 : BitVec 32 := 0#32
  let v103 : BitVec 32 := Scalar.shrsi v7 c0_i32_82
  let c1_i32_83 : BitVec 32 := 1#32
  let v104 : BitVec 32 := Scalar.andi v103 c1_i32_83
  let c1_i32_84 : BitVec 32 := 1#32
  let v105 : BitVec 1 := Scalar.cmpi .eq v104 c1_i32_84
  let c0_i32_85 : BitVec 32 := 0#32
  let c128_i32_86 : BitVec 32 := 128#32
  let v106 : BitVec 32 := Scalar.select v105 c0_i32_85 c128_i32_86
  let v107 : BitVec 32 := Scalar.addi v96 v106
  v107
def k0_off16 (d0 : Dev nD) (c0_i32_85 : BitVec 32) (c128_i32_86 : BitVec 32) : Fin 2 → Nat :=
  let c344_i32_300 : BitVec 32 := 344#32
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_62 : BitVec 32 := 1#32
  let v80 : BitVec 1 := Scalar.cmpi .eq v76 c1_i32_62
  let c512_i32_63 : BitVec 32 := 512#32
  let c0_i32_64 : BitVec 32 := 0#32
  let v81 : BitVec 32 := Scalar.select v80 c512_i32_63 c0_i32_64
  let v82 : BitVec 32 := Scalar.addi c0_i32_65 v81
  let c2_i32_70 : BitVec 32 := 2#32
  let v89 : BitVec 32 := Scalar.shrsi v7 c2_i32_70
  let c1_i32_71 : BitVec 32 := 1#32
  let v90 : BitVec 32 := Scalar.andi v89 c1_i32_71
  let c1_i32_75 : BitVec 32 := 1#32
  let v94 : BitVec 1 := Scalar.cmpi .eq v90 c1_i32_75
  let c256_i32_76 : BitVec 32 := 256#32
  let c0_i32_77 : BitVec 32 := 0#32
  let v95 : BitVec 32 := Scalar.select v94 c256_i32_76 c0_i32_77
  let v96 : BitVec 32 := Scalar.addi v82 v95
  let c0_i32_82 : BitVec 32 := 0#32
  let v103 : BitVec 32 := Scalar.shrsi v7 c0_i32_82
  let c1_i32_83 : BitVec 32 := 1#32
  let v104 : BitVec 32 := Scalar.andi v103 c1_i32_83
  let c1_i32_84 : BitVec 32 := 1#32
  let v105 : BitVec 1 := Scalar.cmpi .eq v104 c1_i32_84
  let v106 : BitVec 32 := Scalar.select v105 c0_i32_85 c128_i32_86
  let v107 : BitVec 32 := Scalar.addi v96 v106
  let v342 : BitVec 32 := v107
  ![344, v342.toNat]
def k0_off16_at (r : Fin 2) : BitVec 32 × BitVec 32 :=
  if r.val < 1 then
    (0#32, 128#32)
  else
    (128#32, 0#32)
def k0_dev11 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_90 : BitVec 32 := 1#32
  let v111 : BitVec 32 := Scalar.xori v7 c1_i32_90
  let c3_i32_91 : BitVec 32 := 3#32
  let v112 : BitVec 32 := Scalar.andi v111 c3_i32_91
  let c1_i32_92 : BitVec 32 := 1#32
  let v113 : BitVec 32 := Scalar.shrsi v112 c1_i32_92
  let v114 : BitVec 32 := Scalar.xori v112 v113
  let c4_i32_93 : BitVec 32 := 4#32
  let v115 : BitVec 32 := Scalar.andi v111 c4_i32_93
  let v116 : BitVec 32 := Scalar.ori v114 v115
  let c1_i32_298 : BitVec 32 := 1#32
  let v343 : BitVec 32 := Scalar.muli v116 c1_i32_298
  let v344 : BitVec 32 := Scalar.addi c0_i32_299 v343
  v344.toNat
def k0_mult17 (d0 : Dev nD) : BitVec 32 :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_100 : BitVec 32 := 1#32
  let v122 : BitVec 1 := Scalar.cmpi .eq v118 c1_i32_100
  let c512_i32_101 : BitVec 32 := 512#32
  let c0_i32_102 : BitVec 32 := 0#32
  let v123 : BitVec 32 := Scalar.select v122 c512_i32_101 c0_i32_102
  let v124 : BitVec 32 := Scalar.addi c0_i32_103 v123
  let c0_i32_108 : BitVec 32 := 0#32
  let v131 : BitVec 32 := Scalar.shrsi v7 c0_i32_108
  let c1_i32_109 : BitVec 32 := 1#32
  let v132 : BitVec 32 := Scalar.andi v131 c1_i32_109
  let c1_i32_113 : BitVec 32 := 1#32
  let v136 : BitVec 1 := Scalar.cmpi .eq v132 c1_i32_113
  let c256_i32_114 : BitVec 32 := 256#32
  let c0_i32_115 : BitVec 32 := 0#32
  let v137 : BitVec 32 := Scalar.select v136 c256_i32_114 c0_i32_115
  let v138 : BitVec 32 := Scalar.addi v124 v137
  v138
def k0_off17 (d0 : Dev nD) : Fin 2 → Nat :=
  let c680_314 : Index := 680#32
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_100 : BitVec 32 := 1#32
  let v122 : BitVec 1 := Scalar.cmpi .eq v118 c1_i32_100
  let c512_i32_101 : BitVec 32 := 512#32
  let c0_i32_102 : BitVec 32 := 0#32
  let v123 : BitVec 32 := Scalar.select v122 c512_i32_101 c0_i32_102
  let v124 : BitVec 32 := Scalar.addi c0_i32_103 v123
  let c0_i32_108 : BitVec 32 := 0#32
  let v131 : BitVec 32 := Scalar.shrsi v7 c0_i32_108
  let c1_i32_109 : BitVec 32 := 1#32
  let v132 : BitVec 32 := Scalar.andi v131 c1_i32_109
  let c1_i32_113 : BitVec 32 := 1#32
  let v136 : BitVec 1 := Scalar.cmpi .eq v132 c1_i32_113
  let c256_i32_114 : BitVec 32 := 256#32
  let c0_i32_115 : BitVec 32 := 0#32
  let v137 : BitVec 32 := Scalar.select v136 c256_i32_114 c0_i32_115
  let v138 : BitVec 32 := Scalar.addi v124 v137
  let v358 : BitVec 32 := v138
  let v359 : Index := Scalar.indexCast v358
  ![680, v359.toNat]
def k0_mult18 (d0 : Dev nD) : BitVec 32 :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_100 : BitVec 32 := 1#32
  let v122 : BitVec 1 := Scalar.cmpi .eq v118 c1_i32_100
  let c512_i32_101 : BitVec 32 := 512#32
  let c0_i32_102 : BitVec 32 := 0#32
  let v123 : BitVec 32 := Scalar.select v122 c512_i32_101 c0_i32_102
  let v124 : BitVec 32 := Scalar.addi c0_i32_103 v123
  let c0_i32_108 : BitVec 32 := 0#32
  let v131 : BitVec 32 := Scalar.shrsi v7 c0_i32_108
  let c1_i32_109 : BitVec 32 := 1#32
  let v132 : BitVec 32 := Scalar.andi v131 c1_i32_109
  let c1_i32_113 : BitVec 32 := 1#32
  let v136 : BitVec 1 := Scalar.cmpi .eq v132 c1_i32_113
  let c256_i32_114 : BitVec 32 := 256#32
  let c0_i32_115 : BitVec 32 := 0#32
  let v137 : BitVec 32 := Scalar.select v136 c256_i32_114 c0_i32_115
  let v138 : BitVec 32 := Scalar.addi v124 v137
  let c1_i32_120 : BitVec 32 := 1#32
  let v145 : BitVec 32 := Scalar.shrsi v7 c1_i32_120
  let c1_i32_121 : BitVec 32 := 1#32
  let v146 : BitVec 32 := Scalar.andi v145 c1_i32_121
  let c1_i32_122 : BitVec 32 := 1#32
  let v147 : BitVec 1 := Scalar.cmpi .eq v146 c1_i32_122
  let c0_i32_123 : BitVec 32 := 0#32
  let c128_i32_124 : BitVec 32 := 128#32
  let v148 : BitVec 32 := Scalar.select v147 c0_i32_123 c128_i32_124
  let v149 : BitVec 32 := Scalar.addi v138 v148
  v149
def k0_off18 (d0 : Dev nD) (c0_i32_123 : BitVec 32) (c128_i32_124 : BitVec 32) : Fin 2 → Nat :=
  let c680_i32_324 : BitVec 32 := 680#32
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_100 : BitVec 32 := 1#32
  let v122 : BitVec 1 := Scalar.cmpi .eq v118 c1_i32_100
  let c512_i32_101 : BitVec 32 := 512#32
  let c0_i32_102 : BitVec 32 := 0#32
  let v123 : BitVec 32 := Scalar.select v122 c512_i32_101 c0_i32_102
  let v124 : BitVec 32 := Scalar.addi c0_i32_103 v123
  let c0_i32_108 : BitVec 32 := 0#32
  let v131 : BitVec 32 := Scalar.shrsi v7 c0_i32_108
  let c1_i32_109 : BitVec 32 := 1#32
  let v132 : BitVec 32 := Scalar.andi v131 c1_i32_109
  let c1_i32_113 : BitVec 32 := 1#32
  let v136 : BitVec 1 := Scalar.cmpi .eq v132 c1_i32_113
  let c256_i32_114 : BitVec 32 := 256#32
  let c0_i32_115 : BitVec 32 := 0#32
  let v137 : BitVec 32 := Scalar.select v136 c256_i32_114 c0_i32_115
  let v138 : BitVec 32 := Scalar.addi v124 v137
  let c1_i32_120 : BitVec 32 := 1#32
  let v145 : BitVec 32 := Scalar.shrsi v7 c1_i32_120
  let c1_i32_121 : BitVec 32 := 1#32
  let v146 : BitVec 32 := Scalar.andi v145 c1_i32_121
  let c1_i32_122 : BitVec 32 := 1#32
  let v147 : BitVec 1 := Scalar.cmpi .eq v146 c1_i32_122
  let v148 : BitVec 32 := Scalar.select v147 c0_i32_123 c128_i32_124
  let v149 : BitVec 32 := Scalar.addi v138 v148
  let v367 : BitVec 32 := v149
  ![680, v367.toNat]
def k0_off18_at (r : Fin 2) : BitVec 32 × BitVec 32 :=
  if r.val < 1 then
    (0#32, 128#32)
  else
    (128#32, 0#32)
def k0_dev12 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_128 : BitVec 32 := 2#32
  let v153 : BitVec 32 := Scalar.xori v7 c2_i32_128
  let c3_i32_129 : BitVec 32 := 3#32
  let v154 : BitVec 32 := Scalar.andi v153 c3_i32_129
  let c1_i32_130 : BitVec 32 := 1#32
  let v155 : BitVec 32 := Scalar.shrsi v154 c1_i32_130
  let v156 : BitVec 32 := Scalar.xori v154 v155
  let c4_i32_131 : BitVec 32 := 4#32
  let v157 : BitVec 32 := Scalar.andi v153 c4_i32_131
  let v158 : BitVec 32 := Scalar.ori v156 v157
  let c1_i32_322 : BitVec 32 := 1#32
  let v368 : BitVec 32 := Scalar.muli v158 c1_i32_322
  let v369 : BitVec 32 := Scalar.addi c0_i32_323 v368
  v369.toNat
def k0_mult19 (d0 : Dev nD) : BitVec 32 :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_26 : BitVec 32 := 1#32
  let v38 : BitVec 1 := Scalar.cmpi .eq v34 c1_i32_26
  let c512_i32_27 : BitVec 32 := 512#32
  let c0_i32_28 : BitVec 32 := 0#32
  let v39 : BitVec 32 := Scalar.select v38 c512_i32_27 c0_i32_28
  let v40 : BitVec 32 := Scalar.addi c0_i32_29 v39
  let c1_i32_34 : BitVec 32 := 1#32
  let v47 : BitVec 32 := Scalar.shrsi v7 c1_i32_34
  let c1_i32_35 : BitVec 32 := 1#32
  let v48 : BitVec 32 := Scalar.andi v47 c1_i32_35
  let c1_i32_38 : BitVec 32 := 1#32
  let v52 : BitVec 1 := Scalar.cmpi .eq v48 c1_i32_38
  let c256_i32_39 : BitVec 32 := 256#32
  let c0_i32_40 : BitVec 32 := 0#32
  let v53 : BitVec 32 := Scalar.select v52 c256_i32_39 c0_i32_40
  let v54 : BitVec 32 := Scalar.addi v40 v53
  let c2_i32_45 : BitVec 32 := 2#32
  let v61 : BitVec 32 := Scalar.shrsi v7 c2_i32_45
  let c1_i32_46 : BitVec 32 := 1#32
  let v62 : BitVec 32 := Scalar.andi v61 c1_i32_46
  let c1_i32_49 : BitVec 32 := 1#32
  let v66 : BitVec 1 := Scalar.cmpi .eq v62 c1_i32_49
  let c128_i32_50 : BitVec 32 := 128#32
  let c0_i32_51 : BitVec 32 := 0#32
  let v67 : BitVec 32 := Scalar.select v66 c128_i32_50 c0_i32_51
  let v68 : BitVec 32 := Scalar.addi v54 v67
  v68
def k0_off19 (d0 : Dev nD) : Fin 2 → Nat :=
  let c0_338 : Index := 0#32
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_26 : BitVec 32 := 1#32
  let v38 : BitVec 1 := Scalar.cmpi .eq v34 c1_i32_26
  let c512_i32_27 : BitVec 32 := 512#32
  let c0_i32_28 : BitVec 32 := 0#32
  let v39 : BitVec 32 := Scalar.select v38 c512_i32_27 c0_i32_28
  let v40 : BitVec 32 := Scalar.addi c0_i32_29 v39
  let c1_i32_34 : BitVec 32 := 1#32
  let v47 : BitVec 32 := Scalar.shrsi v7 c1_i32_34
  let c1_i32_35 : BitVec 32 := 1#32
  let v48 : BitVec 32 := Scalar.andi v47 c1_i32_35
  let c1_i32_38 : BitVec 32 := 1#32
  let v52 : BitVec 1 := Scalar.cmpi .eq v48 c1_i32_38
  let c256_i32_39 : BitVec 32 := 256#32
  let c0_i32_40 : BitVec 32 := 0#32
  let v53 : BitVec 32 := Scalar.select v52 c256_i32_39 c0_i32_40
  let v54 : BitVec 32 := Scalar.addi v40 v53
  let c2_i32_45 : BitVec 32 := 2#32
  let v61 : BitVec 32 := Scalar.shrsi v7 c2_i32_45
  let c1_i32_46 : BitVec 32 := 1#32
  let v62 : BitVec 32 := Scalar.andi v61 c1_i32_46
  let c1_i32_49 : BitVec 32 := 1#32
  let v66 : BitVec 1 := Scalar.cmpi .eq v62 c1_i32_49
  let c128_i32_50 : BitVec 32 := 128#32
  let c0_i32_51 : BitVec 32 := 0#32
  let v67 : BitVec 32 := Scalar.select v66 c128_i32_50 c0_i32_51
  let v68 : BitVec 32 := Scalar.addi v54 v67
  let v383 : BitVec 32 := v68
  let v384 : Index := Scalar.indexCast v383
  ![0, v384.toNat]
def k0_mult20 (d0 : Dev nD) : BitVec 32 :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_26 : BitVec 32 := 1#32
  let v38 : BitVec 1 := Scalar.cmpi .eq v34 c1_i32_26
  let c512_i32_27 : BitVec 32 := 512#32
  let c0_i32_28 : BitVec 32 := 0#32
  let v39 : BitVec 32 := Scalar.select v38 c512_i32_27 c0_i32_28
  let v40 : BitVec 32 := Scalar.addi c0_i32_29 v39
  let c1_i32_34 : BitVec 32 := 1#32
  let v47 : BitVec 32 := Scalar.shrsi v7 c1_i32_34
  let c1_i32_35 : BitVec 32 := 1#32
  let v48 : BitVec 32 := Scalar.andi v47 c1_i32_35
  let c1_i32_38 : BitVec 32 := 1#32
  let v52 : BitVec 1 := Scalar.cmpi .eq v48 c1_i32_38
  let c256_i32_39 : BitVec 32 := 256#32
  let c0_i32_40 : BitVec 32 := 0#32
  let v53 : BitVec 32 := Scalar.select v52 c256_i32_39 c0_i32_40
  let v54 : BitVec 32 := Scalar.addi v40 v53
  let c2_i32_45 : BitVec 32 := 2#32
  let v61 : BitVec 32 := Scalar.shrsi v7 c2_i32_45
  let c1_i32_46 : BitVec 32 := 1#32
  let v62 : BitVec 32 := Scalar.andi v61 c1_i32_46
  let c1_i32_49 : BitVec 32 := 1#32
  let v66 : BitVec 1 := Scalar.cmpi .eq v62 c1_i32_49
  let c128_i32_50 : BitVec 32 := 128#32
  let c0_i32_51 : BitVec 32 := 0#32
  let v67 : BitVec 32 := Scalar.select v66 c128_i32_50 c0_i32_51
  let v68 : BitVec 32 := Scalar.addi v54 v67
  v68
def k0_dev13 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c4_i32_52 : BitVec 32 := 4#32
  let v69 : BitVec 32 := Scalar.xori v7 c4_i32_52
  let c3_i32_53 : BitVec 32 := 3#32
  let v70 : BitVec 32 := Scalar.andi v69 c3_i32_53
  let c1_i32_54 : BitVec 32 := 1#32
  let v71 : BitVec 32 := Scalar.shrsi v70 c1_i32_54
  let v72 : BitVec 32 := Scalar.xori v70 v71
  let c4_i32_55 : BitVec 32 := 4#32
  let v73 : BitVec 32 := Scalar.andi v69 c4_i32_55
  let v74 : BitVec 32 := Scalar.ori v72 v73
  let c1_i32_346 : BitVec 32 := 1#32
  let v393 : BitVec 32 := Scalar.muli v74 c1_i32_346
  let v394 : BitVec 32 := Scalar.addi c0_i32_347 v393
  v394.toNat
def k0_mult21 (d0 : Dev nD) : BitVec 32 :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_62 : BitVec 32 := 1#32
  let v80 : BitVec 1 := Scalar.cmpi .eq v76 c1_i32_62
  let c512_i32_63 : BitVec 32 := 512#32
  let c0_i32_64 : BitVec 32 := 0#32
  let v81 : BitVec 32 := Scalar.select v80 c512_i32_63 c0_i32_64
  let v82 : BitVec 32 := Scalar.addi c0_i32_65 v81
  let c2_i32_70 : BitVec 32 := 2#32
  let v89 : BitVec 32 := Scalar.shrsi v7 c2_i32_70
  let c1_i32_71 : BitVec 32 := 1#32
  let v90 : BitVec 32 := Scalar.andi v89 c1_i32_71
  let c1_i32_75 : BitVec 32 := 1#32
  let v94 : BitVec 1 := Scalar.cmpi .eq v90 c1_i32_75
  let c256_i32_76 : BitVec 32 := 256#32
  let c0_i32_77 : BitVec 32 := 0#32
  let v95 : BitVec 32 := Scalar.select v94 c256_i32_76 c0_i32_77
  let v96 : BitVec 32 := Scalar.addi v82 v95
  let c0_i32_82 : BitVec 32 := 0#32
  let v103 : BitVec 32 := Scalar.shrsi v7 c0_i32_82
  let c1_i32_83 : BitVec 32 := 1#32
  let v104 : BitVec 32 := Scalar.andi v103 c1_i32_83
  let c1_i32_87 : BitVec 32 := 1#32
  let v108 : BitVec 1 := Scalar.cmpi .eq v104 c1_i32_87
  let c128_i32_88 : BitVec 32 := 128#32
  let c0_i32_89 : BitVec 32 := 0#32
  let v109 : BitVec 32 := Scalar.select v108 c128_i32_88 c0_i32_89
  let v110 : BitVec 32 := Scalar.addi v96 v109
  v110
def k0_off20 (d0 : Dev nD) : Fin 2 → Nat :=
  let c344_363 : Index := 344#32
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_62 : BitVec 32 := 1#32
  let v80 : BitVec 1 := Scalar.cmpi .eq v76 c1_i32_62
  let c512_i32_63 : BitVec 32 := 512#32
  let c0_i32_64 : BitVec 32 := 0#32
  let v81 : BitVec 32 := Scalar.select v80 c512_i32_63 c0_i32_64
  let v82 : BitVec 32 := Scalar.addi c0_i32_65 v81
  let c2_i32_70 : BitVec 32 := 2#32
  let v89 : BitVec 32 := Scalar.shrsi v7 c2_i32_70
  let c1_i32_71 : BitVec 32 := 1#32
  let v90 : BitVec 32 := Scalar.andi v89 c1_i32_71
  let c1_i32_75 : BitVec 32 := 1#32
  let v94 : BitVec 1 := Scalar.cmpi .eq v90 c1_i32_75
  let c256_i32_76 : BitVec 32 := 256#32
  let c0_i32_77 : BitVec 32 := 0#32
  let v95 : BitVec 32 := Scalar.select v94 c256_i32_76 c0_i32_77
  let v96 : BitVec 32 := Scalar.addi v82 v95
  let c0_i32_82 : BitVec 32 := 0#32
  let v103 : BitVec 32 := Scalar.shrsi v7 c0_i32_82
  let c1_i32_83 : BitVec 32 := 1#32
  let v104 : BitVec 32 := Scalar.andi v103 c1_i32_83
  let c1_i32_87 : BitVec 32 := 1#32
  let v108 : BitVec 1 := Scalar.cmpi .eq v104 c1_i32_87
  let c128_i32_88 : BitVec 32 := 128#32
  let c0_i32_89 : BitVec 32 := 0#32
  let v109 : BitVec 32 := Scalar.select v108 c128_i32_88 c0_i32_89
  let v110 : BitVec 32 := Scalar.addi v96 v109
  let v409 : BitVec 32 := v110
  let v410 : Index := Scalar.indexCast v409
  ![344, v410.toNat]
def k0_mult22 (d0 : Dev nD) : BitVec 32 :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_62 : BitVec 32 := 1#32
  let v80 : BitVec 1 := Scalar.cmpi .eq v76 c1_i32_62
  let c512_i32_63 : BitVec 32 := 512#32
  let c0_i32_64 : BitVec 32 := 0#32
  let v81 : BitVec 32 := Scalar.select v80 c512_i32_63 c0_i32_64
  let v82 : BitVec 32 := Scalar.addi c0_i32_65 v81
  let c2_i32_70 : BitVec 32 := 2#32
  let v89 : BitVec 32 := Scalar.shrsi v7 c2_i32_70
  let c1_i32_71 : BitVec 32 := 1#32
  let v90 : BitVec 32 := Scalar.andi v89 c1_i32_71
  let c1_i32_75 : BitVec 32 := 1#32
  let v94 : BitVec 1 := Scalar.cmpi .eq v90 c1_i32_75
  let c256_i32_76 : BitVec 32 := 256#32
  let c0_i32_77 : BitVec 32 := 0#32
  let v95 : BitVec 32 := Scalar.select v94 c256_i32_76 c0_i32_77
  let v96 : BitVec 32 := Scalar.addi v82 v95
  let c0_i32_82 : BitVec 32 := 0#32
  let v103 : BitVec 32 := Scalar.shrsi v7 c0_i32_82
  let c1_i32_83 : BitVec 32 := 1#32
  let v104 : BitVec 32 := Scalar.andi v103 c1_i32_83
  let c1_i32_87 : BitVec 32 := 1#32
  let v108 : BitVec 1 := Scalar.cmpi .eq v104 c1_i32_87
  let c128_i32_88 : BitVec 32 := 128#32
  let c0_i32_89 : BitVec 32 := 0#32
  let v109 : BitVec 32 := Scalar.select v108 c128_i32_88 c0_i32_89
  let v110 : BitVec 32 := Scalar.addi v96 v109
  v110
def k0_dev14 (d0 : Dev nD) : Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_90 : BitVec 32 := 1#32
  let v111 : BitVec 32 := Scalar.xori v7 c1_i32_90
  let c3_i32_91 : BitVec 32 := 3#32
  let v112 : BitVec 32 := Scalar.andi v111 c3_i32_91
  let c1_i32_92 : BitVec 32 := 1#32
  let v113 : BitVec 32 := Scalar.shrsi v112 c1_i32_92
  let v114 : BitVec 32 := Scalar.xori v112 v113
  let c4_i32_93 : BitVec 32 := 4#32
  let v115 : BitVec 32 := Scalar.andi v111 c4_i32_93
  let v116 : BitVec 32 := Scalar.ori v114 v115
  let c1_i32_371 : BitVec 32 := 1#32
  let v419 : BitVec 32 := Scalar.muli v116 c1_i32_371
  let v420 : BitVec 32 := Scalar.addi c0_i32_372 v419
  v420.toNat
def k0_mult23 (d0 : Dev nD) : BitVec 32 :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_100 : BitVec 32 := 1#32
  let v122 : BitVec 1 := Scalar.cmpi .eq v118 c1_i32_100
  let c512_i32_101 : BitVec 32 := 512#32
  let c0_i32_102 : BitVec 32 := 0#32
  let v123 : BitVec 32 := Scalar.select v122 c512_i32_101 c0_i32_102
  let v124 : BitVec 32 := Scalar.addi c0_i32_103 v123
  let c0_i32_108 : BitVec 32 := 0#32
  let v131 : BitVec 32 := Scalar.shrsi v7 c0_i32_108
  let c1_i32_109 : BitVec 32 := 1#32
  let v132 : BitVec 32 := Scalar.andi v131 c1_i32_109
  let c1_i32_113 : BitVec 32 := 1#32
  let v136 : BitVec 1 := Scalar.cmpi .eq v132 c1_i32_113
  let c256_i32_114 : BitVec 32 := 256#32
  let c0_i32_115 : BitVec 32 := 0#32
  let v137 : BitVec 32 := Scalar.select v136 c256_i32_114 c0_i32_115
  let v138 : BitVec 32 := Scalar.addi v124 v137
  let c1_i32_120 : BitVec 32 := 1#32
  let v145 : BitVec 32 := Scalar.shrsi v7 c1_i32_120
  let c1_i32_121 : BitVec 32 := 1#32
  let v146 : BitVec 32 := Scalar.andi v145 c1_i32_121
  let c1_i32_125 : BitVec 32 := 1#32
  let v150 : BitVec 1 := Scalar.cmpi .eq v146 c1_i32_125
  let c128_i32_126 : BitVec 32 := 128#32
  let c0_i32_127 : BitVec 32 := 0#32
  let v151 : BitVec 32 := Scalar.select v150 c128_i32_126 c0_i32_127
  let v152 : BitVec 32 := Scalar.addi v138 v151
  v152
def k0_off21 (d0 : Dev nD) : Fin 2 → Nat :=
  let c680_388 : Index := 680#32
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_100 : BitVec 32 := 1#32
  let v122 : BitVec 1 := Scalar.cmpi .eq v118 c1_i32_100
  let c512_i32_101 : BitVec 32 := 512#32
  let c0_i32_102 : BitVec 32 := 0#32
  let v123 : BitVec 32 := Scalar.select v122 c512_i32_101 c0_i32_102
  let v124 : BitVec 32 := Scalar.addi c0_i32_103 v123
  let c0_i32_108 : BitVec 32 := 0#32
  let v131 : BitVec 32 := Scalar.shrsi v7 c0_i32_108
  let c1_i32_109 : BitVec 32 := 1#32
  let v132 : BitVec 32 := Scalar.andi v131 c1_i32_109
  let c1_i32_113 : BitVec 32 := 1#32
  let v136 : BitVec 1 := Scalar.cmpi .eq v132 c1_i32_113
  let c256_i32_114 : BitVec 32 := 256#32
  let c0_i32_115 : BitVec 32 := 0#32
  let v137 : BitVec 32 := Scalar.select v136 c256_i32_114 c0_i32_115
  let v138 : BitVec 32 := Scalar.addi v124 v137
  let c1_i32_120 : BitVec 32 := 1#32
  let v145 : BitVec 32 := Scalar.shrsi v7 c1_i32_120
  let c1_i32_121 : BitVec 32 := 1#32
  let v146 : BitVec 32 := Scalar.andi v145 c1_i32_121
  let c1_i32_125 : BitVec 32 := 1#32
  let v150 : BitVec 1 := Scalar.cmpi .eq v146 c1_i32_125
  let c128_i32_126 : BitVec 32 := 128#32
  let c0_i32_127 : BitVec 32 := 0#32
  let v151 : BitVec 32 := Scalar.select v150 c128_i32_126 c0_i32_127
  let v152 : BitVec 32 := Scalar.addi v138 v151
  let v435 : BitVec 32 := v152
  let v436 : Index := Scalar.indexCast v435
  ![680, v436.toNat]
def k0_mult24 (d0 : Dev nD) : BitVec 32 :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_100 : BitVec 32 := 1#32
  let v122 : BitVec 1 := Scalar.cmpi .eq v118 c1_i32_100
  let c512_i32_101 : BitVec 32 := 512#32
  let c0_i32_102 : BitVec 32 := 0#32
  let v123 : BitVec 32 := Scalar.select v122 c512_i32_101 c0_i32_102
  let v124 : BitVec 32 := Scalar.addi c0_i32_103 v123
  let c0_i32_108 : BitVec 32 := 0#32
  let v131 : BitVec 32 := Scalar.shrsi v7 c0_i32_108
  let c1_i32_109 : BitVec 32 := 1#32
  let v132 : BitVec 32 := Scalar.andi v131 c1_i32_109
  let c1_i32_113 : BitVec 32 := 1#32
  let v136 : BitVec 1 := Scalar.cmpi .eq v132 c1_i32_113
  let c256_i32_114 : BitVec 32 := 256#32
  let c0_i32_115 : BitVec 32 := 0#32
  let v137 : BitVec 32 := Scalar.select v136 c256_i32_114 c0_i32_115
  let v138 : BitVec 32 := Scalar.addi v124 v137
  let c1_i32_120 : BitVec 32 := 1#32
  let v145 : BitVec 32 := Scalar.shrsi v7 c1_i32_120
  let c1_i32_121 : BitVec 32 := 1#32
  let v146 : BitVec 32 := Scalar.andi v145 c1_i32_121
  let c1_i32_125 : BitVec 32 := 1#32
  let v150 : BitVec 1 := Scalar.cmpi .eq v146 c1_i32_125
  let c128_i32_126 : BitVec 32 := 128#32
  let c0_i32_127 : BitVec 32 := 0#32
  let v151 : BitVec 32 := Scalar.select v150 c128_i32_126 c0_i32_127
  let v152 : BitVec 32 := Scalar.addi v138 v151
  v152
def k0_dev15 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_128 : BitVec 32 := 2#32
  let v153 : BitVec 32 := Scalar.xori v7 c2_i32_128
  let c3_i32_129 : BitVec 32 := 3#32
  let v154 : BitVec 32 := Scalar.andi v153 c3_i32_129
  let c1_i32_130 : BitVec 32 := 1#32
  let v155 : BitVec 32 := Scalar.shrsi v154 c1_i32_130
  let v156 : BitVec 32 := Scalar.xori v154 v155
  let c4_i32_131 : BitVec 32 := 4#32
  let v157 : BitVec 32 := Scalar.andi v153 c4_i32_131
  let v158 : BitVec 32 := Scalar.ori v156 v157
  let c1_i32_396 : BitVec 32 := 1#32
  let v445 : BitVec 32 := Scalar.muli v158 c1_i32_396
  let v446 : BitVec 32 := Scalar.addi c0_i32_397 v445
  v446.toNat
def k0_mult25 (d0 : Dev nD) : BitVec 32 :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_26 : BitVec 32 := 1#32
  let v38 : BitVec 1 := Scalar.cmpi .eq v34 c1_i32_26
  let c512_i32_27 : BitVec 32 := 512#32
  let c0_i32_28 : BitVec 32 := 0#32
  let v39 : BitVec 32 := Scalar.select v38 c512_i32_27 c0_i32_28
  let v40 : BitVec 32 := Scalar.addi c0_i32_29 v39
  let c1_i32_34 : BitVec 32 := 1#32
  let v47 : BitVec 32 := Scalar.shrsi v7 c1_i32_34
  let c1_i32_35 : BitVec 32 := 1#32
  let v48 : BitVec 32 := Scalar.andi v47 c1_i32_35
  let c1_i32_38 : BitVec 32 := 1#32
  let v52 : BitVec 1 := Scalar.cmpi .eq v48 c1_i32_38
  let c256_i32_39 : BitVec 32 := 256#32
  let c0_i32_40 : BitVec 32 := 0#32
  let v53 : BitVec 32 := Scalar.select v52 c256_i32_39 c0_i32_40
  let v54 : BitVec 32 := Scalar.addi v40 v53
  v54
def k0_dev16 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_41 : BitVec 32 := 2#32
  let v55 : BitVec 32 := Scalar.xori v7 c2_i32_41
  let c3_i32_42 : BitVec 32 := 3#32
  let v56 : BitVec 32 := Scalar.andi v55 c3_i32_42
  let c1_i32_43 : BitVec 32 := 1#32
  let v57 : BitVec 32 := Scalar.shrsi v56 c1_i32_43
  let v58 : BitVec 32 := Scalar.xori v56 v57
  let c4_i32_44 : BitVec 32 := 4#32
  let v59 : BitVec 32 := Scalar.andi v55 c4_i32_44
  let v60 : BitVec 32 := Scalar.ori v58 v59
  let c1_i32_419 : BitVec 32 := 1#32
  let v464 : BitVec 32 := Scalar.muli v60 c1_i32_419
  let v465 : BitVec 32 := Scalar.addi c0_i32_420 v464
  v465.toNat
def k0_mult26 (d0 : Dev nD) : BitVec 32 :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_62 : BitVec 32 := 1#32
  let v80 : BitVec 1 := Scalar.cmpi .eq v76 c1_i32_62
  let c512_i32_63 : BitVec 32 := 512#32
  let c0_i32_64 : BitVec 32 := 0#32
  let v81 : BitVec 32 := Scalar.select v80 c512_i32_63 c0_i32_64
  let v82 : BitVec 32 := Scalar.addi c0_i32_65 v81
  let c2_i32_70 : BitVec 32 := 2#32
  let v89 : BitVec 32 := Scalar.shrsi v7 c2_i32_70
  let c1_i32_71 : BitVec 32 := 1#32
  let v90 : BitVec 32 := Scalar.andi v89 c1_i32_71
  let c1_i32_75 : BitVec 32 := 1#32
  let v94 : BitVec 1 := Scalar.cmpi .eq v90 c1_i32_75
  let c256_i32_76 : BitVec 32 := 256#32
  let c0_i32_77 : BitVec 32 := 0#32
  let v95 : BitVec 32 := Scalar.select v94 c256_i32_76 c0_i32_77
  let v96 : BitVec 32 := Scalar.addi v82 v95
  v96
def k0_dev17 (d0 : Dev nD) : Nat :=
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c4_i32_78 : BitVec 32 := 4#32
  let v97 : BitVec 32 := Scalar.xori v7 c4_i32_78
  let c3_i32_79 : BitVec 32 := 3#32
  let v98 : BitVec 32 := Scalar.andi v97 c3_i32_79
  let c1_i32_80 : BitVec 32 := 1#32
  let v99 : BitVec 32 := Scalar.shrsi v98 c1_i32_80
  let v100 : BitVec 32 := Scalar.xori v98 v99
  let c4_i32_81 : BitVec 32 := 4#32
  let v101 : BitVec 32 := Scalar.andi v97 c4_i32_81
  let v102 : BitVec 32 := Scalar.ori v100 v101
  let c1_i32_442 : BitVec 32 := 1#32
  let v483 : BitVec 32 := Scalar.muli v102 c1_i32_442
  let v484 : BitVec 32 := Scalar.addi c0_i32_443 v483
  v484.toNat
def k0_mult27 (d0 : Dev nD) : BitVec 32 :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_100 : BitVec 32 := 1#32
  let v122 : BitVec 1 := Scalar.cmpi .eq v118 c1_i32_100
  let c512_i32_101 : BitVec 32 := 512#32
  let c0_i32_102 : BitVec 32 := 0#32
  let v123 : BitVec 32 := Scalar.select v122 c512_i32_101 c0_i32_102
  let v124 : BitVec 32 := Scalar.addi c0_i32_103 v123
  let c0_i32_108 : BitVec 32 := 0#32
  let v131 : BitVec 32 := Scalar.shrsi v7 c0_i32_108
  let c1_i32_109 : BitVec 32 := 1#32
  let v132 : BitVec 32 := Scalar.andi v131 c1_i32_109
  let c1_i32_113 : BitVec 32 := 1#32
  let v136 : BitVec 1 := Scalar.cmpi .eq v132 c1_i32_113
  let c256_i32_114 : BitVec 32 := 256#32
  let c0_i32_115 : BitVec 32 := 0#32
  let v137 : BitVec 32 := Scalar.select v136 c256_i32_114 c0_i32_115
  let v138 : BitVec 32 := Scalar.addi v124 v137
  v138
def k0_dev18 (d0 : Dev nD) : Nat :=
  let c0_i32_466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_116 : BitVec 32 := 1#32
  let v139 : BitVec 32 := Scalar.xori v7 c1_i32_116
  let c3_i32_117 : BitVec 32 := 3#32
  let v140 : BitVec 32 := Scalar.andi v139 c3_i32_117
  let c1_i32_118 : BitVec 32 := 1#32
  let v141 : BitVec 32 := Scalar.shrsi v140 c1_i32_118
  let v142 : BitVec 32 := Scalar.xori v140 v141
  let c4_i32_119 : BitVec 32 := 4#32
  let v143 : BitVec 32 := Scalar.andi v139 c4_i32_119
  let v144 : BitVec 32 := Scalar.ori v142 v143
  let c1_i32_465 : BitVec 32 := 1#32
  let v502 : BitVec 32 := Scalar.muli v144 c1_i32_465
  let v503 : BitVec 32 := Scalar.addi c0_i32_466 v502
  v503.toNat
def k0_mult28 (d0 : Dev nD) : BitVec 32 :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_26 : BitVec 32 := 1#32
  let v38 : BitVec 1 := Scalar.cmpi .eq v34 c1_i32_26
  let c512_i32_27 : BitVec 32 := 512#32
  let c0_i32_28 : BitVec 32 := 0#32
  let v39 : BitVec 32 := Scalar.select v38 c512_i32_27 c0_i32_28
  let v40 : BitVec 32 := Scalar.addi c0_i32_29 v39
  v40
def k0_dev19 (d0 : Dev nD) : Nat :=
  let c0_i32_489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_30 : BitVec 32 := 1#32
  let v41 : BitVec 32 := Scalar.xori v7 c1_i32_30
  let c3_i32_31 : BitVec 32 := 3#32
  let v42 : BitVec 32 := Scalar.andi v41 c3_i32_31
  let c1_i32_32 : BitVec 32 := 1#32
  let v43 : BitVec 32 := Scalar.shrsi v42 c1_i32_32
  let v44 : BitVec 32 := Scalar.xori v42 v43
  let c4_i32_33 : BitVec 32 := 4#32
  let v45 : BitVec 32 := Scalar.andi v41 c4_i32_33
  let v46 : BitVec 32 := Scalar.ori v44 v45
  let c1_i32_488 : BitVec 32 := 1#32
  let v521 : BitVec 32 := Scalar.muli v46 c1_i32_488
  let v522 : BitVec 32 := Scalar.addi c0_i32_489 v521
  v522.toNat
def k0_mult29 (d0 : Dev nD) : BitVec 32 :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c0_i32_21 : BitVec 32 := 0#32
  let v33 : BitVec 32 := Scalar.shrsi v7 c0_i32_21
  let c1_i32_22 : BitVec 32 := 1#32
  let v34 : BitVec 32 := Scalar.andi v33 c1_i32_22
  let c1_i32_26 : BitVec 32 := 1#32
  let v38 : BitVec 1 := Scalar.cmpi .eq v34 c1_i32_26
  let c512_i32_27 : BitVec 32 := 512#32
  let c0_i32_28 : BitVec 32 := 0#32
  let v39 : BitVec 32 := Scalar.select v38 c512_i32_27 c0_i32_28
  let v40 : BitVec 32 := Scalar.addi c0_i32_29 v39
  v40
def k0_mult30 (d0 : Dev nD) : BitVec 32 :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_62 : BitVec 32 := 1#32
  let v80 : BitVec 1 := Scalar.cmpi .eq v76 c1_i32_62
  let c512_i32_63 : BitVec 32 := 512#32
  let c0_i32_64 : BitVec 32 := 0#32
  let v81 : BitVec 32 := Scalar.select v80 c512_i32_63 c0_i32_64
  let v82 : BitVec 32 := Scalar.addi c0_i32_65 v81
  v82
def k0_dev20 (d0 : Dev nD) : Nat :=
  let c0_i32_515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_66 : BitVec 32 := 2#32
  let v83 : BitVec 32 := Scalar.xori v7 c2_i32_66
  let c3_i32_67 : BitVec 32 := 3#32
  let v84 : BitVec 32 := Scalar.andi v83 c3_i32_67
  let c1_i32_68 : BitVec 32 := 1#32
  let v85 : BitVec 32 := Scalar.shrsi v84 c1_i32_68
  let v86 : BitVec 32 := Scalar.xori v84 v85
  let c4_i32_69 : BitVec 32 := 4#32
  let v87 : BitVec 32 := Scalar.andi v83 c4_i32_69
  let v88 : BitVec 32 := Scalar.ori v86 v87
  let c1_i32_514 : BitVec 32 := 1#32
  let v545 : BitVec 32 := Scalar.muli v88 c1_i32_514
  let v546 : BitVec 32 := Scalar.addi c0_i32_515 v545
  v546.toNat
def k0_mult31 (d0 : Dev nD) : BitVec 32 :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c1_i32_56 : BitVec 32 := 1#32
  let v75 : BitVec 32 := Scalar.shrsi v7 c1_i32_56
  let c1_i32_57 : BitVec 32 := 1#32
  let v76 : BitVec 32 := Scalar.andi v75 c1_i32_57
  let c1_i32_62 : BitVec 32 := 1#32
  let v80 : BitVec 1 := Scalar.cmpi .eq v76 c1_i32_62
  let c512_i32_63 : BitVec 32 := 512#32
  let c0_i32_64 : BitVec 32 := 0#32
  let v81 : BitVec 32 := Scalar.select v80 c512_i32_63 c0_i32_64
  let v82 : BitVec 32 := Scalar.addi c0_i32_65 v81
  v82
def k0_mult32 (d0 : Dev nD) : BitVec 32 :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_100 : BitVec 32 := 1#32
  let v122 : BitVec 1 := Scalar.cmpi .eq v118 c1_i32_100
  let c512_i32_101 : BitVec 32 := 512#32
  let c0_i32_102 : BitVec 32 := 0#32
  let v123 : BitVec 32 := Scalar.select v122 c512_i32_101 c0_i32_102
  let v124 : BitVec 32 := Scalar.addi c0_i32_103 v123
  v124
def k0_dev21 (d0 : Dev nD) : Nat :=
  let c0_i32_541 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c4_i32_104 : BitVec 32 := 4#32
  let v125 : BitVec 32 := Scalar.xori v7 c4_i32_104
  let c3_i32_105 : BitVec 32 := 3#32
  let v126 : BitVec 32 := Scalar.andi v125 c3_i32_105
  let c1_i32_106 : BitVec 32 := 1#32
  let v127 : BitVec 32 := Scalar.shrsi v126 c1_i32_106
  let v128 : BitVec 32 := Scalar.xori v126 v127
  let c4_i32_107 : BitVec 32 := 4#32
  let v129 : BitVec 32 := Scalar.andi v125 c4_i32_107
  let v130 : BitVec 32 := Scalar.ori v128 v129
  let c1_i32_540 : BitVec 32 := 1#32
  let v569 : BitVec 32 := Scalar.muli v130 c1_i32_540
  let v570 : BitVec 32 := Scalar.addi c0_i32_541 v569
  v570.toNat
def k0_mult33 (d0 : Dev nD) : BitVec 32 :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v5 : BitVec 32 := Scalar.xori v3 v4
  let c4_i32 : BitVec 32 := 4#32
  let v6 : BitVec 32 := Scalar.andi v2 c4_i32
  let v7 : BitVec 32 := Scalar.ori v5 v6
  let c2_i32_94 : BitVec 32 := 2#32
  let v117 : BitVec 32 := Scalar.shrsi v7 c2_i32_94
  let c1_i32_95 : BitVec 32 := 1#32
  let v118 : BitVec 32 := Scalar.andi v117 c1_i32_95
  let c1_i32_100 : BitVec 32 := 1#32
  let v122 : BitVec 1 := Scalar.cmpi .eq v118 c1_i32_100
  let c512_i32_101 : BitVec 32 := 512#32
  let c0_i32_102 : BitVec 32 := 0#32
  let v123 : BitVec 32 := Scalar.select v122 c512_i32_101 c0_i32_102
  let v124 : BitVec 32 := Scalar.addi c0_i32_103 v123
  v124

class Facts₀ : Prop where
  hamt_1 : (1#32 : BitVec 32).msb = false
  hamt_3 : (3#32 : BitVec 32).msb = false
  inb_S3x3_S1x1_0_0 : ∀ a, (![0, 0] : Fin 2 → Nat) a + S1x1.size a ≤ S3x3.size a
  squeezes_S1x1_S_ : S1x1.Squeezes S_
  squeezes_S1x344x512_S344x512 : S1x344x512.Squeezes S344x512
  inb_S3x3_S1x1_1_0 : ∀ a, (![1, 0] : Fin 2 → Nat) a + S1x1.size a ≤ S3x3.size a
  squeezes_S1x336x512_S336x512 : S1x336x512.Squeezes S336x512
  inb_S3x3_S1x1_2_0 : ∀ a, (![2, 0] : Fin 2 → Nat) a + S1x1.size a ≤ S3x3.size a
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S3_S1_2 : ∀ a, (![2] : Fin 1 → Nat) a + S1.size a ≤ S3.size a
  h_S344x512 : 0 < S344x512.numel
  inb_S344x512_S344x512_0_0 : ∀ a, (![0, 0] : Fin 2 → Nat) a + S344x512.size a ≤ S344x512.size a
  shapeCasts_S344x512_S344x512 : S344x512.ShapeCasts S344x512
  inb_S3x3_S1x1_0_1 : ∀ a, (![0, 1] : Fin 2 → Nat) a + S1x1.size a ≤ S3x3.size a
  h_S336x512 : 0 < S336x512.numel
  inb_S336x512_S336x512_0_0 : ∀ a, (![0, 0] : Fin 2 → Nat) a + S336x512.size a ≤ S336x512.size a
  shapeCasts_S336x512_S336x512 : S336x512.ShapeCasts S336x512
  inb_S3x3_S1x1_1_1 : ∀ a, (![1, 1] : Fin 2 → Nat) a + S1x1.size a ≤ S3x3.size a
  inb_S3x3_S1x1_2_1 : ∀ a, (![2, 1] : Fin 2 → Nat) a + S1x1.size a ≤ S3x3.size a
  h_S344x256 : 0 < S344x256.numel
  inb_S344x256_S344x256_0_0 : ∀ a, (![0, 0] : Fin 2 → Nat) a + S344x256.size a ≤ S344x256.size a
  shapeCasts_S344x256_S344x256 : S344x256.ShapeCasts S344x256
  inb_S3x3_S1x1_0_2 : ∀ a, (![0, 2] : Fin 2 → Nat) a + S1x1.size a ≤ S3x3.size a
  h_S336x256 : 0 < S336x256.numel
  inb_S336x256_S336x256_0_0 : ∀ a, (![0, 0] : Fin 2 → Nat) a + S336x256.size a ≤ S336x256.size a
  shapeCasts_S336x256_S336x256 : S336x256.ShapeCasts S336x256
  inb_S3x3_S1x1_1_2 : ∀ a, (![1, 2] : Fin 2 → Nat) a + S1x1.size a ≤ S3x3.size a
  inb_S3x3_S1x1_2_2 : ∀ a, (![2, 2] : Fin 2 → Nat) a + S1x1.size a ≤ S3x3.size a
  h_S344x128 : 0 < S344x128.numel
  inb_S344x128_S344x128_0_0 : ∀ a, (![0, 0] : Fin 2 → Nat) a + S344x128.size a ≤ S344x128.size a
  shapeCasts_S344x128_S344x128 : S344x128.ShapeCasts S344x128
  h_S336x128 : 0 < S336x128.numel
  inb_S336x128_S336x128_0_0 : ∀ a, (![0, 0] : Fin 2 → Nat) a + S336x128.size a ≤ S336x128.size a
  shapeCasts_S336x128_S336x128 : S336x128.ShapeCasts S336x128
  hcc0_scratch10 : 0 + S3x3.numel ≤ 42
  hcc0_scratch11 : 9 + S3x3.numel ≤ 42
  hcc0_scratch12 : 18 + S3x3.numel ≤ 42
  hcc0_scratch13 : 27 + S3x3.numel ≤ 42
  hcc0_scratch14 : 36 + S3.numel ≤ 42
  hcc0_scratch15 : 39 + S3.numel ≤ 42
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_mult1_dvd : ∀ d0 : Dev nD, 128 ∣ (k0_mult1 d0).toNat
  k0_off1_inb : ∀ d0 : Dev nD, ∀ (r : Fin 2), ∀ a, (k0_off1 d0 (k0_off1_at r).1 (k0_off1_at r).2) a + S1x344x512.size a ≤ S1x1024x1024.size a
  k0_dev4_lt : ∀ d0 : Dev nD, (k0_dev4 d0) < nD
  k0_mult2_dvd : ∀ d0 : Dev nD, 128 ∣ (k0_mult2 d0).toNat
  k0_off2_inb : ∀ d0 : Dev nD, ∀ (r : Fin 2), ∀ a, (k0_off2 d0 (k0_off2_at r).1 (k0_off2_at r).2) a + S1x336x512.size a ≤ S1x1024x1024.size a
  k0_dev5_lt : ∀ d0 : Dev nD, (k0_dev5 d0) < nD
  k0_mult3_dvd : ∀ d0 : Dev nD, 128 ∣ (k0_mult3 d0).toNat
  k0_off3_inb : ∀ d0 : Dev nD, ∀ (r : Fin 2), ∀ a, (k0_off3 d0 (k0_off3_at r).1 (k0_off3_at r).2) a + S1x344x512.size a ≤ S1x1024x1024.size a
  k0_dev6_lt : ∀ d0 : Dev nD, (k0_dev6 d0) < nD
  k0_mult4_dvd : ∀ d0 : Dev nD, 128 ∣ (k0_mult4 d0).toNat
  k0_off4_inb : ∀ d0 : Dev nD, ∀ a, (k0_off4 d0) a + S344x512.size a ≤ S1024x1024.size a
  k0_mult5_dvd : ∀ d0 : Dev nD, 128 ∣ (k0_mult5 d0).toNat
  k0_off5_inb : ∀ d0 : Dev nD, ∀ a, (k0_off5 d0) a + S336x512.size a ≤ S1024x1024.size a
  k0_mult6_dvd : ∀ d0 : Dev nD, 128 ∣ (k0_mult6 d0).toNat
  k0_off6_inb : ∀ d0 : Dev nD, ∀ a, (k0_off6 d0) a + S344x512.size a ≤ S1024x1024.size a
  k0_mult7_dvd : ∀ d0 : Dev nD, 128 ∣ (k0_mult7 d0).toNat
  k0_off7_inb : ∀ d0 : Dev nD, ∀ a, (k0_off7 d0) a + S344x512.size a ≤ S1024x1024.size a
  k0_mult8_dvd : ∀ d0 : Dev nD, 128 ∣ (k0_mult8 d0).toNat
  k0_off8_inb : ∀ d0 : Dev nD, ∀ (r : Fin 2), ∀ a, (k0_off8 d0 (k0_off8_at r).1 (k0_off8_at r).2) a + S344x256.size a ≤ S1024x1024.size a
  k0_dev7_lt : ∀ d0 : Dev nD, (k0_dev7 d0) < nD
  k0_mult9_dvd : ∀ d0 : Dev nD, 128 ∣ (k0_mult9 d0).toNat
  k0_off9_inb : ∀ d0 : Dev nD, ∀ a, (k0_off9 d0) a + S336x512.size a ≤ S1024x1024.size a
  k0_mult10_dvd : ∀ d0 : Dev nD, 128 ∣ (k0_mult10 d0).toNat
  k0_off10_inb : ∀ d0 : Dev nD, ∀ (r : Fin 2), ∀ a, (k0_off10 d0 (k0_off10_at r).1 (k0_off10_at r).2) a + S336x256.size a ≤ S1024x1024.size a
  k0_dev8_lt : ∀ d0 : Dev nD, (k0_dev8 d0) < nD
  k0_mult11_dvd : ∀ d0 : Dev nD, 128 ∣ (k0_mult11 d0).toNat
  k0_off11_inb : ∀ d0 : Dev nD, ∀ a, (k0_off11 d0) a + S344x512.size a ≤ S1024x1024.size a
  k0_mult12_dvd : ∀ d0 : Dev nD, 128 ∣ (k0_mult12 d0).toNat
  k0_off12_inb : ∀ d0 : Dev nD, ∀ (r : Fin 2), ∀ a, (k0_off12 d0 (k0_off12_at r).1 (k0_off12_at r).2) a + S344x256.size a ≤ S1024x1024.size a
  k0_dev9_lt : ∀ d0 : Dev nD, (k0_dev9 d0) < nD
  k0_mult13_dvd : ∀ d0 : Dev nD, 128 ∣ (k0_mult13 d0).toNat
  k0_off13_inb : ∀ d0 : Dev nD, ∀ a, (k0_off13 d0) a + S344x256.size a ≤ S1024x1024.size a
  k0_mult14_dvd : ∀ d0 : Dev nD, 128 ∣ (k0_mult14 d0).toNat
  k0_off14_inb : ∀ d0 : Dev nD, ∀ (r : Fin 2), ∀ a, (k0_off14 d0 (k0_off14_at r).1 (k0_off14_at r).2) a + S344x128.size a ≤ S1024x1024.size a
  k0_dev10_lt : ∀ d0 : Dev nD, (k0_dev10 d0) < nD
  k0_mult15_dvd : ∀ d0 : Dev nD, 128 ∣ (k0_mult15 d0).toNat
  k0_off15_inb : ∀ d0 : Dev nD, ∀ a, (k0_off15 d0) a + S336x256.size a ≤ S1024x1024.size a
  k0_mult16_dvd : ∀ d0 : Dev nD, 128 ∣ (k0_mult16 d0).toNat
  k0_off16_inb : ∀ d0 : Dev nD, ∀ (r : Fin 2), ∀ a, (k0_off16 d0 (k0_off16_at r).1 (k0_off16_at r).2) a + S336x128.size a ≤ S1024x1024.size a
  k0_dev11_lt : ∀ d0 : Dev nD, (k0_dev11 d0) < nD
  k0_mult17_dvd : ∀ d0 : Dev nD, 128 ∣ (k0_mult17 d0).toNat
  k0_off17_inb : ∀ d0 : Dev nD, ∀ a, (k0_off17 d0) a + S344x256.size a ≤ S1024x1024.size a
  k0_mult18_dvd : ∀ d0 : Dev nD, 128 ∣ (k0_mult18 d0).toNat
  k0_off18_inb : ∀ d0 : Dev nD, ∀ (r : Fin 2), ∀ a, (k0_off18 d0 (k0_off18_at r).1 (k0_off18_at r).2) a + S344x128.size a ≤ S1024x1024.size a
  k0_dev12_lt : ∀ d0 : Dev nD, (k0_dev12 d0) < nD
  k0_mult19_dvd : ∀ d0 : Dev nD, 128 ∣ (k0_mult19 d0).toNat
  k0_off19_inb : ∀ d0 : Dev nD, ∀ a, (k0_off19 d0) a + S344x128.size a ≤ S1024x1024.size a
  k0_mult20_dvd : ∀ d0 : Dev nD, 128 ∣ (k0_mult20 d0).toNat
  k0_dev13_lt : ∀ d0 : Dev nD, (k0_dev13 d0) < nD
  k0_mult21_dvd : ∀ d0 : Dev nD, 128 ∣ (k0_mult21 d0).toNat
  k0_off20_inb : ∀ d0 : Dev nD, ∀ a, (k0_off20 d0) a + S336x128.size a ≤ S1024x1024.size a
  k0_mult22_dvd : ∀ d0 : Dev nD, 128 ∣ (k0_mult22 d0).toNat
  k0_dev14_lt : ∀ d0 : Dev nD, (k0_dev14 d0) < nD
  k0_mult23_dvd : ∀ d0 : Dev nD, 128 ∣ (k0_mult23 d0).toNat
  k0_off21_inb : ∀ d0 : Dev nD, ∀ a, (k0_off21 d0) a + S344x128.size a ≤ S1024x1024.size a
  k0_mult24_dvd : ∀ d0 : Dev nD, 128 ∣ (k0_mult24 d0).toNat
  k0_dev15_lt : ∀ d0 : Dev nD, (k0_dev15 d0) < nD
  k0_mult25_dvd : ∀ d0 : Dev nD, 128 ∣ (k0_mult25 d0).toNat
  k0_dev16_lt : ∀ d0 : Dev nD, (k0_dev16 d0) < nD
  k0_mult26_dvd : ∀ d0 : Dev nD, 128 ∣ (k0_mult26 d0).toNat
  k0_dev17_lt : ∀ d0 : Dev nD, (k0_dev17 d0) < nD
  k0_mult27_dvd : ∀ d0 : Dev nD, 128 ∣ (k0_mult27 d0).toNat
  k0_dev18_lt : ∀ d0 : Dev nD, (k0_dev18 d0) < nD
  k0_mult28_dvd : ∀ d0 : Dev nD, 128 ∣ (k0_mult28 d0).toNat
  k0_dev19_lt : ∀ d0 : Dev nD, (k0_dev19 d0) < nD
  k0_mult29_dvd : ∀ d0 : Dev nD, 128 ∣ (k0_mult29 d0).toNat
  k0_mult30_dvd : ∀ d0 : Dev nD, 128 ∣ (k0_mult30 d0).toNat
  k0_dev20_lt : ∀ d0 : Dev nD, (k0_dev20 d0) < nD
  k0_mult31_dvd : ∀ d0 : Dev nD, 128 ∣ (k0_mult31 d0).toNat
  k0_mult32_dvd : ∀ d0 : Dev nD, 128 ∣ (k0_mult32 d0).toNat
  k0_dev21_lt : ∀ d0 : Dev nD, (k0_dev21 d0) < nD
  k0_mult33_dvd : ∀ d0 : Dev nD, 128 ∣ (k0_mult33 d0).toNat

variable [Facts₀]

abbrev cc0_scratch10 : DmaSems sig S3x3 := SemArray.consecutive 0 S3x3 hcc0_scratch10
abbrev cc0_scratch11 : DmaSems sig S3x3 := SemArray.consecutive 9 S3x3 hcc0_scratch11
abbrev cc0_scratch12 : DmaSems sig S3x3 := SemArray.consecutive 18 S3x3 hcc0_scratch12
abbrev cc0_scratch13 : DmaSems sig S3x3 := SemArray.consecutive 27 S3x3 hcc0_scratch13
abbrev cc0_scratch14 : DmaSems sig S3 := SemArray.consecutive 36 S3 hcc0_scratch14
abbrev cc0_scratch15 : DmaSems sig S3 := SemArray.consecutive 39 S3 hcc0_scratch15

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8x1024x1024 : Shape := ⟨3, ![8, 1024, 1024]⟩
abbrev S_ : Shape := ⟨0, ![]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S_, .f32⟩
  | .hbm, ⟨2, _⟩ => ⟨S1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S8x1024x1024_S1024x1024_d0 : S8x1024x1024.ReducesTo [0] S1024x1024
  h_S_ : 0 < S_.numel

variable [Facts₀]

class Facts : Prop extends Facts₀ where

variable [Facts]
-- ==== Proof.Vals.lean ====
import proofs.«901103_g7700000000001104_dist_treered_v7x_i8_m1024_n1024_f32_1_alg».proof.KernelIdeal
import Idealize.ShloMosaic.Lib.ValueIdx

noncomputable section

namespace Cert.KernelIdeal.Hyp

open Idealize.ShloMosaic Cert.KernelIdeal

variable {F : FTy → Type} [FloatOps F]

def nb (b : Fin 3) (c : Dev nD) : Dev nD :=
  (![![1, 0, 3, 2, 5, 4, 7, 6], ![3, 2, 1, 0, 7, 6, 5, 4], ![4, 5, 6, 7, 0, 1, 2, 3]] : Fin 3 → Fin 8 → Fin 8) b c

theorem nb_nb (b : Fin 3) (c : Dev nD) : nb b (nb b c) = c := by revert b c; decide
def posBit (b : Fin 3) (c : Dev nD) : Bool :=
  (![![false, true, true, false, false, true, true, false], ![false, false, true, true, false, false, true, true],
     ![false, false, false, false, true, true, true, true]] : Fin 3 → Fin 8 → Bool) b c

def par (t k : Fin 3) (c : Dev nD) : Dev nD := nb (t + k) c

def bandOf (i : ℕ) : Fin 3 := if i < 344 then 0 else if i < 680 then 1 else 2

def tOf (ij : S1024x1024.Idx) : Fin 3 := bandOf (ij 0).val

def colBit (k : Fin 3) (j : ℕ) : Bool :=
  match k with
  | 0 => decide (512 ≤ j)
  | 1 => decide ((j / 256) % 2 = 1)
  | 2 => decide ((j / 128) % 2 = 1)

def keeps (k : Fin 3) (c : Dev nD) (ij : S1024x1024.Idx) : Prop := colBit k (ij 1).val = posBit (tOf ij + k) c

instance (k : Fin 3) (c : Dev nD) (ij : S1024x1024.Idx) : Decidable (keeps k c ij) := by unfold keeps; infer_instance

def A0 (xs : Dev nD → Vec F S1x1024x1024 .f32) (c : Dev nD) : Vec F S1024x1024 .f32 :=
  fun ij => xs c (ValueIdx.ix3 (0 : Fin 1) (ij 0) (ij 1))

def stepAdd (A : Dev nD → Vec F S1024x1024 .f32) (k : Fin 3) (c : Dev nD) : Vec F S1024x1024 .f32 :=
  fun ij => FloatOps.addf (φ := .f32) (A c ij) (A (par (tOf ij) k c) ij)

def A1 (xs : Dev nD → Vec F S1x1024x1024 .f32) : Dev nD → Vec F S1024x1024 .f32 := stepAdd (A0 xs) 0
def A2 (xs : Dev nD → Vec F S1x1024x1024 .f32) : Dev nD → Vec F S1024x1024 .f32 := stepAdd (A1 xs) 1
def A3 (xs : Dev nD → Vec F S1x1024x1024 .f32) : Dev nD → Vec F S1024x1024 .f32 := stepAdd (A2 xs) 2

def B2 (xs : Dev nD → Vec F S1x1024x1024 .f32) (c : Dev nD) : Vec F S1024x1024 .f32 :=
  fun ij => if keeps 2 c ij then A3 xs c ij else A3 xs (par (tOf ij) 2 c) ij

def B1 (xs : Dev nD → Vec F S1x1024x1024 .f32) (c : Dev nD) : Vec F S1024x1024 .f32 :=
  fun ij => if keeps 1 c ij then B2 xs c ij else B2 xs (par (tOf ij) 1 c) ij

def B0 (xs : Dev nD → Vec F S1x1024x1024 .f32) (c : Dev nD) : Vec F S1024x1024 .f32 :=
  fun ij => if keeps 0 c ij then B1 xs c ij else B1 xs (par (tOf ij) 0 c) ij

end Cert.KernelIdeal.Hyp

end
-- ==== Proof.Tables.lean ====
import proofs.«901103_g7700000000001104_dist_treered_v7x_i8_m1024_n1024_f32_1_alg».proof.Proof.Vals
import proofs.«901103_g7700000000001104_dist_treered_v7x_i8_m1024_n1024_f32_1_alg».proof.Proof.Gen.KernelIdeal

set_option Elab.async false

namespace Cert.KernelIdeal.Hyp

open Idealize.ShloMosaic Cert.KernelIdeal Cert.KernelIdeal.Gen

def r0 (t : Fin 3) : ℕ := (![0, 344, 680] : Fin 3 → ℕ) t

def kLo (t : Fin 3) : Fin 3 → Dev nD → ℕ
  | 0, c => if posBit (t + 0) c then 512 else 0
  | 1, c => (if posBit (t + 0) c then 512 else 0) + (if posBit (t + 1) c then 256 else 0)
  | 2, c => (if posBit (t + 0) c then 512 else 0) + (if posBit (t + 1) c then 256 else 0) + (if posBit (t + 2) c then 128 else 0)
def sLo (t : Fin 3) : Fin 3 → Dev nD → ℕ
  | 0, c => if posBit (t + 0) c then 0 else 512
  | 1, c => (if posBit (t + 0) c then 512 else 0) + (if posBit (t + 1) c then 0 else 256)
  | 2, c => (if posBit (t + 0) c then 512 else 0) + (if posBit (t + 1) c then 256 else 0) + (if posBit (t + 2) c then 0 else 128)

theorem sLo_par (t k : Fin 3) (c : Dev nD) : sLo t k (par t k c) = kLo t k c := by revert t k c; decide
theorem kLo_par (t k : Fin 3) (c : Dev nD) : kLo t k (par t k c) = sLo t k c := by revert t k c; decide

theorem dev1_eq (c : Dev nD) : (⟨k0_dev1 c, k0_dev1_lt c⟩ : Dev nD) = nb 0 c := by revert c; decide +kernel
theorem dev2_eq (c : Dev nD) : (⟨k0_dev2 c, k0_dev2_lt c⟩ : Dev nD) = nb 1 c := by revert c; decide +kernel
theorem dev3_eq (c : Dev nD) : (⟨k0_dev3 c, k0_dev3_lt c⟩ : Dev nD) = nb 2 c := by revert c; decide +kernel
theorem dev4_eq (c : Dev nD) : (⟨k0_dev4 c, k0_dev4_lt c⟩ : Dev nD) = nb 0 c := by revert c; decide +kernel
theorem dev5_eq (c : Dev nD) : (⟨k0_dev5 c, k0_dev5_lt c⟩ : Dev nD) = nb 1 c := by revert c; decide +kernel
theorem dev6_eq (c : Dev nD) : (⟨k0_dev6 c, k0_dev6_lt c⟩ : Dev nD) = nb 2 c := by revert c; decide +kernel
theorem dev7_eq (c : Dev nD) : (⟨k0_dev7 c, k0_dev7_lt c⟩ : Dev nD) = nb 1 c := by revert c; decide +kernel
theorem dev8_eq (c : Dev nD) : (⟨k0_dev8 c, k0_dev8_lt c⟩ : Dev nD) = nb 2 c := by revert c; decide +kernel
theorem dev9_eq (c : Dev nD) : (⟨k0_dev9 c, k0_dev9_lt c⟩ : Dev nD) = nb 0 c := by revert c; decide +kernel
theorem dev10_eq (c : Dev nD) : (⟨k0_dev10 c, k0_dev10_lt c⟩ : Dev nD) = nb 2 c := by revert c; decide +kernel
theorem dev11_eq (c : Dev nD) : (⟨k0_dev11 c, k0_dev11_lt c⟩ : Dev nD) = nb 0 c := by revert c; decide +kernel
theorem dev12_eq (c : Dev nD) : (⟨k0_dev12 c, k0_dev12_lt c⟩ : Dev nD) = nb 1 c := by revert c; decide +kernel
theorem dev13_eq (c : Dev nD) : (⟨k0_dev13 c, k0_dev13_lt c⟩ : Dev nD) = nb 2 c := by revert c; decide +kernel
theorem dev14_eq (c : Dev nD) : (⟨k0_dev14 c, k0_dev14_lt c⟩ : Dev nD) = nb 0 c := by revert c; decide +kernel
theorem dev15_eq (c : Dev nD) : (⟨k0_dev15 c, k0_dev15_lt c⟩ : Dev nD) = nb 1 c := by revert c; decide +kernel
theorem dev16_eq (c : Dev nD) : (⟨k0_dev16 c, k0_dev16_lt c⟩ : Dev nD) = nb 1 c := by revert c; decide +kernel
theorem dev17_eq (c : Dev nD) : (⟨k0_dev17 c, k0_dev17_lt c⟩ : Dev nD) = nb 2 c := by revert c; decide +kernel
theorem dev18_eq (c : Dev nD) : (⟨k0_dev18 c, k0_dev18_lt c⟩ : Dev nD) = nb 0 c := by revert c; decide +kernel
theorem dev19_eq (c : Dev nD) : (⟨k0_dev19 c, k0_dev19_lt c⟩ : Dev nD) = nb 0 c := by revert c; decide +kernel
theorem dev20_eq (c : Dev nD) : (⟨k0_dev20 c, k0_dev20_lt c⟩ : Dev nD) = nb 1 c := by revert c; decide +kernel
theorem dev21_eq (c : Dev nD) : (⟨k0_dev21 c, k0_dev21_lt c⟩ : Dev nD) = nb 2 c := by revert c; decide +kernel

theorem off1_send (c : Dev nD) : k0_off1 c 0#32 512#32 = ![0, r0 0, sLo 0 0 c] := by funext a; revert c a; decide +kernel
theorem off1_keep (c : Dev nD) : k0_off1 c 512#32 0#32 = ![0, r0 0, kLo 0 0 c] := by funext a; revert c a; decide +kernel
theorem off2_send (c : Dev nD) : k0_off2 c 0#32 512#32 = ![0, r0 1, sLo 1 0 c] := by funext a; revert c a; decide +kernel
theorem off2_keep (c : Dev nD) : k0_off2 c 512#32 0#32 = ![0, r0 1, kLo 1 0 c] := by funext a; revert c a; decide +kernel
theorem off3_send (c : Dev nD) : k0_off3 c 0#32 512#32 = ![0, r0 2, sLo 2 0 c] := by funext a; revert c a; decide +kernel
theorem off3_keep (c : Dev nD) : k0_off3 c 512#32 0#32 = ![0, r0 2, kLo 2 0 c] := by funext a; revert c a; decide +kernel
theorem off4_eq (c : Dev nD) : k0_off4 c = ![r0 0, kLo 0 0 c] := by funext a; revert c a; decide +kernel
theorem off5_eq (c : Dev nD) : k0_off5 c = ![r0 1, kLo 1 0 c] := by funext a; revert c a; decide +kernel
theorem off6_eq (c : Dev nD) : k0_off6 c = ![r0 2, kLo 2 0 c] := by funext a; revert c a; decide +kernel
theorem off7_eq (c : Dev nD) : k0_off7 c = ![r0 0, kLo 0 0 c] := by funext a; revert c a; decide +kernel
theorem off9_eq (c : Dev nD) : k0_off9 c = ![r0 1, kLo 1 0 c] := by funext a; revert c a; decide +kernel
theorem off11_eq (c : Dev nD) : k0_off11 c = ![r0 2, kLo 2 0 c] := by funext a; revert c a; decide +kernel
theorem off13_eq (c : Dev nD) : k0_off13 c = ![r0 0, kLo 0 1 c] := by funext a; revert c a; decide +kernel
theorem off15_eq (c : Dev nD) : k0_off15 c = ![r0 1, kLo 1 1 c] := by funext a; revert c a; decide +kernel
theorem off17_eq (c : Dev nD) : k0_off17 c = ![r0 2, kLo 2 1 c] := by funext a; revert c a; decide +kernel
theorem off19_eq (c : Dev nD) : k0_off19 c = ![r0 0, kLo 0 2 c] := by funext a; revert c a; decide +kernel
theorem off20_eq (c : Dev nD) : k0_off20 c = ![r0 1, kLo 1 2 c] := by funext a; revert c a; decide +kernel
theorem off21_eq (c : Dev nD) : k0_off21 c = ![r0 2, kLo 2 2 c] := by funext a; revert c a; decide +kernel
theorem off8_send (c : Dev nD) : k0_off8 c 0#32 256#32 = ![r0 0, sLo 0 1 c] := by funext a; revert c a; decide +kernel
theorem off8_keep (c : Dev nD) : k0_off8 c 256#32 0#32 = ![r0 0, kLo 0 1 c] := by funext a; revert c a; decide +kernel
theorem off10_send (c : Dev nD) : k0_off10 c 0#32 256#32 = ![r0 1, sLo 1 1 c] := by funext a; revert c a; decide +kernel
theorem off10_keep (c : Dev nD) : k0_off10 c 256#32 0#32 = ![r0 1, kLo 1 1 c] := by funext a; revert c a; decide +kernel
theorem off12_send (c : Dev nD) : k0_off12 c 0#32 256#32 = ![r0 2, sLo 2 1 c] := by funext a; revert c a; decide +kernel
theorem off12_keep (c : Dev nD) : k0_off12 c 256#32 0#32 = ![r0 2, kLo 2 1 c] := by funext a; revert c a; decide +kernel
theorem off14_send (c : Dev nD) : k0_off14 c 0#32 128#32 = ![r0 0, sLo 0 2 c] := by funext a; revert c a; decide +kernel
theorem off14_keep (c : Dev nD) : k0_off14 c 128#32 0#32 = ![r0 0, kLo 0 2 c] := by funext a; revert c a; decide +kernel
theorem off16_send (c : Dev nD) : k0_off16 c 0#32 128#32 = ![r0 1, sLo 1 2 c] := by funext a; revert c a; decide +kernel
theorem off16_keep (c : Dev nD) : k0_off16 c 128#32 0#32 = ![r0 1, kLo 1 2 c] := by funext a; revert c a; decide +kernel
theorem off18_send (c : Dev nD) : k0_off18 c 0#32 128#32 = ![r0 2, sLo 2 2 c] := by funext a; revert c a; decide +kernel
theorem off18_keep (c : Dev nD) : k0_off18 c 128#32 0#32 = ![r0 2, kLo 2 2 c] := by funext a; revert c a; decide +kernel

end Cert.KernelIdeal.Hyp
-- ==== Proof.Sched.lean ====
import proofs.«901103_g7700000000001104_dist_treered_v7x_i8_m1024_n1024_f32_1_alg».proof.Proof.Tables
import proofs.«901103_g7700000000001104_dist_treered_v7x_i8_m1024_n1024_f32_1_alg».proof.Proof.Gen.KernelIdeal.Skeleton
import proofs.«901103_g7700000000001104_dist_treered_v7x_i8_m1024_n1024_f32_1_alg».proof.Proof.Gen.KernelIdeal.Launch
import proofs.«901103_g7700000000001104_dist_treered_v7x_i8_m1024_n1024_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev barS : Sem sig := (SemArray.scalar (sig.barrier 0 rfl) : Sems sig S_).sem

abbrev dsem (a : Fin 4) (t k : Fin 3) : DmaSem sig :=
  ⟨9 * a.val + 3 * t.val + k.val, by have := a.isLt; have := t.isLt; have := k.isLt; show _ < 42; omega⟩

abbrev lsem (l : Fin 2) (t : Fin 3) : DmaSem sig :=
  ⟨36 + 3 * l.val + t.val, by have := l.isLt; have := t.isLt; show _ < 42; omega⟩

abbrev barCell (c : Dev nD) : GSem nD τ sig := ((c : Thread nD τ), .reg barS)
abbrev dCell (c : Dev nD) (a : Fin 4) (t k : Fin 3) : GSem nD τ sig := ((c : Thread nD τ), .dma (dsem a t k))

abbrev rows : Fin 3 → ℕ | 0 => 344 | 1 => 336 | 2 => 344
abbrev cols : Fin 3 → ℕ | 0 => 512 | 1 => 256 | 2 => 128
abbrev sz (t k : Fin 3) : Fin 2 → ℕ := ![rows t, cols k]

abbrev Sh (t k : Fin 3) : Shape := ⟨2, sz t k⟩

theorem kLo_inb (t k : Fin 3) (c : Dev nD) : ∀ a, (![r0 t, kLo t k c] : Fin 2 → ℕ) a + sz t k a ≤ S1024x1024.size a := by
  revert t k c; decide
theorem sLo_inb (t k : Fin 3) (c : Dev nD) : ∀ a, (![r0 t, sLo t k c] : Fin 2 → ℕ) a + sz t k a ≤ S1024x1024.size a := by
  revert t k c; decide
theorem xk_inb (t : Fin 3) (c : Dev nD) : ∀ a, (![0, r0 t, kLo t 0 c] : Fin 3 → ℕ) a + (![1, rows t, 512] : Fin 3 → ℕ) a ≤ S1x1024x1024.size a := by
  revert t c; decide
theorem xs_inb (t : Fin 3) (c : Dev nD) : ∀ a, (![0, r0 t, sLo t 0 c] : Fin 3 → ℕ) a + (![1, rows t, 512] : Fin 3 → ℕ) a ≤ S1x1024x1024.size a := by
  revert t c; decide
theorem sq3 (t : Fin 3) : (⟨3, ![1, rows t, 512]⟩ : Shape).Squeezes (Sh t 0) := by revert t; decide

abbrev kR (t k : Fin 3) (c : Dev nD) := Rect.unit (s := S1024x1024) ![r0 t, kLo t k c] (sz t k) (kLo_inb t k c)
abbrev sR (t k : Fin 3) (c : Dev nD) := Rect.unit (s := S1024x1024) ![r0 t, sLo t k c] (sz t k) (sLo_inb t k c)

abbrev accM : Memref sig .tc .vmem S1024x1024 .f32 := Memref.whole cc0_scratch0
abbrev outM : Memref sig .tc .hbm S1024x1024 .f32 := Memref.whole main_v1
abbrev xM : Memref sig .tc .hbm S1x1024x1024 .f32 := Memref.whole main_arg0

abbrev accK (t k : Fin 3) (c : Dev nD) : Memref sig .tc .vmem (Sh t k) .f32 :=
  accM.slice (kR t k c) (fun _ => rfl)
abbrev accS (t k : Fin 3) (c : Dev nD) : Memref sig .tc .vmem (Sh t k) .f32 :=
  accM.slice (sR t k c) (fun _ => rfl)

abbrev outK (t : Fin 3) (c : Dev nD) : Memref sig .tc .hbm (Sh t 0) .f32 :=
  outM.slice (kR t 0 c) (fun _ => rfl)
abbrev outS (t : Fin 3) (c : Dev nD) : Memref sig .tc .hbm (Sh t 0) .f32 :=
  outM.slice (sR t 0 c) (fun _ => rfl)

abbrev xK (t : Fin 3) (c : Dev nD) : Memref sig .tc .hbm (Sh t 0) .f32 :=
  (xM.slice (Rect.unit (s := S1x1024x1024) ![0, r0 t, kLo t 0 c] ![1, rows t, 512] (xk_inb t c)) (fun _ => rfl)).squeeze (Sh t 0) (sq3 t)
abbrev xS (t : Fin 3) (c : Dev nD) : Memref sig .tc .hbm (Sh t 0) .f32 :=
  (xM.slice (Rect.unit (s := S1x1024x1024) ![0, r0 t, sLo t 0 c] ![1, rows t, 512] (xs_inb t c)) (fun _ => rfl)).squeeze (Sh t 0) (sq3 t)

abbrev stg : (t k : Fin 3) → Memref sig .tc .vmem (Sh t k) .f32
  | 0, 0 => Memref.whole cc0_scratch1 | 0, 1 => Memref.whole cc0_scratch2 | 0, 2 => Memref.whole cc0_scratch3
  | 1, 0 => Memref.whole cc0_scratch4 | 1, 1 => Memref.whole cc0_scratch5 | 1, 2 => Memref.whole cc0_scratch6
  | 2, 0 => Memref.whole cc0_scratch7 | 2, 1 => Memref.whole cc0_scratch8 | 2, 2 => Memref.whole cc0_scratch9

abbrev xs (c : Dev nD) : Vec F S1x1024x1024 .f32 := m ((c : Thread nD τ).loc main_arg0)

theorem accSl_congr (o o' szv : Fin 2 → ℕ) (h : ∀ a, o a + szv a ≤ S1024x1024.size a) (h' : ∀ a, o' a + szv a ≤ S1024x1024.size a) (e : o = o') :
    accM.slice (Rect.unit (s := S1024x1024) o szv h) (fun _ => rfl) = accM.slice (Rect.unit (s := S1024x1024) o' szv h') (fun _ => rfl) := by
  subst e; rfl
theorem outSl_congr (o o' szv : Fin 2 → ℕ) (h : ∀ a, o a + szv a ≤ S1024x1024.size a) (h' : ∀ a, o' a + szv a ≤ S1024x1024.size a) (e : o = o') :
    outM.slice (Rect.unit (s := S1024x1024) o szv h) (fun _ => rfl) = outM.slice (Rect.unit (s := S1024x1024) o' szv h') (fun _ => rfl) := by
  subst e; rfl
theorem xSl_congr (o o' szv : Fin 3 → ℕ) (h : ∀ a, o a + szv a ≤ S1x1024x1024.size a) (h' : ∀ a, o' a + szv a ≤ S1x1024x1024.size a) (e : o = o') :
    xM.slice (Rect.unit (s := S1x1024x1024) o szv h) (fun _ => rfl) = xM.slice (Rect.unit (s := S1x1024x1024) o' szv h') (fun _ => rfl) := by
  subst e; rfl
end Cert.KernelIdeal.Hyp

end
-- ==== Proof.Pay.lean ====
import proofs.«901103_g7700000000001104_dist_treered_v7x_i8_m1024_n1024_f32_1_alg».proof.Proof.Sched

noncomputable section

namespace Cert.KernelIdeal.Hyp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ UU ℕ

variable (m : (ℓ : Loc nD τ sig) → Buf (Elt F) ℓ)

def dPay (a : Fin 4) (t k : Fin 3) (c : Dev nD) : sProp 𝕄 :=
  match a, t, k with
  | 0, t, 0 => ((xS t c).view.loc (c : Thread nD τ) ↦[(xS t c).view.set]{fullShare} xs m c)
  | 0, _, _ => iprop(emp)
  | 1, 0, 0 => ((stg 0 0).view.loc (c : Thread nD τ) ↦[(stg 0 0).view.set]{fullShare} ((xK 0 c).view.read (Elt F) (xs m (par 0 0 c))))
  | 1, 0, 1 => iprop(((stg 0 1).view.loc (c : Thread nD τ) ↦[(stg 0 1).view.set]{fullShare} ((accK 0 1 c).view.read (Elt F) (A1 (xs m) (par 0 1 c)))) ∗ ((accK 0 1 c).view.loc ((par 0 1 c) : Thread nD τ) ↦[(accK 0 1 c).view.set]{fullShare} (A1 (xs m) (par 0 1 c))))
  | 1, 0, 2 => iprop(((stg 0 2).view.loc (c : Thread nD τ) ↦[(stg 0 2).view.set]{fullShare} ((accK 0 2 c).view.read (Elt F) (A2 (xs m) (par 0 2 c)))) ∗ ((accK 0 2 c).view.loc ((par 0 2 c) : Thread nD τ) ↦[(accK 0 2 c).view.set]{fullShare} (A2 (xs m) (par 0 2 c))))
  | 1, 1, 0 => ((stg 1 0).view.loc (c : Thread nD τ) ↦[(stg 1 0).view.set]{fullShare} ((xK 1 c).view.read (Elt F) (xs m (par 1 0 c))))
  | 1, 1, 1 => iprop(((stg 1 1).view.loc (c : Thread nD τ) ↦[(stg 1 1).view.set]{fullShare} ((accK 1 1 c).view.read (Elt F) (A1 (xs m) (par 1 1 c)))) ∗ ((accK 1 1 c).view.loc ((par 1 1 c) : Thread nD τ) ↦[(accK 1 1 c).view.set]{fullShare} (A1 (xs m) (par 1 1 c))))
  | 1, 1, 2 => iprop(((stg 1 2).view.loc (c : Thread nD τ) ↦[(stg 1 2).view.set]{fullShare} ((accK 1 2 c).view.read (Elt F) (A2 (xs m) (par 1 2 c)))) ∗ ((accK 1 2 c).view.loc ((par 1 2 c) : Thread nD τ) ↦[(accK 1 2 c).view.set]{fullShare} (A2 (xs m) (par 1 2 c))))
  | 1, 2, 0 => ((stg 2 0).view.loc (c : Thread nD τ) ↦[(stg 2 0).view.set]{fullShare} ((xK 2 c).view.read (Elt F) (xs m (par 2 0 c))))
  | 1, 2, 1 => iprop(((stg 2 1).view.loc (c : Thread nD τ) ↦[(stg 2 1).view.set]{fullShare} ((accK 2 1 c).view.read (Elt F) (A1 (xs m) (par 2 1 c)))) ∗ ((accK 2 1 c).view.loc ((par 2 1 c) : Thread nD τ) ↦[(accK 2 1 c).view.set]{fullShare} (A1 (xs m) (par 2 1 c))))
  | 1, 2, 2 => iprop(((stg 2 2).view.loc (c : Thread nD τ) ↦[(stg 2 2).view.set]{fullShare} ((accK 2 2 c).view.read (Elt F) (A2 (xs m) (par 2 2 c)))) ∗ ((accK 2 2 c).view.loc ((par 2 2 c) : Thread nD τ) ↦[(accK 2 2 c).view.set]{fullShare} (A2 (xs m) (par 2 2 c))))
  | 2, t, 0 => ((accK t 0 c).view.loc (c : Thread nD τ) ↦[(accK t 0 c).view.set]{fullShare.left} (B1 (xs m) c))
  | 2, t, 1 => ((accK t 1 c).view.loc (c : Thread nD τ) ↦[(accK t 1 c).view.set]{fullShare} (B2 (xs m) c))
  | 2, t, 2 => ((accK t 2 c).view.loc (c : Thread nD τ) ↦[(accK t 2 c).view.set]{fullShare} (A3 (xs m) c))
  | 3, t, 0 => ((outS t c).view.loc (c : Thread nD τ) ↦[(outS t c).view.set]{fullShare} ((outS t c).view.write (Elt F) (m ((c : Thread nD τ).loc main_v1)) ((accS t 0 c).view.read (Elt F) (B1 (xs m) (par t 0 c))) Finset.univ))
  | 3, t, 1 => ((accS t 1 c).view.loc (c : Thread nD τ) ↦[(accS t 1 c).view.set]{fullShare} ((accS t 1 c).view.write (Elt F) (A1 (xs m) c) ((accS t 1 c).view.read (Elt F) (B2 (xs m) (par t 1 c))) Finset.univ))
  | 3, t, 2 => ((accS t 2 c).view.loc (c : Thread nD τ) ↦[(accS t 2 c).view.set]{fullShare} ((accS t 2 c).view.write (Elt F) (A2 (xs m) c) ((accS t 2 c).view.read (Elt F) (A3 (xs m) (par t 2 c))) Finset.univ))

def barPay (c : Dev nD) (b : Fin 3) : sProp 𝕄 :=
  match b with
  | 0 => iprop((∃ f, ((stg 0 0).view.loc (nb 0 c : Thread nD τ) ↦[(stg 0 0).view.set]{fullShare} f)) ∗ (∃ f, ((stg 2 1).view.loc (nb 0 c : Thread nD τ) ↦[(stg 2 1).view.set]{fullShare} f)) ∗ (∃ f, ((stg 1 2).view.loc (nb 0 c : Thread nD τ) ↦[(stg 1 2).view.set]{fullShare} f)) ∗ ((outK 0 c).view.loc (nb 0 c : Thread nD τ) ↦[(outK 0 c).view.set]{fullShare} (m ((nb 0 c : Thread nD τ).loc main_v1))))
  | 1 => iprop((∃ f, ((stg 1 0).view.loc (nb 1 c : Thread nD τ) ↦[(stg 1 0).view.set]{fullShare} f)) ∗ (∃ f, ((stg 0 1).view.loc (nb 1 c : Thread nD τ) ↦[(stg 0 1).view.set]{fullShare} f)) ∗ (∃ f, ((stg 2 2).view.loc (nb 1 c : Thread nD τ) ↦[(stg 2 2).view.set]{fullShare} f)) ∗ ((outK 1 c).view.loc (nb 1 c : Thread nD τ) ↦[(outK 1 c).view.set]{fullShare} (m ((nb 1 c : Thread nD τ).loc main_v1))))
  | 2 => iprop((∃ f, ((stg 2 0).view.loc (nb 2 c : Thread nD τ) ↦[(stg 2 0).view.set]{fullShare} f)) ∗ (∃ f, ((stg 1 1).view.loc (nb 2 c : Thread nD τ) ↦[(stg 1 1).view.set]{fullShare} f)) ∗ (∃ f, ((stg 0 2).view.loc (nb 2 c : Thread nD τ) ↦[(stg 0 2).view.set]{fullShare} f)) ∗ ((outK 2 c).view.loc (nb 2 c : Thread nD τ) ↦[(outK 2 c).view.set]{fullShare} (m ((nb 2 c : Thread nD τ).loc main_v1))))

def lPay (l : Fin 2) (t : Fin 3) (c : Dev nD) : sProp 𝕄 :=
  match l with
  | 0 => iprop((∃ fd, ((accK t 0 c).view.loc (c : Thread nD τ) ↦[(accK t 0 c).view.set]{fullShare} ((accK t 0 c).view.write (Elt F) fd ((xK t c).view.read (Elt F) (xs m c)) Finset.univ))) ∗ ((xK t c).view.loc (c : Thread nD τ) ↦[(xK t c).view.set]{fullShare} xs m c))
  | 1 => iprop(((outK t c).view.loc (c : Thread nD τ) ↦[(outK t c).view.set]{fullShare} ((outK t c).view.write (Elt F) (m ((c : Thread nD τ).loc main_v1)) ((accK t 0 c).view.read (Elt F) (B1 (xs m) c)) Finset.univ)) ∗ ((accK t 0 c).view.loc (c : Thread nD τ) ↦[(accK t 0 c).view.set]{fullShare.right} (B1 (xs m) c)))

theorem xsl1_send (c : Dev nD) : (Memref.whole main_arg0 : Memref sig .tc .hbm S1x1024x1024 .f32).slice (Rect.unit (s := S1x1024x1024) (k0_off1 c 0#32 512#32) S1x344x512.size (k0_off1_inb c 0)) (fun _ => rfl) = xM.slice (Rect.unit (s := S1x1024x1024) ![0, r0 0, sLo 0 0 c] ![1, rows 0, 512] (xs_inb 0 c)) (fun _ => rfl) := xSl_congr _ _ _ _ _ (off1_send c)
theorem xsl1_keep (c : Dev nD) : (Memref.whole main_arg0 : Memref sig .tc .hbm S1x1024x1024 .f32).slice (Rect.unit (s := S1x1024x1024) (k0_off1 c 512#32 0#32) S1x344x512.size (k0_off1_inb c 1)) (fun _ => rfl) = xM.slice (Rect.unit (s := S1x1024x1024) ![0, r0 0, kLo 0 0 c] ![1, rows 0, 512] (xk_inb 0 c)) (fun _ => rfl) := xSl_congr _ _ _ _ _ (off1_keep c)
theorem xsl2_send (c : Dev nD) : (Memref.whole main_arg0 : Memref sig .tc .hbm S1x1024x1024 .f32).slice (Rect.unit (s := S1x1024x1024) (k0_off2 c 0#32 512#32) S1x336x512.size (k0_off2_inb c 0)) (fun _ => rfl) = xM.slice (Rect.unit (s := S1x1024x1024) ![0, r0 1, sLo 1 0 c] ![1, rows 1, 512] (xs_inb 1 c)) (fun _ => rfl) := xSl_congr _ _ _ _ _ (off2_send c)
theorem xsl2_keep (c : Dev nD) : (Memref.whole main_arg0 : Memref sig .tc .hbm S1x1024x1024 .f32).slice (Rect.unit (s := S1x1024x1024) (k0_off2 c 512#32 0#32) S1x336x512.size (k0_off2_inb c 1)) (fun _ => rfl) = xM.slice (Rect.unit (s := S1x1024x1024) ![0, r0 1, kLo 1 0 c] ![1, rows 1, 512] (xk_inb 1 c)) (fun _ => rfl) := xSl_congr _ _ _ _ _ (off2_keep c)
theorem xsl3_send (c : Dev nD) : (Memref.whole main_arg0 : Memref sig .tc .hbm S1x1024x1024 .f32).slice (Rect.unit (s := S1x1024x1024) (k0_off3 c 0#32 512#32) S1x344x512.size (k0_off3_inb c 0)) (fun _ => rfl) = xM.slice (Rect.unit (s := S1x1024x1024) ![0, r0 2, sLo 2 0 c] ![1, rows 2, 512] (xs_inb 2 c)) (fun _ => rfl) := xSl_congr _ _ _ _ _ (off3_send c)
theorem xsl3_keep (c : Dev nD) : (Memref.whole main_arg0 : Memref sig .tc .hbm S1x1024x1024 .f32).slice (Rect.unit (s := S1x1024x1024) (k0_off3 c 512#32 0#32) S1x344x512.size (k0_off3_inb c 1)) (fun _ => rfl) = xM.slice (Rect.unit (s := S1x1024x1024) ![0, r0 2, kLo 2 0 c] ![1, rows 2, 512] (xk_inb 2 c)) (fun _ => rfl) := xSl_congr _ _ _ _ _ (off3_keep c)
theorem accsl4 (c : Dev nD) : (Memref.whole cc0_scratch0 : Memref sig .tc .vmem S1024x1024 .f32).slice (Rect.unit (s := S1024x1024) (k0_off4 c) S344x512.size (k0_off4_inb c)) (fun _ => rfl) = accK 0 0 c := accSl_congr _ _ _ _ _ (off4_eq c)
theorem outsl4 (c : Dev nD) : (Memref.whole main_v1 : Memref sig .tc .hbm S1024x1024 .f32).slice (Rect.unit (s := S1024x1024) (k0_off4 c) S344x512.size (k0_off4_inb c)) (fun _ => rfl) = outK 0 c := outSl_congr _ _ _ _ _ (off4_eq c)
theorem accsl5 (c : Dev nD) : (Memref.whole cc0_scratch0 : Memref sig .tc .vmem S1024x1024 .f32).slice (Rect.unit (s := S1024x1024) (k0_off5 c) S336x512.size (k0_off5_inb c)) (fun _ => rfl) = accK 1 0 c := accSl_congr _ _ _ _ _ (off5_eq c)
theorem outsl5 (c : Dev nD) : (Memref.whole main_v1 : Memref sig .tc .hbm S1024x1024 .f32).slice (Rect.unit (s := S1024x1024) (k0_off5 c) S336x512.size (k0_off5_inb c)) (fun _ => rfl) = outK 1 c := outSl_congr _ _ _ _ _ (off5_eq c)
theorem accsl6 (c : Dev nD) : (Memref.whole cc0_scratch0 : Memref sig .tc .vmem S1024x1024 .f32).slice (Rect.unit (s := S1024x1024) (k0_off6 c) S344x512.size (k0_off6_inb c)) (fun _ => rfl) = accK 2 0 c := accSl_congr _ _ _ _ _ (off6_eq c)
theorem outsl6 (c : Dev nD) : (Memref.whole main_v1 : Memref sig .tc .hbm S1024x1024 .f32).slice (Rect.unit (s := S1024x1024) (k0_off6 c) S344x512.size (k0_off6_inb c)) (fun _ => rfl) = outK 2 c := outSl_congr _ _ _ _ _ (off6_eq c)
theorem accsl8_send (c : Dev nD) : (Memref.whole cc0_scratch0 : Memref sig .tc .vmem S1024x1024 .f32).slice (Rect.unit (s := S1024x1024) (k0_off8 c 0#32 256#32) S344x256.size (k0_off8_inb c 0)) (fun _ => rfl) = accS 0 1 c := accSl_congr _ _ _ _ _ (off8_send c)
theorem accsl8_keep (c : Dev nD) : (Memref.whole cc0_scratch0 : Memref sig .tc .vmem S1024x1024 .f32).slice (Rect.unit (s := S1024x1024) (k0_off8 c 256#32 0#32) S344x256.size (k0_off8_inb c 1)) (fun _ => rfl) = accK 0 1 c := accSl_congr _ _ _ _ _ (off8_keep c)
theorem accsl10_send (c : Dev nD) : (Memref.whole cc0_scratch0 : Memref sig .tc .vmem S1024x1024 .f32).slice (Rect.unit (s := S1024x1024) (k0_off10 c 0#32 256#32) S336x256.size (k0_off10_inb c 0)) (fun _ => rfl) = accS 1 1 c := accSl_congr _ _ _ _ _ (off10_send c)
theorem accsl10_keep (c : Dev nD) : (Memref.whole cc0_scratch0 : Memref sig .tc .vmem S1024x1024 .f32).slice (Rect.unit (s := S1024x1024) (k0_off10 c 256#32 0#32) S336x256.size (k0_off10_inb c 1)) (fun _ => rfl) = accK 1 1 c := accSl_congr _ _ _ _ _ (off10_keep c)
theorem accsl12_send (c : Dev nD) : (Memref.whole cc0_scratch0 : Memref sig .tc .vmem S1024x1024 .f32).slice (Rect.unit (s := S1024x1024) (k0_off12 c 0#32 256#32) S344x256.size (k0_off12_inb c 0)) (fun _ => rfl) = accS 2 1 c := accSl_congr _ _ _ _ _ (off12_send c)
theorem accsl12_keep (c : Dev nD) : (Memref.whole cc0_scratch0 : Memref sig .tc .vmem S1024x1024 .f32).slice (Rect.unit (s := S1024x1024) (k0_off12 c 256#32 0#32) S344x256.size (k0_off12_inb c 1)) (fun _ => rfl) = accK 2 1 c := accSl_congr _ _ _ _ _ (off12_keep c)
theorem accsl14_send (c : Dev nD) : (Memref.whole cc0_scratch0 : Memref sig .tc .vmem S1024x1024 .f32).slice (Rect.unit (s := S1024x1024) (k0_off14 c 0#32 128#32) S344x128.size (k0_off14_inb c 0)) (fun _ => rfl) = accS 0 2 c := accSl_congr _ _ _ _ _ (off14_send c)
theorem accsl14_keep (c : Dev nD) : (Memref.whole cc0_scratch0 : Memref sig .tc .vmem S1024x1024 .f32).slice (Rect.unit (s := S1024x1024) (k0_off14 c 128#32 0#32) S344x128.size (k0_off14_inb c 1)) (fun _ => rfl) = accK 0 2 c := accSl_congr _ _ _ _ _ (off14_keep c)
theorem accsl16_send (c : Dev nD) : (Memref.whole cc0_scratch0 : Memref sig .tc .vmem S1024x1024 .f32).slice (Rect.unit (s := S1024x1024) (k0_off16 c 0#32 128#32) S336x128.size (k0_off16_inb c 0)) (fun _ => rfl) = accS 1 2 c := accSl_congr _ _ _ _ _ (off16_send c)
theorem accsl16_keep (c : Dev nD) : (Memref.whole cc0_scratch0 : Memref sig .tc .vmem S1024x1024 .f32).slice (Rect.unit (s := S1024x1024) (k0_off16 c 128#32 0#32) S336x128.size (k0_off16_inb c 1)) (fun _ => rfl) = accK 1 2 c := accSl_congr _ _ _ _ _ (off16_keep c)
theorem accsl18_send (c : Dev nD) : (Memref.whole cc0_scratch0 : Memref sig .tc .vmem S1024x1024 .f32).slice (Rect.unit (s := S1024x1024) (k0_off18 c 0#32 128#32) S344x128.size (k0_off18_inb c 0)) (fun _ => rfl) = accS 2 2 c := accSl_congr _ _ _ _ _ (off18_send c)
theorem accsl18_keep (c : Dev nD) : (Memref.whole cc0_scratch0 : Memref sig .tc .vmem S1024x1024 .f32).slice (Rect.unit (s := S1024x1024) (k0_off18 c 128#32 0#32) S344x128.size (k0_off18_inb c 1)) (fun _ => rfl) = accK 2 2 c := accSl_congr _ _ _ _ _ (off18_keep c)
end Cert.KernelIdeal.Hyp

end
-- ==== Proof.Proto.lean ====
import proofs.«901103_g7700000000001104_dist_treered_v7x_i8_m1024_n1024_f32_1_alg».proof.Proof.Pay

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

abbrev aOf (j : DmaSem sig) : Fin 4 := ⟨min (j.val / 9) 3, by omega⟩
abbrev tOfS (j : DmaSem sig) : Fin 3 := ⟨(j.val / 3) % 3, Nat.mod_lt _ (by decide)⟩
abbrev kOfS (j : DmaSem sig) : Fin 3 := ⟨j.val % 3, Nat.mod_lt _ (by decide)⟩

theorem aOf_dsem (a : Fin 4) (t k : Fin 3) : aOf (dsem a t k) = a := by revert a t k; decide
theorem tOfS_dsem (a : Fin 4) (t k : Fin 3) : tOfS (dsem a t k) = t := by revert a t k; decide
theorem kOfS_dsem (a : Fin 4) (t k : Fin 3) : kOfS (dsem a t k) = k := by revert a t k; decide
theorem dsem_lt (a : Fin 4) (t k : Fin 3) : (dsem a t k).val < 36 := by revert a t k; decide

abbrev lOfS (j : DmaSem sig) : Fin 2 := ⟨((j.val - 36) / 3) % 2, Nat.mod_lt _ (by decide)⟩
theorem lOfS_lsem (l : Fin 2) (t : Fin 3) : lOfS (lsem l t) = l := by revert l t; decide
theorem kOfS_lsem (l : Fin 2) (t : Fin 3) : kOfS (lsem l t) = t := by revert l t; decide
theorem lsem_ge (l : Fin 2) (t : Fin 3) : ¬ (lsem l t).val < 36 := by revert l t; decide

abbrev lCell (c : Dev nD) (l : Fin 2) (t : Fin 3) : GSem nD τ sig := ((c : Thread nD τ), .dma (lsem l t))

def amt (t k : Fin 3) : ℕ := (stg t k).view.dmaCredit
theorem amt_pos (t k : Fin 3) : 0 < amt t k := by
  fin_cases t <;> fin_cases k <;> exact View.dmaCredit_pos _ (by decide)

def Rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma j => if j.val < 36 then amt (tOfS j) (kOfS j) else amt (kOfS j) 0
  payload g _ d := match g.2 with
    | .reg _ => barPay m g.1.1 d
    | .dma j => if j.val < 36 then dPay m (aOf j) (tOfS j) (kOfS j) g.1.1 else lPay m (lOfS j) (kOfS j) g.1.1
  amount_pos g _ _ _ := by
    cases g.2 with
    | reg _ => exact Nat.one_pos
    | dma j => show 0 < (if j.val < 36 then amt (tOfS j) (kOfS j) else amt (kOfS j) 0); split <;> exact amt_pos _ _

section Tables
variable (c : Dev nD) (a : Fin 4) (t k : Fin 3)

theorem duties_bar : (Rd (F := F) m).duties (barCell c) 0 = Finset.univ := by dsimp only [Rd]; exact if_pos ⟨rfl, rfl⟩
theorem duties_d : (Rd (F := F) m).duties (dCell c a t k) 0 = {0} := by
  dsimp only [Rd]; exact if_pos ⟨rfl, rfl⟩
theorem duties_later (g : GSem nD τ sig) : ∀ r, 1 ≤ r → (Rd (F := F) m).duties g r = ∅ :=
  fun r hr => if_neg fun h => by omega
theorem amount_bar (d : Fin 3) : (Rd (F := F) m).amount (barCell c) 0 d = 1 := rfl
theorem amount_d (d : Fin 3) : (Rd (F := F) m).amount (dCell c a t k) 0 d = amt t k :=
  (if_pos (dsem_lt a t k)).trans (by rw [tOfS_dsem, kOfS_dsem])
theorem payload_bar (d : Fin 3) : (Rd (F := F) m).payload (barCell c) 0 d = barPay m c d := rfl
theorem payload_d (d : Fin 3) : (Rd (F := F) m).payload (dCell c a t k) 0 d = dPay m a t k c :=
  (if_pos (dsem_lt a t k)).trans (by rw [aOf_dsem, tOfS_dsem, kOfS_dsem])
theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_d : (Rd (F := F) m).expect (dCell c a t k) 0 = amt t k := by
  unfold Schedule.expect Schedule.amountOf; rw [duties_d, Finset.sum_singleton, amount_d]

theorem duties_l (l : Fin 2) : (Rd (F := F) m).duties (lCell c l t) 0 = {0} := by
  dsimp only [Rd]; exact if_pos ⟨rfl, rfl⟩
theorem amount_l (l : Fin 2) (d : Fin 3) : (Rd (F := F) m).amount (lCell c l t) 0 d = amt t 0 :=
  (if_neg (lsem_ge l t)).trans (by rw [kOfS_lsem])
theorem payload_l (l : Fin 2) (d : Fin 3) : (Rd (F := F) m).payload (lCell c l t) 0 d = lPay m l t c :=
  (if_neg (lsem_ge l t)).trans (by rw [lOfS_lsem, kOfS_lsem])
theorem expect_l (l : Fin 2) : (Rd (F := F) m).expect (lCell c l t) 0 = amt t 0 := by
  unfold Schedule.expect Schedule.amountOf; rw [duties_l, Finset.sum_singleton, amount_l]

end Tables

def owedBar (c : Dev nD) : CellTallies nD τ sig Unit :=
  tallyAt (barCell (nb 0 c)) () 1 + tallyAt (barCell (nb 1 c)) () 1 + tallyAt (barCell (nb 2 c)) () 1

def owedRow (a : Fin 4) (t : Fin 3) (c : Dev nD) : CellTallies nD τ sig Unit :=
  tallyAt (dCell (par t 0 c) a t 0) () (amt t 0) + tallyAt (dCell (par t 1 c) a t 1) () (amt t 1) + tallyAt (dCell (par t 2 c) a t 2) () (amt t 2)
def O₀ (c : Dev nD) : CellTallies nD τ sig Unit :=
  owedBar c + (owedRow 1 0 c + owedRow 1 1 c + owedRow 1 2 c) + (owedRow 3 0 c + owedRow 3 1 c + owedRow 3 2 c)

def L (g : GSem nD τ sig) : Finset Unit := if g.1.2 = .tc then {()} else ∅

def lv (g : GSem nD τ sig) (_ : Unit) : ℕ :=
  match g.2 with
  | .reg _ => 1
  | .dma j => if 9 ≤ j.val ∧ j.val < 18 then 2 + 3 * (j.val % 3) + (j.val / 3) % 3
      else if 27 ≤ j.val ∧ j.val < 36 then 2 + 3 * (5 - j.val % 3) + (j.val / 3) % 3 else 0

theorem L_of_ne (g : GSem nD τ sig) (h : g.1.2 ≠ .tc) : L g = ∅ := if_neg h
theorem L_tc (c : Dev nD) (sm : SemLoc sig) : L ((c : Thread nD τ), sm) = {()} := if_pos rfl

abbrev csem (i : Fin 43) : SemLoc sig := if h : i.val = 0 then .reg barS else .dma ⟨i.val - 1, by have := i.isLt; show _ < 42; omega⟩
abbrev kcell (ci : Dev nD × Fin 43) : GSem nD τ sig := ((ci.1 : Thread nD τ), csem ci.2)
abbrev cidx (a : Fin 4) (t k : Fin 3) : Fin 43 := ⟨1 + (9 * a.val + 3 * t.val + k.val), by have := a.isLt; have := t.isLt; have := k.isLt; omega⟩
abbrev lidx (l : Fin 2) (t : Fin 3) : Fin 43 := ⟨37 + (3 * l.val + t.val), by have := l.isLt; have := t.isLt; omega⟩
theorem kcell_lidx (c : Dev nD) (l : Fin 2) (t : Fin 3) : kcell (c, lidx l t) = lCell c l t := by
  fin_cases l <;> fin_cases t <;> rfl
theorem kcell_cidx (c : Dev nD) (a : Fin 4) (t k : Fin 3) : kcell (c, cidx a t k) = dCell c a t k := by
  revert a t k; intro a t k; fin_cases a <;> fin_cases t <;> fin_cases k <;> rfl

def records (K : Dev nD × Fin 43 → ℕ) : sProp 𝕄 :=
  iprop((bigSep Finset.univ fun ci : Dev nD × Fin 43 => cellInv ER (Rd m) (K ci) (kcell ci))
    ∗ bigSep Finset.univ fun ci : Dev nD × Fin 43 => reached ER (kcell ci) 0)

instance records_persistent (K : Dev nD × Fin 43 → ℕ) : BI.Persistent (records m K) := by unfold records; infer_instance

def payToks (c : Dev nD) : sProp 𝕄 :=
  iprop((bigSep Finset.univ fun b : Fin 3 => dutyTok ER (barCell (nb b c)) 0 b)
    ∗ (bigSep Finset.univ fun tk : Fin 3 × Fin 3 =>
        iprop(dutyTok ER (dCell c 0 tk.1 tk.2) 0 0 ∗ dutyTok ER (dCell (par tk.1 tk.2 c) 1 tk.1 tk.2) 0 0
          ∗ dutyTok ER (dCell c 2 tk.1 tk.2) 0 0 ∗ dutyTok ER (dCell (par tk.1 tk.2 c) 3 tk.1 tk.2) 0 0))
    ∗ bigSep Finset.univ fun lt : Fin 2 × Fin 3 => dutyTok ER (lCell c lt.1 lt.2) 0 0)

def ghost (K : Dev nD × Fin 43 → ℕ) (c : Dev nD) : sProp 𝕄 :=
  iprop(records m K ∗ (bigSep Finset.univ fun i : Fin 43 => atPos ER (kcell (c, i)) 0 ∅ 0) ∗ payToks c)

def creds (c : Dev nD) : sProp 𝕄 :=
  iprop(cred (tallyAt (barCell c) () 3)
    ∗ bigSep Finset.univ fun tk : Fin 3 × Fin 3 =>
        iprop(cred (tallyAt (dCell c 1 tk.1 tk.2) () (amt tk.1 tk.2)) ∗ cred (tallyAt (dCell c 3 tk.1 tk.2) () (amt tk.1 tk.2))))

def start (c : Dev nD) : sProp 𝕄 :=
  iprop((∃ K, ghost m K c) ∗ creds c ∗ levAts L lv
    ∗ (((c : Thread nD τ).loc main_arg0) ↦{fullShare} m ((c : Thread nD τ).loc main_arg0))
    ∗ (((c : Thread nD τ).loc main_v1) ↦{fullShare} m ((c : Thread nD τ).loc main_v1)))

def Φ₀ (c : Dev nD) : sProp 𝕄 := iprop(start m c ∗ Pipeline.scopedRest (Ix := Unit) (Name := ℕ) (U := UU) (Lvl := ℕ) (Val := Elt F) cfg0.spec c)

abbrev osem : Fin 42 → SemLoc sig := fun j => .dma j

def Φ₁ (c : Dev nD) : sProp 𝕄 :=
  iprop((((c : Thread nD τ).loc main_arg0) ↦{fullShare} m ((c : Thread nD τ).loc main_arg0))
    ∗ (((c : Thread nD τ).loc main_v1) ↦{fullShare} (B0 (xs m) c : Vec F S1024x1024 .f32))
    ∗ Pipeline.ownSems0 (Ix := Unit) (Name := ℕ) (U := UU) (Lvl := ℕ) (Val := Elt F) (τ := τ) osem c
    ∗ Pipeline.scopedRest (Ix := Unit) (Name := ℕ) (U := UU) (Lvl := ℕ) (Val := Elt F) cfg0.spec c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

def QC : PUnit × MemSt nD τ sig (Elt F) → Prop := fun r =>
  ∀ c : Dev nD, r.2.mem ((c : Thread nD τ).loc main_v1) = (B0 (xs m) c : Vec F S1024x1024 .f32)
    ∧ r.2.mem ((c : Thread nD τ).loc main_arg0) = m ((c : Thread nD τ).loc main_arg0)

end Cert.KernelIdeal.Hyp

end
-- ==== Proof.Prep.lean ====
import proofs.«901103_g7700000000001104_dist_treered_v7x_i8_m1024_n1024_f32_1_alg».proof.Proof.Proto

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem inv_k (K : Dev nD × Fin 43 → ℕ) (ci : Dev nD × Fin 43) : records m K ⊢ cellInv ER (Rd m) (K ci) (kcell ci) := by
  unfold records
  refine BIBase.Entails.trans ?_ (bigSep_elim (Φ := fun ci : Dev nD × Fin 43 => (cellInv ER (Rd m) (K ci) (kcell ci) : sProp 𝕄)) (Finset.mem_univ ci))
  iintro ⟨HI, -⟩; iexact HI
theorem reached_k (K : Dev nD × Fin 43 → ℕ) (ci : Dev nD × Fin 43) : records m K ⊢ reached ER (kcell ci) 0 := by
  unfold records
  refine BIBase.Entails.trans ?_ (bigSep_elim (Φ := fun ci : Dev nD × Fin 43 => (reached ER (kcell ci) 0 : sProp 𝕄)) (Finset.mem_univ ci))
  iintro ⟨-, HR⟩; iexact HR
theorem inv_bar (K : Dev nD × Fin 43 → ℕ) (d : Dev nD) : records m K ⊢ cellInv ER (Rd m) (K (d, 0)) (barCell d) := inv_k m K (d, 0)
theorem reached_bar (K : Dev nD × Fin 43 → ℕ) (d : Dev nD) : records m K ⊢ reached ER (barCell d) 0 := reached_k m K (d, 0)
theorem inv_d (K : Dev nD × Fin 43 → ℕ) (d : Dev nD) (a : Fin 4) (t k : Fin 3) :
    records m K ⊢ cellInv ER (Rd m) (K (d, cidx a t k)) (dCell d a t k) := by
  rw [← kcell_cidx d a t k]; exact inv_k m K _
theorem reached_d (K : Dev nD × Fin 43 → ℕ) (d : Dev nD) (a : Fin 4) (t k : Fin 3) : records m K ⊢ reached ER (dCell d a t k) 0 := by
  rw [← kcell_cidx d a t k]; exact reached_k m K _
theorem inv_l (K : Dev nD × Fin 43 → ℕ) (d : Dev nD) (l : Fin 2) (t : Fin 3) :
    records m K ⊢ cellInv ER (Rd m) (K (d, lidx l t)) (lCell d l t) := by
  rw [← kcell_lidx d l t]; exact inv_k m K _
theorem reached_l (K : Dev nD × Fin 43 → ℕ) (d : Dev nD) (l : Fin 2) (t : Fin 3) : records m K ⊢ reached ER (lCell d l t) 0 := by
  rw [← kcell_lidx d l t]; exact reached_k m K _

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin33 (Φ : Fin 3 × Fin 3 → sProp 𝕄) :
    bigSep Finset.univ Φ = iprop(Φ (0, 0) ∗ Φ (1, 0) ∗ Φ (2, 0) ∗ Φ (0, 1) ∗ Φ (1, 1) ∗ Φ (2, 1) ∗ Φ (0, 2) ∗ Φ (1, 2) ∗ Φ (2, 2)) :=
  bigSep_univ_eq_bigSepL [(0, 0), (1, 0), (2, 0), (0, 1), (1, 1), (2, 1), (0, 2), (1, 2), (2, 2)] (by decide) (by decide) Φ
theorem bigSep_fin23 (Φ : Fin 2 × Fin 3 → sProp 𝕄) :
    bigSep Finset.univ Φ = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ

-- A printed part of the body at the buffers the launch calls the body with.
abbrev atBufs {β : Sort _}
    (f : (a0 : Memref sig .tc .hbm S1x1024x1024 .f32) → a0.IsWhole → (a1 : Memref sig .tc .hbm S1024x1024 .f32) → a1.IsWhole →
      (a2 : Memref sig .tc .vmem S1024x1024 .f32) → a2.IsWhole → (a3 : Memref sig .tc .vmem S344x512 .f32) → a3.IsWhole →
      (a4 : Memref sig .tc .vmem S344x256 .f32) → a4.IsWhole → (a5 : Memref sig .tc .vmem S344x128 .f32) → a5.IsWhole →
      (a6 : Memref sig .tc .vmem S336x512 .f32) → a6.IsWhole → (a7 : Memref sig .tc .vmem S336x256 .f32) → a7.IsWhole →
      (a8 : Memref sig .tc .vmem S336x128 .f32) → a8.IsWhole → (a9 : Memref sig .tc .vmem S344x512 .f32) → a9.IsWhole →
      (a10 : Memref sig .tc .vmem S344x256 .f32) → a10.IsWhole → (a11 : Memref sig .tc .vmem S344x128 .f32) → a11.IsWhole →
      DmaSems sig S3x3 → DmaSems sig S3x3 → DmaSems sig S3x3 → DmaSems sig S3x3 → DmaSems sig S3 → DmaSems sig S3 → β) : β :=
  f (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15

end Cert.KernelIdeal.Hyp

end
-- ==== Proof.Levels.lean ====
import proofs.«901103_g7700000000001104_dist_treered_v7x_i8_m1024_n1024_f32_1_alg».proof.Proof.Proto

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem mayWait_cut (c : Dev nD) (sm : SemLoc sig) (O : CellTallies nD τ sig Unit) (n : ℕ)
    (hw : lv ((c : Thread nD τ), sm) () ≤ n)
    (hO : ∀ (g : GSem nD τ sig) (u : Unit), 0 < O g u → g.1.2 = .tc ∧ n < lv g u) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hw)
    (fun g u hg => (hO g u hg).2)

theorem pos_tally {g' g : GSem nD τ sig} {n : ℕ} {u : Unit} (h : 0 < (tallyAt g' () n : CellTallies nD τ sig Unit) g u) : g = g' := by
  rw [tallyAt_apply] at h
  by_contra hne
  rw [if_neg (fun h' => hne h'.1)] at h
  exact Nat.lt_irrefl 0 h

theorem lv_bar (d : Dev nD) : lv (barCell d) () = 1 := rfl
theorem lv_dep (d : Dev nD) (t k : Fin 3) : lv (dCell d 0 t k) () = 0 := by fin_cases t <;> fin_cases k <;> rfl
theorem lv_land (d : Dev nD) (t k : Fin 3) : lv (dCell d 1 t k) () = 2 + 3 * k.val + t.val := by fin_cases t <;> fin_cases k <;> rfl
theorem lv_bdep (d : Dev nD) (t k : Fin 3) : lv (dCell d 2 t k) () = 0 := by fin_cases t <;> fin_cases k <;> rfl
theorem lv_bland (d : Dev nD) (t k : Fin 3) : lv (dCell d 3 t k) () = 2 + 3 * (5 - k.val) + t.val := by fin_cases t <;> fin_cases k <;> rfl
theorem lv_local (d : Dev nD) (l : Fin 2) (t : Fin 3) : lv (((d : Thread nD τ), .dma (lsem l t)) : GSem nD τ sig) () = 0 := by fin_cases l <;> fin_cases t <;> rfl

end Cert.KernelIdeal.Hyp

end
-- ==== Proof.Payer.lean ====
import proofs.«901103_g7700000000001104_dist_treered_v7x_i8_m1024_n1024_f32_1_alg».proof.Proof.Proto

noncomputable section

namespace Cert.KernelIdeal.Hyp

open Cert.KernelIdeal Cert.KernelIdeal.Gen
open Idealize.ShloMosaic
open Idealize.ShloMosaic.TcCoe
open Idealize.SL Idealize.SL.RA Idealize.SL.BI
open scoped Idealize.SL.BI
open Idealize.SL.BI.BIBase

variable {F : FTy → Type} [FloatOps F]

local notation "𝕄" => MT nD τ sig Unit (Elt F) ℕ UU ℕ

variable (m : (ℓ : Loc nD τ sig) → Buf (Elt F) ℓ)

theorem par_invol (t k : Fin 3) (c : Dev nD) : par t k (par t k c) = c := nb_nb (t + k) c

theorem kLo_nbr (b : Fin 3) (c : Dev nD) : kLo b 0 (nb b c) = sLo b 0 c := by revert b c; decide

section Owner
variable (t : Fin 3) (c : Dev nD)

theorem payload_own_00 : (Rd (F := F) m).payload (dCell c 0 t 0) 0 0 = ((xS t c).view.loc (c : Thread nD τ) ↦[(xS t c).view.set]{fullShare} xs m c) := by
  rw [payload_d]; rfl
theorem payload_own_10_0 (c : Dev nD) : (Rd (F := F) m).payload (dCell c 1 0 0) 0 0
    = ((stg 0 0).view.loc (c : Thread nD τ) ↦[(stg 0 0).view.set]{fullShare} ((xK 0 c).view.read (Elt F) (xs m (par 0 0 c)))) := by
  rw [payload_d]; rfl
theorem payload_own_11_0 (c : Dev nD) : (Rd (F := F) m).payload (dCell c 1 0 1) 0 0
    = iprop(((stg 0 1).view.loc (c : Thread nD τ) ↦[(stg 0 1).view.set]{fullShare} ((accK 0 1 c).view.read (Elt F) (A1 (xs m) (par 0 1 c))))
        ∗ ((accK 0 1 c).view.loc (par 0 1 c : Thread nD τ) ↦[(accK 0 1 c).view.set]{fullShare} (A1 (xs m) (par 0 1 c)))) := by
  rw [payload_d]; rfl
theorem payload_own_12_0 (c : Dev nD) : (Rd (F := F) m).payload (dCell c 1 0 2) 0 0
    = iprop(((stg 0 2).view.loc (c : Thread nD τ) ↦[(stg 0 2).view.set]{fullShare} ((accK 0 2 c).view.read (Elt F) (A2 (xs m) (par 0 2 c))))
        ∗ ((accK 0 2 c).view.loc (par 0 2 c : Thread nD τ) ↦[(accK 0 2 c).view.set]{fullShare} (A2 (xs m) (par 0 2 c)))) := by
  rw [payload_d]; rfl
theorem payload_own_10_1 (c : Dev nD) : (Rd (F := F) m).payload (dCell c 1 1 0) 0 0
    = ((stg 1 0).view.loc (c : Thread nD τ) ↦[(stg 1 0).view.set]{fullShare} ((xK 1 c).view.read (Elt F) (xs m (par 1 0 c)))) := by
  rw [payload_d]; rfl
theorem payload_own_11_1 (c : Dev nD) : (Rd (F := F) m).payload (dCell c 1 1 1) 0 0
    = iprop(((stg 1 1).view.loc (c : Thread nD τ) ↦[(stg 1 1).view.set]{fullShare} ((accK 1 1 c).view.read (Elt F) (A1 (xs m) (par 1 1 c))))
        ∗ ((accK 1 1 c).view.loc (par 1 1 c : Thread nD τ) ↦[(accK 1 1 c).view.set]{fullShare} (A1 (xs m) (par 1 1 c)))) := by
  rw [payload_d]; rfl
theorem payload_own_12_1 (c : Dev nD) : (Rd (F := F) m).payload (dCell c 1 1 2) 0 0
    = iprop(((stg 1 2).view.loc (c : Thread nD τ) ↦[(stg 1 2).view.set]{fullShare} ((accK 1 2 c).view.read (Elt F) (A2 (xs m) (par 1 2 c))))
        ∗ ((accK 1 2 c).view.loc (par 1 2 c : Thread nD τ) ↦[(accK 1 2 c).view.set]{fullShare} (A2 (xs m) (par 1 2 c)))) := by
  rw [payload_d]; rfl
theorem payload_own_10_2 (c : Dev nD) : (Rd (F := F) m).payload (dCell c 1 2 0) 0 0
    = ((stg 2 0).view.loc (c : Thread nD τ) ↦[(stg 2 0).view.set]{fullShare} ((xK 2 c).view.read (Elt F) (xs m (par 2 0 c)))) := by
  rw [payload_d]; rfl
theorem payload_own_11_2 (c : Dev nD) : (Rd (F := F) m).payload (dCell c 1 2 1) 0 0
    = iprop(((stg 2 1).view.loc (c : Thread nD τ) ↦[(stg 2 1).view.set]{fullShare} ((accK 2 1 c).view.read (Elt F) (A1 (xs m) (par 2 1 c))))
        ∗ ((accK 2 1 c).view.loc (par 2 1 c : Thread nD τ) ↦[(accK 2 1 c).view.set]{fullShare} (A1 (xs m) (par 2 1 c)))) := by
  rw [payload_d]; rfl
theorem payload_own_12_2 (c : Dev nD) : (Rd (F := F) m).payload (dCell c 1 2 2) 0 0
    = iprop(((stg 2 2).view.loc (c : Thread nD τ) ↦[(stg 2 2).view.set]{fullShare} ((accK 2 2 c).view.read (Elt F) (A2 (xs m) (par 2 2 c))))
        ∗ ((accK 2 2 c).view.loc (par 2 2 c : Thread nD τ) ↦[(accK 2 2 c).view.set]{fullShare} (A2 (xs m) (par 2 2 c)))) := by
  rw [payload_d]; rfl
theorem payload_own_20 : (Rd (F := F) m).payload (dCell c 2 t 0) 0 0
    = ((accK t 0 c).view.loc (c : Thread nD τ) ↦[(accK t 0 c).view.set]{fullShare.left} (B1 (xs m) c)) := by
  rw [payload_d]; rfl
theorem payload_own_21 : (Rd (F := F) m).payload (dCell c 2 t 1) 0 0
    = ((accK t 1 c).view.loc (c : Thread nD τ) ↦[(accK t 1 c).view.set]{fullShare} (B2 (xs m) c)) := by
  rw [payload_d]; rfl
theorem payload_own_22 : (Rd (F := F) m).payload (dCell c 2 t 2) 0 0
    = ((accK t 2 c).view.loc (c : Thread nD τ) ↦[(accK t 2 c).view.set]{fullShare} (A3 (xs m) c)) := by
  rw [payload_d]; rfl
theorem payload_own_30 : (Rd (F := F) m).payload (dCell c 3 t 0) 0 0
    = ((outS t c).view.loc (c : Thread nD τ) ↦[(outS t c).view.set]{fullShare}
        ((outS t c).view.write (Elt F) (m ((c : Thread nD τ).loc main_v1)) ((accS t 0 c).view.read (Elt F) (B1 (xs m) (par t 0 c))) Finset.univ)) := by
  rw [payload_d]; rfl
theorem payload_own_31 : (Rd (F := F) m).payload (dCell c 3 t 1) 0 0
    = ((accS t 1 c).view.loc (c : Thread nD τ) ↦[(accS t 1 c).view.set]{fullShare}
        ((accS t 1 c).view.write (Elt F) (A1 (xs m) c) ((accS t 1 c).view.read (Elt F) (B2 (xs m) (par t 1 c))) Finset.univ)) := by
  rw [payload_d]; rfl
theorem payload_own_32 : (Rd (F := F) m).payload (dCell c 3 t 2) 0 0
    = ((accS t 2 c).view.loc (c : Thread nD τ) ↦[(accS t 2 c).view.set]{fullShare}
        ((accS t 2 c).view.write (Elt F) (A2 (xs m) c) ((accS t 2 c).view.read (Elt F) (A3 (xs m) (par t 2 c))) Finset.univ)) := by
  rw [payload_d]; rfl

end Owner

theorem payload_bar_give0 (c : Dev nD) : (Rd (F := F) m).payload (barCell (nb 0 c)) 0 0
    = iprop((∃ f, ((c : Thread nD τ).loc cc0_scratch1) ↦{fullShare} f) ∗ (∃ f, ((c : Thread nD τ).loc cc0_scratch8) ↦{fullShare} f) ∗ (∃ f, ((c : Thread nD τ).loc cc0_scratch6) ↦{fullShare} f)
        ∗ ((outS 0 c).view.loc (c : Thread nD τ) ↦[(outS 0 c).view.set]{fullShare} (m ((c : Thread nD τ).loc main_v1)))) := by
  simp only [payload_bar, barPay, outK, kR, View.set_whole]; rw [nb_nb]
  generalize kLo_inb _ _ (nb _ c) = h; revert h; rw [kLo_nbr]; exact fun _ => rfl

theorem payload_bar_give1 (c : Dev nD) : (Rd (F := F) m).payload (barCell (nb 1 c)) 0 1
    = iprop((∃ f, ((c : Thread nD τ).loc cc0_scratch4) ↦{fullShare} f) ∗ (∃ f, ((c : Thread nD τ).loc cc0_scratch2) ↦{fullShare} f) ∗ (∃ f, ((c : Thread nD τ).loc cc0_scratch9) ↦{fullShare} f)
        ∗ ((outS 1 c).view.loc (c : Thread nD τ) ↦[(outS 1 c).view.set]{fullShare} (m ((c : Thread nD τ).loc main_v1)))) := by
  simp only [payload_bar, barPay, outK, kR, View.set_whole]; rw [nb_nb]
  generalize kLo_inb _ _ (nb _ c) = h; revert h; rw [kLo_nbr]; exact fun _ => rfl

theorem payload_bar_give2 (c : Dev nD) : (Rd (F := F) m).payload (barCell (nb 2 c)) 0 2
    = iprop((∃ f, ((c : Thread nD τ).loc cc0_scratch7) ↦{fullShare} f) ∗ (∃ f, ((c : Thread nD τ).loc cc0_scratch5) ↦{fullShare} f) ∗ (∃ f, ((c : Thread nD τ).loc cc0_scratch3) ↦{fullShare} f)
        ∗ ((outS 2 c).view.loc (c : Thread nD τ) ↦[(outS 2 c).view.set]{fullShare} (m ((c : Thread nD τ).loc main_v1)))) := by
  simp only [payload_bar, barPay, outK, kR, View.set_whole]; rw [nb_nb]
  generalize kLo_inb _ _ (nb _ c) = h; revert h; rw [kLo_nbr]; exact fun _ => rfl

end Cert.KernelIdeal.Hyp

end
-- ==== Proof.Store.lean ====
import proofs.«901103_g7700000000001104_dist_treered_v7x_i8_m1024_n1024_f32_1_alg».proof.Proof.Proto

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

instance dPay_storable (a : Fin 4) (t k : Fin 3) (c : Dev nD) : BI.Storable (upEmb : UEmb _ 𝕄) (dPay (F := F) m a t k c) := by
  unfold dPay; split <;> infer_instance
set_option synthInstance.maxHeartbeats 400000 in
instance barPay_storable (c : Dev nD) (b : Fin 3) : BI.Storable (upEmb : UEmb _ 𝕄) (barPay (F := F) m c b) := by
  unfold barPay; split <;> infer_instance
set_option synthInstance.maxHeartbeats 400000 in
instance lPay_storable (l : Fin 2) (t : Fin 3) (c : Dev nD) : BI.Storable (upEmb : UEmb _ 𝕄) (lPay (F := F) m l t c) := by
  unfold lPay; split <;> infer_instance
instance Rd_payload_storable (g : GSem nD τ sig) (r : ℕ) (d : Fin 3) :
    BI.Storable (upEmb : UEmb _ 𝕄) ((Rd (F := F) m).payload g r d) := by
  show BI.Storable upEmb (match g.2 with
    | .reg _ => barPay m g.1.1 d
    | .dma j => if j.val < 36 then dPay m (aOf j) (tOfS j) (kOfS j) g.1.1 else lPay m (lOfS j) (kOfS j) g.1.1)
  split
  · infer_instance
  · split <;> infer_instance

end Cert.KernelIdeal.Hyp

end
-- ==== Proof.Regions.lean ====
import proofs.«901103_g7700000000001104_dist_treered_v7x_i8_m1024_n1024_f32_1_alg».proof.Proof.Sched

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem geo0 (t : Fin 3) (c : Dev nD) :
    (kLo t 0 c = 512 ∧ sLo t 0 c = 0) ∨ (kLo t 0 c = 0 ∧ sLo t 0 c = 512) := by revert t c; decide

theorem geo1 (t : Fin 3) (c : Dev nD) :
    (kLo t 1 c = kLo t 0 c + 256 ∧ sLo t 1 c = kLo t 0 c) ∨ (kLo t 1 c = kLo t 0 c ∧ sLo t 1 c = kLo t 0 c + 256) := by
  revert t c; decide

theorem geo2 (t : Fin 3) (c : Dev nD) :
    (kLo t 2 c = kLo t 1 c + 128 ∧ sLo t 2 c = kLo t 1 c) ∨ (kLo t 2 c = kLo t 1 c ∧ sLo t 2 c = kLo t 1 c + 128) := by
  revert t c; decide

theorem r0_vals : r0 0 = 0 ∧ r0 1 = 344 ∧ r0 2 = 680 := ⟨rfl, rfl, rfl⟩
theorem rows_vals : rows 0 = 344 ∧ rows 1 = 336 ∧ rows 2 = 344 := ⟨rfl, rfl, rfl⟩
theorem cols_vals : cols 0 = 512 ∧ cols 1 = 256 ∧ cols 2 = 128 := ⟨rfl, rfl, rfl⟩

theorem mem_rect2 (o szv : Fin 2 → ℕ) (h : ∀ a, o a + szv a ≤ S1024x1024.size a) (i : S1024x1024.Idx) :
    i ∈ (Rect.unit (s := S1024x1024) o szv h).set ↔
      (o 0 ≤ (i 0).val ∧ (i 0).val < o 0 + szv 0) ∧ (o 1 ≤ (i 1).val ∧ (i 1).val < o 1 + szv 1) := by
  rw [Rect.mem_set_unit]; exact Fin.forall_fin_two

theorem mem_rect3 (o szv : Fin 3 → ℕ) (h : ∀ a, o a + szv a ≤ S1x1024x1024.size a) (i : S1x1024x1024.Idx) :
    i ∈ (Rect.unit (s := S1x1024x1024) o szv h).set ↔
      (o 0 ≤ (i 0).val ∧ (i 0).val < o 0 + szv 0) ∧ (o 1 ≤ (i 1).val ∧ (i 1).val < o 1 + szv 1)
        ∧ (o 2 ≤ (i 2).val ∧ (i 2).val < o 2 + szv 2) := by
  rw [Rect.mem_set_unit]
  refine ⟨fun H => ⟨H 0, H 1, H 2⟩, fun H a => ?_⟩
  match a with
  | ⟨0, _⟩ => exact H.1
  | ⟨1, _⟩ => exact H.2.1
  | ⟨2, _⟩ => exact H.2.2

theorem accK_set (t k : Fin 3) (c : Dev nD) :
    (accK t k c).view.set = (kR t k c).set :=
  View.set_slice_whole _ _
theorem accS_set (t k : Fin 3) (c : Dev nD) :
    (accS t k c).view.set = (sR t k c).set :=
  View.set_slice_whole _ _
theorem outK_set (t : Fin 3) (c : Dev nD) :
    (outK t c).view.set = (kR t 0 c).set :=
  View.set_slice_whole _ _
theorem outS_set (t : Fin 3) (c : Dev nD) :
    (outS t c).view.set = (sR t 0 c).set :=
  View.set_slice_whole _ _
abbrev xkR (t : Fin 3) (c : Dev nD) := Rect.unit (s := S1x1024x1024) ![0, r0 t, kLo t 0 c] ![1, rows t, 512] (xk_inb t c)
abbrev xsR (t : Fin 3) (c : Dev nD) := Rect.unit (s := S1x1024x1024) ![0, r0 t, sLo t 0 c] ![1, rows t, 512] (xs_inb t c)

theorem xK_set (t : Fin 3) (c : Dev nD) :
    (xK t c).view.set = (xkR t c).set :=
  (View.set_reshape _ _).trans (View.set_slice_whole _ _)
theorem xS_set (t : Fin 3) (c : Dev nD) :
    (xS t c).view.set = (xsR t c).set :=
  (View.set_reshape _ _).trans (View.set_slice_whole _ _)

local notation "pt(" M ", " d ", " q ", " f ")" =>
  pointsTo (View.loc (d : Thread nD τ) (Memref.view M)) (View.set (Memref.view M)) q f

theorem pt_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

theorem biEntails_of_eq {P Q : sProp 𝕄} (e : P = Q) : P ⊣⊢ Q := ⟨Entails.of_eq e, Entails.of_eq e.symm⟩

theorem six_cover (c : Dev nD) :
    (Finset.univ : Finset S1024x1024.Idx) =
      (kR 0 0 c).set ∪
      ((sR 0 0 c).set ∪
      ((kR 1 0 c).set ∪
      ((sR 1 0 c).set ∪
      ((kR 2 0 c).set ∪
       (sR 2 0 c).set)))) := by
  ext i
  have h0 : (i 0).val < 1024 := (i 0).isLt
  have h1 : (i 1).val < 1024 := (i 1).isLt
  have g0 := geo0 0 c; have g1 := geo0 1 c; have g2 := geo0 2 c
  obtain ⟨e0, e1, e2⟩ := r0_vals
  obtain ⟨w0, w1, w2⟩ := rows_vals
  obtain ⟨v0, -, -⟩ := cols_vals
  simp only [Finset.mem_univ, Finset.mem_union, mem_rect2, true_iff, Matrix.cons_val_zero, Matrix.cons_val_one,
    Matrix.head_cons, e0, e1, e2, w0, w1, w2, v0]
  omega

theorem six_disj (c : Dev nD) :
    Disjoint (kR 0 0 c).set
      ((sR 0 0 c).set ∪
      ((kR 1 0 c).set ∪
      ((sR 1 0 c).set ∪
      ((kR 2 0 c).set ∪
       (sR 2 0 c).set)))) ∧
    Disjoint (sR 0 0 c).set
      ((kR 1 0 c).set ∪
      ((sR 1 0 c).set ∪
      ((kR 2 0 c).set ∪
       (sR 2 0 c).set))) ∧
    Disjoint (kR 1 0 c).set
      ((sR 1 0 c).set ∪
      ((kR 2 0 c).set ∪
       (sR 2 0 c).set)) ∧
    Disjoint (sR 1 0 c).set
      ((kR 2 0 c).set ∪
       (sR 2 0 c).set) ∧
    Disjoint (kR 2 0 c).set
       (sR 2 0 c).set := by
  have g0 := geo0 0 c; have g1 := geo0 1 c; have g2 := geo0 2 c
  obtain ⟨e0, e1, e2⟩ := r0_vals
  obtain ⟨w0, w1, w2⟩ := rows_vals
  obtain ⟨v0, -, -⟩ := cols_vals
  refine ⟨?_, ?_, ?_, ?_, ?_⟩ <;>
  · rw [Finset.disjoint_left]
    intro i hi hj
    simp only [Finset.mem_union, mem_rect2, Matrix.cons_val_zero, Matrix.cons_val_one,
      Matrix.head_cons, e0, e1, e2, w0, w1, w2, v0] at hi hj
    omega

theorem out_split (c : Dev nD) (f : Buf (Elt F) ((c : Thread nD τ).loc main_v1)) :
    (((c : Thread nD τ).loc main_v1) ↦{fullShare} f : sProp 𝕄) ⊣⊢
      iprop(pt(outK 0 c, c, fullShare, f) ∗ pt(outS 0 c, c, fullShare, f) ∗ pt(outK 1 c, c, fullShare, f)
        ∗ pt(outS 1 c, c, fullShare, f) ∗ pt(outK 2 c, c, fullShare, f) ∗ pt(outS 2 c, c, fullShare, f)) := by
  obtain ⟨d1, d2, d3, d4, d5⟩ := six_disj c
  rw [outK_set, outK_set, outK_set, outS_set, outS_set, outS_set]
  refine biEntails_of_eq ?_
  refine (congrArg (fun S => pointsTo _ S fullShare f) (six_cover c)).trans ?_
  rw [pt_union_eq d1, pt_union_eq d2, pt_union_eq d3, pt_union_eq d4, pt_union_eq d5]

theorem acc_split (c : Dev nD) (f : Buf (Elt F) ((c : Thread nD τ).loc cc0_scratch0)) :
    (((c : Thread nD τ).loc cc0_scratch0) ↦{fullShare} f : sProp 𝕄) ⊣⊢
      iprop(pt(accK 0 0 c, c, fullShare, f) ∗ pt(accS 0 0 c, c, fullShare, f) ∗ pt(accK 1 0 c, c, fullShare, f)
        ∗ pt(accS 1 0 c, c, fullShare, f) ∗ pt(accK 2 0 c, c, fullShare, f) ∗ pt(accS 2 0 c, c, fullShare, f)) := by
  obtain ⟨d1, d2, d3, d4, d5⟩ := six_disj c
  rw [accK_set, accK_set, accK_set, accS_set, accS_set, accS_set]
  refine biEntails_of_eq ?_
  refine (congrArg (fun S => pointsTo _ S fullShare f) (six_cover c)).trans ?_
  rw [pt_union_eq d1, pt_union_eq d2, pt_union_eq d3, pt_union_eq d4, pt_union_eq d5]

theorem six_cover3 (c : Dev nD) :
    (Finset.univ : Finset S1x1024x1024.Idx) =
      (xkR 0 c).set ∪
      ((xsR 0 c).set ∪
      ((xkR 1 c).set ∪
      ((xsR 1 c).set ∪
      ((xkR 2 c).set ∪
       (xsR 2 c).set)))) := by
  ext i
  have hz : (i 0).val < 1 := (i 0).isLt
  have h0 : (i 1).val < 1024 := (i 1).isLt
  have h1 : (i 2).val < 1024 := (i 2).isLt
  have g0 := geo0 0 c; have g1 := geo0 1 c; have g2 := geo0 2 c
  obtain ⟨e0, e1, e2⟩ := r0_vals
  obtain ⟨w0, w1, w2⟩ := rows_vals
  simp only [Finset.mem_univ, Finset.mem_union, mem_rect3, true_iff, Matrix.cons_val_zero, Matrix.cons_val_one,
    Matrix.cons_val_two, Matrix.head_cons, Matrix.tail_cons, e0, e1, e2, w0, w1, w2]
  omega

theorem six_disj3 (c : Dev nD) :
    Disjoint (xkR 0 c).set
      ((xsR 0 c).set ∪
      ((xkR 1 c).set ∪
      ((xsR 1 c).set ∪
      ((xkR 2 c).set ∪
       (xsR 2 c).set)))) ∧
    Disjoint (xsR 0 c).set
      ((xkR 1 c).set ∪
      ((xsR 1 c).set ∪
      ((xkR 2 c).set ∪
       (xsR 2 c).set))) ∧
    Disjoint (xkR 1 c).set
      ((xsR 1 c).set ∪
      ((xkR 2 c).set ∪
       (xsR 2 c).set)) ∧
    Disjoint (xsR 1 c).set
      ((xkR 2 c).set ∪
       (xsR 2 c).set) ∧
    Disjoint (xkR 2 c).set
       (xsR 2 c).set := by
  have g0 := geo0 0 c; have g1 := geo0 1 c; have g2 := geo0 2 c
  obtain ⟨e0, e1, e2⟩ := r0_vals
  obtain ⟨w0, w1, w2⟩ := rows_vals
  refine ⟨?_, ?_, ?_, ?_, ?_⟩ <;>
  · rw [Finset.disjoint_left]
    intro i hi hj
    simp only [Finset.mem_union, mem_rect3, Matrix.cons_val_zero, Matrix.cons_val_one, Matrix.cons_val_two,
      Matrix.head_cons, Matrix.tail_cons, e0, e1, e2, w0, w1, w2] at hi hj
    omega

theorem x_split (c : Dev nD) (f : Buf (Elt F) ((c : Thread nD τ).loc main_arg0)) :
    (((c : Thread nD τ).loc main_arg0) ↦{fullShare} f : sProp 𝕄) ⊣⊢
      iprop(pt(xK 0 c, c, fullShare, f) ∗ pt(xS 0 c, c, fullShare, f) ∗ pt(xK 1 c, c, fullShare, f)
        ∗ pt(xS 1 c, c, fullShare, f) ∗ pt(xK 2 c, c, fullShare, f) ∗ pt(xS 2 c, c, fullShare, f)) := by
  obtain ⟨d1, d2, d3, d4, d5⟩ := six_disj3 c
  rw [xK_set, xK_set, xK_set, xS_set, xS_set, xS_set]
  refine biEntails_of_eq ?_
  refine (congrArg (fun S => pointsTo _ S fullShare f) (six_cover3 c)).trans ?_
  rw [pt_union_eq d1, pt_union_eq d2, pt_union_eq d3, pt_union_eq d4, pt_union_eq d5]

theorem half1 (t : Fin 3) (c : Dev nD) :
    (kR t 0 c).set = (sR t 1 c).set ∪ (kR t 1 c).set ∧ Disjoint (sR t 1 c).set (kR t 1 c).set := by
  have g := geo1 t c
  obtain ⟨v0, v1, -⟩ := cols_vals
  refine ⟨?_, Finset.disjoint_left.2 fun i hi hj => ?_⟩
  · ext i
    simp only [Finset.mem_union, mem_rect2, Matrix.cons_val_zero, Matrix.cons_val_one, Matrix.head_cons, v0, v1]
    omega
  · simp only [mem_rect2, Matrix.cons_val_zero, Matrix.cons_val_one, Matrix.head_cons, v1] at hi hj
    omega
theorem half2 (t : Fin 3) (c : Dev nD) :
    (kR t 1 c).set = (sR t 2 c).set ∪ (kR t 2 c).set ∧ Disjoint (sR t 2 c).set (kR t 2 c).set := by
  have g := geo2 t c
  obtain ⟨-, v1, v2⟩ := cols_vals
  refine ⟨?_, Finset.disjoint_left.2 fun i hi hj => ?_⟩
  · ext i
    simp only [Finset.mem_union, mem_rect2, Matrix.cons_val_zero, Matrix.cons_val_one, Matrix.head_cons, v1, v2]
    omega
  · simp only [mem_rect2, Matrix.cons_val_zero, Matrix.cons_val_one, Matrix.head_cons, v2] at hi hj
    omega

theorem accK_split01 (t : Fin 3) (c : Dev nD) (q : PosShare TreeShare) (f : Buf (Elt F) ((c : Thread nD τ).loc cc0_scratch0)) :
    (pt(accK t 0 c, c, q, f) : sProp 𝕄) ⊣⊢ iprop(pt(accS t 1 c, c, q, f) ∗ pt(accK t 1 c, c, q, f)) := by
  rw [accK_set, accK_set, accS_set]
  refine biEntails_of_eq ?_
  refine (congrArg (fun S => pointsTo _ S q f) (half1 t c).1).trans ?_
  rw [pt_union_eq (half1 t c).2]

theorem accK_split12 (t : Fin 3) (c : Dev nD) (q : PosShare TreeShare) (f : Buf (Elt F) ((c : Thread nD τ).loc cc0_scratch0)) :
    (pt(accK t 1 c, c, q, f) : sProp 𝕄) ⊣⊢ iprop(pt(accS t 2 c, c, q, f) ∗ pt(accK t 2 c, c, q, f)) := by
  rw [accK_set, accK_set, accS_set]
  refine biEntails_of_eq ?_
  refine (congrArg (fun S => pointsTo _ S q f) (half2 t c).1).trans ?_
  rw [pt_union_eq (half2 t c).2]

theorem pt_halve {sp : Space} {s : Shape} {e : EltTy} (M : Memref sig .tc sp s e) (d : Dev nD) (q : PosShare TreeShare)
    (f : Buf (Elt F) (M.view.loc (d : Thread nD τ))) :
    (pt(M, d, q, f) : sProp 𝕄) ⊣⊢ iprop(pt(M, d, q.left, f) ∗ pt(M, d, q.right, f)) :=
  pointsTo_share (PosShare.mem_left_op_right q)

theorem pt_congr {sp : Space} {s : Shape} {e : EltTy} (M : Memref sig .tc sp s e) (d : Dev nD) (q : PosShare TreeShare)
    (f g : Buf (Elt F) (M.view.loc (d : Thread nD τ))) (h : ∀ i ∈ M.view.set, f i = g i) :
    (pt(M, d, q, f) : sProp 𝕄) = pt(M, d, q, g) :=
  pointsTo_congr h

end Cert.KernelIdeal.Hyp

end
-- ==== Proof.Restate.lean ====
import proofs.«901103_g7700000000001104_dist_treered_v7x_i8_m1024_n1024_f32_1_alg».proof.Proof.Sched
import Idealize.ShloMosaic.Lib.Pipeline.Value

noncomputable section

namespace Cert.KernelIdeal.Hyp

open Cert.KernelIdeal
open Idealize.ShloMosaic

variable {F : FTy → Type} [FloatOps F]
variable (xs : Dev nD → Vec F S1x1024x1024 .f32)

theorem fin3_cases (k : Fin 3) : k = 0 ∨ k = 1 ∨ k = 2 := by revert k; decide

theorem mem_kR (t k : Fin 3) (c : Dev nD) (i : S1024x1024.Idx) :
    i ∈ (kR t k c).set ↔
      (r0 t ≤ (i 0).val ∧ (i 0).val < r0 t + rows t) ∧ (kLo t k c ≤ (i 1).val ∧ (i 1).val < kLo t k c + cols k) := by
  rw [Rect.mem_set_unit]; exact Fin.forall_fin_two

theorem mem_sR (t k : Fin 3) (c : Dev nD) (i : S1024x1024.Idx) :
    i ∈ (sR t k c).set ↔
      (r0 t ≤ (i 0).val ∧ (i 0).val < r0 t + rows t) ∧ (sLo t k c ≤ (i 1).val ∧ (i 1).val < sLo t k c + cols k) := by
  rw [Rect.mem_set_unit]; exact Fin.forall_fin_two

theorem bandOf_of_rows (t : Fin 3) (a : ℕ) (h1 : r0 t ≤ a) (h2 : a < r0 t + rows t) : bandOf a = t := by
  unfold bandOf
  rcases fin3_cases t with rfl | rfl | rfl
  · have h2' : a < 0 + 344 := h2
    rw [if_pos (by omega)]
  · have h1' : 344 ≤ a := h1
    have h2' : a < 344 + 336 := h2
    rw [if_neg (by omega), if_pos (by omega)]
  · have h1' : 680 ≤ a := h1
    rw [if_neg (by omega), if_neg (by omega)]

theorem colBit_kLo (t k k' : Fin 3) (hk : k' ≤ k) (c : Dev nD) (j : ℕ) (h1 : kLo t k c ≤ j) (h2 : j < kLo t k c + cols k) :
    colBit k' j = posBit (t + k') c := by
  rcases fin3_cases k with rfl | rfl | rfl <;> rcases fin3_cases k' with rfl | rfl | rfl <;>
    first
    | exact absurd hk (by decide)
    | (simp only [kLo, cols] at h1 h2
       generalize posBit (t + 0) c = b0 at *
       generalize posBit (t + 1) c = b1 at *
       generalize posBit (t + 2) c = b2 at *
       cases b0 <;> cases b1 <;> cases b2 <;> simp [colBit] at h1 h2 ⊢ <;> omega)

theorem colBit_sLo_lt (t k k' : Fin 3) (hk : k' < k) (c : Dev nD) (j : ℕ) (h1 : sLo t k c ≤ j) (h2 : j < sLo t k c + cols k) :
    colBit k' j = posBit (t + k') c := by
  rcases fin3_cases k with rfl | rfl | rfl <;> rcases fin3_cases k' with rfl | rfl | rfl <;>
    first
    | exact absurd hk (by decide)
    | (simp only [sLo, cols] at h1 h2
       generalize posBit (t + 0) c = b0 at *
       generalize posBit (t + 1) c = b1 at *
       generalize posBit (t + 2) c = b2 at *
       cases b0 <;> cases b1 <;> cases b2 <;> simp [colBit] at h1 h2 ⊢ <;> omega)

theorem colBit_sLo_self (t k : Fin 3) (c : Dev nD) (j : ℕ) (h1 : sLo t k c ≤ j) (h2 : j < sLo t k c + cols k) :
    colBit k j = !posBit (t + k) c := by
  rcases fin3_cases k with rfl | rfl | rfl <;>
    (simp only [sLo, cols] at h1 h2
     generalize posBit (t + 0) c = b0 at *
     generalize posBit (t + 1) c = b1 at *
     generalize posBit (t + 2) c = b2 at *
     cases b0 <;> cases b1 <;> cases b2 <;> simp [colBit] at h1 h2 ⊢ <;> omega)

theorem accK_facts (t k : Fin 3) (c : Dev nD) (i : S1024x1024.Idx) (h : i ∈ (accK t k c).view.set) :
    tOf i = t ∧ ∀ k' ≤ k, keeps k' c i := by
  rw [View.set_slice_whole, mem_kR] at h
  have ht : tOf i = t := bandOf_of_rows t _ h.1.1 h.1.2
  refine ⟨ht, fun k' hk => ?_⟩
  unfold keeps
  rw [ht]
  exact colBit_kLo t k k' hk c _ h.2.1 h.2.2

theorem accS_facts (t k : Fin 3) (c : Dev nD) (i : S1024x1024.Idx) (h : i ∈ (accS t k c).view.set) :
    tOf i = t ∧ (∀ k' < k, keeps k' c i) ∧ ¬ keeps k c i := by
  rw [View.set_slice_whole, mem_sR] at h
  have ht : tOf i = t := bandOf_of_rows t _ h.1.1 h.1.2
  refine ⟨ht, fun k' hk => ?_, ?_⟩
  · unfold keeps
    rw [ht]
    exact colBit_sLo_lt t k k' hk c _ h.2.1 h.2.2
  · unfold keeps
    rw [ht, colBit_sLo_self t k c _ h.2.1 h.2.2]
    cases posBit (t + k) c <;> decide

theorem outK_facts (t : Fin 3) (c : Dev nD) (i : S1024x1024.Idx) (h : i ∈ (outK t c).view.set) :
    tOf i = t ∧ keeps 0 c i := by
  rw [View.set_slice_whole] at h
  exact (accK_facts t 0 c i (by rwa [View.set_slice_whole])).imp_right (· 0 le_rfl)

theorem outS_facts (t : Fin 3) (c : Dev nD) (i : S1024x1024.Idx) (h : i ∈ (outS t c).view.set) :
    tOf i = t ∧ ¬ keeps 0 c i := by
  rw [View.set_slice_whole] at h
  exact (accS_facts t 0 c i (by rwa [View.set_slice_whole])).imp_right (·.2)

theorem B2_on_accK2 (t : Fin 3) (c : Dev nD) (i : S1024x1024.Idx) (h : i ∈ (accK t 2 c).view.set) :
    A3 xs c i = B2 xs c i := by
  exact (if_pos ((accK_facts t 2 c i h).2 2 le_rfl)).symm

theorem B2_on_accS2 (t : Fin 3) (c : Dev nD) (i : S1024x1024.Idx) (h : i ∈ (accS t 2 c).view.set) :
    A3 xs (par t 2 c) i = B2 xs c i := by
  obtain ⟨ht, _, hn⟩ := accS_facts t 2 c i h
  exact ((if_neg hn).trans (by rw [ht])).symm

theorem B1_on_accK1 (t : Fin 3) (c : Dev nD) (i : S1024x1024.Idx) (h : i ∈ (accK t 1 c).view.set) :
    B2 xs c i = B1 xs c i := by
  exact (if_pos ((accK_facts t 1 c i h).2 1 le_rfl)).symm

theorem B1_on_accS1 (t : Fin 3) (c : Dev nD) (i : S1024x1024.Idx) (h : i ∈ (accS t 1 c).view.set) :
    B2 xs (par t 1 c) i = B1 xs c i := by
  obtain ⟨ht, _, hn⟩ := accS_facts t 1 c i h
  exact ((if_neg hn).trans (by rw [ht])).symm

theorem B0_on_outK (t : Fin 3) (c : Dev nD) (i : S1024x1024.Idx) (h : i ∈ (outK t c).view.set) :
    B1 xs c i = B0 xs c i := by
  exact (if_pos (outK_facts t c i h).2).symm

theorem B0_on_outS (t : Fin 3) (c : Dev nD) (i : S1024x1024.Idx) (h : i ∈ (outS t c).view.set) :
    B1 xs (par t 0 c) i = B0 xs c i := by
  obtain ⟨ht, hn⟩ := outS_facts t c i h
  exact ((if_neg hn).trans (by rw [ht])).symm

theorem accK_read (t k : Fin 3) (c : Dev nD) (g : Vec F S1024x1024 .f32) (j : (Sh t k).Idx) :
    (accK t k c).view.read (Elt F) g j = g ((accK t k c).view.emb j) := rfl
theorem write_read_of_mem {sig : RefSig} {κ : Kind} {sp : Space} {s : Shape} {e : EltTy} (v : View sig κ sp s e)
    (f g : v.ty.Contents (Elt F)) {i : v.ty.Idx} (h : i ∈ v.set) :
    v.write (Elt F) f (v.read (Elt F) g) Finset.univ i = g i := by
  rw [View.write_read_eq_piecewise, Finset.piecewise_eq_of_mem _ _ _ (by rw [View.setOn_univ]; exact h)]

theorem accS_write_read (t k : Fin 3) (c : Dev nD) (f g : Vec F S1024x1024 .f32) (i : S1024x1024.Idx)
    (h : i ∈ (accS t k c).view.set) :
    (accS t k c).view.write (Elt F) f ((accS t k c).view.read (Elt F) g) Finset.univ i = g i :=
  write_read_of_mem (accS t k c).view f g h
theorem outK_write_accK_read (t : Fin 3) (c : Dev nD) (f g : Vec F S1024x1024 .f32) (i : S1024x1024.Idx)
    (h : i ∈ (outK t c).view.set) :
    (outK t c).view.write (Elt F) f ((accK t 0 c).view.read (Elt F) g) Finset.univ i = g i := by
  obtain ⟨y, rfl⟩ := View.exists_emb_of_mem_set _ h
  rw [View.write_emb_of_mem _ _ (Finset.mem_univ y)]
  rfl
theorem outS_write_accS_read (t : Fin 3) (c : Dev nD) (f g : Vec F S1024x1024 .f32) (i : S1024x1024.Idx)
    (h : i ∈ (outS t c).view.set) :
    (outS t c).view.write (Elt F) f ((accS t 0 c).view.read (Elt F) g) Finset.univ i = g i := by
  obtain ⟨y, rfl⟩ := View.exists_emb_of_mem_set _ h
  rw [View.write_emb_of_mem _ _ (Finset.mem_univ y)]
  rfl

theorem xK_read (t : Fin 3) (c : Dev nD) (X : Vec F S1x1024x1024 .f32) (j : (Sh t 0).Idx) :
    (xK t c).view.read (Elt F) X j
      = X (ValueIdx.ix3 (0 : Fin 1) ((accK t 0 c).view.emb j 0) ((accK t 0 c).view.emb j 1)) := by
  have hc : (⟨3, ![1, rows t, 512]⟩ : Shape).ShapeCasts (Sh t 0) := (sq3 t).numel_eq
  refine (shapeCast_dropUnit_apply ![rows t, 512]
    (xM.view.readAt (Elt F) (Rect.unit (s := S1x1024x1024) ![0, r0 t, kLo t 0 c] ![1, rows t, 512] (xk_inb t c)).toLoadRect X) hc j).trans ?_
  show X _ = X _
  congr 1
  funext a
  match a with
  | ⟨0, _⟩ => exact Fin.ext rfl
  | ⟨1, _⟩ => exact Fin.ext rfl
  | ⟨2, _⟩ => exact Fin.ext rfl

theorem xK_read_A0 (t : Fin 3) (c c' : Dev nD) (j : (Sh t 0).Idx) :
    (xK t c).view.read (Elt F) (xs c') j = A0 xs c' ((accK t 0 c).view.emb j) := xK_read t c (xs c') j
theorem accK_write_xK_read (t : Fin 3) (c c' : Dev nD) (f : Vec F S1024x1024 .f32) (i : S1024x1024.Idx)
    (h : i ∈ (accK t 0 c).view.set) :
    (accK t 0 c).view.write (Elt F) f ((xK t c).view.read (Elt F) (xs c')) Finset.univ i = A0 xs c' i := by
  obtain ⟨y, rfl⟩ := View.exists_emb_of_mem_set _ h
  rw [View.write_emb_of_mem _ _ (Finset.mem_univ y)]
  exact xK_read_A0 xs t c c' y

theorem acc_step (A : Dev nD → Vec F S1024x1024 .f32) (t k : Fin 3) (c : Dev nD) (f : Vec F S1024x1024 .f32)
    (S : Vec F (Sh t k) .f32) (hS : ∀ j, S j = A (par t k c) ((accK t k c).view.emb j))
    (i : S1024x1024.Idx) (h : i ∈ (accK t k c).view.set) :
    (accM.access (kR t k c)).write (Elt F) f
        (addf (accM.view.readAt (Elt F) (kR t k c).toLoadRect (A c)) S)
        Finset.univ i
      = stepAdd A k c i := by
  obtain ⟨ht, _⟩ := accK_facts t k c i h
  obtain ⟨y, rfl⟩ := View.exists_emb_of_mem_set (accK t k c).view h
  rw [View.write_emb_of_mem _ _ (Finset.mem_univ y)]
  show FloatOps.addf (A c ((accK t k c).view.emb y)) (S y) = FloatOps.addf (A c _) (A (par (tOf _) k c) _)
  rw [hS y, ht]

end Cert.KernelIdeal.Hyp

end
-- ==== Proof.Mid.lean ====
import proofs.«901103_g7700000000001104_dist_treered_v7x_i8_m1024_n1024_f32_1_alg».proof.Proof.Store
import proofs.«901103_g7700000000001104_dist_treered_v7x_i8_m1024_n1024_f32_1_alg».proof.Proof.Regions
import proofs.«901103_g7700000000001104_dist_treered_v7x_i8_m1024_n1024_f32_1_alg».proof.Proof.Restate

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

abbrev oweB (t k : Fin 3) (c : Dev nD) : CellTallies nD τ sig Unit := tallyAt (dCell (par t k c) 3 t k) () (amt t k)

def bandFix (t : Fin 3) (c : Dev nD) (fa : Buf (Elt F) ((c : Thread nD τ).loc cc0_scratch0)) : sProp 𝕄 :=
  iprop((pt(xK t c, c, fullShare, xs m c) : sProp 𝕄) ∗ (pt(xS t c, c, fullShare, xs m c) : sProp 𝕄)
    ∗ (pt(outK t c, c, fullShare, m ((c : Thread nD τ).loc main_v1)) : sProp 𝕄)
    ∗ (pt(accS t 0 c, c, fullShare, fa) : sProp 𝕄))

abbrev outRem (t : Fin 3) (c : Dev nD) : sProp 𝕄 :=
  (pt(outK t c, par t 0 c, fullShare, m ((par t 0 c : Thread nD τ).loc main_v1)) : sProp 𝕄)

def lcFresh (l : Fin 2) (t : Fin 3) (c : Dev nD) : sProp 𝕄 :=
  iprop(atPos ER (lCell c l t) 0 ∅ 0 ∗ dutyTok ER (lCell c l t) 0 0)

def lcSent (l : Fin 2) (t : Fin 3) (c : Dev nD) : sProp 𝕄 :=
  iprop(atPos ER (lCell c l t) 0 ∅ 0 ∗ cred (tallyAt (lCell c l t) () (amt t 0)))

def lcDone (l : Fin 2) (t : Fin 3) (c : Dev nD) : sProp 𝕄 := atPos ER (lCell c l t) 1 ∅ 0

abbrev stgAny (t k : Fin 3) (c : Dev nD) : sProp 𝕄 :=
  iprop(∃ f, (pt(stg t k, c, fullShare, f) : sProp 𝕄))

def rsDone (t : Fin 3) (c : Dev nD) : sProp 𝕄 :=
  iprop(atPos ER (dCell c 0 t 0) 1 ∅ 0 ∗ atPos ER (dCell c 1 t 0) 1 ∅ 0 ∗ atPos ER (dCell c 0 t 1) 1 ∅ 0 ∗ atPos ER (dCell c 1 t 1) 1 ∅ 0
    ∗ atPos ER (dCell c 0 t 2) 1 ∅ 0 ∗ atPos ER (dCell c 1 t 2) 1 ∅ 0)

def agFresh (t k : Fin 3) (c : Dev nD) : sProp 𝕄 :=
  iprop(atPos ER (dCell c 2 t k) 0 ∅ 0 ∗ atPos ER (dCell c 3 t k) 0 ∅ 0
    ∗ dutyTok ER (dCell c 2 t k) 0 0 ∗ dutyTok ER (dCell (par t k c) 3 t k) 0 0
    ∗ cred (tallyAt (dCell c 3 t k) () (amt t k)))

def agSent (t k : Fin 3) (c : Dev nD) : sProp 𝕄 :=
  iprop(atPos ER (dCell c 2 t k) 0 ∅ 0 ∗ atPos ER (dCell c 3 t k) 0 ∅ 0
    ∗ cred (tallyAt (dCell c 2 t k) () (amt t k)) ∗ cred (tallyAt (dCell c 3 t k) () (amt t k)))

def agDone (t k : Fin 3) (c : Dev nD) : sProp 𝕄 :=
  iprop(atPos ER (dCell c 2 t k) 1 ∅ 0 ∗ atPos ER (dCell c 3 t k) 1 ∅ 0)

def O14 (c : Dev nD) : CellTallies nD τ sig Unit :=
  (oweB 0 0 c + oweB 0 1 c) + (oweB 1 0 c + oweB 1 1 c + oweB 1 2 c) + (oweB 2 0 c + oweB 2 1 c + oweB 2 2 c)

def band0_14 (c : Dev nD) (fa : Buf (Elt F) ((c : Thread nD τ).loc cc0_scratch0)) : sProp 𝕄 :=
  iprop(rsDone (F := F) 0 c ∗ agSent (F := F) 0 2 c ∗ agFresh (F := F) 0 1 c ∗ agFresh (F := F) 0 0 c
    ∗ bandFix m 0 c fa ∗ outRem m 0 c
    ∗ (pt(accK 0 1 c, par 0 1 c, fullShare, A1 (xs m) (par 0 1 c)) : sProp 𝕄)
    ∗ stgAny (F := F) 0 0 c ∗ stgAny (F := F) 0 1 c ∗ stgAny (F := F) 0 2 c ∗ lcDone (F := F) 0 0 c ∗ lcFresh (F := F) 1 0 c)

def band1_14 (c : Dev nD) (fa : Buf (Elt F) ((c : Thread nD τ).loc cc0_scratch0)) (v413 : FVec F S336x128 .f32) : sProp 𝕄 :=
  iprop(rsDone (F := F) 1 c ∗ agFresh (F := F) 1 2 c ∗ agFresh (F := F) 1 1 c ∗ agFresh (F := F) 1 0 c
    ∗ bandFix m 1 c fa ∗ outRem m 1 c
    ∗ (pt(accK 1 1 c, par 1 1 c, fullShare, A1 (xs m) (par 1 1 c)) : sProp 𝕄)
    ∗ (pt(accK 1 2 c, c, fullShare, A2 (xs m) c) : sProp 𝕄)
    ∗ (pt(accK 1 2 c, par 1 2 c, fullShare, A2 (xs m) (par 1 2 c)) : sProp 𝕄)
    ∗ ⌜∀ j : (Sh 1 2).Idx, v413 j = A3 (xs m) c ((accK 1 2 c).view.emb j)⌝
    ∗ stgAny (F := F) 1 0 c ∗ stgAny (F := F) 1 1 c ∗ stgAny (F := F) 1 2 c ∗ lcDone (F := F) 0 1 c ∗ lcFresh (F := F) 1 1 c)

def band2_14 (c : Dev nD) (fa : Buf (Elt F) ((c : Thread nD τ).loc cc0_scratch0)) : sProp 𝕄 :=
  iprop(atPos ER (dCell c 0 2 0) 1 ∅ 0 ∗ atPos ER (dCell c 1 2 0) 1 ∅ 0 ∗ atPos ER (dCell c 0 2 1) 1 ∅ 0 ∗ atPos ER (dCell c 1 2 1) 1 ∅ 0
    ∗ atPos ER (dCell c 0 2 2) 0 ∅ 0 ∗ atPos ER (dCell c 1 2 2) 0 ∅ 0
    ∗ cred (tallyAt (dCell c 0 2 2) () (amt 2 2)) ∗ cred (tallyAt (dCell c 1 2 2) () (amt 2 2))
    ∗ agFresh (F := F) 2 2 c ∗ agFresh (F := F) 2 1 c ∗ agFresh (F := F) 2 0 c
    ∗ bandFix m 2 c fa ∗ outRem m 2 c
    ∗ (pt(accK 2 1 c, par 2 1 c, fullShare, A1 (xs m) (par 2 1 c)) : sProp 𝕄)
    ∗ (pt(accK 2 2 c, c, fullShare, A2 (xs m) c) : sProp 𝕄)
    ∗ stgAny (F := F) 2 0 c ∗ stgAny (F := F) 2 1 c ∗ lcDone (F := F) 0 2 c ∗ lcFresh (F := F) 1 2 c)

def Mid14 (c : Dev nD) (K : Dev nD × Fin 43 → ℕ) (fa : Buf (Elt F) ((c : Thread nD τ).loc cc0_scratch0))
    (v413 : FVec F S336x128 .f32) : sProp 𝕄 :=
  iprop(records m K ∗ levAts L lv ∗ atPos ER (barCell c) 1 ∅ 0 ∗ (∃ W, owes (c : Thread nD τ) (O14 c) W)
    ∗ band0_14 m c fa ∗ band1_14 m c fa v413 ∗ band2_14 m c fa)

def bandFixX (t : Fin 3) (c : Dev nD) (fa : Buf (Elt F) ((c : Thread nD τ).loc cc0_scratch0)) : sProp 𝕄 :=
  iprop((pt(xK t c, c, fullShare, xs m c) : sProp 𝕄) ∗ (pt(xS t c, c, fullShare, xs m c) : sProp 𝕄)
    ∗ (pt(accS t 0 c, c, fullShare, fa) : sProp 𝕄))

def stgs (t : Fin 3) (c : Dev nD) : sProp 𝕄 :=
  iprop(stgAny (F := F) t 0 c ∗ stgAny (F := F) t 1 c ∗ stgAny (F := F) t 2 c ∗ lcDone (F := F) 0 t c)

def bandP2 (t : Fin 3) (c : Dev nD) (fa : Buf (Elt F) ((c : Thread nD τ).loc cc0_scratch0)) : sProp 𝕄 :=
  iprop(rsDone (F := F) t c ∗ agFresh (F := F) t 2 c ∗ agFresh (F := F) t 1 c ∗ agFresh (F := F) t 0 c
    ∗ bandFix m t c fa ∗ outRem m t c
    ∗ (pt(accK t 1 c, par t 1 c, fullShare, A1 (xs m) (par t 1 c)) : sProp 𝕄)
    ∗ (pt(accK t 2 c, c, fullShare, A3 (xs m) c) : sProp 𝕄)
    ∗ (pt(accK t 2 c, par t 2 c, fullShare, A2 (xs m) (par t 2 c)) : sProp 𝕄)
    ∗ stgs (F := F) t c ∗ lcFresh (F := F) 1 t c)

def bandP2s (t : Fin 3) (c : Dev nD) (fa : Buf (Elt F) ((c : Thread nD τ).loc cc0_scratch0)) : sProp 𝕄 :=
  iprop(rsDone (F := F) t c ∗ agSent (F := F) t 2 c ∗ agFresh (F := F) t 1 c ∗ agFresh (F := F) t 0 c
    ∗ bandFix m t c fa ∗ outRem m t c
    ∗ (pt(accK t 1 c, par t 1 c, fullShare, A1 (xs m) (par t 1 c)) : sProp 𝕄)
    ∗ stgs (F := F) t c ∗ lcFresh (F := F) 1 t c)

def bandP2h (t : Fin 3) (c : Dev nD) (fa : Buf (Elt F) ((c : Thread nD τ).loc cc0_scratch0)) : sProp 𝕄 :=
  iprop(rsDone (F := F) t c ∗ atPos ER (dCell c 2 t 2) 1 ∅ 0 ∗ atPos ER (dCell c 3 t 2) 0 ∅ 0 ∗ cred (tallyAt (dCell c 3 t 2) () (amt t 2))
    ∗ agFresh (F := F) t 1 c ∗ agFresh (F := F) t 0 c
    ∗ bandFix m t c fa ∗ outRem m t c
    ∗ (pt(accK t 1 c, par t 1 c, fullShare, A1 (xs m) (par t 1 c)) : sProp 𝕄)
    ∗ (pt(accK t 2 c, c, fullShare, A3 (xs m) c) : sProp 𝕄)
    ∗ stgs (F := F) t c ∗ lcFresh (F := F) 1 t c)

def bandP1 (t : Fin 3) (c : Dev nD) (fa : Buf (Elt F) ((c : Thread nD τ).loc cc0_scratch0)) : sProp 𝕄 :=
  iprop(rsDone (F := F) t c ∗ agDone (F := F) t 2 c ∗ agFresh (F := F) t 1 c ∗ agFresh (F := F) t 0 c
    ∗ bandFix m t c fa ∗ outRem m t c
    ∗ (pt(accK t 1 c, par t 1 c, fullShare, A1 (xs m) (par t 1 c)) : sProp 𝕄)
    ∗ (pt(accK t 1 c, c, fullShare, B2 (xs m) c) : sProp 𝕄)
    ∗ stgs (F := F) t c ∗ lcFresh (F := F) 1 t c)

def bandP1s (t : Fin 3) (c : Dev nD) (fa : Buf (Elt F) ((c : Thread nD τ).loc cc0_scratch0)) : sProp 𝕄 :=
  iprop(rsDone (F := F) t c ∗ agDone (F := F) t 2 c ∗ agSent (F := F) t 1 c ∗ agFresh (F := F) t 0 c
    ∗ bandFix m t c fa ∗ outRem m t c
    ∗ stgs (F := F) t c ∗ lcFresh (F := F) 1 t c)

def bandP0 (t : Fin 3) (c : Dev nD) (fa : Buf (Elt F) ((c : Thread nD τ).loc cc0_scratch0)) : sProp 𝕄 :=
  iprop(rsDone (F := F) t c ∗ agDone (F := F) t 2 c ∗ agDone (F := F) t 1 c ∗ agFresh (F := F) t 0 c
    ∗ bandFix m t c fa ∗ outRem m t c
    ∗ (pt(accK t 0 c, c, fullShare, B1 (xs m) c) : sProp 𝕄)
    ∗ stgs (F := F) t c ∗ lcFresh (F := F) 1 t c)

def bandP0s (t : Fin 3) (c : Dev nD) (fa : Buf (Elt F) ((c : Thread nD τ).loc cc0_scratch0)) : sProp 𝕄 :=
  iprop(rsDone (F := F) t c ∗ agDone (F := F) t 2 c ∗ agDone (F := F) t 1 c ∗ agSent (F := F) t 0 c
    ∗ bandFixX m t c fa ∗ stgs (F := F) t c ∗ lcSent (F := F) 1 t c)

def bandP0h (t : Fin 3) (c : Dev nD) (fa : Buf (Elt F) ((c : Thread nD τ).loc cc0_scratch0)) : sProp 𝕄 :=
  iprop(rsDone (F := F) t c ∗ agDone (F := F) t 2 c ∗ agDone (F := F) t 1 c
    ∗ atPos ER (dCell c 2 t 0) 1 ∅ 0 ∗ atPos ER (dCell c 3 t 0) 0 ∅ 0 ∗ cred (tallyAt (dCell c 3 t 0) () (amt t 0))
    ∗ bandFixX m t c fa
    ∗ (pt(accK t 0 c, c, fullShare.left, B1 (xs m) c) : sProp 𝕄)
    ∗ stgs (F := F) t c ∗ lcSent (F := F) 1 t c)

def bandPF (t : Fin 3) (c : Dev nD) (fa : Buf (Elt F) ((c : Thread nD τ).loc cc0_scratch0)) : sProp 𝕄 :=
  iprop(rsDone (F := F) t c ∗ agDone (F := F) t 2 c ∗ agDone (F := F) t 1 c ∗ agDone (F := F) t 0 c
    ∗ bandFixX m t c fa
    ∗ (pt(accK t 0 c, c, fullShare.left, B1 (xs m) c) : sProp 𝕄)
    ∗ (pt(outS t c, c, fullShare, B0 (xs m) c) : sProp 𝕄)
    ∗ stgs (F := F) t c ∗ lcSent (F := F) 1 t c)

def MidG (c : Dev nD) (K : Dev nD × Fin 43 → ℕ) (O : CellTallies nD τ sig Unit) (b0 b1 b2 : sProp 𝕄) : sProp 𝕄 :=
  iprop(records m K ∗ levAts L lv ∗ atPos ER (barCell c) 1 ∅ 0 ∗ (∃ W, owes (c : Thread nD τ) O W) ∗ b0 ∗ b1 ∗ b2)

def O15 (c : Dev nD) : CellTallies nD τ sig Unit := (oweB 0 0 c + oweB 0 1 c) + (oweB 1 0 c + oweB 1 1 c) + (oweB 2 0 c + oweB 2 1 c + oweB 2 2 c)
def O16 (c : Dev nD) : CellTallies nD τ sig Unit := (oweB 0 0 c + oweB 0 1 c) + (oweB 1 0 c + oweB 1 1 c) + (oweB 2 0 c + oweB 2 1 c)
def O17 (c : Dev nD) : CellTallies nD τ sig Unit := oweB 0 0 c + oweB 1 0 c + (oweB 2 0 c + oweB 2 1 c)
def O18 (c : Dev nD) : CellTallies nD τ sig Unit := oweB 0 0 c + oweB 1 0 c + oweB 2 0 c
def O19 (c : Dev nD) : CellTallies nD τ sig Unit := oweB 1 0 c + oweB 2 0 c
def O20 (c : Dev nD) : CellTallies nD τ sig Unit := oweB 2 0 c

variable (K : Dev nD × Fin 43 → ℕ) (c : Dev nD) (fa : Buf (Elt F) ((c : Thread nD τ).loc cc0_scratch0))

def Mid15 : sProp 𝕄 := MidG m c K (O15 c) (band0_14 m c fa) (bandP2s m 1 c fa) (bandP2 m 2 c fa)
def Mid16 : sProp 𝕄 := MidG m c K (O16 c) (bandP1 m 0 c fa) (bandP2s m 1 c fa) (bandP2s m 2 c fa)
def Mid17 : sProp 𝕄 := MidG m c K (O17 c) (bandP1s m 0 c fa) (bandP1s m 1 c fa) (bandP2h m 2 c fa)
def Mid18 : sProp 𝕄 := MidG m c K (O18 c) (bandP0 m 0 c fa) (bandP1s m 1 c fa) (bandP1s m 2 c fa)
def Mid19 : sProp 𝕄 := MidG m c K (O19 c) (bandP0s m 0 c fa) (bandP0 m 1 c fa) (bandP1s m 2 c fa)
def Mid20 : sProp 𝕄 := MidG m c K (O20 c) (bandP0s m 0 c fa) (bandP0s m 1 c fa) (bandP0 m 2 c fa)
def Mid21 : sProp 𝕄 := MidG m c K 0 (bandPF m 0 c fa) (bandP0h m 1 c fa) (bandP0s m 2 c fa)

end Cert.KernelIdeal.Hyp

end
-- ==== Proof.Mid5.lean ====
import proofs.«901103_g7700000000001104_dist_treered_v7x_i8_m1024_n1024_f32_1_alg».proof.Proof.Mid

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

abbrev oweA (t k : Fin 3) (c : Dev nD) : CellTallies nD τ sig Unit := tallyAt (dCell (par t k c) 1 t k) () (amt t k)

def rsFresh (t k : Fin 3) (c : Dev nD) : sProp 𝕄 :=
  iprop(atPos ER (dCell c 0 t k) 0 ∅ 0 ∗ atPos ER (dCell c 1 t k) 0 ∅ 0
    ∗ dutyTok ER (dCell c 0 t k) 0 0 ∗ dutyTok ER (dCell (par t k c) 1 t k) 0 0
    ∗ cred (tallyAt (dCell c 1 t k) () (amt t k)))

def rsSent (t k : Fin 3) (c : Dev nD) : sProp 𝕄 :=
  iprop(atPos ER (dCell c 0 t k) 0 ∅ 0 ∗ atPos ER (dCell c 1 t k) 0 ∅ 0
    ∗ cred (tallyAt (dCell c 0 t k) () (amt t k)) ∗ cred (tallyAt (dCell c 1 t k) () (amt t k)))

abbrev stgPar (t k : Fin 3) (c : Dev nD) : sProp 𝕄 :=
  iprop(∃ f, (pt(stg t k, par t k c, fullShare, f) : sProp 𝕄))

def O5 (c : Dev nD) : CellTallies nD τ sig Unit :=
  (owedRow 1 0 c + owedRow 1 1 c + owedRow 1 2 c) + (owedRow 3 0 c + owedRow 3 1 c + owedRow 3 2 c)

def band5 (t : Fin 3) (c : Dev nD) (fa : Buf (Elt F) ((c : Thread nD τ).loc cc0_scratch0)) : sProp 𝕄 :=
  iprop(rsFresh (F := F) t 0 c ∗ rsFresh (F := F) t 1 c ∗ rsFresh (F := F) t 2 c
    ∗ agFresh (F := F) t 2 c ∗ agFresh (F := F) t 1 c ∗ agFresh (F := F) t 0 c
    ∗ bandFix m t c fa ∗ outRem m t c
    ∗ (pt(accK t 0 c, c, fullShare, fa) : sProp 𝕄)
    ∗ stgPar (F := F) t 0 c ∗ stgPar (F := F) t 1 c ∗ stgPar (F := F) t 2 c ∗ lcFresh (F := F) 0 t c ∗ lcFresh (F := F) 1 t c)

def Mid5 (c : Dev nD) (K : Dev nD × Fin 43 → ℕ) (fa : Buf (Elt F) ((c : Thread nD τ).loc cc0_scratch0)) : sProp 𝕄 :=
  iprop(records m K ∗ levAts L lv ∗ atPos ER (barCell c) 1 ∅ 0 ∗ (∃ W, owes (c : Thread nD τ) (O5 c) W)
    ∗ band5 m 0 c fa ∗ band5 m 1 c fa ∗ band5 m 2 c fa)

end Cert.KernelIdeal.Hyp

end
-- ==== Proof.Body.lean ====
import proofs.«901103_g7700000000001104_dist_treered_v7x_i8_m1024_n1024_f32_1_alg».proof.Proof.Prep
import proofs.«901103_g7700000000001104_dist_treered_v7x_i8_m1024_n1024_f32_1_alg».proof.Proof.Levels
import proofs.«901103_g7700000000001104_dist_treered_v7x_i8_m1024_n1024_f32_1_alg».proof.Proof.Payer
import proofs.«901103_g7700000000001104_dist_treered_v7x_i8_m1024_n1024_f32_1_alg».proof.Proof.Mid5

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds Idealize.ShloMosaic.Tactic
open Idealize.ShloMosaic.Pipeline (Dat)

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

private theorem duties_bar3 (c : Dev nD) : (Rd (F := F) m).duties (barCell c) 0 = {0, 1, 2} := by rw [duties_bar]; decide
-- The neighbour across dimension b pays with its three staging buffers of that dimension and its half of result band b.
private theorem barPay_0 (c : Dev nD) : barPay (F := F) m c 0 = iprop(stgPar (F := F) 0 0 c ∗ stgPar (F := F) 2 1 c ∗ stgPar (F := F) 1 2 c ∗ outRem m 0 c) := rfl
private theorem barPay_1 (c : Dev nD) : barPay (F := F) m c 1 = iprop(stgPar (F := F) 1 0 c ∗ stgPar (F := F) 0 1 c ∗ stgPar (F := F) 2 2 c ∗ outRem m 1 c) := rfl
private theorem barPay_2 (c : Dev nD) : barPay (F := F) m c 2 = iprop(stgPar (F := F) 2 0 c ∗ stgPar (F := F) 1 1 c ∗ stgPar (F := F) 0 2 c ∗ outRem m 2 c) := rfl

-- The concrete conjunction a finite iterated one unfolds to, read as the logic's own.
private theorem sep3 {A B C : sProp 𝕄} : BI.sep A (BI.sep B C) ⊢ iprop(A ∗ B ∗ C) := .rfl

-- Everything owed after the handshake is a landing, and every landing cell lies above the barrier's level.
private theorem O5_pos (c : Dev nD) (g : GSem nD τ sig) (u : Unit) (h : 0 < O5 c g u) : g.1.2 = .tc ∧ 1 < lv g u := by
  have r : ∀ {a : Fin 4} {t : Fin 3}, (∀ d k, 1 < lv (dCell d a t k) ()) → 0 < owedRow a t c g u → g.1.2 = .tc ∧ 1 < lv g u := fun hl h => by
    unfold owedRow at h
    rcases Pipeline.add_pos_cases h with h | h
    · rcases Pipeline.add_pos_cases h with h | h <;> (obtain rfl := pos_tally h; exact ⟨rfl, hl _ _⟩)
    · obtain rfl := pos_tally h; exact ⟨rfl, hl _ _⟩
  have l1 : ∀ {t : Fin 3} d k, 1 < lv (dCell d 1 t k) () := fun d k => by rw [lv_land]; omega
  have l3 : ∀ {t : Fin 3} d k, 1 < lv (dCell d 3 t k) () := fun d k => by rw [lv_bland]; omega
  unfold O5 at h
  rcases Pipeline.add_pos_cases h with h | h <;> rcases Pipeline.add_pos_cases h with h | h
  · rcases Pipeline.add_pos_cases h with h | h <;> exact r l1 h
  · exact r l1 h
  · rcases Pipeline.add_pos_cases h with h | h <;> exact r l3 h
  · exact r l3 h

attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq
attribute [local sl_rounds] duties_bar3 amount_bar payload_bar expect_bar barPay_0 barPay_1 barPay_2
attribute [local sl_rounds high] payload_bar_give0 payload_bar_give1 payload_bar_give2

theorem part3_run (c : Dev nD) (P : sProp 𝕄) (v7 v54 : BitVec 32)
    {Q : (Σ' (v65 : BitVec 32) (v68 : BitVec 32) (v74 : BitVec 32) (v79 : BitVec 32) (v82 : BitVec 32) (v88 : BitVec 32) (v90 : BitVec 32), BitVec 1) → sProp 𝕄} :
    iprop(P ∗ (∀ v65 : BitVec 32, ∀ v68 : BitVec 32, ∀ v74 : BitVec 32, ∀ v79 : BitVec 32, ∀ v82 : BitVec 32, ∀ v88 : BitVec 32, ∀ v90 : BitVec 32, ∀ v91 : BitVec 1, P -∗ Q ⟨v65, v68, v74, v79, v82, v88, v90, v91⟩))
      ⊢ wp Idealize.ShloMosaic.frame (wpE (defs₀ (F := F)) 𝒱₀ (c : Thread nD τ) none) Set.univ (atBufs (k0_part3 (F := F)) v7 v54) Q := by
  unfold atBufs
  rw [k0_part3_eq_skeleton]
  unfold k0_part3_skel
  iintro ⟨HP, Hk⟩
  sl_exec
  sl_step
  iapply Hk $$ HP

theorem part4_run (c : Dev nD) (P : sProp 𝕄) (v7 v82 v90 : BitVec 32) (v91 : BitVec 1)
    {Q : (Σ' (v93 : BitVec 32) (v96 : BitVec 32) (v102 : BitVec 32) (v107 : BitVec 32) (v110 : BitVec 32) (v116 : BitVec 32) (v121 : BitVec 32) (v122 : BitVec 1), BitVec 32) → sProp 𝕄} :
    iprop(P ∗ (∀ v93 : BitVec 32, ∀ v96 : BitVec 32, ∀ v102 : BitVec 32, ∀ v107 : BitVec 32, ∀ v110 : BitVec 32, ∀ v116 : BitVec 32, ∀ v121 : BitVec 32, ∀ v122 : BitVec 1, ∀ c512 : BitVec 32, P -∗ Q ⟨v93, v96, v102, v107, v110, v116, v121, v122, c512⟩))
      ⊢ wp Idealize.ShloMosaic.frame (wpE (defs₀ (F := F)) 𝒱₀ (c : Thread nD τ) none) Set.univ (atBufs (k0_part4 (F := F)) v7 v82 v90 v91) Q := by
  unfold atBufs
  rw [k0_part4_eq_skeleton]
  unfold k0_part4_skel
  iintro ⟨HP, Hk⟩
  sl_exec
  sl_step
  iapply Hk $$ HP

theorem part5_run (c : Dev nD) (P : sProp 𝕄) (v7 : BitVec 32) (v122 : BitVec 1) (c512 : BitVec 32)
    {Q : (Σ' (v124 : BitVec 32) (v130 : BitVec 32) (v135 : BitVec 32) (v138 : BitVec 32) (v144 : BitVec 32) (v149 : BitVec 32) (v152 : BitVec 32) (v153 : BitVec 32), BitVec 32) → sProp 𝕄} :
    iprop(P ∗ (∀ v124 : BitVec 32, ∀ v130 : BitVec 32, ∀ v135 : BitVec 32, ∀ v138 : BitVec 32, ∀ v144 : BitVec 32, ∀ v149 : BitVec 32, ∀ v152 : BitVec 32, ∀ v153 : BitVec 32, ∀ v154 : BitVec 32, P -∗ Q ⟨v124, v130, v135, v138, v144, v149, v152, v153, v154⟩))
      ⊢ wp Idealize.ShloMosaic.frame (wpE (defs₀ (F := F)) 𝒱₀ (c : Thread nD τ) none) Set.univ (atBufs (k0_part5 (F := F)) v7 v122 c512) Q := by
  unfold atBufs
  rw [k0_part5_eq_skeleton]
  unfold k0_part5_skel
  iintro ⟨HP, Hk⟩
  sl_exec
  sl_step
  iapply Hk $$ HP

-- What c's signal across dimension b carries to that neighbour, with the token that lets c send it.
def give (b : Fin 3) (c : Dev nD) {ℓ₁ ℓ₂ ℓ₃ : Loc nD τ sig} (f₁ : Buf (Elt F) ℓ₁) (f₂ : Buf (Elt F) ℓ₂) (f₃ : Buf (Elt F) ℓ₃) : sProp 𝕄 :=
  iprop(dutyTok ER (barCell (nb b c)) 0 b ∗ (ℓ₁ ↦{fullShare} f₁ : sProp 𝕄) ∗ (ℓ₂ ↦{fullShare} f₂ : sProp 𝕄) ∗ (ℓ₃ ↦{fullShare} f₃ : sProp 𝕄)
    ∗ (pt(outS b c, c, fullShare, m ((c : Thread nD τ).loc main_v1)) : sProp 𝕄))

def rest5 (t : Fin 3) (c : Dev nD) (fa : Buf (Elt F) ((c : Thread nD τ).loc cc0_scratch0)) : sProp 𝕄 :=
  iprop(rsFresh t 0 c ∗ rsFresh t 1 c ∗ rsFresh t 2 c ∗ agFresh t 2 c ∗ agFresh t 1 c ∗ agFresh t 0 c
    ∗ bandFix m t c fa ∗ (pt(accK t 0 c, c, fullShare, fa) : sProp 𝕄)
    ∗ lcFresh 0 t c ∗ lcFresh 1 t c)

def S1 (c : Dev nD) (K : Dev nD × Fin 43 → ℕ) (fa : Buf (Elt F) ((c : Thread nD τ).loc cc0_scratch0)) (W : Waits sig Unit) (f1 : Buf (Elt F) ((c : Thread nD τ).loc cc0_scratch1)) (f2 : Buf (Elt F) ((c : Thread nD τ).loc cc0_scratch2)) (f3 : Buf (Elt F) ((c : Thread nD τ).loc cc0_scratch3)) (f4 : Buf (Elt F) ((c : Thread nD τ).loc cc0_scratch4)) (f5 : Buf (Elt F) ((c : Thread nD τ).loc cc0_scratch5)) (f6 : Buf (Elt F) ((c : Thread nD τ).loc cc0_scratch6)) (f7 : Buf (Elt F) ((c : Thread nD τ).loc cc0_scratch7)) (f8 : Buf (Elt F) ((c : Thread nD τ).loc cc0_scratch8)) (f9 : Buf (Elt F) ((c : Thread nD τ).loc cc0_scratch9)) : sProp 𝕄 :=
  iprop(records m K ∗ levAts L lv ∗ owes (c : Thread nD τ) (O5 c + tallyAt (barCell (nb 2 c)) () 1 + tallyAt (barCell (nb 1 c)) () 1 + tallyAt (barCell (nb 0 c)) () 1) W
    ∗ give m 0 c f1 f8 f6 ∗ give m 1 c f4 f2 f9 ∗ give m 2 c f7 f5 f3
    ∗ atPos ER (barCell c) 0 ∅ 0 ∗ cred (tallyAt (barCell c) () 3)
    ∗ rest5 m 0 c fa ∗ rest5 m 1 c fa ∗ rest5 m 2 c fa)

def S2 (c : Dev nD) (K : Dev nD × Fin 43 → ℕ) (fa : Buf (Elt F) ((c : Thread nD τ).loc cc0_scratch0)) (W : Waits sig Unit) (f7 : Buf (Elt F) ((c : Thread nD τ).loc cc0_scratch7)) (f5 : Buf (Elt F) ((c : Thread nD τ).loc cc0_scratch5)) (f3 : Buf (Elt F) ((c : Thread nD τ).loc cc0_scratch3)) : sProp 𝕄 :=
  iprop(records m K ∗ levAts L lv ∗ owes (c : Thread nD τ) (O5 c + tallyAt (barCell (nb 2 c)) () 1) W
    ∗ give m 2 c f7 f5 f3
    ∗ atPos ER (barCell c) 0 ∅ 0 ∗ cred (tallyAt (barCell c) () 3)
    ∗ rest5 m 0 c fa ∗ rest5 m 1 c fa ∗ rest5 m 2 c fa)

private theorem O₀_eq (c : Dev nD) : O₀ c = O5 c + tallyAt (barCell (nb 2 c)) () 1 + tallyAt (barCell (nb 1 c)) () 1 + tallyAt (barCell (nb 0 c)) () 1 := by
  unfold O₀ O5 owedBar; ac_rfl

-- A device's forty-three cells, listed: its barrier cell, its thirty-six transfer cells, its six local copies' cells.
private theorem cells43 (c : Dev nD) (Φ : GSem nD τ sig → sProp 𝕄) : (bigSep Finset.univ fun i : Fin 43 => Φ (kcell (c, i)))
    = iprop(Φ (barCell c) ∗ Φ (dCell c 0 0 0) ∗ Φ (dCell c 0 0 1) ∗ Φ (dCell c 0 0 2) ∗ Φ (dCell c 0 1 0) ∗ Φ (dCell c 0 1 1) ∗ Φ (dCell c 0 1 2) ∗ Φ (dCell c 0 2 0) ∗ Φ (dCell c 0 2 1) ∗ Φ (dCell c 0 2 2) ∗ Φ (dCell c 1 0 0) ∗ Φ (dCell c 1 0 1) ∗ Φ (dCell c 1 0 2) ∗ Φ (dCell c 1 1 0) ∗ Φ (dCell c 1 1 1) ∗ Φ (dCell c 1 1 2) ∗ Φ (dCell c 1 2 0) ∗ Φ (dCell c 1 2 1) ∗ Φ (dCell c 1 2 2) ∗ Φ (dCell c 2 0 0) ∗ Φ (dCell c 2 0 1) ∗ Φ (dCell c 2 0 2) ∗ Φ (dCell c 2 1 0) ∗ Φ (dCell c 2 1 1) ∗ Φ (dCell c 2 1 2) ∗ Φ (dCell c 2 2 0) ∗ Φ (dCell c 2 2 1) ∗ Φ (dCell c 2 2 2) ∗ Φ (dCell c 3 0 0) ∗ Φ (dCell c 3 0 1) ∗ Φ (dCell c 3 0 2) ∗ Φ (dCell c 3 1 0) ∗ Φ (dCell c 3 1 1) ∗ Φ (dCell c 3 1 2) ∗ Φ (dCell c 3 2 0) ∗ Φ (dCell c 3 2 1) ∗ Φ (dCell c 3 2 2) ∗ Φ (lCell c 0 0) ∗ Φ (lCell c 0 1) ∗ Φ (lCell c 0 2) ∗ Φ (lCell c 1 0) ∗ Φ (lCell c 1 1) ∗ Φ (lCell c 1 2)) := by
  rw [bigSep_univ_eq_bigSepL (List.finRange 43) (by decide) (by decide)]
  rfl

set_option maxHeartbeats 2000000 in
theorem preamble (c : Dev nD) :
    iprop(Φ₀ m c ∗ (dats (F := F) m 0 c).owesAt () t0_0.castSucc)
      ⊢ iprop(∃ K : Dev nD × Fin 43 → ℕ, ∃ fa : Buf (Elt F) ((c : Thread nD τ).loc cc0_scratch0), ∃ W : Waits sig Unit, ∃ f1 : Buf (Elt F) ((c : Thread nD τ).loc cc0_scratch1), ∃ f2 : Buf (Elt F) ((c : Thread nD τ).loc cc0_scratch2), ∃ f3 : Buf (Elt F) ((c : Thread nD τ).loc cc0_scratch3), ∃ f4 : Buf (Elt F) ((c : Thread nD τ).loc cc0_scratch4), ∃ f5 : Buf (Elt F) ((c : Thread nD τ).loc cc0_scratch5), ∃ f6 : Buf (Elt F) ((c : Thread nD τ).loc cc0_scratch6), ∃ f7 : Buf (Elt F) ((c : Thread nD τ).loc cc0_scratch7), ∃ f8 : Buf (Elt F) ((c : Thread nD τ).loc cc0_scratch8), ∃ f9 : Buf (Elt F) ((c : Thread nD τ).loc cc0_scratch9), S1 m c K fa W f1 f2 f3 f4 f5 f6 f7 f8 f9) := by
  unfold Φ₀ start ghost payToks creds Dat.owesAt Pipeline.owesWithin S1 give rest5 rsFresh agFresh bandFix lcFresh
  rw [scopedRest0_eq, show (dats (F := F) m 0 c).owed t0_0.castSucc = O₀ c from rfl, O₀_eq, cells43 c fun g => atPos ER g 0 ∅ 0, bigSep_fin3, bigSep_fin33, bigSep_fin33, bigSep_fin23]
  dsimp only
  iintro ⟨⟨⟨⟨%K, #HR, ⟨Hpb, Hp000, Hp001, Hp002, Hp010, Hp011, Hp012, Hp020, Hp021, Hp022, Hp100, Hp101, Hp102, Hp110, Hp111, Hp112, Hp120, Hp121, Hp122, Hp200, Hp201, Hp202, Hp210, Hp211, Hp212, Hp220, Hp221, Hp222, Hp300, Hp301, Hp302, Hp310, Hp311, Hp312, Hp320, Hp321, Hp322, HpL00, HpL01, HpL02, HpL10, HpL11, HpL12⟩, ⟨Tb0, Tb1, Tb2⟩, ⟨⟨T000, T100, T200, T300⟩, ⟨T010, T110, T210, T310⟩, ⟨T020, T120, T220, T320⟩, ⟨T001, T101, T201, T301⟩, ⟨T011, T111, T211, T311⟩, ⟨T021, T121, T221, T321⟩, ⟨T002, T102, T202, T302⟩, ⟨T012, T112, T212, T312⟩, ⟨T022, T122, T222, T322⟩⟩, ⟨TL00, TL01, TL02, TL10, TL11, TL12⟩⟩, ⟨Cb, ⟨C100, C300⟩, ⟨C110, C310⟩, ⟨C120, C320⟩, ⟨C101, C301⟩, ⟨C111, C311⟩, ⟨C121, C321⟩, ⟨C102, C302⟩, ⟨C112, C312⟩, ⟨C122, C322⟩⟩, #Hlev, Hx, Hout⟩, ⟨%fa, Hacc⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩⟩, ⟨%W, %hW, HO⟩⟩
  ihave Hx6 := (x_split c _).1 $$ Hx
  icases Hx6 with ⟨HxK0, HxS0, HxK1, HxS1, HxK2, HxS2⟩
  ihave Ho6 := (out_split c _).1 $$ Hout
  icases Ho6 with ⟨HoK0, HoS0, HoK1, HoS1, HoK2, HoS2⟩
  ihave Ha6 := (acc_split c _).1 $$ Hacc
  icases Ha6 with ⟨HaK0, HaS0, HaK1, HaS1, HaK2, HaS2⟩
  iexists K, fa, W, f1, f2, f3, f4, f5, f6, f7, f8, f9
  isplitl []; · iexact HR
  isplitl []; · iexact Hlev
  iframe

theorem part1_full (c : Dev nD) (K : Dev nD × Fin 43 → ℕ) (fa : Buf (Elt F) ((c : Thread nD τ).loc cc0_scratch0)) (W : Waits sig Unit) (f1 : Buf (Elt F) ((c : Thread nD τ).loc cc0_scratch1)) (f2 : Buf (Elt F) ((c : Thread nD τ).loc cc0_scratch2)) (f3 : Buf (Elt F) ((c : Thread nD τ).loc cc0_scratch3)) (f4 : Buf (Elt F) ((c : Thread nD τ).loc cc0_scratch4)) (f5 : Buf (Elt F) ((c : Thread nD τ).loc cc0_scratch5)) (f6 : Buf (Elt F) ((c : Thread nD τ).loc cc0_scratch6)) (f7 : Buf (Elt F) ((c : Thread nD τ).loc cc0_scratch7)) (f8 : Buf (Elt F) ((c : Thread nD τ).loc cc0_scratch8)) (f9 : Buf (Elt F) ((c : Thread nD τ).loc cc0_scratch9))
    {Q : (Σ' (d0 : Dev nD) (v7 : BitVec 32) (v8 : Sems sig S_), BitVec 32) → sProp 𝕄} :
    iprop(S1 m c K fa W f1 f2 f3 f4 f5 f6 f7 f8 f9
        ∗ (∀ v7 : BitVec 32, ∀ v31 : BitVec 32, S2 m c K fa W f7 f5 f3 -∗ Q ⟨c, v7, (SemArray.scalar (sig.barrier 0 rfl)), v31⟩))
      ⊢ wp Idealize.ShloMosaic.frame (wpE (defs₀ (F := F)) 𝒱₀ (c : Thread nD τ) none) Set.univ (atBufs (k0_part1 (F := F))) Q := by
  unfold atBufs
  rw [k0_part1_eq_skeleton]
  unfold k0_part1_skel S1 S2 give
  iintro ⟨⟨#HR, #Hlev, HO, ⟨Tb0, Hs1, Hs8, Hs6, HoS0⟩, ⟨Tb1, Hs4, Hs2, Hs9, HoS1⟩, ⟨Tb2, Hs7, Hs5, Hs3, HoS2⟩, Hpb, Cb, Hr0, Hr1, Hr2⟩, Hk⟩
  ihave #Ibn0 := (inv_bar m K (nb 0 c)) $$ HR
  ihave #Rbn0 := (reached_bar m K (nb 0 c)) $$ HR
  ihave #Ibn1 := (inv_bar m K (nb 1 c)) $$ HR
  ihave #Rbn1 := (reached_bar m K (nb 1 c)) $$ HR
  sl_exec
  sl_step
  iapply Hk
  isplitl []; · iexact HR
  isplitl []; · iexact Hlev
  iframe

theorem part2_full (c : Dev nD) (K : Dev nD × Fin 43 → ℕ) (fa : Buf (Elt F) ((c : Thread nD τ).loc cc0_scratch0)) (W : Waits sig Unit) (v7 v31 : BitVec 32) (f7 : Buf (Elt F) ((c : Thread nD τ).loc cc0_scratch7)) (f5 : Buf (Elt F) ((c : Thread nD τ).loc cc0_scratch5)) (f3 : Buf (Elt F) ((c : Thread nD τ).loc cc0_scratch3))
    {Q : (Σ' (v37 : BitVec 32) (v40 : BitVec 32) (v46 : BitVec 32) (v51 : BitVec 32) (v54 : BitVec 32), BitVec 32) → sProp 𝕄} :
    iprop(S2 m c K fa W f7 f5 f3
        ∗ (∀ v37 : BitVec 32, ∀ v40 : BitVec 32, ∀ v46 : BitVec 32, ∀ v51 : BitVec 32, ∀ v54 : BitVec 32, ∀ v60 : BitVec 32, Mid5 m c K fa -∗ Q ⟨v37, v40, v46, v51, v54, v60⟩))
      ⊢ wp Idealize.ShloMosaic.frame (wpE (defs₀ (F := F)) 𝒱₀ (c : Thread nD τ) none) Set.univ (atBufs (k0_part2 (F := F)) c v7 (SemArray.scalar (sig.barrier 0 rfl)) v31) Q := by
  unfold atBufs
  rw [k0_part2_eq_skeleton]
  unfold k0_part2_skel S2 give Mid5 band5 rest5
  have hmwB : (levAts L lv : sProp 𝕄) ⊢ MayWait (c : Thread nD τ) (.reg barS) () (O5 c) :=
    mayWait_cut c _ _ 1 (le_of_eq (lv_bar c)) (O5_pos c)
  iintro ⟨⟨#HR, #Hlev, HO, ⟨Tb2, Hs7, Hs5, Hs3, HoS2⟩, Hpb, Cb, ⟨R0rs0, R0rs1, R0rs2, R0ag2, R0ag1, R0ag0, R0fix, R0acc, R0lc0, R0lc1⟩, ⟨R1rs0, R1rs1, R1rs2, R1ag2, R1ag1, R1ag0, R1fix, R1acc, R1lc0, R1lc1⟩, ⟨R2rs0, R2rs1, R2rs2, R2ag2, R2ag1, R2ag0, R2fix, R2acc, R2lc0, R2lc1⟩⟩, Hk⟩
  ihave #Ibn2 := (inv_bar m K (nb 2 c)) $$ HR
  ihave #Rbn2 := (reached_bar m K (nb 2 c)) $$ HR
  ihave #Ib := (inv_bar m K c) $$ HR
  sl_exec
  sl_step
  ihave Hp := sep3 $$ Hpb_pay1
  icases Hp with ⟨⟨G00, G21, G12, OR0⟩, ⟨G10, G01, G22, OR1⟩, ⟨G20, G11, G02, OR2⟩⟩
  iapply Hk
  isplitl []; · iexact HR
  isplitl []; · iexact Hlev
  isplitl [Hpb]; · iexact Hpb
  isplitl [HO]; · iexists _; iexact HO
  iframe

end Cert.KernelIdeal.Hyp

end
-- ==== Proof.Steps.lean ====
import proofs.«901103_g7700000000001104_dist_treered_v7x_i8_m1024_n1024_f32_1_alg».proof.Proof.Levels
import proofs.«901103_g7700000000001104_dist_treered_v7x_i8_m1024_n1024_f32_1_alg».proof.Proof.Payer
import proofs.«901103_g7700000000001104_dist_treered_v7x_i8_m1024_n1024_f32_1_alg».proof.Proof.Restate

noncomputable section

namespace Cert.KernelIdeal.Hyp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "WP(" c ", " e ", " Q ")" =>
  wp Idealize.ShloMosaic.frame (wpE (defs₀ (F := F)) 𝒱₀ (c : Thread nD τ) none) Set.univ e Q

theorem credit_Sh (t k : Fin 3) {sp : Space} (M : Memref sig .tc sp (Sh t k) .f32) : M.view.dmaCredit = amt t k := rfl

theorem dmem (c : Dev nD) (a : Fin 4) (t k : Fin 3) : (0 : Fin 3) ∈ (Rd m).duties (dCell c a t k) 0 := by
  rw [duties_d]; exact Finset.mem_singleton_self _

variable (K : Dev nD × Fin 43 → ℕ)

/-- A wait for the whole round of a transfer semaphore's cell takes the cell's one payload `P`. -/
theorem wp_waitDma2_g (c : Dev nD) (sm : DmaSem sig) (κ n : ℕ) (P : sProp 𝕄)
    (he : (Rd m).expect ((c : Thread nD τ), .dma sm) 0 = n)
    (hr : bigSep ((Rd m).duties ((c : Thread nD τ), .dma sm) 0 \ ∅) ((Rd m).payload ((c : Thread nD τ), .dma sm) 0) = P)
    {sem : DmaSem sig} (hsem : sem = sm) {sp sp' : Space} {s s' : Shape} {e' : EltTy} {κ' : Kind}
    {src : Memref sig .tc sp' s' e'} {dst : Memref sig κ' sp s .f32} {hsrc : src.view.WordExact} {hdst : dst.view.WordExact}
    (hamt : dst.view.dmaCredit = n)
    {α : Type} {Q : α → sProp 𝕄} {kk : PUnit → Prog (TpuEff nD τ sig (Elt F) Λ₀ .tc) α}
    (O : CellTallies nD τ sig Unit) (W : Waits sig Unit) :
    iprop(cellInv ER (Rd m) κ ((c : Thread nD τ), .dma sm) ∗ cred (tallyAt ((c : Thread nD τ), .dma sm) () n)
        ∗ owes (c : Thread nD τ) O W ∗ MayWait (c : Thread nD τ) (.dma sm) () O ∗ atPos ER ((c : Thread nD τ), .dma sm) 0 ∅ 0)
      ⊢ iprop(((owes (c : Thread nD τ) O (insert (SemLoc.dma sm, ()) W) ∗ atPos ER ((c : Thread nD τ), .dma sm) 1 ∅ 0 ∗ P) -∗ WP(c, kk ⟨⟩, Q))
          -∗ WP(c, .op (.waitDma2 sem src dst hsrc hdst) kk, Q)) := by
  subst hsem hamt hr
  iintro H Hk
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [Nat.zero_add, he])) $$ H
  iintro ⟨HO, Hat, -, Hpay⟩
  iapply Hk
  iframe

theorem wp_waitDma2_d (c : Dev nD) (a : Fin 4) (t k : Fin 3) {sem : DmaSem sig} (hsem : sem = dsem a t k)
    {sp sp' : Space} {s' : Shape} {e' : EltTy} {κ' : Kind}
    {src : Memref sig .tc sp' s' e'} {dst : Memref sig κ' sp (Sh t k) .f32} {hsrc : src.view.WordExact} {hdst : dst.view.WordExact}
    (hamt : dst.view.dmaCredit = amt t k)
    {α : Type} {Q : α → sProp 𝕄} {kk : PUnit → Prog (TpuEff nD τ sig (Elt F) Λ₀ .tc) α}
    (O : CellTallies nD τ sig Unit) (W : Waits sig Unit) :
    iprop(cellInv ER (Rd m) (K (c, cidx a t k)) (dCell c a t k) ∗ cred (tallyAt (dCell c a t k) () (amt t k))
        ∗ owes (c : Thread nD τ) O W ∗ MayWait (c : Thread nD τ) (.dma (dsem a t k)) () O ∗ atPos ER (dCell c a t k) 0 ∅ 0)
      ⊢ iprop(((owes (c : Thread nD τ) O (insert (SemLoc.dma (dsem a t k), ()) W) ∗ atPos ER (dCell c a t k) 1 ∅ 0
              ∗ dPay m a t k c) -∗ WP(c, kk ⟨⟩, Q))
          -∗ WP(c, .op (.waitDma2 sem src dst hsrc hdst) kk, Q)) :=
  wp_waitDma2_g m c _ _ _ _ (expect_d m c a t k)
    (by rw [Finset.sdiff_empty, duties_d, bigSep_singleton, payload_d]) hsem hamt O W

theorem wp_send_half0 (c n : Dev nD) (t : Fin 3) (hn : n = par t 0 c)
    {Ms : Memref sig .tc .hbm (Sh t 0) .f32} {Md : Memref sig .tc .vmem (Sh t 0) .f32} (hMs : Ms = xS t c) (hMd : Md = stg t 0)
    {sS sR : DmaSem sig} (hsS : sS = dsem 0 t 0) (hsR : sR = dsem 1 t 0)
    {hsc : Md.view.ref.isScScratch = false} {hsrc : Ms.view.WordExact} {hdst : Md.view.WordExact}
    {hsem : DmaTarget.Typed .hbm (.dma sR) (.remote (Dev.tc n : Thread nD τ) Md (.dma sS) hsc)}
    {α : Type} {Q : α → sProp 𝕄} {k' : PUnit → Prog (TpuEff nD τ sig (Elt F) Λ₀ .tc) α}
    (fd : Buf (Elt F) ((stg t 0).view.loc (par t 0 c : Thread nD τ))) (O : CellTallies nD τ sig Unit) (W : Waits sig Unit) :
    iprop(cellInv ER (Rd m) (K (c, cidx 0 t 0)) (dCell c 0 t 0) ∗ cellInv ER (Rd m) (K (par t 0 c, cidx 1 t 0)) (dCell (par t 0 c) 1 t 0)
        ∗ ((xS t c).view.loc (c : Thread nD τ) ↦[(xS t c).view.set]{fullShare} xs m c)
        ∗ ((stg t 0).view.loc (par t 0 c : Thread nD τ) ↦[(stg t 0).view.set]{fullShare} fd)
        ∗ owes (c : Thread nD τ) (O + tallyAt (dCell (par t 0 c) 1 t 0) () (amt t 0)) W
        ∗ dutyTok ER (dCell c 0 t 0) 0 0 ∗ reached ER (dCell c 0 t 0) 0
        ∗ dutyTok ER (dCell (par t 0 c) 1 t 0) 0 0 ∗ reached ER (dCell (par t 0 c) 1 t 0) 0)
      ⊢ iprop(((cred (tallyAt (dCell c 0 t 0) () (amt t 0)) ∗ owes (c : Thread nD τ) O W) -∗ WP(c, k' ⟨⟩, Q))
          -∗ WP(c, .op (.enqueueDma Ms (.remote (Dev.tc n : Thread nD τ) Md (.dma sS) hsc) (.dma sR) hsrc hdst hsem) k', Q)) := by
  subst hMs hMd hn hsS hsR
  exact Rounds.wp_send_pointsTo 𝒱₀ ER (Rd m) _ none (c' := Dev.tc _) (sS := .dma _) (sem := .dma _) (dmem ..) (dmem ..)
    () () _ (credit_Sh _ _ (stg t 0)) (amount_d ..) (amount_d ..) O rfl (by rw [payload_own_00])
    (by
      rcases fin3_cases t with rfl | rfl | rfl <;>
      · simp only [payload_d, dPay, xK]; rw [par_invol]
        generalize xk_inb _ (par _ _ c) = h; revert h; rw [kLo_par]; intro h; rw [View.write_whole_univ])

theorem wp_send_half1 (c n : Dev nD) (t : Fin 3) (hn : n = par t 1 c)
    {Ms : Memref sig .tc .vmem (Sh t 1) .f32} {Md : Memref sig .tc .vmem (Sh t 1) .f32} (hMs : Ms = accS t 1 c) (hMd : Md = stg t 1)
    {sS sR : DmaSem sig} (hsS : sS = dsem 0 t 1) (hsR : sR = dsem 1 t 1)
    {hsc : Md.view.ref.isScScratch = false} {hsrc : Ms.view.WordExact} {hdst : Md.view.WordExact}
    {hsem : DmaTarget.Typed .vmem (.dma sR) (.remote (Dev.tc n : Thread nD τ) Md (.dma sS) hsc)}
    {α : Type} {Q : α → sProp 𝕄} {k' : PUnit → Prog (TpuEff nD τ sig (Elt F) Λ₀ .tc) α}
    (fd : Buf (Elt F) ((stg t 1).view.loc (par t 1 c : Thread nD τ))) (O : CellTallies nD τ sig Unit) (W : Waits sig Unit) :
    iprop(cellInv ER (Rd m) (K (c, cidx 0 t 1)) (dCell c 0 t 1) ∗ cellInv ER (Rd m) (K (par t 1 c, cidx 1 t 1)) (dCell (par t 1 c) 1 t 1)
        ∗ ((accS t 1 c).view.loc (c : Thread nD τ) ↦[(accS t 1 c).view.set]{fullShare} (A1 (xs m) c))
        ∗ ((stg t 1).view.loc (par t 1 c : Thread nD τ) ↦[(stg t 1).view.set]{fullShare} fd)
        ∗ owes (c : Thread nD τ) (O + tallyAt (dCell (par t 1 c) 1 t 1) () (amt t 1)) W
        ∗ dutyTok ER (dCell c 0 t 1) 0 0 ∗ reached ER (dCell c 0 t 1) 0
        ∗ dutyTok ER (dCell (par t 1 c) 1 t 1) 0 0 ∗ reached ER (dCell (par t 1 c) 1 t 1) 0)
      ⊢ iprop(((cred (tallyAt (dCell c 0 t 1) () (amt t 1)) ∗ owes (c : Thread nD τ) O W) -∗ WP(c, k' ⟨⟩, Q))
          -∗ WP(c, .op (.enqueueDma Ms (.remote (Dev.tc n : Thread nD τ) Md (.dma sS) hsc) (.dma sR) hsrc hdst hsem) k', Q)) := by
  subst hMs hMd hn hsS hsR
  exact Rounds.wp_send_landing_pointsTo 𝒱₀ ER (Rd m) _ none (c' := Dev.tc _) (sS := .dma _) (sem := .dma _) (dmem ..) (dmem ..)
    () () _ (credit_Sh _ _ (stg t 1)) (amount_d ..) (amount_d ..) O rfl (by rw [payload_d]; exact .rfl)
    (by
      rcases fin3_cases t with rfl | rfl | rfl <;>
      · simp only [payload_d, dPay, accK, kR]; rw [par_invol]
        generalize kLo_inb _ _ (par _ _ c) = h; revert h; rw [kLo_par]; intro h; rw [View.write_whole_univ])

theorem wp_send_half2 (c n : Dev nD) (t : Fin 3) (hn : n = par t 2 c)
    {Ms : Memref sig .tc .vmem (Sh t 2) .f32} {Md : Memref sig .tc .vmem (Sh t 2) .f32} (hMs : Ms = accS t 2 c) (hMd : Md = stg t 2)
    {sS sR : DmaSem sig} (hsS : sS = dsem 0 t 2) (hsR : sR = dsem 1 t 2)
    {hsc : Md.view.ref.isScScratch = false} {hsrc : Ms.view.WordExact} {hdst : Md.view.WordExact}
    {hsem : DmaTarget.Typed .vmem (.dma sR) (.remote (Dev.tc n : Thread nD τ) Md (.dma sS) hsc)}
    {α : Type} {Q : α → sProp 𝕄} {k' : PUnit → Prog (TpuEff nD τ sig (Elt F) Λ₀ .tc) α}
    (fd : Buf (Elt F) ((stg t 2).view.loc (par t 2 c : Thread nD τ))) (O : CellTallies nD τ sig Unit) (W : Waits sig Unit) :
    iprop(cellInv ER (Rd m) (K (c, cidx 0 t 2)) (dCell c 0 t 2) ∗ cellInv ER (Rd m) (K (par t 2 c, cidx 1 t 2)) (dCell (par t 2 c) 1 t 2)
        ∗ ((accS t 2 c).view.loc (c : Thread nD τ) ↦[(accS t 2 c).view.set]{fullShare} (A2 (xs m) c))
        ∗ ((stg t 2).view.loc (par t 2 c : Thread nD τ) ↦[(stg t 2).view.set]{fullShare} fd)
        ∗ owes (c : Thread nD τ) (O + tallyAt (dCell (par t 2 c) 1 t 2) () (amt t 2)) W
        ∗ dutyTok ER (dCell c 0 t 2) 0 0 ∗ reached ER (dCell c 0 t 2) 0
        ∗ dutyTok ER (dCell (par t 2 c) 1 t 2) 0 0 ∗ reached ER (dCell (par t 2 c) 1 t 2) 0)
      ⊢ iprop(((cred (tallyAt (dCell c 0 t 2) () (amt t 2)) ∗ owes (c : Thread nD τ) O W) -∗ WP(c, k' ⟨⟩, Q))
          -∗ WP(c, .op (.enqueueDma Ms (.remote (Dev.tc n : Thread nD τ) Md (.dma sS) hsc) (.dma sR) hsrc hdst hsem) k', Q)) := by
  subst hMs hMd hn hsS hsR
  exact Rounds.wp_send_landing_pointsTo 𝒱₀ ER (Rd m) _ none (c' := Dev.tc _) (sS := .dma _) (sem := .dma _) (dmem ..) (dmem ..)
    () () _ (credit_Sh _ _ (stg t 2)) (amount_d ..) (amount_d ..) O rfl (by rw [payload_d]; exact .rfl)
    (by
      rcases fin3_cases t with rfl | rfl | rfl <;>
      · simp only [payload_d, dPay, accK, kR]; rw [par_invol]
        generalize kLo_inb _ _ (par _ _ c) = h; revert h; rw [kLo_par]; intro h; rw [View.write_whole_univ])

theorem wp_send_back2 (c n : Dev nD) (t : Fin 3) (hn : n = par t 2 c)
    {Ms : Memref sig .tc .vmem (Sh t 2) .f32} {Md : Memref sig .tc .vmem (Sh t 2) .f32} (hMs : Ms = accK t 2 c) (hMd : Md = accK t 2 c)
    {sS sR : DmaSem sig} (hsS : sS = dsem 2 t 2) (hsR : sR = dsem 3 t 2)
    {hsc : Md.view.ref.isScScratch = false} {hsrc : Ms.view.WordExact} {hdst : Md.view.WordExact}
    {hsem : DmaTarget.Typed .vmem (.dma sR) (.remote (Dev.tc n : Thread nD τ) Md (.dma sS) hsc)}
    {α : Type} {Q : α → sProp 𝕄} {k' : PUnit → Prog (TpuEff nD τ sig (Elt F) Λ₀ .tc) α}
    (O : CellTallies nD τ sig Unit) (W : Waits sig Unit) :
    iprop(cellInv ER (Rd m) (K (c, cidx 2 t 2)) (dCell c 2 t 2) ∗ cellInv ER (Rd m) (K (par t 2 c, cidx 3 t 2)) (dCell (par t 2 c) 3 t 2)
        ∗ ((accK t 2 c).view.loc (c : Thread nD τ) ↦[(accK t 2 c).view.set]{fullShare} (A3 (xs m) c))
        ∗ ((accK t 2 c).view.loc (par t 2 c : Thread nD τ) ↦[(accK t 2 c).view.set]{fullShare} (A2 (xs m) (par t 2 c)))
        ∗ owes (c : Thread nD τ) (O + tallyAt (dCell (par t 2 c) 3 t 2) () (amt t 2)) W
        ∗ dutyTok ER (dCell c 2 t 2) 0 0 ∗ reached ER (dCell c 2 t 2) 0
        ∗ dutyTok ER (dCell (par t 2 c) 3 t 2) 0 0 ∗ reached ER (dCell (par t 2 c) 3 t 2) 0)
      ⊢ iprop(((cred (tallyAt (dCell c 2 t 2) () (amt t 2)) ∗ owes (c : Thread nD τ) O W) -∗ WP(c, k' ⟨⟩, Q))
          -∗ WP(c, .op (.enqueueDma Ms (.remote (Dev.tc n : Thread nD τ) Md (.dma sS) hsc) (.dma sR) hsrc hdst hsem) k', Q)) := by
  subst hMs hMd hn hsS hsR
  exact Rounds.wp_send_pointsTo 𝒱₀ ER (Rd m) _ none (c' := Dev.tc _) (sS := .dma _) (sem := .dma _) (dmem ..) (dmem ..)
    () () _ (credit_Sh _ _ (accK t 2 c)) (amount_d ..) (amount_d ..) O rfl (by rw [payload_own_22])
    (by
      rw [payload_own_32, par_invol]; simp only [accS, outS, sR]
      generalize sLo_inb _ _ (par _ _ c) = h; revert h; rw [sLo_par]; exact fun _ => .rfl)

theorem wp_send_back1 (c n : Dev nD) (t : Fin 3) (hn : n = par t 1 c)
    {Ms : Memref sig .tc .vmem (Sh t 1) .f32} {Md : Memref sig .tc .vmem (Sh t 1) .f32} (hMs : Ms = accK t 1 c) (hMd : Md = accK t 1 c)
    {sS sR : DmaSem sig} (hsS : sS = dsem 2 t 1) (hsR : sR = dsem 3 t 1)
    {hsc : Md.view.ref.isScScratch = false} {hsrc : Ms.view.WordExact} {hdst : Md.view.WordExact}
    {hsem : DmaTarget.Typed .vmem (.dma sR) (.remote (Dev.tc n : Thread nD τ) Md (.dma sS) hsc)}
    {α : Type} {Q : α → sProp 𝕄} {k' : PUnit → Prog (TpuEff nD τ sig (Elt F) Λ₀ .tc) α}
    (O : CellTallies nD τ sig Unit) (W : Waits sig Unit) :
    iprop(cellInv ER (Rd m) (K (c, cidx 2 t 1)) (dCell c 2 t 1) ∗ cellInv ER (Rd m) (K (par t 1 c, cidx 3 t 1)) (dCell (par t 1 c) 3 t 1)
        ∗ ((accK t 1 c).view.loc (c : Thread nD τ) ↦[(accK t 1 c).view.set]{fullShare} (B2 (xs m) c))
        ∗ ((accK t 1 c).view.loc (par t 1 c : Thread nD τ) ↦[(accK t 1 c).view.set]{fullShare} (A1 (xs m) (par t 1 c)))
        ∗ owes (c : Thread nD τ) (O + tallyAt (dCell (par t 1 c) 3 t 1) () (amt t 1)) W
        ∗ dutyTok ER (dCell c 2 t 1) 0 0 ∗ reached ER (dCell c 2 t 1) 0
        ∗ dutyTok ER (dCell (par t 1 c) 3 t 1) 0 0 ∗ reached ER (dCell (par t 1 c) 3 t 1) 0)
      ⊢ iprop(((cred (tallyAt (dCell c 2 t 1) () (amt t 1)) ∗ owes (c : Thread nD τ) O W) -∗ WP(c, k' ⟨⟩, Q))
          -∗ WP(c, .op (.enqueueDma Ms (.remote (Dev.tc n : Thread nD τ) Md (.dma sS) hsc) (.dma sR) hsrc hdst hsem) k', Q)) := by
  subst hMs hMd hn hsS hsR
  exact Rounds.wp_send_pointsTo 𝒱₀ ER (Rd m) _ none (c' := Dev.tc _) (sS := .dma _) (sem := .dma _) (dmem ..) (dmem ..)
    () () _ (credit_Sh _ _ (accK t 1 c)) (amount_d ..) (amount_d ..) O rfl (by rw [payload_own_21])
    (by
      rw [payload_own_31, par_invol]; simp only [accS, outS, sR]
      generalize sLo_inb _ _ (par _ _ c) = h; revert h; rw [sLo_par]; exact fun _ => .rfl)

theorem wp_send_back0 (c n : Dev nD) (t : Fin 3) (hn : n = par t 0 c)
    {Ms : Memref sig .tc .vmem (Sh t 0) .f32} {Md : Memref sig .tc .hbm (Sh t 0) .f32} (hMs : Ms = accK t 0 c) (hMd : Md = outK t c)
    {sS sR : DmaSem sig} (hsS : sS = dsem 2 t 0) (hsR : sR = dsem 3 t 0)
    {hsc : Md.view.ref.isScScratch = false} {hsrc : Ms.view.WordExact} {hdst : Md.view.WordExact}
    {hsem : DmaTarget.Typed .vmem (.dma sR) (.remote (Dev.tc n : Thread nD τ) Md (.dma sS) hsc)}
    {α : Type} {Q : α → sProp 𝕄} {k' : PUnit → Prog (TpuEff nD τ sig (Elt F) Λ₀ .tc) α}
    (O : CellTallies nD τ sig Unit) (W : Waits sig Unit) :
    iprop(cellInv ER (Rd m) (K (c, cidx 2 t 0)) (dCell c 2 t 0) ∗ cellInv ER (Rd m) (K (par t 0 c, cidx 3 t 0)) (dCell (par t 0 c) 3 t 0)
        ∗ ((accK t 0 c).view.loc (c : Thread nD τ) ↦[(accK t 0 c).view.set]{fullShare.left} (B1 (xs m) c))
        ∗ ((outK t c).view.loc (par t 0 c : Thread nD τ) ↦[(outK t c).view.set]{fullShare} (m ((par t 0 c : Thread nD τ).loc main_v1)))
        ∗ owes (c : Thread nD τ) (O + tallyAt (dCell (par t 0 c) 3 t 0) () (amt t 0)) W
        ∗ dutyTok ER (dCell c 2 t 0) 0 0 ∗ reached ER (dCell c 2 t 0) 0
        ∗ dutyTok ER (dCell (par t 0 c) 3 t 0) 0 0 ∗ reached ER (dCell (par t 0 c) 3 t 0) 0)
      ⊢ iprop(((cred (tallyAt (dCell c 2 t 0) () (amt t 0)) ∗ owes (c : Thread nD τ) O W) -∗ WP(c, k' ⟨⟩, Q))
          -∗ WP(c, .op (.enqueueDma Ms (.remote (Dev.tc n : Thread nD τ) Md (.dma sS) hsc) (.dma sR) hsrc hdst hsem) k', Q)) := by
  subst hMs hMd hn hsS hsR
  exact Rounds.wp_send_pointsTo 𝒱₀ ER (Rd m) _ none (c' := Dev.tc _) (sS := .dma _) (sem := .dma _) (dmem ..) (dmem ..)
    () () _ (credit_Sh _ _ (outK t c)) (amount_d ..) (amount_d ..) O rfl (by rw [payload_own_20])
    (by
      rw [payload_own_30, par_invol]; simp only [accS, outS, sR]
      generalize sLo_inb _ _ (par _ _ c) = h; revert h; rw [sLo_par]; exact fun _ => .rfl)

theorem wp_copy_l0 (c : Dev nD) (t : Fin 3)
    {Ms : Memref sig .tc .hbm (Sh t 0) .f32} {Md : Memref sig .tc .vmem (Sh t 0) .f32} (hMs : Ms = xK t c) (hMd : Md = accK t 0 c)
    {sL : DmaSem sig} (hsL : sL = lsem 0 t)
    {hsrc : Ms.view.WordExact} {hdst : Md.view.WordExact} {hsem : DmaTarget.Typed (nD := nD) (p := .tc) .hbm (.dma sL) (.here Md)}
    {α : Type} {Q : α → sProp 𝕄} {k' : PUnit → Prog (TpuEff nD τ sig (Elt F) Λ₀ .tc) α}
    (fd : Buf (Elt F) ((accK t 0 c).view.loc (c : Thread nD τ))) :
    iprop(cellInv ER (Rd m) (K (c, lidx 0 t)) (lCell c 0 t)
        ∗ ((xK t c).view.loc (c : Thread nD τ) ↦[(xK t c).view.set]{fullShare} xs m c)
        ∗ ((accK t 0 c).view.loc (c : Thread nD τ) ↦[(accK t 0 c).view.set]{fullShare} fd)
        ∗ dutyTok ER (lCell c 0 t) 0 0 ∗ reached ER (lCell c 0 t) 0)
      ⊢ iprop((cred (tallyAt (lCell c 0 t) () (amt t 0)) -∗ WP(c, k' ⟨⟩, Q))
          -∗ WP(c, .op (.enqueueDma Ms (.here Md) (.dma sL) hsrc hdst hsem) k', Q)) := by
  subst hMs hMd hsL
  exact Rounds.wp_copy_pointsTo 𝒱₀ ER (Rd m) (c : Thread nD τ) none (sem := .dma _) (q := fullShare) (fd := fd)
    (by rw [duties_l]; exact Finset.mem_singleton_self _) () _ (credit_Sh t 0 _) (amount_l m c t 0 0)
    (by simp only [payload_l, lPay]; iintro ⟨H1, H2⟩; iframe; iexists fd; iexact H1)

theorem wp_copy_l1 (c : Dev nD) (t : Fin 3)
    {Ms : Memref sig .tc .vmem (Sh t 0) .f32} {Md : Memref sig .tc .hbm (Sh t 0) .f32} (hMs : Ms = accK t 0 c) (hMd : Md = outK t c)
    {sL : DmaSem sig} (hsL : sL = lsem 1 t)
    {hsrc : Ms.view.WordExact} {hdst : Md.view.WordExact} {hsem : DmaTarget.Typed (nD := nD) (p := .tc) .vmem (.dma sL) (.here Md)}
    {α : Type} {Q : α → sProp 𝕄} {k' : PUnit → Prog (TpuEff nD τ sig (Elt F) Λ₀ .tc) α} :
    iprop(cellInv ER (Rd m) (K (c, lidx 1 t)) (lCell c 1 t)
        ∗ ((accK t 0 c).view.loc (c : Thread nD τ) ↦[(accK t 0 c).view.set]{fullShare.right} (B1 (xs m) c))
        ∗ ((outK t c).view.loc (c : Thread nD τ) ↦[(outK t c).view.set]{fullShare} (m ((c : Thread nD τ).loc main_v1)))
        ∗ dutyTok ER (lCell c 1 t) 0 0 ∗ reached ER (lCell c 1 t) 0)
      ⊢ iprop((cred (tallyAt (lCell c 1 t) () (amt t 0)) -∗ WP(c, k' ⟨⟩, Q))
          -∗ WP(c, .op (.enqueueDma Ms (.here Md) (.dma sL) hsrc hdst hsem) k', Q)) := by
  subst hMs hMd hsL
  exact Rounds.wp_copy_pointsTo 𝒱₀ ER (Rd m) (c : Thread nD τ) none (sem := .dma _)
    (by rw [duties_l]; exact Finset.mem_singleton_self _) () _ (credit_Sh t 0 _) (amount_l m c t 1 0)
    (by rw [payload_l]; exact .rfl)

theorem wp_waitDma2_l (c : Dev nD) (l : Fin 2) (t : Fin 3) {sem : DmaSem sig} (hsem : sem = lsem l t)
    {sp sp' : Space} {s' : Shape} {e' : EltTy} {κ' : Kind}
    {src : Memref sig .tc sp' s' e'} {dst : Memref sig κ' sp (Sh t 0) .f32} {hsrc : src.view.WordExact} {hdst : dst.view.WordExact}
    (hamt : dst.view.dmaCredit = amt t 0)
    {α : Type} {Q : α → sProp 𝕄} {kk : PUnit → Prog (TpuEff nD τ sig (Elt F) Λ₀ .tc) α}
    (O : CellTallies nD τ sig Unit) (W : Waits sig Unit) :
    iprop(cellInv ER (Rd m) (K (c, lidx l t)) (lCell c l t) ∗ cred (tallyAt (lCell c l t) () (amt t 0))
        ∗ owes (c : Thread nD τ) O W ∗ MayWait (c : Thread nD τ) (.dma (lsem l t)) () O ∗ atPos ER (lCell c l t) 0 ∅ 0)
      ⊢ iprop(((owes (c : Thread nD τ) O (insert (SemLoc.dma (lsem l t), ()) W) ∗ atPos ER (lCell c l t) 1 ∅ 0
              ∗ lPay m l t c) -∗ WP(c, kk ⟨⟩, Q))
          -∗ WP(c, .op (.waitDma2 sem src dst hsrc hdst) kk, Q)) :=
  wp_waitDma2_g m c _ _ _ _ (expect_l m c t l)
    (by rw [Finset.sdiff_empty, duties_l, bigSep_singleton, payload_l]) hsem hamt O W

end Cert.KernelIdeal.Hyp

end
-- ==== Proof.Mid7.lean ====
import proofs.«901103_g7700000000001104_dist_treered_v7x_i8_m1024_n1024_f32_1_alg».proof.Proof.Mid5

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

def rsHalf (t k : Fin 3) (c : Dev nD) : sProp 𝕄 :=
  iprop(atPos ER (dCell c 0 t k) 1 ∅ 0 ∗ atPos ER (dCell c 1 t k) 0 ∅ 0 ∗ cred (tallyAt (dCell c 1 t k) () (amt t k)))

def rsBoth (t k : Fin 3) (c : Dev nD) : sProp 𝕄 :=
  iprop(atPos ER (dCell c 0 t k) 1 ∅ 0 ∗ atPos ER (dCell c 1 t k) 1 ∅ 0)

def O13 (c : Dev nD) : CellTallies nD τ sig Unit := O14 c + oweB 0 2 c
def O12 (c : Dev nD) : CellTallies nD τ sig Unit := O13 c + oweA 2 2 c
def O11 (c : Dev nD) : CellTallies nD τ sig Unit := O12 c + oweA 1 2 c
def O10 (c : Dev nD) : CellTallies nD τ sig Unit := O11 c + oweA 0 2 c
def O9 (c : Dev nD) : CellTallies nD τ sig Unit := O10 c + oweA 2 1 c
def O8 (c : Dev nD) : CellTallies nD τ sig Unit := O9 c + oweA 1 1 c
def O7 (c : Dev nD) : CellTallies nD τ sig Unit := O8 c + oweA 0 1 c

def bS0 (t : Fin 3) (c : Dev nD) (fa : Buf (Elt F) ((c : Thread nD τ).loc cc0_scratch0)) : sProp 𝕄 :=
  iprop(rsSent (F := F) t 0 c ∗ rsFresh (F := F) t 1 c ∗ stgPar (F := F) t 1 c ∗ rsFresh (F := F) t 2 c ∗ stgPar (F := F) t 2 c
    ∗ agFresh (F := F) t 2 c ∗ agFresh (F := F) t 1 c ∗ agFresh (F := F) t 0 c
    ∗ lcSent (F := F) 0 t c ∗ lcFresh (F := F) 1 t c
    ∗ (pt(outK t c, c, fullShare, m ((c : Thread nD τ).loc main_v1)) : sProp 𝕄)
    ∗ (pt(accS t 0 c, c, fullShare, fa) : sProp 𝕄)
    ∗ outRem m t c)

def bS1 (t : Fin 3) (c : Dev nD) (fa : Buf (Elt F) ((c : Thread nD τ).loc cc0_scratch0)) : sProp 𝕄 :=
  iprop(rsSent (F := F) t 0 c ∗ rsFresh (F := F) t 1 c ∗ stgPar (F := F) t 1 c ∗ rsFresh (F := F) t 2 c ∗ stgPar (F := F) t 2 c
    ∗ agFresh (F := F) t 2 c ∗ agFresh (F := F) t 1 c ∗ agFresh (F := F) t 0 c
    ∗ lcDone (F := F) 0 t c ∗ lcFresh (F := F) 1 t c
    ∗ (pt(outK t c, c, fullShare, m ((c : Thread nD τ).loc main_v1)) : sProp 𝕄)
    ∗ (pt(accS t 0 c, c, fullShare, fa) : sProp 𝕄)
    ∗ outRem m t c
    ∗ (pt(accK t 0 c, c, fullShare, A0 (xs m) c) : sProp 𝕄)
    ∗ (pt(xK t c, c, fullShare, xs m c) : sProp 𝕄))

def bS2 (t : Fin 3) (c : Dev nD) (fa : Buf (Elt F) ((c : Thread nD τ).loc cc0_scratch0)) : sProp 𝕄 :=
  iprop(rsHalf (F := F) t 0 c ∗ rsFresh (F := F) t 1 c ∗ stgPar (F := F) t 1 c ∗ rsFresh (F := F) t 2 c ∗ stgPar (F := F) t 2 c
    ∗ agFresh (F := F) t 2 c ∗ agFresh (F := F) t 1 c ∗ agFresh (F := F) t 0 c
    ∗ bandFix m t c fa ∗ outRem m t c
    ∗ (pt(accK t 0 c, c, fullShare, A0 (xs m) c) : sProp 𝕄)
    ∗ lcDone (F := F) 0 t c ∗ lcFresh (F := F) 1 t c)

def bS5 (t : Fin 3) (c : Dev nD) (fa : Buf (Elt F) ((c : Thread nD τ).loc cc0_scratch0)) : sProp 𝕄 :=
  iprop(rsBoth (F := F) t 0 c ∗ rsSent (F := F) t 1 c ∗ rsFresh (F := F) t 2 c ∗ stgPar (F := F) t 2 c
    ∗ agFresh (F := F) t 2 c ∗ agFresh (F := F) t 1 c ∗ agFresh (F := F) t 0 c
    ∗ bandFix m t c fa ∗ outRem m t c
    ∗ (pt(accK t 1 c, c, fullShare, A1 (xs m) c) : sProp 𝕄)
    ∗ stgAny (F := F) t 0 c
    ∗ lcDone (F := F) 0 t c ∗ lcFresh (F := F) 1 t c)

def bS6 (t : Fin 3) (c : Dev nD) (fa : Buf (Elt F) ((c : Thread nD τ).loc cc0_scratch0)) : sProp 𝕄 :=
  iprop(rsBoth (F := F) t 0 c ∗ rsHalf (F := F) t 1 c ∗ rsFresh (F := F) t 2 c ∗ stgPar (F := F) t 2 c
    ∗ agFresh (F := F) t 2 c ∗ agFresh (F := F) t 1 c ∗ agFresh (F := F) t 0 c
    ∗ bandFix m t c fa ∗ outRem m t c
    ∗ (pt(accK t 1 c, c, fullShare, A1 (xs m) c) : sProp 𝕄)
    ∗ stgAny (F := F) t 0 c
    ∗ lcDone (F := F) 0 t c ∗ lcFresh (F := F) 1 t c)

def bS9 (t : Fin 3) (c : Dev nD) (fa : Buf (Elt F) ((c : Thread nD τ).loc cc0_scratch0)) : sProp 𝕄 :=
  iprop(rsBoth (F := F) t 0 c ∗ rsBoth (F := F) t 1 c ∗ rsSent (F := F) t 2 c
    ∗ agFresh (F := F) t 2 c ∗ agFresh (F := F) t 1 c ∗ agFresh (F := F) t 0 c
    ∗ bandFix m t c fa ∗ outRem m t c
    ∗ (pt(accK t 1 c, par t 1 c, fullShare, A1 (xs m) (par t 1 c)) : sProp 𝕄)
    ∗ (pt(accK t 2 c, c, fullShare, A2 (xs m) c) : sProp 𝕄)
    ∗ stgAny (F := F) t 0 c ∗ stgAny (F := F) t 1 c
    ∗ lcDone (F := F) 0 t c ∗ lcFresh (F := F) 1 t c)

def bS11 (c : Dev nD) (fa : Buf (Elt F) ((c : Thread nD τ).loc cc0_scratch0)) (v385 : Vec F S344x128 .f32) : sProp 𝕄 :=
  iprop(rsBoth (F := F) 0 0 c ∗ rsBoth (F := F) 0 1 c ∗ rsBoth (F := F) 0 2 c
    ∗ agFresh (F := F) 0 2 c ∗ agFresh (F := F) 0 1 c ∗ agFresh (F := F) 0 0 c
    ∗ bandFix m 0 c fa ∗ outRem m 0 c
    ∗ (pt(accK 0 1 c, par 0 1 c, fullShare, A1 (xs m) (par 0 1 c)) : sProp 𝕄)
    ∗ (pt(accK 0 2 c, c, fullShare, A2 (xs m) c) : sProp 𝕄)
    ∗ (pt(accK 0 2 c, par 0 2 c, fullShare, A2 (xs m) (par 0 2 c)) : sProp 𝕄)
    ∗ (pt(stg 0 2, c, fullShare, (accK 0 2 c).view.read (Elt F) (A2 (xs m) (par 0 2 c))) : sProp 𝕄)
    ∗ ⌜∀ j : (Sh 0 2).Idx, v385 j = A2 (xs m) c ((accK 0 2 c).view.emb j)⌝
    ∗ stgAny (F := F) 0 0 c ∗ stgAny (F := F) 0 1 c
    ∗ lcDone (F := F) 0 0 c ∗ lcFresh (F := F) 1 0 c)

def Mid7 (c : Dev nD) (K : Dev nD × Fin 43 → ℕ) (fa : Buf (Elt F) ((c : Thread nD τ).loc cc0_scratch0)) : sProp 𝕄 :=
  iprop(records m K ∗ levAts L lv ∗ atPos ER (barCell c) 1 ∅ 0 ∗ (∃ W, owes (c : Thread nD τ) (O7 c) W)
    ∗ bS2 m 0 c fa ∗ bS0 m 1 c fa ∗ bS0 m 2 c fa)
def Mid8 (c : Dev nD) (K : Dev nD × Fin 43 → ℕ) (fa : Buf (Elt F) ((c : Thread nD τ).loc cc0_scratch0)) : sProp 𝕄 :=
  iprop(records m K ∗ levAts L lv ∗ atPos ER (barCell c) 1 ∅ 0 ∗ (∃ W, owes (c : Thread nD τ) (O8 c) W)
    ∗ bS5 m 0 c fa ∗ bS1 m 1 c fa ∗ bS0 m 2 c fa)
def Mid9 (c : Dev nD) (K : Dev nD × Fin 43 → ℕ) (fa : Buf (Elt F) ((c : Thread nD τ).loc cc0_scratch0)) : sProp 𝕄 :=
  iprop(records m K ∗ levAts L lv ∗ atPos ER (barCell c) 1 ∅ 0 ∗ (∃ W, owes (c : Thread nD τ) (O9 c) W)
    ∗ bS5 m 0 c fa ∗ bS5 m 1 c fa ∗ bS1 m 2 c fa)
def Mid10 (c : Dev nD) (K : Dev nD × Fin 43 → ℕ) (fa : Buf (Elt F) ((c : Thread nD τ).loc cc0_scratch0)) : sProp 𝕄 :=
  iprop(records m K ∗ levAts L lv ∗ atPos ER (barCell c) 1 ∅ 0 ∗ (∃ W, owes (c : Thread nD τ) (O10 c) W)
    ∗ bS5 m 0 c fa ∗ bS5 m 1 c fa ∗ bS5 m 2 c fa)
def Mid11 (c : Dev nD) (K : Dev nD × Fin 43 → ℕ) (fa : Buf (Elt F) ((c : Thread nD τ).loc cc0_scratch0)) : sProp 𝕄 :=
  iprop(records m K ∗ levAts L lv ∗ atPos ER (barCell c) 1 ∅ 0 ∗ (∃ W, owes (c : Thread nD τ) (O11 c) W)
    ∗ bS9 m 0 c fa ∗ bS6 m 1 c fa ∗ bS5 m 2 c fa)
def Mid12 (c : Dev nD) (K : Dev nD × Fin 43 → ℕ) (fa : Buf (Elt F) ((c : Thread nD τ).loc cc0_scratch0)) : sProp 𝕄 :=
  iprop(records m K ∗ levAts L lv ∗ atPos ER (barCell c) 1 ∅ 0 ∗ (∃ W, owes (c : Thread nD τ) (O12 c) W)
    ∗ bS9 m 0 c fa ∗ bS9 m 1 c fa ∗ bS6 m 2 c fa)
def Mid13 (c : Dev nD) (K : Dev nD × Fin 43 → ℕ) (fa : Buf (Elt F) ((c : Thread nD τ).loc cc0_scratch0)) (v385 : Vec F S344x128 .f32) : sProp 𝕄 :=
  iprop(records m K ∗ levAts L lv ∗ atPos ER (barCell c) 1 ∅ 0 ∗ (∃ W, owes (c : Thread nD τ) (O13 c) W)
    ∗ bS11 m c fa v385 ∗ bS9 m 1 c fa ∗ bS9 m 2 c fa)

end Cert.KernelIdeal.Hyp

end
-- ==== Proof.MidSteps.lean ====
import proofs.«901103_g7700000000001104_dist_treered_v7x_i8_m1024_n1024_f32_1_alg».proof.Proof.Steps
import proofs.«901103_g7700000000001104_dist_treered_v7x_i8_m1024_n1024_f32_1_alg».proof.Proof.Prep
import proofs.«901103_g7700000000001104_dist_treered_v7x_i8_m1024_n1024_f32_1_alg».proof.Proof.Mid7

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

theorem ms_oweB_lv {t k : Fin 3} {c : Dev nD} {g : GSem nD τ sig} {u : Unit} (h : 0 < oweB t k c g u) :
    g.1.2 = .tc ∧ lv g u = 2 + 3 * (5 - k.val) + t.val := by
  obtain rfl := pos_tally h; exact ⟨rfl, lv_bland _ t k⟩
theorem ms_oweA_lv {t k : Fin 3} {c : Dev nD} {g : GSem nD τ sig} {u : Unit} (h : 0 < oweA t k c g u) :
    g.1.2 = .tc ∧ lv g u = 2 + 3 * k.val + t.val := by
  obtain rfl := pos_tally h; exact ⟨rfl, lv_land _ t k⟩
theorem ms_O14_lv (c : Dev nD) {g : GSem nD τ sig} {u : Unit} (h : 0 < O14 c g u) : g.1.2 = .tc ∧ 12 ≤ lv g u := by
  unfold O14 at h
  repeat' (first
    | (have e := ms_oweB_lv h; exact ⟨e.1, by rw [e.2]; decide⟩)
    | (rcases Pipeline.add_pos_cases h with h | h))
-- A sum's positive entries lie at or above n when the first summand's lie above n and the second's sit at a level at or above n.
theorem ms_add_lv {A B : CellTallies nD τ sig Unit} {n l : ℕ} {g : GSem nD τ sig} {u : Unit}
    (hA : 0 < A g u → g.1.2 = .tc ∧ n + 1 ≤ lv g u) (hB : 0 < B g u → g.1.2 = .tc ∧ lv g u = l) (hn : n ≤ l)
    (h : 0 < (A + B) g u) : g.1.2 = .tc ∧ n ≤ lv g u :=
  (Pipeline.add_pos_cases h).elim (fun h => ⟨(hA h).1, Nat.le_of_succ_le (hA h).2⟩) fun h => ⟨(hB h).1, by rw [(hB h).2]; exact hn⟩
theorem ms_O13_lv (c : Dev nD) {g : GSem nD τ sig} {u : Unit} (h : 0 < O13 c g u) : g.1.2 = .tc ∧ 11 ≤ lv g u :=
  ms_add_lv (ms_O14_lv c) ms_oweB_lv (by decide) h
theorem ms_O12_lv (c : Dev nD) {g : GSem nD τ sig} {u : Unit} (h : 0 < O12 c g u) : g.1.2 = .tc ∧ 10 ≤ lv g u :=
  ms_add_lv (ms_O13_lv c) ms_oweA_lv (by decide) h
theorem ms_O11_lv (c : Dev nD) {g : GSem nD τ sig} {u : Unit} (h : 0 < O11 c g u) : g.1.2 = .tc ∧ 9 ≤ lv g u :=
  ms_add_lv (ms_O12_lv c) ms_oweA_lv (by decide) h
theorem ms_O10_lv (c : Dev nD) {g : GSem nD τ sig} {u : Unit} (h : 0 < O10 c g u) : g.1.2 = .tc ∧ 8 ≤ lv g u :=
  ms_add_lv (ms_O11_lv c) ms_oweA_lv (by decide) h
theorem ms_O9_lv (c : Dev nD) {g : GSem nD τ sig} {u : Unit} (h : 0 < O9 c g u) : g.1.2 = .tc ∧ 7 ≤ lv g u :=
  ms_add_lv (ms_O10_lv c) ms_oweA_lv (by decide) h
theorem ms_O8_lv (c : Dev nD) {g : GSem nD τ sig} {u : Unit} (h : 0 < O8 c g u) : g.1.2 = .tc ∧ 6 ≤ lv g u :=
  ms_add_lv (ms_O9_lv c) ms_oweA_lv (by decide) h
theorem ms_O7_lv (c : Dev nD) {g : GSem nD τ sig} {u : Unit} (h : 0 < O7 c g u) : g.1.2 = .tc ∧ 5 ≤ lv g u :=
  ms_add_lv (ms_O8_lv c) ms_oweA_lv (by decide) h

theorem ms_mayWait_lv (c : Dev nD) (sm : SemLoc sig) (O : CellTallies nD τ sig Unit) (N : ℕ)
    (hw : lv ((c : Thread nD τ), sm) () < N)
    (hO : ∀ (g : GSem nD τ sig) (u : Unit), 0 < O g u → g.1.2 = .tc ∧ N ≤ lv g u) :
    (levAts L lv : sProp 𝕄) ⊢ MayWait (c : Thread nD τ) sm () O :=
  mayWait_cut c sm O (lv ((c : Thread nD τ), sm) ()) le_rfl fun g u h => ⟨(hO g u h).1, lt_of_lt_of_le hw (hO g u h).2⟩

theorem zero_off : (![0, 0] : Fin 2 → ℕ) = fun _ => 0 := by funext a; fin_cases a <;> rfl

/-- A wait on a transfer cell: the records give the cell's invariant, the levels the leave to wait. -/
theorem wait_d' (K : Dev nD × Fin 43 → ℕ) {c : Dev nD} {a : Fin 4} {t k : Fin 3} {O : CellTallies nD τ sig Unit} {N : ℕ} {A B D R : sProp 𝕄}
    (h : iprop(cellInv ER (Rd m) (K (c, cidx a t k)) (dCell c a t k) ∗ A ∗ B ∗ MayWait (c : Thread nD τ) (.dma (dsem a t k)) () O ∗ D) ⊢ R)
    (hO : ∀ {g : GSem nD τ sig} {u : Unit}, 0 < O g u → g.1.2 = .tc ∧ N ≤ lv g u)
    (hw : lv ((c : Thread nD τ), .dma (dsem a t k)) () < N := by first | rw [lv_dep]; decide | rw [lv_land]; decide) :
    iprop(records m K ∗ levAts L lv ∗ A ∗ B ∗ D) ⊢ R := by
  iintro ⟨#HR, #Hlev, A, B, D⟩
  ihave #I := (inv_d m K c a t k) $$ HR
  ihave Hmw := (ms_mayWait_lv c (.dma (dsem a t k)) O N hw (fun _ _ => hO)) $$ Hlev
  iapply h
  iframe I A B Hmw D

theorem wait_l' (K : Dev nD × Fin 43 → ℕ) {c : Dev nD} {l : Fin 2} {t : Fin 3} {O : CellTallies nD τ sig Unit} {N : ℕ} {A B D R : sProp 𝕄}
    (h : iprop(cellInv ER (Rd m) (K (c, lidx l t)) (lCell c l t) ∗ A ∗ B ∗ MayWait (c : Thread nD τ) (.dma (lsem l t)) () O ∗ D) ⊢ R)
    (hO : ∀ {g : GSem nD τ sig} {u : Unit}, 0 < O g u → g.1.2 = .tc ∧ N ≤ lv g u)
    (hw : lv ((c : Thread nD τ), .dma (lsem l t)) () < N := by rw [lv_local]; decide) :
    iprop(records m K ∗ levAts L lv ∗ A ∗ B ∗ D) ⊢ R := by
  iintro ⟨#HR, #Hlev, A, B, D⟩
  ihave #I := (inv_l m K c l t) $$ HR
  ihave Hmw := (ms_mayWait_lv c (.dma (lsem l t)) O N hw (fun _ _ => hO)) $$ Hlev
  iapply h
  iframe I A B Hmw D

/-- A transfer's two cell invariants and its two reached rounds come from the records. -/
theorem send_half' (K : Dev nD × Fin 43 → ℕ) {c p : Dev nD} {ad al : Fin 4} {t k : Fin 3} {A B D T₁ T₂ R : sProp 𝕄}
    (h : iprop(cellInv ER (Rd m) (K (c, cidx ad t k)) (dCell c ad t k) ∗ cellInv ER (Rd m) (K (p, cidx al t k)) (dCell p al t k)
        ∗ A ∗ B ∗ D ∗ T₁ ∗ reached ER (dCell c ad t k) 0 ∗ T₂ ∗ reached ER (dCell p al t k) 0) ⊢ R) :
    iprop(records m K ∗ A ∗ B ∗ D ∗ T₁ ∗ T₂) ⊢ R := by
  iintro ⟨#HR, A, B, D, T₁, T₂⟩
  ihave #I₁ := (inv_d m K c ad t k) $$ HR
  ihave #I₂ := (inv_d m K p al t k) $$ HR
  ihave #R₁ := (reached_d m K c ad t k) $$ HR
  ihave #R₂ := (reached_d m K p al t k) $$ HR
  iapply h
  iframe I₁ I₂ A B D T₁ R₁ T₂ R₂

theorem lPay0_eq (t : Fin 3) (c : Dev nD) : lPay m 0 t c
    = iprop((∃ fd, (pt(accK t 0 c, c, fullShare, (accK t 0 c).view.write (Elt F) fd ((xK t c).view.read (Elt F) (xs m c)) Finset.univ) : sProp 𝕄))
        ∗ (pt(xK t c, c, fullShare, xs m c) : sProp 𝕄)) := rfl

theorem ms_accM_setOn_sub (t k : Fin 3) (c : Dev nD) :
    accM.view.setOn (kR t k c).toLoadRect.set ⊆ (accK t k c).view.set := by
  rw [accK_set]
  intro x hx
  obtain ⟨y, hy, rfl⟩ := Finset.mem_map.mp hx
  exact hy

theorem wp_accumulate_tk (c : Dev nD) (t k : Fin 3) (A : Dev nD → Vec F S1024x1024 .f32)
    {off : Fin 2 → ℕ} {inb : ∀ a, off a + sz t k a ≤ S1024x1024.size a} (e : off = ![r0 t, kLo t k c])
    {stgM : Memref sig .tc .vmem (Sh t k) .f32} {off0 : Fin 2 → ℕ} {inb0 : ∀ a, off0 a + sz t k a ≤ (Sh t k).size a}
    (fS : Buf (Elt F) (stgM.view.loc (c : Thread nD τ)))
    (hS2 : stgM.view.setOn (Rect.unit (s := Sh t k) off0 (sz t k) inb0).toLoadRect.set ⊆ stgM.view.set)
    (hfS : ∀ j, stgM.view.readAt (Elt F) (Rect.unit (s := Sh t k) off0 (sz t k) inb0).toLoadRect fS j = A (par t k c) ((accK t k c).view.emb j))
    (pay : FVec F (Sh t k) .f32 → FVec F (Sh t k) .f32 → FVec F (Sh t k) .f32) (hpay : ∀ a b, pay a b = addf a b)
    {hl1 hl2 hl3 hx hm}
    {α : Type} {Q : α → sProp 𝕄} {kk : PUnit → Prog (TpuEff nD τ sig (Elt F) Λ₀ .tc) α} :
    iprop((pt(accK t k c, c, fullShare, A c) : sProp 𝕄) ∗ (stgM.view.loc (c : Thread nD τ) ↦[stgM.view.set]{fullShare} fS))
      ⊢ iprop((((pt(accK t k c, c, fullShare, stepAdd A k c) : sProp 𝕄) ∗ (stgM.view.loc (c : Thread nD τ) ↦[stgM.view.set]{fullShare} fS))
            -∗ WP(c, kk ⟨⟩, Q))
          -∗ WP(c, (.op (.load accM (Rect.unit (s := S1024x1024) off (sz t k) inb).toLoadRect hl1) fun (v1 : FVec F (Sh t k) .f32) =>
                    .op (.load stgM (Rect.unit (s := Sh t k) off0 (sz t k) inb0).toLoadRect hl2) fun (v2 : FVec F (Sh t k) .f32) =>
                    .op (.load accM (Rect.unit (s := S1024x1024) off (sz t k) inb).toLoadRect hl3) fun (_ : FVec F (Sh t k) .f32) =>
                    .op (.store accM (Rect.unit (s := S1024x1024) off (sz t k) inb) (pay v1 v2) Finset.univ hx hm) kk), Q)) := by
  subst e
  iintro ⟨Hacc, Hstg⟩ Hk
  iapply (wp_load 𝒱₀ (c : Thread nD τ) none Set.univ (ms_accM_setOn_sub t k c)) $$ Hacc
  iintro Hacc
  iapply (wp_load 𝒱₀ (c : Thread nD τ) none Set.univ hS2) $$ Hstg
  iintro Hstg
  iapply (wp_load 𝒱₀ (c : Thread nD τ) none Set.univ (ms_accM_setOn_sub t k c)) $$ Hacc
  iintro Hacc
  have hSt : (accM.access (kR t k c)).setOn Finset.univ ⊆ (accK t k c).view.set := by
    rw [View.setOn_univ]
  iapply (wp_store 𝒱₀ (c : Thread nD τ) none Set.univ (m := accM) (r := kR t k c) hSt) $$ Hacc
  iintro Hacc
  ihave Hacc := (Entails.of_eq (pt_congr (accK t k c) c fullShare _ (stepAdd A k c) (fun i hi => by
      rw [hpay]
      exact acc_step A t k c (A c) _ hfS i hi))) $$ Hacc
  iapply Hk
  iframe

end Cert.KernelIdeal.Hyp

end
-- ==== Proof.Part67.lean ====
import proofs.«901103_g7700000000001104_dist_treered_v7x_i8_m1024_n1024_f32_1_alg».proof.Proof.MidSteps

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

def band6 (t : Fin 3) (c : Dev nD) (fa : Buf (Elt F) ((c : Thread nD τ).loc cc0_scratch0)) : sProp 𝕄 :=
  iprop(rsSent (F := F) t 0 c ∗ rsFresh (F := F) t 1 c ∗ stgPar (F := F) t 1 c ∗ rsFresh (F := F) t 2 c ∗ stgPar (F := F) t 2 c
    ∗ agFresh (F := F) t 2 c ∗ agFresh (F := F) t 1 c ∗ agFresh (F := F) t 0 c
    ∗ lcFresh (F := F) 0 t c ∗ lcFresh (F := F) 1 t c
    ∗ (pt(xK t c, c, fullShare, xs m c) : sProp 𝕄)
    ∗ (pt(accK t 0 c, c, fullShare, fa) : sProp 𝕄)
    ∗ (pt(outK t c, c, fullShare, m ((c : Thread nD τ).loc main_v1)) : sProp 𝕄)
    ∗ (pt(accS t 0 c, c, fullShare, fa) : sProp 𝕄)
    ∗ outRem m t c)

def Mid6 (c : Dev nD) (K : Dev nD × Fin 43 → ℕ) (fa : Buf (Elt F) ((c : Thread nD τ).loc cc0_scratch0)) : sProp 𝕄 :=
  iprop(records m K ∗ levAts L lv ∗ atPos ER (barCell c) 1 ∅ 0 ∗ (∃ W, owes (c : Thread nD τ) (O7 c) W)
    ∗ band6 m 0 c fa ∗ band6 m 1 c fa ∗ band6 m 2 c fa)

theorem O5_split (c : Dev nD) : O5 c = O7 c + oweA 2 0 c + oweA 1 0 c + oweA 0 0 c := by
  unfold O5 O7 O8 O9 O10 O11 O12 O13 O14 owedRow
  abel

theorem part6_run (c : Dev nD) (K : Dev nD × Fin 43 → ℕ) (fa : Buf (Elt F) ((c : Thread nD τ).loc cc0_scratch0))
    (v37 v46 v79 v88 v121 v130 v153 v154 : BitVec 32) {Q : BitVec 32 → sProp 𝕄} :
    iprop(Mid5 m c K fa ∗ (∀ v158 : BitVec 32, Mid6 m c K fa -∗ Q v158))
      ⊢ WP(c, atBufs (k0_part6 (F := F)) c v37 v46 v79 v88 v121 v130 v153 v154, Q) := by
  unfold atBufs
  rw [k0_part6_eq_skeleton]
  dsimp only [k0_part6_skel]
  simp only [Prog.lift, Prog.bind_op, Prog.bind_ret, Prog.pure_eq_ret]
  unfold Mid5 band5 rsFresh bandFix
  iintro ⟨⟨#HR, #Hlev, HatB, ⟨%W, HO⟩,
    ⟨⟨Hd00, Hl00, Td00, Tl00, Cl00⟩, F01, F02, G02, G01, G00, ⟨HxK0, HxS0, HoK0, HaS0⟩, HoR0, HaK0, ⟨%g00, Hs00⟩, Hs01, Hs02, Lc00, Lc10⟩,
    ⟨⟨Hd10, Hl10, Td10, Tl10, Cl10⟩, F11, F12, G12, G11, G10, ⟨HxK1, HxS1, HoK1, HaS1⟩, HoR1, HaK1, ⟨%g10, Hs10⟩, Hs11, Hs12, Lc01, Lc11⟩,
    ⟨⟨Hd20, Hl20, Td20, Tl20, Cl20⟩, F21, F22, G22, G21, G20, ⟨HxK2, HxS2, HoK2, HaS2⟩, HoR2, HaK2, ⟨%g20, Hs20⟩, Hs21, Hs22, Lc02, Lc12⟩⟩, Hk⟩
  rw [O5_split]
  iapply (send_half' m K (wp_send_half0 m K c _ 0 (dev4_eq c) (congrArg (fun M => M.squeeze S344x512 squeezes_S1x344x512_S344x512) (xsl1_send c)) rfl rfl rfl g00 _ _)) $$ [$]
  iintro ⟨Cd00, HO⟩
  iapply (send_half' m K (wp_send_half0 m K c _ 1 (dev5_eq c) (congrArg (fun M => M.squeeze S336x512 squeezes_S1x336x512_S336x512) (xsl2_send c)) rfl rfl rfl g10 _ _)) $$ [$]
  iintro ⟨Cd10, HO⟩
  iapply (send_half' m K (wp_send_half0 m K c _ 2 (dev6_eq c) (congrArg (fun M => M.squeeze S344x512 squeezes_S1x344x512_S344x512) (xsl3_send c)) rfl rfl rfl g20 _ _)) $$ [$]
  iintro ⟨Cd20, HO⟩
  rw [wp_ret]; imodintro
  iapply Hk
  unfold Mid6 band6 rsSent rsFresh
  iframe # ∗; iexists W; iexact HO

theorem part7_run (c : Dev nD) (K : Dev nD × Fin 43 → ℕ) (fa : Buf (Elt F) ((c : Thread nD τ).loc cc0_scratch0))
    (v40 v82 v124 : BitVec 32) {Q : PUnit → sProp 𝕄} :
    iprop(Mid6 m c K fa ∗ (Mid7 m c K fa -∗ Q ⟨⟩))
      ⊢ WP(c, atBufs (k0_part7 (F := F)) c v40 v82 v124, Q) := by
  unfold atBufs
  rw [k0_part7_eq_skeleton]
  dsimp only [k0_part7_skel]
  simp only [Prog.lift, Prog.bind_op, Prog.bind_ret, Prog.pure_eq_ret]
  unfold Mid6 band6 rsSent lcFresh
  iintro ⟨⟨#HR, #Hlev, HatB, ⟨%W, HO⟩,
    ⟨⟨Hd00, Hl00, Cd00, Cl00⟩, F01, Hs01, F02, Hs02, G02, G01, G00, ⟨La00, Lt00⟩, Lc10, HxK0, HaK0, HoK0, HaS0, HoR0⟩,
    ⟨⟨Hd10, Hl10, Cd10, Cl10⟩, F11, Hs11, F12, Hs12, G12, G11, G10, ⟨La01, Lt01⟩, Lc11, HxK1, HaK1, HoK1, HaS1, HoR1⟩,
    ⟨⟨Hd20, Hl20, Cd20, Cl20⟩, F21, Hs21, F22, Hs22, G22, G21, G20, ⟨La02, Lt02⟩, Lc12, HxK2, HaK2, HoK2, HaS2, HoR2⟩⟩, Hk⟩
  ihave #IL00 := (inv_l m K c 0 0) $$ HR
  ihave #RL00 := (reached_l m K c 0 0) $$ HR
  iapply (wp_copy_l0 m K c 0 (congrArg (fun M => M.squeeze S344x512 squeezes_S1x344x512_S344x512) (xsl1_keep c)) (accsl4 c) rfl fa) $$ [$]
  iintro CL00
  ihave #IL01 := (inv_l m K c 0 1) $$ HR
  ihave #RL01 := (reached_l m K c 0 1) $$ HR
  iapply (wp_copy_l0 m K c 1 (congrArg (fun M => M.squeeze S336x512 squeezes_S1x336x512_S336x512) (xsl2_keep c)) (accsl5 c) rfl fa) $$ [$]
  iintro CL01
  ihave #IL02 := (inv_l m K c 0 2) $$ HR
  ihave #RL02 := (reached_l m K c 0 2) $$ HR
  iapply (wp_copy_l0 m K c 2 (congrArg (fun M => M.squeeze S344x512 squeezes_S1x344x512_S344x512) (xsl3_keep c)) (accsl6 c) rfl fa) $$ [$]
  iintro CL02
  iapply (wait_l' m K (wp_waitDma2_l m K c 0 0 rfl (credit_Sh 0 0 _) _ _) (ms_O7_lv c)) $$ [$]
  iintro ⟨HO, La00, Hpay⟩
  ihave ⟨⟨%fd, HaK0⟩, HxK0⟩ := (Entails.of_eq (lPay0_eq m 0 c)) $$ Hpay
  iapply (wait_d' m K (wp_waitDma2_d m K c 0 0 0 rfl (credit_Sh 0 0 _) _ _) (ms_O7_lv c)) $$ [$]
  iintro ⟨HO, Hd00, Hpay⟩
  ihave HxS0 := (Entails.of_eq ((payload_d m c 0 0 0 0).symm.trans (payload_own_00 m 0 c))) $$ Hpay
  ihave HaK0 := (Entails.of_eq (pt_congr (accK 0 0 c) c fullShare _ (A0 (xs m) c) (fun i hi => accK_write_xK_read (xs m) 0 c c fd i hi))) $$ HaK0
  rw [wp_ret]; imodintro
  iapply Hk
  unfold Mid7 bS2 bS0 rsHalf rsSent lcSent lcDone lcFresh bandFix
  iframe # ∗; iexists _; iexact HO

end Cert.KernelIdeal.Hyp

end
-- ==== Proof.BodyMid.lean ====
import proofs.«901103_g7700000000001104_dist_treered_v7x_i8_m1024_n1024_f32_1_alg».proof.Proof.MidSteps

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

theorem part8_run (c : Dev nD) (K : Dev nD × Fin 43 → ℕ) (fa : Buf (Elt F) ((c : Thread nD τ).loc cc0_scratch0))
    (v40 v46 v51 v60 : BitVec 32) {Q : PUnit → sProp 𝕄} :
    iprop(Mid7 m c K fa ∗ (Mid8 m c K fa -∗ Q ⟨⟩))
      ⊢ WP(c, atBufs (k0_part8 (F := F)) c v40 v46 v51 v60, Q) := by
  unfold atBufs
  rw [k0_part8_eq_skeleton]
  dsimp only [k0_part8_skel]
  simp only [accsl8_send c, accsl5 c, xsl2_keep c, xsl1_send c]
  simp only [Prog.lift, Prog.bind_op, Prog.bind_ret, Prog.pure_eq_ret]
  unfold Mid7 Mid8 bS2 bS5 bS0 bS1 O7 rsHalf rsBoth rsFresh rsSent lcSent lcDone
  iintro ⟨⟨#HR, #Hlev, Hbar, ⟨%W, HO⟩,
      ⟨⟨Hp000, Hp100, C100⟩, ⟨Hp001, Hp101, T001, T101, C101⟩, ⟨%fd01, Hstg01p⟩, Hrs02, Hsp02, Hag02, Hag01, Hag00, Hfix0, Hrem0, HaccK00, Hl00, Hl10⟩,
      ⟨Hrs10, Hrs11, Hsp11, Hrs12, Hsp12, Hag12, Hag11, Hag10, ⟨Hpl01, Cl01⟩, Hl11, Hout1, HaccS10, Hrem1⟩,
      Hb2⟩, Hk⟩
  iapply (wait_d' m K (wp_waitDma2_d m K c 1 0 0 rfl (credit_Sh 0 0 _) (O8 c + oweA 0 1 c) W) (ms_O7_lv c)) $$ [$]
  iintro ⟨HO, Hp100, Hstg00⟩
  ihave Hstg00 := (Entails.of_eq ((payload_d m c 1 0 0 0).symm.trans (payload_own_10_0 m c))) $$ Hstg00
  iapply (wp_accumulate_tk c 0 0 (A0 (xs m)) (off7_eq c) (stgM := Memref.whole cc0_scratch1)
      ((xK 0 c).view.read (Elt F) (xs m (par 0 0 c)))
      (by rw [Memref.view_whole, View.set_whole]; exact Finset.subset_univ _)
      (fun j => (congrFun (Memref.readAt_unit_zero (Elt F) cc0_scratch1 zero_off _ _) j).trans (xK_read_A0 (xs m) 0 c (par 0 0 c) j))
      k0_pay1 (fun a b => shapeCast_self _ _)) $$ [$]
  iintro ⟨HaccK00, Hstg00⟩
  ihave HaccK00 := (Entails.of_eq (pt_congr (accK 0 0 c) c fullShare (stepAdd (A0 (xs m)) 0 c) (A1 (xs m) c) (fun i _ => rfl))) $$ HaccK00
  ihave ⟨HaccS01, HaccK01⟩ := (accK_split01 0 c fullShare (A1 (xs m) c)).1 $$ HaccK00
  iapply (send_half' m K (wp_send_half1 m K c _ 0 (dev7_eq c) rfl rfl rfl rfl fd01 (O8 c) _)) $$ [$]
  iintro ⟨C001, HO⟩
  iapply (wait_l' m K (wp_waitDma2_l m K c 0 1 rfl (credit_Sh 1 0 _) (O8 c) _) (ms_O8_lv c)) $$ [$]
  iintro ⟨HO, Hpl01, Hlp⟩
  ihave ⟨⟨%fd1, HaccK10⟩, HxK1⟩ := (Entails.of_eq (lPay0_eq m 1 c)) $$ Hlp
  ihave HaccK10 := (Entails.of_eq (pt_congr (accK 1 0 c) c fullShare _ (A0 (xs m) c) (fun i hi => accK_write_xK_read (xs m) 1 c c fd1 i hi))) $$ HaccK10
  iapply le_wp_ret
  iapply Hk
  iframe # ∗
  isplitl [HO] <;> iexists _ <;> iassumption

end Cert.KernelIdeal.Hyp

end
-- ==== Proof.Body2Pre.lean ====
import proofs.«901103_g7700000000001104_dist_treered_v7x_i8_m1024_n1024_f32_1_alg».proof.Proof.Mid
import proofs.«901103_g7700000000001104_dist_treered_v7x_i8_m1024_n1024_f32_1_alg».proof.Proof.Payer
import proofs.«901103_g7700000000001104_dist_treered_v7x_i8_m1024_n1024_f32_1_alg».proof.Proof.Prep
import proofs.«901103_g7700000000001104_dist_treered_v7x_i8_m1024_n1024_f32_1_alg».proof.Proof.Levels

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

theorem agFresh_eq (t k : Fin 3) (c : Dev nD) : agFresh (F := F) t k c = iprop(atPos ER (dCell c 2 t k) 0 ∅ 0 ∗ atPos ER (dCell c 3 t k) 0 ∅ 0
    ∗ dutyTok ER (dCell c 2 t k) 0 0 ∗ dutyTok ER (dCell (par t k c) 3 t k) 0 0
    ∗ cred (tallyAt (dCell c 3 t k) () (amt t k))) := rfl
theorem agSent_eq (t k : Fin 3) (c : Dev nD) : agSent (F := F) t k c = iprop(atPos ER (dCell c 2 t k) 0 ∅ 0 ∗ atPos ER (dCell c 3 t k) 0 ∅ 0
    ∗ cred (tallyAt (dCell c 2 t k) () (amt t k)) ∗ cred (tallyAt (dCell c 3 t k) () (amt t k))) := rfl
theorem agDone_eq (t k : Fin 3) (c : Dev nD) : agDone (F := F) t k c = iprop(atPos ER (dCell c 2 t k) 1 ∅ 0 ∗ atPos ER (dCell c 3 t k) 1 ∅ 0) := rfl

theorem dev13_par (c : Dev nD) : (⟨k0_dev13 c, k0_dev13_lt c⟩ : Dev nD) = par 0 2 c := dev13_eq c
theorem dev14_par (c : Dev nD) : (⟨k0_dev14 c, k0_dev14_lt c⟩ : Dev nD) = par 1 2 c := dev14_eq c
theorem dev15_par (c : Dev nD) : (⟨k0_dev15 c, k0_dev15_lt c⟩ : Dev nD) = par 2 2 c := dev15_eq c
theorem dev16_par (c : Dev nD) : (⟨k0_dev16 c, k0_dev16_lt c⟩ : Dev nD) = par 0 1 c := dev16_eq c
theorem dev17_par (c : Dev nD) : (⟨k0_dev17 c, k0_dev17_lt c⟩ : Dev nD) = par 1 1 c := dev17_eq c
theorem dev18_par (c : Dev nD) : (⟨k0_dev18 c, k0_dev18_lt c⟩ : Dev nD) = par 2 1 c := dev18_eq c
theorem dev19_par (c : Dev nD) : (⟨k0_dev19 c, k0_dev19_lt c⟩ : Dev nD) = par 0 0 c := dev19_eq c
theorem dev20_par (c : Dev nD) : (⟨k0_dev20 c, k0_dev20_lt c⟩ : Dev nD) = par 1 0 c := dev20_eq c
theorem dev21_par (c : Dev nD) : (⟨k0_dev21 c, k0_dev21_lt c⟩ : Dev nD) = par 2 0 c := dev21_eq c

theorem join2 (t : Fin 3) (c : Dev nD) :
    iprop((pt(accK t 2 c, c, fullShare, A3 (xs m) c) : sProp 𝕄)
      ∗ (pt(accS t 2 c, c, fullShare, (accS t 2 c).view.write (Elt F) (A2 (xs m) c) ((accS t 2 c).view.read (Elt F) (A3 (xs m) (par t 2 c))) Finset.univ) : sProp 𝕄))
      ⊢ (pt(accK t 1 c, c, fullShare, B2 (xs m) c) : sProp 𝕄) := by
  rw [pt_congr (accK t 2 c) c fullShare (A3 (xs m) c) (B2 (xs m) c) (fun i hi => B2_on_accK2 (xs m) t c i hi),
    pt_congr (accS t 2 c) c fullShare _ (B2 (xs m) c) (fun i hi => (accS_write_read t 2 c _ _ i hi).trans (B2_on_accS2 (xs m) t c i hi))]
  iintro ⟨Hk, Hs⟩
  iapply (accK_split12 t c fullShare (B2 (xs m) c)).2
  iframe

theorem join1 (t : Fin 3) (c : Dev nD) :
    iprop((pt(accK t 1 c, c, fullShare, B2 (xs m) c) : sProp 𝕄)
      ∗ (pt(accS t 1 c, c, fullShare, (accS t 1 c).view.write (Elt F) (A1 (xs m) c) ((accS t 1 c).view.read (Elt F) (B2 (xs m) (par t 1 c))) Finset.univ) : sProp 𝕄))
      ⊢ (pt(accK t 0 c, c, fullShare, B1 (xs m) c) : sProp 𝕄) := by
  rw [pt_congr (accK t 1 c) c fullShare (B2 (xs m) c) (B1 (xs m) c) (fun i hi => B1_on_accK1 (xs m) t c i hi),
    pt_congr (accS t 1 c) c fullShare _ (B1 (xs m) c) (fun i hi => (accS_write_read t 1 c _ _ i hi).trans (B1_on_accS1 (xs m) t c i hi))]
  iintro ⟨Hk, Hs⟩
  iapply (accK_split01 t c fullShare (B1 (xs m) c)).2
  iframe

theorem outS_landed (t : Fin 3) (c : Dev nD) :
    (pt(outS t c, c, fullShare, (outS t c).view.write (Elt F) (m ((c : Thread nD τ).loc main_v1)) ((accS t 0 c).view.read (Elt F) (B1 (xs m) (par t 0 c))) Finset.univ) : sProp 𝕄)
      = (pt(outS t c, c, fullShare, B0 (xs m) c) : sProp 𝕄) :=
  pt_congr (outS t c) c fullShare _ (B0 (xs m) c) (fun i hi => (outS_write_accS_read t c _ _ i hi).trans (B0_on_outS (xs m) t c i hi))

theorem outK_copied (t : Fin 3) (c : Dev nD) :
    (pt(outK t c, c, fullShare, (outK t c).view.write (Elt F) (m ((c : Thread nD τ).loc main_v1)) ((accK t 0 c).view.read (Elt F) (B1 (xs m) c)) Finset.univ) : sProp 𝕄)
      = (pt(outK t c, c, fullShare, B0 (xs m) c) : sProp 𝕄) :=
  pt_congr (outK t c) c fullShare _ (B0 (xs m) c) (fun i hi => (outK_write_accK_read t c _ _ i hi).trans (B0_on_outK (xs m) t c i hi))

theorem acc_stored3 (t : Fin 3) (c : Dev nD) (f : Vec F S1024x1024 .f32) (v : (Sh t 2).Idx → F .f32)
    (hv : ∀ j : (Sh t 2).Idx, v j = A3 (xs m) c ((accK t 2 c).view.emb j)) :
    (pt(accK t 2 c, c, fullShare, (accM.access (Rect.unit (s := S1024x1024) ![r0 t, kLo t 2 c] (sz t 2) (kLo_inb t 2 c))).write (Elt F) f v Finset.univ) : sProp 𝕄)
      = (pt(accK t 2 c, c, fullShare, A3 (xs m) c) : sProp 𝕄) :=
  pt_congr (accK t 2 c) c fullShare _ (A3 (xs m) c) (fun i hi => by
    obtain ⟨y, rfl⟩ := View.exists_emb_of_mem_set (accK t 2 c).view hi
    rw [View.write_emb_of_mem _ _ (Finset.mem_univ y)]
    exact hv y)

end Cert.KernelIdeal.Hyp

end
-- ==== Proof.BodyMid1c.lean ====
import proofs.«901103_g7700000000001104_dist_treered_v7x_i8_m1024_n1024_f32_1_alg».proof.Proof.MidSteps
import proofs.«901103_g7700000000001104_dist_treered_v7x_i8_m1024_n1024_f32_1_alg».proof.Proof.Body2Pre

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

theorem part9_run (c : Dev nD) (K : Dev nD × Fin 43 → ℕ) (fa : Buf (Elt F) ((c : Thread nD τ).loc cc0_scratch0))
    (v82 v88 v93 v102 : BitVec 32) {Q : PUnit → sProp 𝕄} :
    iprop(Mid8 m c K fa ∗ (Mid9 m c K fa -∗ Q ⟨⟩))
      ⊢ WP(c, atBufs (k0_part9 (F := F)) c v82 v88 v93 v102, Q) := by
  unfold atBufs
  rw [k0_part9_eq_skeleton]
  unfold k0_part9_skel Mid8 Mid9 bS0 bS1 bS5 O8 rsSent rsBoth rsFresh bandFix lcSent lcDone
  simp only [Prog.lift, Prog.bind_op, Prog.bind_ret, Prog.pure_eq_ret]
  iintro ⟨⟨#HR, #Hlev, Hbar, ⟨%W, HO⟩, B0,
      ⟨⟨Hp010, Hp110, Cd10, Cl10⟩, ⟨Hp011, Hp111, Td11, Tl11, Cl11⟩, ⟨%fd11, Hsp11⟩, F12, Hsp12, G12, G11, G10, Ld1, Lf1,
        HoK1, HaS1, HoR1, HaK1, HxK1⟩,
      ⟨R20, F21, Hsp21, F22, Hsp22, G22, G21, G20, ⟨Hl2, Clc2⟩, Lf2, HoK2, HaS2, HoR2⟩⟩, HQ⟩
  iapply (wait_d' m K (wp_waitDma2_d m K c 0 1 0 rfl (credit_Sh 1 0 _) (O9 c + oweA 1 1 c) W) (ms_O8_lv c)) $$ [$]
  iintro ⟨HO, Hp010, Hpay⟩
  ihave HxS1 := (Entails.of_eq ((payload_d m c 0 1 0 0).symm.trans (payload_own_00 m 1 c))) $$ Hpay
  iapply (wait_d' m K (wp_waitDma2_d m K c 1 1 0 rfl (credit_Sh 1 0 _) (O9 c + oweA 1 1 c) _) (ms_O8_lv c)) $$ [$]
  iintro ⟨HO, Hp110, Hpay⟩
  ihave Hstg10 := (Entails.of_eq ((payload_d m c 1 1 0 0).symm.trans (payload_own_10_1 m c))) $$ Hpay
  iapply (wp_accumulate_tk c 1 0 (A0 (xs m)) (off9_eq c) (stgM := Memref.whole cc0_scratch4)
      ((xK 1 c).view.read (Elt F) (xs m (par 1 0 c)))
      (by rw [Memref.view_whole, View.set_whole]; exact Finset.subset_univ _)
      (fun j => (congrFun (Memref.readAt_unit_zero (Elt F) cc0_scratch4 zero_off _ _) j).trans (xK_read_A0 (xs m) 1 c (par 1 0 c) j))
      k0_pay2 (fun a b => shapeCast_self _ _)) $$ [HaK1 Hstg10]
  · iframe
  iintro ⟨HaK1, Hstg10⟩
  ihave HaK1 := (Entails.of_eq (pt_congr (accK 1 0 c) c fullShare (stepAdd (A0 (xs m)) 0 c) (A1 (xs m) c) (fun i _ => rfl))) $$ HaK1
  ihave ⟨HaS11, HaK11⟩ := (accK_split01 1 c fullShare (A1 (xs m) c)).1 $$ HaK1
  iapply (send_half' m K (wp_send_half1 m K c _ 1 (dev8_eq c) (accsl10_send c) rfl rfl rfl fd11 (O9 c) _)) $$ [$]
  iintro ⟨Cd11, HO⟩
  iapply (wait_l' m K (wp_waitDma2_l m K c 0 2 rfl (credit_Sh 2 0 _) (O9 c) _) (ms_O9_lv c)) $$ [$]
  iintro ⟨HO, Hl2, Hpay⟩
  ihave ⟨⟨%fd2, HaK2⟩, HxK2⟩ := (Entails.of_eq (lPay0_eq m 2 c)) $$ Hpay
  ihave HaK2 := (Entails.of_eq (pt_congr (accK 2 0 c) c fullShare _ (A0 (xs m) c) (fun i hi => accK_write_xK_read (xs m) 2 c c fd2 i hi))) $$ HaK2
  iapply le_wp_ret
  iapply HQ
  iframe # ∗
  isplitl [HO] <;> iexists _ <;> iassumption

end Cert.KernelIdeal.Hyp

end
-- ==== Proof.BodyMid1b.lean ====
import proofs.«901103_g7700000000001104_dist_treered_v7x_i8_m1024_n1024_f32_1_alg».proof.Proof.MidSteps

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

theorem part10_run (c : Dev nD) (K : Dev nD × Fin 43 → ℕ) (fa : Buf (Elt F) ((c : Thread nD τ).loc cc0_scratch0))
    (v124 v130 v135 v144 : BitVec 32) {Q : PUnit → sProp 𝕄} :
    iprop(Mid9 m c K fa ∗ (Mid10 m c K fa -∗ Q ⟨⟩))
      ⊢ WP(c, atBufs (k0_part10 (F := F)) c v124 v130 v135 v144, Q) := by
  unfold atBufs
  rw [k0_part10_eq_skeleton]
  dsimp only [k0_part10_skel]
  simp only [accsl12_send c, xsl3_send c]
  simp only [Prog.lift, Prog.bind_op, Prog.bind_ret, Prog.pure_eq_ret]
  unfold Mid9 Mid10 bS1 bS5 O9 rsSent rsBoth rsFresh bandFix
  iintro ⟨⟨#HR, #Hlev, Hbar, ⟨%W, HO⟩, B0, B1,
      ⟨⟨Hp020, Hp120, Cd20, Cl20⟩, ⟨Hp021, Hp121, Td21, Tl21, Cl21⟩, ⟨%fd21, Hsp21⟩, F22, Hsp22, G22, G21, G20, Ld2, Lf2,
        HoK2, HaS2, HoR2, HaK2, HxK2⟩⟩, HQ⟩
  iapply (wait_d' m K (wp_waitDma2_d m K c 0 2 0 rfl (credit_Sh 2 0 _) (O10 c + oweA 2 1 c) W) (ms_O9_lv c)) $$ [$]
  iintro ⟨HO, Hp020, Hpay⟩
  ihave HxS2 := (Entails.of_eq ((payload_d m c 0 2 0 0).symm.trans (payload_own_00 m 2 c))) $$ Hpay
  iapply (wait_d' m K (wp_waitDma2_d m K c 1 2 0 rfl (credit_Sh 2 0 _) (O10 c + oweA 2 1 c) _) (ms_O9_lv c)) $$ [$]
  iintro ⟨HO, Hp120, Hpay⟩
  ihave Hstg20 := (Entails.of_eq ((payload_d m c 1 2 0 0).symm.trans (payload_own_10_2 m c))) $$ Hpay
  iapply (wp_accumulate_tk c 2 0 (A0 (xs m)) (off11_eq c) (stgM := Memref.whole cc0_scratch7)
      ((xK 2 c).view.read (Elt F) (xs m (par 2 0 c)))
      (by rw [Memref.view_whole, View.set_whole]; exact Finset.subset_univ _)
      (fun j => (congrFun (Memref.readAt_unit_zero (Elt F) cc0_scratch7 zero_off _ _) j).trans (xK_read_A0 (xs m) 2 c (par 2 0 c) j))
      k0_pay3 (fun a b => shapeCast_self _ _)) $$ [$]
  iintro ⟨HaK2, Hstg20⟩
  ihave HaK2 := (Entails.of_eq (pt_congr (accK 2 0 c) c fullShare (stepAdd (A0 (xs m)) 0 c) (A1 (xs m) c) (fun i _ => rfl))) $$ HaK2
  ihave ⟨HaS21, HaK21⟩ := (accK_split01 2 c fullShare (A1 (xs m) c)).1 $$ HaK2
  iapply (send_half' m K (wp_send_half1 m K c _ 2 (dev9_eq c) rfl rfl rfl rfl fd21 (O10 c) _)) $$ [$]
  iintro ⟨Cd21, HO⟩
  iapply le_wp_ret
  iapply HQ
  iframe # ∗
  isplitl [HO] <;> iexists _ <;> iassumption

end Cert.KernelIdeal.Hyp

end
-- ==== Proof.BodyMid1d.lean ====
import proofs.«901103_g7700000000001104_dist_treered_v7x_i8_m1024_n1024_f32_1_alg».proof.Proof.MidSteps

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

theorem part11_run (c : Dev nD) (K : Dev nD × Fin 43 → ℕ) (fa : Buf (Elt F) ((c : Thread nD τ).loc cc0_scratch0))
    (v54 v60 v65 v74 : BitVec 32) {Q : PUnit → sProp 𝕄} :
    iprop(Mid10 m c K fa ∗ (Mid11 m c K fa -∗ Q ⟨⟩))
      ⊢ WP(c, atBufs (k0_part11 (F := F)) c v54 v60 v65 v74, Q) := by
  unfold atBufs
  rw [k0_part11_eq_skeleton]
  dsimp only [k0_part11_skel]
  simp only [accsl8_send c, accsl14_send c, accsl10_send c]
  simp only [Prog.lift, Prog.bind_op, Prog.bind_ret, Prog.pure_eq_ret]
  unfold Mid10 Mid11 bS5 bS9 bS6 O10 rsSent rsBoth rsHalf rsFresh
  iintro ⟨⟨#HR, #Hlev, Hbar, ⟨%W, HO⟩,
      ⟨Rb00, ⟨Hp001, Hp101, Cd01, Cl01⟩, ⟨Hp002, Hp102, Td02, Tl02, Cl02⟩, ⟨%fd02, Hsp02⟩, G02, G01, G00, Hfix0, HoR0, HaK01, Hst00, Ld0, Lf0⟩,
      ⟨Rb10, ⟨Hp011, Hp111, Cd11, Cl11⟩, F12, Hsp12, G12, G11, G10, Hfix1, HoR1, HaK11, Hst10, Ld1, Lf1⟩,
      B2⟩, HQ⟩
  iapply (wait_d' m K (wp_waitDma2_d m K c 0 0 1 rfl (credit_Sh 0 1 _) (O11 c + oweA 0 2 c) W) (ms_O10_lv c)) $$ [$]
  iintro ⟨HO, Hp001, -⟩
  iapply (wait_d' m K (wp_waitDma2_d m K c 1 0 1 rfl (credit_Sh 0 1 _) (O11 c + oweA 0 2 c) _) (ms_O10_lv c)) $$ [$]
  iintro ⟨HO, Hp101, Hpay⟩
  ihave ⟨Hstg01, HaP01⟩ := (Entails.of_eq ((payload_d m c 1 0 1 0).symm.trans (payload_own_11_0 m c))) $$ Hpay
  iapply (wp_accumulate_tk c 0 1 (A1 (xs m)) (off13_eq c) (stgM := Memref.whole cc0_scratch2)
      ((accK 0 1 c).view.read (Elt F) (A1 (xs m) (par 0 1 c)))
      (by rw [Memref.view_whole, View.set_whole]; exact Finset.subset_univ _)
      (fun j => (congrFun (Memref.readAt_unit_zero (Elt F) cc0_scratch2 zero_off _ _) j).trans (accK_read 0 1 c (A1 (xs m) (par 0 1 c)) j))
      k0_pay4 (fun a b => shapeCast_self _ _)) $$ [$]
  iintro ⟨HaK01, Hstg01⟩
  ihave HaK01 := (Entails.of_eq (pt_congr (accK 0 1 c) c fullShare (stepAdd (A1 (xs m)) 1 c) (A2 (xs m) c) (fun i _ => rfl))) $$ HaK01
  ihave ⟨HaS02, HaK02⟩ := (accK_split12 0 c fullShare (A2 (xs m) c)).1 $$ HaK01
  iapply (send_half' m K (wp_send_half2 m K c _ 0 (dev10_eq c) rfl rfl rfl rfl fd02 (O11 c) _)) $$ [$]
  iintro ⟨Cd02, HO⟩
  iapply (wait_d' m K (wp_waitDma2_d m K c 0 1 1 rfl (credit_Sh 1 1 _) (O11 c) _) (ms_O11_lv c)) $$ [$]
  iintro ⟨HO, Hp011, -⟩
  iapply le_wp_ret
  iapply HQ
  iframe # ∗
  isplitl [HO] <;> iexists _ <;> iassumption

end Cert.KernelIdeal.Hyp

end
-- ==== Proof.BodyMid2d.lean ====
import proofs.«901103_g7700000000001104_dist_treered_v7x_i8_m1024_n1024_f32_1_alg».proof.Proof.MidSteps

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

theorem part12_alt (c : Dev nD) (K : Dev nD × Fin 43 → ℕ) (fa : Buf (Elt F) ((c : Thread nD τ).loc cc0_scratch0))
    (v96 v102 v107 v116 v144 : BitVec 32) {Q : PUnit → sProp 𝕄} :
    iprop(Mid11 m c K fa ∗ (Mid12 m c K fa -∗ Q ⟨⟩))
      ⊢ WP(c, atBufs (k0_part12 (F := F)) c v96 v102 v107 v116 v144, Q) := by
  unfold atBufs
  rw [k0_part12_eq_skeleton]
  dsimp only [k0_part12_skel]
  simp only [accsl10_send c, accsl16_send c, accsl12_send c]
  simp only [Prog.lift, Prog.bind_op, Prog.bind_ret, Prog.pure_eq_ret]
  unfold Mid11 Mid12 bS5 bS9 bS6 O11 rsSent rsBoth rsHalf rsFresh
  iintro ⟨⟨#HR, #Hlev, Hbar, ⟨%W, HO⟩,
      B0,
      ⟨Rb10, ⟨Hp011, Hp111, Cl11⟩, ⟨Hp012, Hp112, Td12, Tl12, Cl12⟩, ⟨%fd12, Hsp12⟩, G12, G11, G10, Hfix1, HoR1, HaK11, Hst10, Ld1, Lf1⟩,
      ⟨Rb20, ⟨Hp021, Hp121, Cd21, Cl21⟩, F22, Hsp22, G22, G21, G20, Hfix2, HoR2, HaK21, Hst20, Ld2, Lf2⟩⟩, HQ⟩
  iapply (wait_d' m K (wp_waitDma2_d m K c 1 1 1 rfl (credit_Sh 1 1 _) (O12 c + oweA 1 2 c) W) (ms_O11_lv c)) $$ [$]
  iintro ⟨HO, Hp111, Hpay⟩
  ihave ⟨Hstg11, HaP11⟩ := (Entails.of_eq ((payload_d m c 1 1 1 0).symm.trans (payload_own_11_1 m c))) $$ Hpay
  iapply (wp_accumulate_tk c 1 1 (A1 (xs m)) (off15_eq c) (stgM := Memref.whole cc0_scratch5)
      ((accK 1 1 c).view.read (Elt F) (A1 (xs m) (par 1 1 c)))
      (by rw [Memref.view_whole, View.set_whole]; exact Finset.subset_univ _)
      (fun j => (congrFun (Memref.readAt_unit_zero (Elt F) cc0_scratch5 zero_off _ _) j).trans (accK_read 1 1 c (A1 (xs m) (par 1 1 c)) j))
      k0_pay5 (fun a b => shapeCast_self _ _)) $$ [$]
  iintro ⟨HaK11, Hstg11⟩
  ihave HaK11 := (Entails.of_eq (pt_congr (accK 1 1 c) c fullShare (stepAdd (A1 (xs m)) 1 c) (A2 (xs m) c) (fun i _ => rfl))) $$ HaK11
  ihave ⟨HaS12, HaK12⟩ := (accK_split12 1 c fullShare (A2 (xs m) c)).1 $$ HaK11
  iapply (send_half' m K (wp_send_half2 m K c _ 1 (dev11_eq c) rfl rfl rfl rfl fd12 (O12 c) _)) $$ [$]
  iintro ⟨Cd12, HO⟩
  iapply (wait_d' m K (wp_waitDma2_d m K c 0 2 1 rfl (credit_Sh 2 1 _) (O12 c) _) (ms_O12_lv c)) $$ [$]
  iintro ⟨HO, Hp021, -⟩
  iapply le_wp_ret
  iapply HQ
  iframe # ∗
  isplitl [HO] <;> iexists _ <;> iassumption

end Cert.KernelIdeal.Hyp

end
-- ==== Proof.BodyMid2c.lean ====
import proofs.«901103_g7700000000001104_dist_treered_v7x_i8_m1024_n1024_f32_1_alg».proof.Proof.MidSteps

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

private theorem acc_sub (t k : Fin 3) (c : Dev nD) {o : Fin 2 → ℕ} {h : ∀ a, o a + sz t k a ≤ S1024x1024.size a} (e : o = ![r0 t, kLo t k c]) :
    (accM.access (Rect.unit (s := S1024x1024) o (sz t k) h)).set ⊆ (accK t k c).view.set := by
  subst e; exact subset_rfl

private theorem acc_read_at (t k : Fin 3) (c : Dev nD) {o : Fin 2 → ℕ} {h : ∀ a, o a + sz t k a ≤ S1024x1024.size a} (e : o = ![r0 t, kLo t k c])
    (g : Vec F S1024x1024 .f32) (j : (Sh t k).Idx) :
    (accM.access (Rect.unit (s := S1024x1024) o (sz t k) h)).read (Elt F) g j = g ((accK t k c).view.emb j) := by
  subst e; rfl

theorem part13_run (c : Dev nD) (K : Dev nD × Fin 43 → ℕ) (fa : Buf (Elt F) ((c : Thread nD τ).loc cc0_scratch0))
    (v68 v74 v138 v149 v158 : BitVec 32) {Q : (Σ' (v383 : BitVec 32), Vec F S344x128 .f32) → sProp 𝕄} :
    iprop(Mid12 m c K fa ∗ (∀ v383 v385, Mid13 m c K fa v385 -∗ Q ⟨v383, v385⟩))
      ⊢ WP(c, atBufs (k0_part13 (F := F)) c v68 v74 v138 v149 v158, Q) := by
  unfold atBufs
  rw [k0_part13_eq_skeleton]
  dsimp only [k0_part13_skel]
  simp only [accsl12_send c, accsl18_send c, accsl14_send c]
  simp only [Prog.lift, Prog.bind_op, Prog.bind_ret, Prog.pure_eq_ret]
  unfold Mid12 Mid13 bS6 bS9 bS11 O12 rsSent rsBoth rsHalf rsFresh
  iintro ⟨⟨#HR, #Hlev, Hbar, ⟨%W, HO⟩,
      ⟨Rb00, Rb01, ⟨Hp002, Hp102, Cd02, Cl02⟩, G02, G01, G00, Hfix0, HoR0, HaP01, HaK02, Hst00, Hst01, Ld0, Lf0⟩,
      B1,
      ⟨Rb20, ⟨Hp021, Hp121, Cl21⟩, ⟨Hp022, Hp122, Td22, Tl22, Cl22⟩, ⟨%fd22, Hsp22⟩, G22, G21, G20, Hfix2, HoR2, HaK21, Hst20, Ld2, Lf2⟩⟩, HQ⟩
  iapply (wait_d' m K (wp_waitDma2_d m K c 1 2 1 rfl (credit_Sh 2 1 _) (O13 c + oweA 2 2 c) W) (ms_O12_lv c)) $$ [$]
  iintro ⟨HO, Hp121, Hpay⟩
  ihave ⟨Hstg21, HaP21⟩ := (Entails.of_eq ((payload_d m c 1 2 1 0).symm.trans (payload_own_11_2 m c))) $$ Hpay
  iapply (wp_accumulate_tk c 2 1 (A1 (xs m)) (off17_eq c) (stgM := Memref.whole cc0_scratch8)
      ((accK 2 1 c).view.read (Elt F) (A1 (xs m) (par 2 1 c)))
      (by rw [Memref.view_whole, View.set_whole]; exact Finset.subset_univ _)
      (fun j => (congrFun (Memref.readAt_unit_zero (Elt F) cc0_scratch8 zero_off _ _) j).trans (accK_read 2 1 c (A1 (xs m) (par 2 1 c)) j))
      k0_pay6 (fun a b => shapeCast_self _ _)) $$ [$]
  iintro ⟨HaK21, Hstg21⟩
  ihave HaK21 := (Entails.of_eq (pt_congr (accK 2 1 c) c fullShare (stepAdd (A1 (xs m)) 1 c) (A2 (xs m) c) (fun i _ => rfl))) $$ HaK21
  ihave ⟨HaS22, HaK22⟩ := (accK_split12 2 c fullShare (A2 (xs m) c)).1 $$ HaK21
  iapply (send_half' m K (wp_send_half2 m K c _ 2 (dev12_eq c) rfl rfl rfl rfl fd22 (O13 c) _)) $$ [$]
  iintro ⟨Cd22, HO⟩
  iapply (wait_d' m K (wp_waitDma2_d m K c 0 0 2 rfl (credit_Sh 0 2 _) (O13 c) _) (ms_O13_lv c)) $$ [$]
  iintro ⟨HO, Hp002, -⟩
  iapply (wait_d' m K (wp_waitDma2_d m K c 1 0 2 rfl (credit_Sh 0 2 _) (O13 c) _) (ms_O13_lv c)) $$ [$]
  iintro ⟨HO, Hp102, Hpay⟩
  ihave ⟨Hstg02, HaP02⟩ := (Entails.of_eq ((payload_d m c 1 0 2 0).symm.trans (payload_own_12_0 m c))) $$ Hpay
  iapply (wp_load_rect 𝒱₀ (c : Thread nD τ) none Set.univ (m := accM) (r := Rect.unit (s := S1024x1024) (k0_off19 c) S344x128.size (k0_off19_inb c))
    (S := (accK 0 2 c).view.set) (q := fullShare) (f := A2 (xs m) c) (acc_sub 0 2 c (off19_eq c))) $$ [HaK02]
  · iexact HaK02
  iintro HaK02
  iapply le_wp_ret
  iapply HQ $$ %v68 %((accM.access (Rect.unit (s := S1024x1024) (k0_off19 c) S344x128.size (k0_off19_inb c))).read (Elt F) (A2 (xs m) c))
  iframe # ∗
  isplitl [HO]; · iexists _; iexact HO
  isplitr; · ipureintro; exact acc_read_at 0 2 c (off19_eq c) _
  iexists _; iexact Hstg21

end Cert.KernelIdeal.Hyp

end
-- ==== Proof.BodyMid2b.lean ====
import proofs.«901103_g7700000000001104_dist_treered_v7x_i8_m1024_n1024_f32_1_alg».proof.Proof.MidSteps
import proofs.«901103_g7700000000001104_dist_treered_v7x_i8_m1024_n1024_f32_1_alg».proof.Proof.Body2Pre

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

private theorem acc_sub (t k : Fin 3) (c : Dev nD) {o : Fin 2 → ℕ} {h : ∀ a, o a + sz t k a ≤ S1024x1024.size a} (e : o = ![r0 t, kLo t k c]) :
    (accM.access (Rect.unit (s := S1024x1024) o (sz t k) h)).set ⊆ (accK t k c).view.set := by
  subst e; exact subset_rfl

private theorem acc_read_at (t k : Fin 3) (c : Dev nD) {o : Fin 2 → ℕ} {h : ∀ a, o a + sz t k a ≤ S1024x1024.size a} (e : o = ![r0 t, kLo t k c])
    (g : Vec F S1024x1024 .f32) (j : (Sh t k).Idx) :
    (accM.access (Rect.unit (s := S1024x1024) o (sz t k) h)).read (Elt F) g j = g ((accK t k c).view.emb j) := by
  subst e; rfl

private theorem acc_stored3' (t : Fin 3) (c : Dev nD) (f : Vec F S1024x1024 .f32) {o : Fin 2 → ℕ} {h : ∀ a, o a + sz t 2 a ≤ S1024x1024.size a}
    (e : o = ![r0 t, kLo t 2 c]) (v : (Sh t 2).Idx → F .f32) (hv : ∀ j : (Sh t 2).Idx, v j = A3 (xs m) c ((accK t 2 c).view.emb j)) :
    (pt(accK t 2 c, c, fullShare, (accM.access (Rect.unit (s := S1024x1024) o (sz t 2) h)).write (Elt F) f v Finset.univ) : sProp 𝕄)
      = (pt(accK t 2 c, c, fullShare, A3 (xs m) c) : sProp 𝕄) := by
  subst e; exact acc_stored3 m t c f v hv

/-- What the device held plus what its step-2 partner held, on the kept eighth, is the third step's sum. -/
private theorem sum3 (t : Fin 3) (c : Dev nD) (pay : FVec F (Sh t 2) .f32 → FVec F (Sh t 2) .f32 → FVec F (Sh t 2) .f32) (hpay : ∀ a b, pay a b = addf a b)
    (a b : (Sh t 2).Idx → F .f32) (ha : ∀ j, a j = A2 (xs m) c ((accK t 2 c).view.emb j)) (hb : ∀ j, b j = A2 (xs m) (par t 2 c) ((accK t 2 c).view.emb j))
    (j : (Sh t 2).Idx) : pay a b j = A3 (xs m) c ((accK t 2 c).view.emb j) := by
  obtain ⟨ht, _⟩ := accK_facts t 2 c _ ((accK t 2 c).view.emb_mem_set j)
  rw [hpay]
  show FloatOps.addf (φ := .f32) (a j) (b j) = FloatOps.addf (φ := .f32) (A2 (xs m) c _) (A2 (xs m) (par (tOf _) 2 c) _)
  rw [ht, ha j, hb j]

theorem part14_run (c : Dev nD) (K : Dev nD × Fin 43 → ℕ) (fa : Buf (Elt F) ((c : Thread nD τ).loc cc0_scratch0))
    (v68 v74 v110 v116 v383 : BitVec 32) (v385 : Vec F S344x128 .f32)
    {Q : (Σ' (v409 : BitVec 32), FVec F S336x128 .f32) → sProp 𝕄} :
    iprop(Mid13 m c K fa v385 ∗ (∀ v409 v413, Mid14 m c K fa v413 -∗ Q ⟨v409, v413⟩))
      ⊢ WP(c, atBufs (k0_part14 (F := F)) c v68 v74 v110 v116 v383 v385, Q) := by
  unfold atBufs
  rw [k0_part14_eq_skeleton]
  unfold k0_part14_skel Mid13 Mid14 bS11 bS9 band0_14 band1_14 band2_14 O13 rsBoth rsSent rsDone
  rw [agFresh_eq 0 2 c, agSent_eq 0 2 c]
  simp only [Prog.lift, Prog.bind_op, Prog.bind_ret, Prog.pure_eq_ret]
  iintro ⟨⟨#HR, #Hlev, Hbar, ⟨%W, HO⟩,
      ⟨⟨P000, P100⟩, ⟨P001, P101⟩, ⟨P002, P102⟩, ⟨Hp202, Hp302, Td02, Tl02, Cl02⟩, G01, G00, Hfix0, Hrem0, HaP01, HaK02, HaP02, Hstg02, %hv385, S00, S01, L00, Lf0⟩,
      ⟨⟨P010, P110⟩, ⟨P011, P111⟩, ⟨P012, P112, Cd12, Cl12⟩, G12, G11, G10, Hfix1, Hrem1, HaP11, HaK12, S10, S11, L01, Lf1⟩,
      ⟨⟨P020, P120⟩, ⟨P021, P121⟩, ⟨P022, P122, Cd22, Cl22⟩, G22, G21, G20, Hfix2, Hrem2, HaP21, HaK22, S20, S21, L02, Lf2⟩⟩, HQ⟩
  iapply (wp_load_rect 𝒱₀ (c : Thread nD τ) none Set.univ (m := (Memref.whole cc0_scratch3 : Memref sig .tc .vmem S344x128 .f32)) (r := Rect.unit (s := S344x128) ![0, 0] S344x128.size inb_S344x128_S344x128_0_0)
    (S := (stg 0 2).view.set) (q := fullShare) (f := (accK 0 2 c).view.read (Elt F) (A2 (xs m) (par 0 2 c))) (View.set_slice_subset _ _)) $$ [Hstg02]
  · iexact Hstg02
  iintro Hstg02
  iapply (wp_load_rect 𝒱₀ (c : Thread nD τ) none Set.univ (m := accM) (r := Rect.unit (s := S1024x1024) (k0_off19 c) S344x128.size (k0_off19_inb c))
    (S := (accK 0 2 c).view.set) (q := fullShare) (f := A2 (xs m) c) (acc_sub 0 2 c (off19_eq c))) $$ [HaK02]
  · iexact HaK02
  iintro HaK02
  iapply (wp_store 𝒱₀ (c : Thread nD τ) none Set.univ (m := accM) (r := Rect.unit (s := S1024x1024) (k0_off19 c) S344x128.size (k0_off19_inb c))
    (S := (accK 0 2 c).view.set) (f := A2 (xs m) c) (acc_sub 0 2 c (off19_eq c))) $$ [HaK02]
  · iexact HaK02
  iintro HaK02
  ihave HaK02 := (Entails.of_eq (acc_stored3' m 0 c (A2 (xs m) c) (off19_eq c)
      (k0_pay7 v385 (((Memref.whole cc0_scratch3 : Memref sig .tc .vmem S344x128 .f32).access (Rect.unit (s := S344x128) ![0, 0] S344x128.size inb_S344x128_S344x128_0_0)).read (Elt F) ((accK 0 2 c).view.read (Elt F) (A2 (xs m) (par 0 2 c)))))
      (sum3 m 0 c k0_pay7 (fun _ _ => shapeCast_self _ _) v385 _ hv385 (fun j => (congrFun (Memref.read_access_unit_zero (Elt F) cc0_scratch3 zero_off _ _) j).trans (accK_read 0 2 c (A2 (xs m) (par 0 2 c)) j))))) $$ HaK02
  iapply (send_half' m K (wp_send_back2 m K c _ 0 (dev13_par c) (accsl14_keep c) (accsl14_keep c) rfl rfl (O14 c) W)) $$ [$]
  iintro ⟨Cd02, HO⟩
  iapply (wait_d' m K (wp_waitDma2_d m K c 0 1 2 rfl (credit_Sh 1 2 _) (O14 c) W) (ms_O14_lv c)) $$ [$]
  iintro ⟨HO, P012, -⟩
  iapply (wait_d' m K (wp_waitDma2_d m K c 1 1 2 rfl (credit_Sh 1 2 _) (O14 c) _) (ms_O14_lv c)) $$ [$]
  iintro ⟨HO, P112, Hpay⟩
  ihave ⟨Hstg12, HaP12⟩ := (Entails.of_eq ((payload_d m c 1 1 2 0).symm.trans (payload_own_12_1 m c))) $$ Hpay
  iapply (wp_load_rect 𝒱₀ (c : Thread nD τ) none Set.univ (m := accM) (r := Rect.unit (s := S1024x1024) (k0_off20 c) S336x128.size (k0_off20_inb c))
    (S := (accK 1 2 c).view.set) (q := fullShare) (f := A2 (xs m) c) (acc_sub 1 2 c (off20_eq c))) $$ [HaK12]
  · iexact HaK12
  iintro HaK12
  iapply (wp_load_rect 𝒱₀ (c : Thread nD τ) none Set.univ (m := (Memref.whole cc0_scratch6 : Memref sig .tc .vmem S336x128 .f32)) (r := Rect.unit (s := S336x128) ![0, 0] S336x128.size inb_S336x128_S336x128_0_0)
    (S := (stg 1 2).view.set) (q := fullShare) (f := (accK 1 2 c).view.read (Elt F) (A2 (xs m) (par 1 2 c))) (View.set_slice_subset _ _)) $$ [Hstg12]
  · iexact Hstg12
  iintro Hstg12
  iapply le_wp_ret
  iapply HQ $$ %v110 %(k0_pay8 ((accM.access (Rect.unit (s := S1024x1024) (k0_off20 c) S336x128.size (k0_off20_inb c))).read (Elt F) (A2 (xs m) c))
      (((Memref.whole cc0_scratch6 : Memref sig .tc .vmem S336x128 .f32).access (Rect.unit (s := S336x128) ![0, 0] S336x128.size inb_S336x128_S336x128_0_0)).read (Elt F) ((accK 1 2 c).view.read (Elt F) (A2 (xs m) (par 1 2 c)))))
  iframe # ∗
  isplitl [HO]; · iexists _; iexact HO
  isplitl [Hstg02]; · iexists _; iexact Hstg02
  isplitr
  · ipureintro
    exact sum3 m 1 c k0_pay8 (fun _ _ => rfl) _ _ (acc_read_at 1 2 c (off20_eq c) _)
      (fun j => (congrFun (Memref.read_access_unit_zero (Elt F) cc0_scratch6 zero_off _ _) j).trans (accK_read 1 2 c (A2 (xs m) (par 1 2 c)) j))
  iexists _; iexact Hstg12

end Cert.KernelIdeal.Hyp

end
-- ==== Proof.Body2.lean ====
import proofs.«901103_g7700000000001104_dist_treered_v7x_i8_m1024_n1024_f32_1_alg».proof.Proof.MidSteps
import proofs.«901103_g7700000000001104_dist_treered_v7x_i8_m1024_n1024_f32_1_alg».proof.Proof.Body2Pre

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

private theorem acc_sub (t k : Fin 3) (c : Dev nD) (o : Fin 2 → ℕ) (h : ∀ a, o a + sz t k a ≤ S1024x1024.size a) (e : o = ![r0 t, kLo t k c]) :
    (accM.access (Rect.unit (s := S1024x1024) o (sz t k) h)).set ⊆ (accK t k c).view.set := by
  subst e; exact subset_rfl

private theorem acc_stored3' (t : Fin 3) (c : Dev nD) (f : Vec F S1024x1024 .f32) (o : Fin 2 → ℕ) (h : ∀ a, o a + sz t 2 a ≤ S1024x1024.size a)
    (e : o = ![r0 t, kLo t 2 c]) (v : (Sh t 2).Idx → F .f32) (hv : ∀ j : (Sh t 2).Idx, v j = A3 (xs m) c ((accK t 2 c).view.emb j)) :
    (pt(accK t 2 c, c, fullShare, (accM.access (Rect.unit (s := S1024x1024) o (sz t 2) h)).write (Elt F) f v Finset.univ) : sProp 𝕄)
      = (pt(accK t 2 c, c, fullShare, A3 (xs m) c) : sProp 𝕄) := by
  subst e; exact acc_stored3 m t c f v hv

local macro "owes_lv" : tactic => `(tactic| (
  intro g u h
  repeat' (first
    | exact ⟨(ms_oweB_lv h).1, by rw [(ms_oweB_lv h).2]; decide⟩
    | (rcases Pipeline.add_pos_cases h with h | h))))

set_option maxHeartbeats 4000000 in
theorem part15_run (c : Dev nD) (K : Dev nD × Fin 43 → ℕ) (fa : Buf (Elt F) ((c : Thread nD τ).loc cc0_scratch0))
    (v110 v116 v152 v158 v409 : BitVec 32) (v413 : FVec F S336x128 .f32) {Q : PUnit → sProp 𝕄} :
    iprop(Mid14 m c K fa v413 ∗ (Mid15 m K c fa -∗ Q ⟨⟩))
      ⊢ WP(c, atBufs (k0_part15 (F := F)) c v110 v116 v152 v158 v409 v413, Q) := by
  unfold atBufs
  rw [k0_part15_eq_skeleton]
  unfold k0_part15_skel Mid14 Mid15 MidG band1_14 band2_14 bandP2s bandP2 O14 O15 stgs rsDone
  rw [agFresh_eq 1 2 c, agFresh_eq 2 2 c, agSent_eq 1 2 c]
  rw [show (oweB 0 0 c + oweB 0 1 c) + (oweB 1 0 c + oweB 1 1 c + oweB 1 2 c) + (oweB 2 0 c + oweB 2 1 c + oweB 2 2 c)
    = ((oweB 0 0 c + oweB 0 1 c) + (oweB 1 0 c + oweB 1 1 c) + (oweB 2 0 c + oweB 2 1 c + oweB 2 2 c)) + oweB 1 2 c from by abel]
  simp only [Prog.lift, Prog.bind_op, Prog.bind_ret, Prog.pure_eq_ret]
  iintro ⟨⟨#HR, #Hlev, Hbar, ⟨%W, HO⟩, H0,
      ⟨Hrs1, ⟨Hp212, Hp312, Td12, Tl12, Cl12⟩, Hag11, Hag10, Hfix1, Hrem1, Hr11, Hk12, Hr12, %hv, Hs10, Hs11, Hs12, Hlc01, Hlc11⟩,
      ⟨Hp020, Hp120, Hp021, Hp121, Hp022, Hp122, Cd22, Cr22, Hag22, Hag21, Hag20, Hfix2, Hrem2, Hr21, Hk22, Hs20, Hs21, Hlc02, Hlc12⟩⟩, HQ⟩
  have hv9 : ∀ j : (Sh 1 2).Idx, k0_pay9 v413 j = A3 (xs m) c ((accK 1 2 c).view.emb j) := fun j =>
    (congrFun (shapeCast_self v413 shapeCasts_S336x128_S336x128) j).trans (hv j)
  iapply (wp_load_rect 𝒱₀ (c : Thread nD τ) none Set.univ (m := accM) (r := Rect.unit (s := S1024x1024) (k0_off20 c) S336x128.size (k0_off20_inb c))
    (S := (accK 1 2 c).view.set) (q := fullShare) (f := A2 (xs m) c) (acc_sub 1 2 c _ _ (off20_eq c))) $$ [$]
  iintro Hk12
  iapply (wp_store 𝒱₀ (c : Thread nD τ) none Set.univ (m := accM) (r := Rect.unit (s := S1024x1024) (k0_off20 c) S336x128.size (k0_off20_inb c))
    (S := (accK 1 2 c).view.set) (f := A2 (xs m) c) (acc_sub 1 2 c _ _ (off20_eq c))) $$ [$]
  iintro Hk12
  ihave Hk12 := (Entails.of_eq (acc_stored3' m 1 c (A2 (xs m) c) (k0_off20 c) (k0_off20_inb c) (off20_eq c) (k0_pay9 v413) hv9)) $$ Hk12
  iapply (send_half' m K (wp_send_back2 m K c _ 1 (dev14_par c) (accsl16_keep c) (accsl16_keep c) rfl rfl _ _)) $$ [$]
  iintro ⟨Cd12, HO⟩
  iapply (wait_d' m K (wp_waitDma2_d m K c 0 2 2 rfl (credit_Sh 2 2 _) ((oweB 0 0 c + oweB 0 1 c) + (oweB 1 0 c + oweB 1 1 c) + (oweB 2 0 c + oweB 2 1 c + oweB 2 2 c)) _) (N := 1) (by owes_lv)) $$ [$]
  iintro ⟨HO, Hp022, -⟩
  iapply (wait_d' m K (wp_waitDma2_d m K c 1 2 2 rfl (credit_Sh 2 2 _) ((oweB 0 0 c + oweB 0 1 c) + (oweB 1 0 c + oweB 1 1 c) + (oweB 2 0 c + oweB 2 1 c + oweB 2 2 c)) _) (N := 11) (by owes_lv)) $$ [$]
  iintro ⟨HO, Hp122, Hpay⟩
  ihave ⟨Hs22, Hr22⟩ := (Entails.of_eq ((payload_d m c 1 2 2 0).symm.trans (payload_own_12_2 m c))) $$ Hpay
  iapply (wp_accumulate_tk c 2 2 (A2 (xs m)) (off21_eq c) (stgM := Memref.whole cc0_scratch9)
      ((accK 2 2 c).view.read (Elt F) (A2 (xs m) (par 2 2 c)))
      (by rw [Memref.view_whole, View.set_whole]; exact Finset.subset_univ _)
      (fun j => congrFun (Memref.readAt_unit_zero (Elt F) cc0_scratch9 zero_off _ _) j)
      k0_pay10 (fun a b => shapeCast_self _ _)) $$ [$]
  iintro ⟨Hk22, Hs22⟩
  ihave Hk22 := (Entails.of_eq (pt_congr (accK 2 2 c) c fullShare (stepAdd (A2 (xs m)) 2 c) (A3 (xs m) c) (fun i _ => rfl))) $$ Hk22
  iapply le_wp_ret
  iapply HQ
  iframe # ∗
  isplitl [HO]; · iexists _; iexact HO
  iexists _; iexact Hs22

set_option maxHeartbeats 4000000 in
theorem part16_run (c : Dev nD) (K : Dev nD × Fin 43 → ℕ) (fa : Buf (Elt F) ((c : Thread nD τ).loc cc0_scratch0))
    (v54 v60 v74 v152 v158 : BitVec 32) {Q : PUnit → sProp 𝕄} :
    iprop(Mid15 m K c fa ∗ (Mid16 m K c fa -∗ Q ⟨⟩))
      ⊢ WP(c, atBufs (k0_part16 (F := F)) c v54 v60 v74 v152 v158, Q) := by
  unfold atBufs
  rw [k0_part16_eq_skeleton]
  unfold k0_part16_skel Mid15 Mid16 MidG band0_14 bandP1 bandP2 bandP2s O15 O16 stgs
  rw [agFresh_eq 2 2 c, agSent_eq 2 2 c, agSent_eq 0 2 c, agDone_eq 0 2 c]
  rw [show ((oweB 0 0 c + oweB 0 1 c) + (oweB 1 0 c + oweB 1 1 c) + (oweB 2 0 c + oweB 2 1 c + oweB 2 2 c))
    = ((oweB 0 0 c + oweB 0 1 c) + (oweB 1 0 c + oweB 1 1 c) + (oweB 2 0 c + oweB 2 1 c)) + oweB 2 2 c from by abel]
  simp only [Prog.lift, Prog.bind_op, Prog.bind_ret, Prog.pure_eq_ret]
  iintro ⟨⟨#HR, #Hlev, Hbar, ⟨%W, HO⟩,
      ⟨Hrs0, ⟨Hp202, Hp302, Cd02, Cl02⟩, Hag01, Hag00, Hfix0, Hrem0, Hr01, Hs00, Hs01, Hs02, Hlc00, Hlc10⟩,
      B1,
      ⟨Hrs2, ⟨Hp222, Hp322, Td22, Tl22, Cl22⟩, Hag21, Hag20, Hfix2, Hrem2, Hr21, Hk22, Hr22, Hstg2, Hlc12⟩⟩, HQ⟩
  iapply (send_half' m K (wp_send_back2 m K c _ 2 (dev15_par c) (accsl18_keep c) (accsl18_keep c) rfl rfl _ _)) $$ [$]
  iintro ⟨Cd22, HO⟩
  iapply (wait_d' m K (wp_waitDma2_d m K c 2 0 2 rfl (credit_Sh 0 2 _) ((oweB 0 0 c + oweB 0 1 c) + (oweB 1 0 c + oweB 1 1 c) + (oweB 2 0 c + oweB 2 1 c)) _) (N := 1) (by owes_lv) (by rw [lv_bdep]; decide)) $$ [$]
  iintro ⟨HO, Hp202, Hpay⟩
  ihave Hk02 := (Entails.of_eq ((payload_d m c 2 0 2 0).symm.trans (payload_own_22 m 0 c))) $$ Hpay
  iapply (wait_d' m K (wp_waitDma2_d m K c 3 0 2 rfl (credit_Sh 0 2 _) ((oweB 0 0 c + oweB 0 1 c) + (oweB 1 0 c + oweB 1 1 c) + (oweB 2 0 c + oweB 2 1 c)) _) (N := 12) (by owes_lv) (by rw [lv_bland]; decide)) $$ [$]
  iintro ⟨HO, Hp302, Hpay⟩
  ihave Hl02 := (Entails.of_eq ((payload_d m c 3 0 2 0).symm.trans (payload_own_32 m 0 c))) $$ Hpay
  ihave Hk01 := (join2 m 0 c) $$ [$]
  iapply le_wp_ret
  iapply HQ
  iframe # ∗; iexists _; iexact HO

end Cert.KernelIdeal.Hyp

end
-- ==== Proof.Body2b.lean ====
import proofs.«901103_g7700000000001104_dist_treered_v7x_i8_m1024_n1024_f32_1_alg».proof.Proof.MidSteps
import proofs.«901103_g7700000000001104_dist_treered_v7x_i8_m1024_n1024_f32_1_alg».proof.Proof.Body2Pre

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

local macro "owes_above" : tactic => `(tactic| (
  intro g u h
  repeat' (first
    | exact ⟨(ms_oweB_lv h).1, by rw [(ms_oweB_lv h).2]; decide⟩
    | (rcases Pipeline.add_pos_cases h with h | h))))

set_option maxHeartbeats 2000000 in
theorem part17_run (c : Dev nD) (K : Dev nD × Fin 43 → ℕ) (fa : Buf (Elt F) ((c : Thread nD τ).loc cc0_scratch0))
    (v96 v102 v116 : BitVec 32) {Q : PUnit → sProp 𝕄} :
    iprop(Mid16 m K c fa ∗ (Mid17 m K c fa -∗ Q ⟨⟩))
      ⊢ WP(c, atBufs (k0_part17 (F := F)) c v96 v102 v116, Q) := by
  unfold atBufs
  rw [k0_part17_eq_skeleton]
  unfold k0_part17_skel Mid16 Mid17 MidG bandP1 bandP2s bandP1s bandP2h O16 O17
  rw [agFresh_eq 0 1 c, agSent_eq 0 1 c, agSent_eq 1 2 c, agDone_eq 1 2 c, agFresh_eq 1 1 c, agSent_eq 1 1 c, agSent_eq 2 2 c]
  rw [show (oweB 0 0 c + oweB 0 1 c) + (oweB 1 0 c + oweB 1 1 c) + (oweB 2 0 c + oweB 2 1 c)
      = (oweB 0 0 c + oweB 1 0 c + (oweB 2 0 c + oweB 2 1 c) + oweB 1 1 c) + oweB 0 1 c from by abel]
  simp only [Prog.lift, Prog.bind_op, Prog.bind_ret, Prog.pure_eq_ret]
  iintro ⟨⟨#HR, #Hlev, Hbar, ⟨%W, HO⟩,
      ⟨Hrs0, Hag02, ⟨Hp201, Hp301, Td01, Tl01, Cl01⟩, Hag00, Hfix0, Hrem0, HaP0, HaK0, Hstg0, Hlc0⟩,
      ⟨Hrs1, ⟨Hp212, Hp312, Cd12, Cl12⟩, ⟨Hp211, Hp311, Td11, Tl11, Cl11⟩, Hag10, Hfix1, Hrem1, HaP1, Hstg1, Hlc1⟩,
      ⟨Hrs2, ⟨Hp222, Hp322, Cd22, Cl22⟩, Hag21, Hag20, Hfix2, Hrem2, HaP2, Hstg2, Hlc2⟩⟩, HQ⟩
  iapply (send_half' m K (wp_send_back1 m K c _ 0 (dev16_par c) (accsl8_keep c) (accsl8_keep c) rfl rfl _ _)) $$ [$]
  iintro ⟨Cd01, HO⟩
  iapply (wait_d' m K (wp_waitDma2_d m K c 2 1 2 rfl (credit_Sh 1 2 _) (oweB 0 0 c + oweB 1 0 c + (oweB 2 0 c + oweB 2 1 c) + oweB 1 1 c) _) (N := 1) (by owes_above) (by rw [lv_bdep]; decide)) $$ [$]
  iintro ⟨HO, Hp212, Hpay⟩
  ihave Hk12 := (Entails.of_eq ((payload_d m c 2 1 2 0).symm.trans (payload_own_22 m 1 c))) $$ Hpay
  iapply (wait_d' m K (wp_waitDma2_d m K c 3 1 2 rfl (credit_Sh 1 2 _) (oweB 0 0 c + oweB 1 0 c + (oweB 2 0 c + oweB 2 1 c) + oweB 1 1 c) _) (N := 13) (by owes_above) (by rw [lv_bland]; decide)) $$ [$]
  iintro ⟨HO, Hp312, Hpay⟩
  ihave Hs12 := (Entails.of_eq ((payload_d m c 3 1 2 0).symm.trans (payload_own_32 m 1 c))) $$ Hpay
  ihave HaK1 := (join2 m 1 c) $$ [$]
  iapply (send_half' m K (wp_send_back1 m K c _ 1 (dev17_par c) (accsl10_keep c) (accsl10_keep c) rfl rfl _ _)) $$ [$]
  iintro ⟨Cd11, HO⟩
  iapply (wait_d' m K (wp_waitDma2_d m K c 2 2 2 rfl (credit_Sh 2 2 _) (oweB 0 0 c + oweB 1 0 c + (oweB 2 0 c + oweB 2 1 c)) _) (N := 1) (by owes_above) (by rw [lv_bdep]; decide)) $$ [$]
  iintro ⟨HO, Hp222, Hpay⟩
  ihave Hk22 := (Entails.of_eq ((payload_d m c 2 2 2 0).symm.trans (payload_own_22 m 2 c))) $$ Hpay
  iapply le_wp_ret
  iapply HQ
  iframe # ∗; iexists _; iexact HO

set_option maxHeartbeats 2000000 in
theorem part18_run (c : Dev nD) (K : Dev nD × Fin 43 → ℕ) (fa : Buf (Elt F) ((c : Thread nD τ).loc cc0_scratch0))
    (v60 v138 v144 v158 : BitVec 32) {Q : PUnit → sProp 𝕄} :
    iprop(Mid17 m K c fa ∗ (Mid18 m K c fa -∗ Q ⟨⟩))
      ⊢ WP(c, atBufs (k0_part18 (F := F)) c v60 v138 v144 v158, Q) := by
  unfold atBufs
  rw [k0_part18_eq_skeleton]
  unfold k0_part18_skel Mid17 Mid18 MidG bandP1s bandP2h bandP0 O17 O18
  rw [agSent_eq 0 1 c, agDone_eq 0 1 c, agFresh_eq 2 1 c, agSent_eq 2 1 c, agDone_eq 2 2 c]
  rw [show oweB 0 0 c + oweB 1 0 c + (oweB 2 0 c + oweB 2 1 c) = (oweB 0 0 c + oweB 1 0 c + oweB 2 0 c) + oweB 2 1 c from by abel]
  simp only [Prog.lift, Prog.bind_op, Prog.bind_ret, Prog.pure_eq_ret]
  iintro ⟨⟨#HR, #Hlev, Hbar, ⟨%W, HO⟩,
      ⟨Hrs0, Hag02, ⟨Hp201, Hp301, Cd01, Cl01⟩, Hag00, Hfix0, Hrem0, Hstg0, Hlc0⟩,
      B1,
      ⟨Hrs2, Hp222, Hp322, Cl22, ⟨Hp221, Hp321, Td21, Tl21, Cl21⟩, Hag20, Hfix2, Hrem2, HaP2, Hk22, Hstg2, Hlc2⟩⟩, HQ⟩
  iapply (wait_d' m K (wp_waitDma2_d m K c 3 2 2 rfl (credit_Sh 2 2 _) ((oweB 0 0 c + oweB 1 0 c + oweB 2 0 c) + oweB 2 1 c) _) (N := 14) (by owes_above) (by rw [lv_bland]; decide)) $$ [$]
  iintro ⟨HO, Hp322, Hpay⟩
  ihave Hs22 := (Entails.of_eq ((payload_d m c 3 2 2 0).symm.trans (payload_own_32 m 2 c))) $$ Hpay
  ihave HaK2 := (join2 m 2 c) $$ [$]
  iapply (send_half' m K (wp_send_back1 m K c _ 2 (dev18_par c) (accsl12_keep c) (accsl12_keep c) rfl rfl _ _)) $$ [$]
  iintro ⟨Cd21, HO⟩
  iapply (wait_d' m K (wp_waitDma2_d m K c 2 0 1 rfl (credit_Sh 0 1 _) (oweB 0 0 c + oweB 1 0 c + oweB 2 0 c) _) (N := 1) (by owes_above) (by rw [lv_bdep]; decide)) $$ [$]
  iintro ⟨HO, Hp201, Hpay⟩
  ihave Hk01 := (Entails.of_eq ((payload_d m c 2 0 1 0).symm.trans (payload_own_21 m 0 c))) $$ Hpay
  iapply (wait_d' m K (wp_waitDma2_d m K c 3 0 1 rfl (credit_Sh 0 1 _) (oweB 0 0 c + oweB 1 0 c + oweB 2 0 c) _) (N := 15) (by owes_above) (by rw [lv_bland]; decide)) $$ [$]
  iintro ⟨HO, Hp301, Hpay⟩
  ihave Hs01 := (Entails.of_eq ((payload_d m c 3 0 1 0).symm.trans (payload_own_31 m 0 c))) $$ Hpay
  ihave HaK0 := (join1 m 0 c) $$ [$]
  iapply le_wp_ret
  iapply HQ
  iframe # ∗; iexists _; iexact HO

end Cert.KernelIdeal.Hyp

end
-- ==== Proof.Launch.lean ====
import proofs.«901103_g7700000000001104_dist_treered_v7x_i8_m1024_n1024_f32_1_alg».proof.Proof.Store

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

abbrev DIx : Type := Fin 4 × Fin 3 × Fin 3

abbrev TK : Type := Fin 3 × Fin 3

abbrev LIx : Type := Fin 2 × Fin 3

def e43 : Unit ⊕ (DIx ⊕ LIx) ≃ Fin 43 where
  toFun := fun | .inl _ => 0 | .inr (.inl x) => cidx x.1 x.2.1 x.2.2 | .inr (.inr lt) => lidx lt.1 lt.2
  invFun i := if h : i.val = 0 then .inl () else if h' : i.val < 37 then
      .inr (.inl (⟨min ((i.val - 1) / 9) 3, by omega⟩, ⟨((i.val - 1) / 3) % 3, Nat.mod_lt _ (by decide)⟩, ⟨(i.val - 1) % 3, Nat.mod_lt _ (by decide)⟩))
    else .inr (.inr (⟨min ((i.val - 37) / 3) 1, by omega⟩, ⟨(i.val - 37) % 3, Nat.mod_lt _ (by decide)⟩))
  left_inv := by intro x; revert x; decide
  right_inv := by intro x; revert x; decide

def e42 : DIx ⊕ LIx ≃ DmaSem sig where
  toFun := fun | .inl x => dsem x.1 x.2.1 x.2.2 | .inr lt => lsem lt.1 lt.2
  invFun j := if h : j.val < 36 then .inl (aOf j, tOfS j, kOfS j) else
    .inr (⟨min ((j.val - 36) / 3) 1, by omega⟩, ⟨(j.val - 36) % 3, Nat.mod_lt _ (by decide)⟩)
  left_inv := by intro x; revert x; decide
  right_inv := by intro x; revert x; decide

omit [FloatOps F] in
private theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
private theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in

theorem cells43 (c : Dev nD) (Φ : GSem nD τ sig → sProp 𝕄) :
    (bigSep Finset.univ fun i : Fin 43 => Φ (kcell (c, i)))
      = iprop(Φ (barCell c) ∗ (bigSep Finset.univ fun x : DIx => Φ (dCell c x.1 x.2.1 x.2.2)) ∗ bigSep Finset.univ fun lt : LIx => Φ (lCell c lt.1 lt.2)) := by
  rw [bigSep_univ_equiv e43, bigSep_univ_sum, bigSep_univ_of_subsingleton (), bigSep_univ_sum]
  refine congrArg₂ _ rfl (congrArg₂ _ (bigSep_congr fun x _ => ?_) (bigSep_congr fun lt _ => ?_))
  · rw [show e43 (.inr (.inl x)) = cidx x.1 x.2.1 x.2.2 from rfl, kcell_cidx]
  · rw [show e43 (.inr (.inr lt)) = lidx lt.1 lt.2 from rfl, kcell_lidx]

theorem csem_injective : Function.Injective (csem : Fin 43 → SemLoc sig) := by decide

theorem kcell_injective : Function.Injective (kcell : Dev nD × Fin 43 → GSem nD τ sig) := by
  rintro ⟨c, i⟩ ⟨c', i'⟩ h
  have h1 : c = c' := congrArg (fun g : GSem nD τ sig => g.1.1) h
  subst h1
  have h2 : csem i = csem i' := congrArg Prod.snd h
  rw [csem_injective h2]

def hyperCells : Finset (GSem nD τ sig) := Finset.univ.map ⟨kcell, kcell_injective⟩

theorem lsem_injective {l l' : Fin 2} {t t' : Fin 3} (h : lsem l t = lsem l' t') : l = l' ∧ t = t' :=
  ⟨(lOfS_lsem l t).symm.trans ((congrArg lOfS h).trans (lOfS_lsem l' t')), (kOfS_lsem l t).symm.trans ((congrArg kOfS h).trans (kOfS_lsem l' t'))⟩
theorem dsem_ne_lsem (a : Fin 4) (t k : Fin 3) (l : Fin 2) (t' : Fin 3) : dsem a t k ≠ lsem l t' :=
  fun h => lsem_ge l t' (h ▸ dsem_lt a t k)

theorem dsem_injective {a a' : Fin 4} {t t' k k' : Fin 3} (h : dsem a t k = dsem a' t' k') : a = a' ∧ t = t' ∧ k = k' :=
  ⟨(aOf_dsem a t k).symm.trans ((congrArg aOf h).trans (aOf_dsem a' t' k')),
   (tOfS_dsem a t k).symm.trans ((congrArg tOfS h).trans (tOfS_dsem a' t' k')),
   (kOfS_dsem a t k).symm.trans ((congrArg kOfS h).trans (kOfS_dsem a' t' k'))⟩

abbrev TokIx : Type := Fin 3 ⊕ (DIx ⊕ LIx)
abbrev tokOf (cj : Dev nD × TokIx) : GSem nD τ sig × ℕ × Fin 3 := match cj.2 with
  | .inl b => (barCell cj.1, 0, b)
  | .inr (.inl x) => (dCell cj.1 x.1 x.2.1 x.2.2, 0, 0)
  | .inr (.inr lt) => (lCell cj.1 lt.1 lt.2, 0, 0)

theorem tokOf_injective : Function.Injective (tokOf : Dev nD × TokIx → GSem nD τ sig × ℕ × Fin 3) := by
  rintro ⟨c, j⟩ ⟨c', j'⟩ h
  have h1 : c = c' := by
    have := congrArg (fun x : GSem nD τ sig × ℕ × Fin 3 => x.1.1.1) h
    rcases j with b | x | lt <;> rcases j' with b' | x' | lt' <;> exact this
  subst h1
  have hs := congrArg (fun y : GSem nD τ sig × ℕ × Fin 3 => y.1.2) h
  rcases j with b | x | lt <;> rcases j' with b' | x' | lt'
  · have : b = b' := congrArg (fun x : GSem nD τ sig × ℕ × Fin 3 => x.2.2) h
    rw [this]
  · exact absurd hs (fun h' => by cases h')
  · exact absurd hs (fun h' => by cases h')
  · exact absurd hs (fun h' => by cases h')
  · obtain ⟨ha, ht, hk⟩ := dsem_injective (SemLoc.dma.inj hs)
    obtain ⟨a, t, k⟩ := x; obtain ⟨a', t', k'⟩ := x'
    simp only at ha ht hk; subst ha ht hk; rfl
  · exact absurd (SemLoc.dma.inj hs) (dsem_ne_lsem _ _ _ _ _)
  · exact absurd hs (fun h' => by cases h')
  · exact absurd (SemLoc.dma.inj hs).symm (dsem_ne_lsem _ _ _ _ _)
  · obtain ⟨hl, ht⟩ := lsem_injective (SemLoc.dma.inj hs)
    obtain ⟨l, t⟩ := lt; obtain ⟨l', t'⟩ := lt'
    simp only at hl ht; subst hl ht; rfl

def hyperToks : Finset (GSem nD τ sig × ℕ × Fin 3) := Finset.univ.map ⟨tokOf, tokOf_injective⟩

def u₀ : UU :=
  (initOf (Pipeline.cells cfgs cellOf_inj) (Pipeline.launchToks cfgs cellOf_inj), initOf hyperCells hyperToks)

def toks (c : Dev nD) : sProp 𝕄 :=
  iprop((bigSep Finset.univ fun b : Fin 3 => dutyTok ER (barCell c) 0 b)
    ∗ (bigSep Finset.univ fun x : DIx => dutyTok ER (dCell c x.1 x.2.1 x.2.2) 0 0)
    ∗ bigSep Finset.univ fun lt : LIx => dutyTok ER (lCell c lt.1 lt.2) 0 0)

def G (c : Dev nD) : sProp 𝕄 :=
  iprop((bigSep Finset.univ fun i : Fin 43 => roundState ER (Rd m) (kcell (c, i)) 0)
    ∗ (bigSep Finset.univ fun i : Fin 43 => iprop(atPos ER (kcell (c, i)) 0 ∅ 0 ∗ reached ER (kcell (c, i)) 0)) ∗ toks c)

def G' (c : Dev nD) : sProp 𝕄 := iprop(∃ K, ghost m K c)

theorem fund_hyper : BI.own (ER (initOf hyperCells hyperToks)) ⊢ (|==> bigSep Finset.univ (G m) : sProp 𝕄) := by
  have hX (Φ : GSem nD τ sig → sProp 𝕄) : bigSep hyperCells Φ = bigSep Finset.univ fun c : Dev nD => bigSep Finset.univ fun i : Fin 43 => Φ (kcell (c, i)) := by
    unfold hyperCells; rw [bigSep_map, bigSep_univ_prod]; rfl
  have hT : bigSep hyperToks (fun x => (dutyTok ER x.1 x.2.1 x.2.2 : sProp 𝕄)) = bigSep Finset.univ fun c : Dev nD => toks c := by
    unfold hyperToks; rw [bigSep_map, bigSep_univ_prod]
    exact bigSep_congr fun c _ => by unfold toks; rw [bigSep_univ_sum, bigSep_univ_sum]; rfl
  iintro HX
  imod (Rounds.fund ER (Rd m) hyperCells hyperToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

omit [FloatOps F] in

theorem ownSems0_split (c : Dev nD) : (Pipeline.ownSems0 (Ix := Unit) (Name := ℕ) (U := UU) (Lvl := ℕ) (Val := Elt F) (τ := τ) osem c : sProp 𝕄)
    = iprop((bigSep Finset.univ fun x : DIx => semVal (dCell c x.1 x.2.1 x.2.2) 0) ∗ bigSep Finset.univ fun lt : LIx => semVal (lCell c lt.1 lt.2) 0) := by
  unfold Pipeline.ownSems0
  rw [bigSep_univ_equiv e42, bigSep_univ_sum]
  rfl
omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 43 => semVal (kcell (c, i)) 0 : sProp 𝕄) := by
  rw [ownSems0_split, unscopedSems0_eq, cells43 c (fun g => semVal g 0)]
  iintro ⟨⟨HD, HL⟩, HB⟩
  iframe

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 43 => iprop(∃ κ : ℕ, cellInv ER (Rd m) κ (kcell (c, i))))
          ∗ (bigSep Finset.univ fun i : Fin 43 => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · iframe
  imod (show iprop((bigSep Finset.univ fun i : Fin 43 => semVal (kcell (c, i)) 0) ∗ bigSep Finset.univ fun i : Fin 43 => roundState ER (Rd m) (kcell (c, i)) 0)
      ⊢ (|={Set.univ}=> bigSep Finset.univ fun i : Fin 43 => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · iframe
  imodintro
  iframe

omit [FloatOps F] in

private theorem deal {α : Type} [Fintype α] (f : α → Dev nD → Dev nD) (hf : ∀ x c, f x (f x c) = c) (Φ : Dev nD → α → sProp 𝕄) :
    (bigSep Finset.univ fun c : Dev nD => bigSep Finset.univ fun x : α => Φ c x)
      = bigSep Finset.univ fun c : Dev nD => bigSep Finset.univ fun x : α => Φ (f x c) x :=
  calc (bigSep Finset.univ fun c : Dev nD => bigSep Finset.univ fun x : α => Φ c x)
      = bigSep Finset.univ fun x : α => bigSep Finset.univ fun c : Dev nD => Φ c x := bigSep_univ_comm _
    _ = bigSep Finset.univ fun x : α => bigSep Finset.univ fun c : Dev nD => Φ (f x c) x :=
        bigSep_congr fun x _ => bigSep_univ_equiv (⟨f x, f x, hf x, hf x⟩ : Dev nD ≃ Dev nD) (fun c => Φ c x)
    _ = _ := bigSep_univ_comm _

omit [FloatOps F] in
private theorem par_par (t k : Fin 3) (c : Dev nD) : par t k (par t k c) = c := nb_nb (t + k) c

omit [FloatOps F] in

theorem toks_around : (bigSep Finset.univ fun c : Dev nD => (toks c : sProp 𝕄)) ⊢ bigSep Finset.univ fun c : Dev nD => payToks c := by
  unfold toks payToks
  simp only [bigSep_univ_prod (α := Fin 4) (β := TK), bigSep_fin4, bigSep_sep']
  rw [deal (fun b c => nb b c) nb_nb (fun c b => (dutyTok ER (barCell c) 0 b : sProp 𝕄)),
    deal (fun (tk : TK) c => par tk.1 tk.2 c) (fun tk c => par_par tk.1 tk.2 c) (fun c tk => (dutyTok ER (dCell c 1 tk.1 tk.2) 0 0 : sProp 𝕄)),
    deal (fun (tk : TK) c => par tk.1 tk.2 c) (fun tk c => par_par tk.1 tk.2 c) (fun c tk => (dutyTok ER (dCell c 3 tk.1 tk.2) 0 0 : sProp 𝕄))]

theorem inv_at (K : Dev nD × Fin 43 → ℕ) (ci : Dev nD × Fin 43) :
    (bigSep Finset.univ fun ci : Dev nD × Fin 43 => (cellInv ER (Rd m) (K ci) (kcell ci) : sProp 𝕄)) ⊢ cellInv ER (Rd m) (K ci) (kcell ci) :=
  bigSep_elim (Finset.mem_univ ci)

def linear (c : Dev nD) : sProp 𝕄 :=
  iprop((bigSep Finset.univ fun i : Fin 43 => atPos ER (kcell (c, i)) 0 ∅ 0) ∗ payToks c)

theorem ghost_intro (K : Dev nD × Fin 43 → ℕ) (c : Dev nD) : iprop(records m K ∗ linear c) ⊢ G' m c := by
  unfold linear G' ghost
  iintro ⟨#HR, Hat, Htok⟩
  iexists K
  iframe; iexact HR

theorem regroup :
    (bigSep Finset.univ fun c : Dev nD => iprop((bigSep Finset.univ fun i : Fin 43 => iprop(∃ κ : ℕ, cellInv ER (Rd m) κ (kcell (c, i))))
          ∗ (bigSep Finset.univ fun i : Fin 43 => iprop(atPos ER (kcell (c, i)) 0 ∅ 0 ∗ reached ER (kcell (c, i)) 0)) ∗ toks c) : sProp 𝕄)
      ⊢ bigSep Finset.univ (G' m) := by
  simp only [bigSep_sep']
  rw [← bigSep_univ_prod (fun ci : Dev nD × Fin 43 => iprop(∃ κ : ℕ, cellInv ER (Rd m) κ (kcell ci))),
    ← bigSep_univ_prod (fun ci : Dev nD × Fin 43 => (reached ER (kcell ci) 0 : sProp 𝕄))]
  iintro ⟨HI, ⟨Hat, #HR⟩, Htok⟩
  ihave HK := (BI.bigSep_exists_pi Finset.univ (fun (ci : Dev nD × Fin 43) (κ : ℕ) => (cellInv ER (Rd m) κ (kcell ci) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (show iprop((bigSep Finset.univ fun c : Dev nD => bigSep Finset.univ fun i : Fin 43 => (atPos ER (kcell (c, i)) 0 ∅ 0 : sProp 𝕄))
        ∗ (bigSep Finset.univ fun c : Dev nD => (payToks c : sProp 𝕄))) = bigSep Finset.univ fun c : Dev nD => linear c from by
      unfold linear; rw [bigSep_sep']))
    iframe

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in

theorem cred_bar (b : Fin 3) (c : Dev nD) :
    (Pipeline.launchCred (fun d : Dev nD => (tallyAt (barCell (nb b d)) () 1 : CellTallies nD τ sig Unit)) c : sProp 𝕄) ⊢ cred (tallyAt (barCell c) () 1) :=
  Pipeline.launchCred_tallyAt (.reg barS) (nb b) (nb b) (nb_nb b) (nb_nb b) () 1 c
omit [FloatOps F] in

theorem cred_d (a : Fin 4) (t k : Fin 3) (c : Dev nD) :
    (Pipeline.launchCred (fun d : Dev nD => (tallyAt (dCell (par t k d) a t k) () (amt t k) : CellTallies nD τ sig Unit)) c : sProp 𝕄)
      ⊢ cred (tallyAt (dCell c a t k) () (amt t k)) :=
  Pipeline.launchCred_tallyAt (.dma (dsem a t k)) (par t k) (par t k) (par_par t k) (par_par t k) () (amt t k) c

omit [FloatOps F] in
theorem cred_row (a : Fin 4) (t : Fin 3) (c : Dev nD) :
    (Pipeline.launchCred (owedRow a t) c : sProp 𝕄)
      ⊢ iprop(cred (tallyAt (dCell c a t 0) () (amt t 0)) ∗ cred (tallyAt (dCell c a t 1) () (amt t 1)) ∗ cred (tallyAt (dCell c a t 2) () (amt t 2))) := by
  delta owedRow; rw [Pipeline.launchCred_add, Pipeline.launchCred_add]
  iintro ⟨⟨H0, H1⟩, H2⟩
  isplitl [H0]; · iapply (cred_d (F := F) a t 0 c); iexact H0
  isplitl [H1]; · iapply (cred_d (F := F) a t 1 c); iexact H1
  iapply (cred_d (F := F) a t 2 c); iexact H2

omit [FloatOps F] in
theorem cred_owedBar (c : Dev nD) : (Pipeline.launchCred owedBar c : sProp 𝕄) ⊢ cred (tallyAt (barCell c) () 3) := by
  delta owedBar; rw [Pipeline.launchCred_add, Pipeline.launchCred_add,
    show (tallyAt (barCell c) () 3 : CellTallies nD τ sig Unit) = tallyAt (barCell c) () 1 + tallyAt (barCell c) () 1 + tallyAt (barCell c) () 1 from by
      rw [tallyAt_add, tallyAt_add]]
  iintro ⟨⟨H0, H1⟩, H2⟩
  iapply (cred_add _ _).2
  isplitr [H2]
  · iapply (cred_add _ _).2
    isplitl [H0]
    · iapply (cred_bar (F := F) 0 c); iexact H0
    · iapply (cred_bar (F := F) 1 c); iexact H1
  · iapply (cred_bar (F := F) 2 c); iexact H2

omit [FloatOps F] in
private theorem bigSep_tk (Φ : TK → sProp 𝕄) : bigSep Finset.univ Φ
    = iprop((Φ (0, 0) ∗ Φ (0, 1) ∗ Φ (0, 2)) ∗ (Φ (1, 0) ∗ Φ (1, 1) ∗ Φ (1, 2)) ∗ (Φ (2, 0) ∗ Φ (2, 1) ∗ Φ (2, 2))) := by
  rw [bigSep_univ_prod, bigSep_fin3, bigSep_fin3, bigSep_fin3, bigSep_fin3]

omit [FloatOps F] in
theorem creds_intro (c : Dev nD) : (Pipeline.launchCred O₀ c : sProp 𝕄) ⊢ creds c := by
  delta O₀; rw [Pipeline.launchCred_add, Pipeline.launchCred_add, Pipeline.launchCred_add, Pipeline.launchCred_add, Pipeline.launchCred_add, Pipeline.launchCred_add]
  unfold creds
  rw [bigSep_tk]
  iintro ⟨⟨HB, ⟨H10, H11⟩, H12⟩, ⟨H30, H31⟩, H32⟩
  ihave HB' := (cred_owedBar (F := F) c) $$ HB
  icases (cred_row (F := F) 1 0 c) $$ H10 with ⟨A00, A01, A02⟩
  icases (cred_row (F := F) 1 1 c) $$ H11 with ⟨A10, A11, A12⟩
  icases (cred_row (F := F) 1 2 c) $$ H12 with ⟨A20, A21, A22⟩
  icases (cred_row (F := F) 3 0 c) $$ H30 with ⟨B00, B01, B02⟩
  icases (cred_row (F := F) 3 1 c) $$ H31 with ⟨B10, B11, B12⟩
  icases (cred_row (F := F) 3 2 c) $$ H32 with ⟨B20, B21, B22⟩
  iframe

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Hx, Ho⟩, Hlev, Hcr, -, HG⟩
  ihave Hc := (creds_intro (F := F) c) $$ Hcr
  imodintro
  unfold start
  iframe

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  iframe

def Yc (c : Dev nD) : sProp 𝕄 :=
  iprop((((c : Thread nD τ).loc main_arg0) ↦{fullShare} m ((c : Thread nD τ).loc main_arg0))
    ∗ (((c : Thread nD τ).loc main_v1) ↦{fullShare} (B0 (xs m) c : Vec F S1024x1024 .f32)))

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl]
  unfold Φ₁ Yc
  iintro ⟨Hx, Ho, Hs, Hr⟩
  iframe

theorem waits (c : Dev nD) : (levAts L lv : sProp 𝕄) ⊢ Pipeline.cellsWaits cfgs (dats m) () 0 c :=
  Pipeline.cellsWaits_intro cfgs (dats m) () 0 c fun w s t => absurd w.isLt (Nat.not_lt_zero _)

set_option maxRecDepth 8000 in

theorem run_main (hbody : ∀ c : Dev nD, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_hyper m) $$ HX with HG
      imodintro
      iframe)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => s.mem ((c : Thread nD τ).loc main_v1) = (B0 (xs m) c : Vec F S1024x1024 .f32)
      ∧ s.mem ((c : Thread nD τ).loc main_arg0) = m ((c : Thread nD τ).loc main_arg0))
    (hY := fun c s' => by
      unfold Yc
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun s h c => (h c).2.2)

end Cert.KernelIdeal.Hyp

end
-- ==== Proof.Close.lean ====
import proofs.«901103_g7700000000001104_dist_treered_v7x_i8_m1024_n1024_f32_1_alg».proof.Proof.Launch
import proofs.«901103_g7700000000001104_dist_treered_v7x_i8_m1024_n1024_f32_1_alg».proof.Proof.Regions

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cell_close (K : Dev nD × Fin 43 → ℕ) (ci : Dev nD × Fin 43) :
    iprop(records m K ∗ atPos ER (kcell ci) 1 ∅ 0) ⊢ (|={Set.univ}=> semVal (kcell ci) 0 : sProp 𝕄) := by
  unfold records
  iintro ⟨⟨#HI, -⟩, Hat⟩
  iapply (Rounds.cell_close ER (Rd m) (Set.mem_univ (K ci)) (fun h => h) (R := 1) (fun r hr => duties_later m (kcell ci) r hr))
  isplitr
  · iapply (inv_at m K ci); iexact HI
  · iexact Hat

theorem cells_close_l (K : Dev nD × Fin 43 → ℕ) (c : Dev nD) :
    iprop(records m K ∗ bigSep Finset.univ fun lt : LIx => atPos ER (lCell c lt.1 lt.2) 1 ∅ 0)
      ⊢ (|={Set.univ}=> bigSep Finset.univ fun lt : LIx => semVal (lCell c lt.1 lt.2) 0 : sProp 𝕄) :=
  (bigSep_with_persistent (R := records m K) fun lt _ => by rw [← kcell_lidx]; exact cell_close m K (c, lidx lt.1 lt.2)).trans (bigSep_fupd _ _)

omit [FloatOps F] in

theorem bigSep_lix (Φ : LIx → sProp 𝕄) : bigSep Finset.univ Φ
    = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ

theorem cells_close (K : Dev nD × Fin 43 → ℕ) (c : Dev nD) :
    iprop(records m K ∗ bigSep Finset.univ fun x : DIx => atPos ER (dCell c x.1 x.2.1 x.2.2) 1 ∅ 0)
      ⊢ (|={Set.univ}=> bigSep Finset.univ fun x : DIx => semVal (dCell c x.1 x.2.1 x.2.2) 0 : sProp 𝕄) :=
  (bigSep_with_persistent (R := records m K) fun x _ => by rw [← kcell_cidx]; exact cell_close m K (c, cidx x.1 x.2.1 x.2.2)).trans (bigSep_fupd _ _)

omit [FloatOps F] in

theorem bigSep_dix (Φ : DIx → sProp 𝕄) : bigSep Finset.univ Φ
    = iprop(Φ (0, 0, 0) ∗ Φ (0, 0, 1) ∗ Φ (0, 0, 2) ∗ Φ (0, 1, 0) ∗ Φ (0, 1, 1) ∗ Φ (0, 1, 2) ∗ Φ (0, 2, 0) ∗ Φ (0, 2, 1) ∗ Φ (0, 2, 2) ∗ Φ (1, 0, 0) ∗ Φ (1, 0, 1) ∗ Φ (1, 0, 2) ∗ Φ (1, 1, 0) ∗ Φ (1, 1, 1) ∗ Φ (1, 1, 2) ∗ Φ (1, 2, 0) ∗ Φ (1, 2, 1) ∗ Φ (1, 2, 2) ∗ Φ (2, 0, 0) ∗ Φ (2, 0, 1) ∗ Φ (2, 0, 2) ∗ Φ (2, 1, 0) ∗ Φ (2, 1, 1) ∗ Φ (2, 1, 2) ∗ Φ (2, 2, 0) ∗ Φ (2, 2, 1) ∗ Φ (2, 2, 2) ∗ Φ (3, 0, 0) ∗ Φ (3, 0, 1) ∗ Φ (3, 0, 2) ∗ Φ (3, 1, 0) ∗ Φ (3, 1, 1) ∗ Φ (3, 1, 2) ∗ Φ (3, 2, 0) ∗ Φ (3, 2, 1) ∗ Φ (3, 2, 2)) :=
  bigSep_univ_eq_bigSepL [(0, 0, 0), (0, 0, 1), (0, 0, 2), (0, 1, 0), (0, 1, 1), (0, 1, 2), (0, 2, 0), (0, 2, 1), (0, 2, 2), (1, 0, 0), (1, 0, 1), (1, 0, 2), (1, 1, 0), (1, 1, 1), (1, 1, 2), (1, 2, 0), (1, 2, 1), (1, 2, 2), (2, 0, 0), (2, 0, 1), (2, 0, 2), (2, 1, 0), (2, 1, 1), (2, 1, 2), (2, 2, 0), (2, 2, 1), (2, 2, 2), (3, 0, 0), (3, 0, 1), (3, 0, 2), (3, 1, 0), (3, 1, 1), (3, 1, 2), (3, 2, 0), (3, 2, 1), (3, 2, 2)] (by decide) (by decide) Φ

omit [FloatOps F] in

theorem acc_join (c : Dev nD) (f1 f2 f3 f4 f5 f6 : Buf (Elt F) ((c : Thread nD τ).loc cc0_scratch0)) :
    iprop(((accK 0 0 c).view.loc (c : Thread nD τ) ↦[(accK 0 0 c).view.set]{fullShare} f1)
        ∗ ((accS 0 0 c).view.loc (c : Thread nD τ) ↦[(accS 0 0 c).view.set]{fullShare} f2)
        ∗ ((accK 1 0 c).view.loc (c : Thread nD τ) ↦[(accK 1 0 c).view.set]{fullShare} f3)
        ∗ ((accS 1 0 c).view.loc (c : Thread nD τ) ↦[(accS 1 0 c).view.set]{fullShare} f4)
        ∗ ((accK 2 0 c).view.loc (c : Thread nD τ) ↦[(accK 2 0 c).view.set]{fullShare} f5)
        ∗ ((accS 2 0 c).view.loc (c : Thread nD τ) ↦[(accS 2 0 c).view.set]{fullShare} f6))
      ⊢ (∃ f, ((c : Thread nD τ).loc cc0_scratch0) ↦{fullShare} f : sProp 𝕄) := by
  obtain ⟨d1, d2, d3, d4, d5⟩ := six_disj c
  rw [accK_set, accK_set, accK_set, accS_set, accS_set, accS_set]
  show iprop((((c : Thread nD τ).loc cc0_scratch0) ↦[(kR 0 0 c).set]{fullShare} f1)
        ∗ (((c : Thread nD τ).loc cc0_scratch0) ↦[(sR 0 0 c).set]{fullShare} f2)
        ∗ (((c : Thread nD τ).loc cc0_scratch0) ↦[(kR 1 0 c).set]{fullShare} f3)
        ∗ (((c : Thread nD τ).loc cc0_scratch0) ↦[(sR 1 0 c).set]{fullShare} f4)
        ∗ (((c : Thread nD τ).loc cc0_scratch0) ↦[(kR 2 0 c).set]{fullShare} f5)
        ∗ (((c : Thread nD τ).loc cc0_scratch0) ↦[(sR 2 0 c).set]{fullShare} f6)) ⊢ _
  iintro ⟨H1, H2, H3, H4, H5, H6⟩
  ihave H56 := (pointsTo_join (ℓ := ((c : Thread nD τ).loc cc0_scratch0)) (q := fullShare) d5) $$ [H5 H6]
  · iframe
  ihave H46 := (pointsTo_join (ℓ := ((c : Thread nD τ).loc cc0_scratch0)) (q := fullShare) d4) $$ [H4 H56]
  · iframe
  ihave H36 := (pointsTo_join (ℓ := ((c : Thread nD τ).loc cc0_scratch0)) (q := fullShare) d3) $$ [H3 H46]
  · iframe
  ihave H26 := (pointsTo_join (ℓ := ((c : Thread nD τ).loc cc0_scratch0)) (q := fullShare) d2) $$ [H2 H36]
  · iframe
  ihave H16 := (pointsTo_join (ℓ := ((c : Thread nD τ).loc cc0_scratch0)) (q := fullShare) d1) $$ [H1 H26]
  · iframe
  iexists _
  rw [six_cover c]
  iexact H16

def closeIn (c : Dev nD) : sProp 𝕄 :=
  iprop(((xK 0 c).view.loc (c : Thread nD τ) ↦[(xK 0 c).view.set]{fullShare} xs m c)
    ∗ ((xS 0 c).view.loc (c : Thread nD τ) ↦[(xS 0 c).view.set]{fullShare} xs m c)
    ∗ ((xK 1 c).view.loc (c : Thread nD τ) ↦[(xK 1 c).view.set]{fullShare} xs m c)
    ∗ ((xS 1 c).view.loc (c : Thread nD τ) ↦[(xS 1 c).view.set]{fullShare} xs m c)
    ∗ ((xK 2 c).view.loc (c : Thread nD τ) ↦[(xK 2 c).view.set]{fullShare} xs m c)
    ∗ ((xS 2 c).view.loc (c : Thread nD τ) ↦[(xS 2 c).view.set]{fullShare} xs m c))

def closeOut (c : Dev nD) : sProp 𝕄 :=
  iprop(((outK 0 c).view.loc (c : Thread nD τ) ↦[(outK 0 c).view.set]{fullShare} (B0 (xs m) c : Vec F S1024x1024 .f32))
    ∗ ((outS 0 c).view.loc (c : Thread nD τ) ↦[(outS 0 c).view.set]{fullShare} (B0 (xs m) c : Vec F S1024x1024 .f32))
    ∗ ((outK 1 c).view.loc (c : Thread nD τ) ↦[(outK 1 c).view.set]{fullShare} (B0 (xs m) c : Vec F S1024x1024 .f32))
    ∗ ((outS 1 c).view.loc (c : Thread nD τ) ↦[(outS 1 c).view.set]{fullShare} (B0 (xs m) c : Vec F S1024x1024 .f32))
    ∗ ((outK 2 c).view.loc (c : Thread nD τ) ↦[(outK 2 c).view.set]{fullShare} (B0 (xs m) c : Vec F S1024x1024 .f32))
    ∗ ((outS 2 c).view.loc (c : Thread nD τ) ↦[(outS 2 c).view.set]{fullShare} (B0 (xs m) c : Vec F S1024x1024 .f32)))

def closeAcc (c : Dev nD) : sProp 𝕄 :=
  iprop((∃ f : Buf (Elt F) ((c : Thread nD τ).loc cc0_scratch0), ((accK 0 0 c).view.loc (c : Thread nD τ) ↦[(accK 0 0 c).view.set]{fullShare} f))
    ∗ (∃ f : Buf (Elt F) ((c : Thread nD τ).loc cc0_scratch0), ((accS 0 0 c).view.loc (c : Thread nD τ) ↦[(accS 0 0 c).view.set]{fullShare} f))
    ∗ (∃ f : Buf (Elt F) ((c : Thread nD τ).loc cc0_scratch0), ((accK 1 0 c).view.loc (c : Thread nD τ) ↦[(accK 1 0 c).view.set]{fullShare} f))
    ∗ (∃ f : Buf (Elt F) ((c : Thread nD τ).loc cc0_scratch0), ((accS 1 0 c).view.loc (c : Thread nD τ) ↦[(accS 1 0 c).view.set]{fullShare} f))
    ∗ (∃ f : Buf (Elt F) ((c : Thread nD τ).loc cc0_scratch0), ((accK 2 0 c).view.loc (c : Thread nD τ) ↦[(accK 2 0 c).view.set]{fullShare} f))
    ∗ (∃ f : Buf (Elt F) ((c : Thread nD τ).loc cc0_scratch0), ((accS 2 0 c).view.loc (c : Thread nD τ) ↦[(accS 2 0 c).view.set]{fullShare} f)))

def closeStg (c : Dev nD) : sProp 𝕄 :=
  iprop((∃ f, ((stg 0 0).view.loc (c : Thread nD τ) ↦[(stg 0 0).view.set]{fullShare} f))
    ∗ (∃ f, ((stg 0 1).view.loc (c : Thread nD τ) ↦[(stg 0 1).view.set]{fullShare} f))
    ∗ (∃ f, ((stg 0 2).view.loc (c : Thread nD τ) ↦[(stg 0 2).view.set]{fullShare} f))
    ∗ (∃ f, ((stg 1 0).view.loc (c : Thread nD τ) ↦[(stg 1 0).view.set]{fullShare} f))
    ∗ (∃ f, ((stg 1 1).view.loc (c : Thread nD τ) ↦[(stg 1 1).view.set]{fullShare} f))
    ∗ (∃ f, ((stg 1 2).view.loc (c : Thread nD τ) ↦[(stg 1 2).view.set]{fullShare} f))
    ∗ (∃ f, ((stg 2 0).view.loc (c : Thread nD τ) ↦[(stg 2 0).view.set]{fullShare} f))
    ∗ (∃ f, ((stg 2 1).view.loc (c : Thread nD τ) ↦[(stg 2 1).view.set]{fullShare} f))
    ∗ (∃ f, ((stg 2 2).view.loc (c : Thread nD τ) ↦[(stg 2 2).view.set]{fullShare} f)))

theorem close_body (K : Dev nD × Fin 43 → ℕ) (c : Dev nD) :
    iprop(records m K ∗ (bigSep Finset.univ fun x : DIx => atPos ER (dCell c x.1 x.2.1 x.2.2) 1 ∅ 0)
        ∗ (bigSep Finset.univ fun lt : LIx => atPos ER (lCell c lt.1 lt.2) 1 ∅ 0)
        ∗ closeIn m c ∗ closeOut m c ∗ closeAcc c ∗ closeStg c)
      ⊢ (|={Set.univ}=> Φ₁ m c : sProp 𝕄) := by
  iintro ⟨#HR, Hat, Hatl, Hin, Hout, Hacc, Hstg⟩
  imod (cells_close m K c) $$ [Hat] with Hsem
  · iframe; iexact HR
  imod (cells_close_l m K c) $$ [Hatl] with Hloc
  · iframe; iexact HR
  imodintro
  unfold Φ₁
  isplitl [Hin]
  · unfold closeIn; iapply (x_split c (xs m c)).2; iexact Hin
  isplitl [Hout]
  · unfold closeOut; iapply (out_split c (B0 (xs m) c : Vec F S1024x1024 .f32)).2; iexact Hout
  isplitl [Hsem Hloc]
  · rw [ownSems0_split]
    isplitl [Hsem] <;> iassumption
  · rw [scopedRest0_eq]
    unfold closeAcc closeStg
    icases Hacc with ⟨⟨%f1, H1⟩, ⟨%f2, H2⟩, ⟨%f3, H3⟩, ⟨%f4, H4⟩, ⟨%f5, H5⟩, ⟨%f6, H6⟩⟩
    icases Hstg with ⟨S1, S2, S3, S4, S5, S6, S7, S8, S9⟩
    simp only [View.set_whole]
    isplitl [H1 H2 H3 H4 H5 H6]
    · iapply (acc_join (F := F) c f1 f2 f3 f4 f5 f6); iframe
    iframe

end Cert.KernelIdeal.Hyp

end
-- ==== Proof.Body3.lean ====
import proofs.«901103_g7700000000001104_dist_treered_v7x_i8_m1024_n1024_f32_1_alg».proof.Proof.MidSteps
import proofs.«901103_g7700000000001104_dist_treered_v7x_i8_m1024_n1024_f32_1_alg».proof.Proof.Body2Pre
import proofs.«901103_g7700000000001104_dist_treered_v7x_i8_m1024_n1024_f32_1_alg».proof.Proof.Close

noncomputable section

namespace Cert.KernelIdeal.Hyp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

local macro "owes_lv" : tactic => `(tactic| (
  intro g u h
  repeat' (first
    | exact ⟨(ms_oweB_lv h).1, by rw [(ms_oweB_lv h).2]; decide⟩
    | (rcases Pipeline.add_pos_cases h with h | h))))

theorem part19_run (c : Dev nD) (K : Dev nD × Fin 43 → ℕ) (fa : Buf (Elt F) ((c : Thread nD τ).loc cc0_scratch0))
    (v40 v46 v82 v102 : BitVec 32) {Q : BitVec 32 → sProp 𝕄} :
    iprop(Mid18 m K c fa ∗ (∀ v, Mid19 m K c fa -∗ Q v))
      ⊢ WP(c, atBufs (k0_part19 (F := F)) c v40 v46 v82 v102, Q) := by
  unfold atBufs
  rw [k0_part19_eq_skeleton]
  unfold k0_part19_skel Mid18 Mid19 MidG bandP0 bandP1s bandP0s O18 O19 bandFix bandFixX lcFresh lcSent
  rw [agFresh_eq 0 0 c, agSent_eq 1 1 c, agSent_eq 0 0 c, agDone_eq 1 1 c]
  rw [show oweB 0 0 c + oweB 1 0 c + oweB 2 0 c = (oweB 1 0 c + oweB 2 0 c) + oweB 0 0 c from by abel]
  simp only [Prog.lift, Prog.bind_op, Prog.bind_ret, Prog.pure_eq_ret]
  iintro ⟨⟨#HR, #Hlev, Hbar, ⟨%W, HO⟩,
      ⟨Hrs0, Hag02, Hag01, ⟨Hp200, Hp300, Td00, Tl00, Cl00⟩, ⟨HxK0, HxS0, HoK0, HaS0⟩, Hrem0, Hacc0, Hstg0, ⟨Hl0, Tlc0⟩⟩,
      ⟨Hrs1, Hag12, ⟨Hp211, Hp311, Cd11, Cl11⟩, Hag10, Hfix1, Hrem1, Hstg1, Hlc1⟩, B2⟩, HQ⟩
  ihave #HIl10 := (inv_l m K c 1 0) $$ HR
  ihave #Hrl10 := (reached_l m K c 1 0) $$ HR
  ihave ⟨HaL, HaR⟩ := (pt_halve (accK 0 0 c) c fullShare (B1 (xs m) c)).1 $$ Hacc0
  iapply (send_half' m K (wp_send_back0 m K c _ 0 (dev19_par c) (accsl4 c) (outsl4 c) rfl rfl _ _)) $$ [$]
  iintro ⟨Cd00, HO⟩
  iapply (wp_copy_l1 m K c 0 (accsl4 c) (outsl4 c) rfl) $$ [$]
  iintro Clc0
  iapply (wait_d' m K (wp_waitDma2_d m K c 2 1 1 rfl (credit_Sh 1 1 _) (oweB 1 0 c + oweB 2 0 c) _) (N := 1) (by owes_lv) (by rw [lv_bdep]; decide)) $$ [$]
  iintro ⟨HO, Hp211, Hpay⟩
  ihave Hk11 := (Entails.of_eq ((payload_d m c 2 1 1 0).symm.trans (payload_own_21 m 1 c))) $$ Hpay
  iapply (wait_d' m K (wp_waitDma2_d m K c 3 1 1 rfl (credit_Sh 1 1 _) (oweB 1 0 c + oweB 2 0 c) _) (N := 16) (by owes_lv) (by rw [lv_bland]; decide)) $$ [$]
  iintro ⟨HO, Hp311, Hpay⟩
  ihave Hs11 := (Entails.of_eq ((payload_d m c 3 1 1 0).symm.trans (payload_own_31 m 1 c))) $$ Hpay
  ihave Hacc1 := (join1 m 1 c) $$ [$]
  iapply le_wp_ret
  iapply HQ $$ %(1#32 : BitVec 32)
  iframe # ∗; iexists _; iexact HO

theorem part20_run (c : Dev nD) (K : Dev nD × Fin 43 → ℕ) (fa : Buf (Elt F) ((c : Thread nD τ).loc cc0_scratch0))
    (v82 v88 v124 v130 v144 c1_i32_514 : BitVec 32) {Q : PUnit → sProp 𝕄} :
    iprop(Mid19 m K c fa ∗ (Mid20 m K c fa -∗ Q ⟨⟩))
      ⊢ WP(c, atBufs (k0_part20 (F := F)) c v82 v88 v124 v130 v144 c1_i32_514, Q) := by
  unfold atBufs
  rw [k0_part20_eq_skeleton]
  unfold k0_part20_skel Mid19 Mid20 MidG bandP0 bandP1s bandP0s O19 O20 bandFix bandFixX lcFresh lcSent
  rw [agFresh_eq 1 0 c, agSent_eq 2 1 c, agSent_eq 1 0 c, agDone_eq 2 1 c]
  rw [show oweB 1 0 c + oweB 2 0 c = oweB 2 0 c + oweB 1 0 c from add_comm _ _]
  simp only [Prog.lift, Prog.bind_op, Prog.bind_ret, Prog.pure_eq_ret]
  iintro ⟨⟨#HR, #Hlev, Hbar, ⟨%W, HO⟩, B0,
      ⟨Hrs1, Hag12, Hag11, ⟨Hp210, Hp310, Td10, Tl10, Cl10⟩, ⟨HxK1, HxS1, HoK1, HaS1⟩, Hrem1, Hacc1, Hstg1, ⟨Hl1, Tlc1⟩⟩,
      ⟨Hrs2, Hag22, ⟨Hp221, Hp321, Cd21, Cl21⟩, Hag20, Hfix2, Hrem2, Hstg2, Hlc2⟩⟩, HQ⟩
  ihave #HIl11 := (inv_l m K c 1 1) $$ HR
  ihave #Hrl11 := (reached_l m K c 1 1) $$ HR
  ihave ⟨HaL, HaR⟩ := (pt_halve (accK 1 0 c) c fullShare (B1 (xs m) c)).1 $$ Hacc1
  iapply (send_half' m K (wp_send_back0 m K c _ 1 (dev20_par c) (accsl5 c) (outsl5 c) rfl rfl _ _)) $$ [$]
  iintro ⟨Cd10, HO⟩
  iapply (wp_copy_l1 m K c 1 (accsl5 c) (outsl5 c) rfl) $$ [$]
  iintro Clc1
  iapply (wait_d' m K (wp_waitDma2_d m K c 2 2 1 rfl (credit_Sh 2 1 _) (oweB 2 0 c) _) (N := 1) (by owes_lv) (by rw [lv_bdep]; decide)) $$ [$]
  iintro ⟨HO, Hp221, Hpay⟩
  ihave Hk21 := (Entails.of_eq ((payload_d m c 2 2 1 0).symm.trans (payload_own_21 m 2 c))) $$ Hpay
  iapply (wait_d' m K (wp_waitDma2_d m K c 3 2 1 rfl (credit_Sh 2 1 _) (oweB 2 0 c) _) (N := 17) (by owes_lv) (by rw [lv_bland]; decide)) $$ [$]
  iintro ⟨HO, Hp321, Hpay⟩
  ihave Hs21 := (Entails.of_eq ((payload_d m c 3 2 1 0).symm.trans (payload_own_31 m 2 c))) $$ Hpay
  ihave Hacc2 := (join1 m 2 c) $$ [$]
  iapply le_wp_ret
  iapply HQ
  iframe # ∗; iexists _; iexact HO

theorem part21_run (c : Dev nD) (K : Dev nD × Fin 43 → ℕ) (fa : Buf (Elt F) ((c : Thread nD τ).loc cc0_scratch0))
    (v46 v88 v124 : BitVec 32) {Q : BitVec 32 → sProp 𝕄} :
    iprop(Mid20 m K c fa ∗ (∀ v, Mid21 m K c fa -∗ Q v))
      ⊢ WP(c, atBufs (k0_part21 (F := F)) c v46 v88 v124, Q) := by
  unfold atBufs
  rw [k0_part21_eq_skeleton]
  unfold k0_part21_skel Mid20 Mid21 MidG bandP0 bandP0s bandP0h bandPF O20 bandFix bandFixX lcFresh lcSent
  rw [agFresh_eq 2 0 c, agSent_eq 0 0 c, agSent_eq 1 0 c, agSent_eq 2 0 c, agDone_eq 0 0 c]
  rw [show oweB 2 0 c = 0 + oweB 2 0 c from (zero_add _).symm]
  simp only [Prog.lift, Prog.bind_op, Prog.bind_ret, Prog.pure_eq_ret]
  iintro ⟨⟨#HR, #Hlev, Hbar, ⟨%W, HO⟩,
      ⟨Hrs0, Hag02, Hag01, ⟨Hp200, Hp300, Cd00, Cl00⟩, Hfix0, Hstg0, Hlc0⟩,
      ⟨Hrs1, Hag12, Hag11, ⟨Hp210, Hp310, Cd10, Cl10⟩, Hfix1, Hstg1, Hlc1⟩,
      ⟨Hrs2, Hag22, Hag21, ⟨Hp220, Hp320, Td20, Tl20, Cl20⟩, ⟨HxK2, HxS2, HoK2, HaS2⟩, Hrem2, Hacc2, Hstg2, ⟨Hl2, Tlc2⟩⟩⟩, HQ⟩
  ihave #HIl12 := (inv_l m K c 1 2) $$ HR
  ihave #Hrl12 := (reached_l m K c 1 2) $$ HR
  ihave #HI200 := (inv_d m K c 2 0 0) $$ HR
  ihave #HI300 := (inv_d m K c 3 0 0) $$ HR
  ihave #HI210 := (inv_d m K c 2 1 0) $$ HR
  ihave ⟨HaL, HaR⟩ := (pt_halve (accK 2 0 c) c fullShare (B1 (xs m) c)).1 $$ Hacc2
  iapply (send_half' m K (wp_send_back0 m K c _ 2 (dev21_par c) (accsl6 c) (outsl6 c) rfl rfl _ _)) $$ [$]
  iintro ⟨Cd20, HO⟩
  iapply (wp_copy_l1 m K c 2 (accsl6 c) (outsl6 c) rfl) $$ [$]
  iintro Clc2
  iapply (wp_waitDma2_d m K c 2 0 0 rfl (credit_Sh 0 0 _) _ _) $$ [Cd00 HO Hp200]
  · iframe # ∗; rw [MayWait_zero]; iempintro
  iintro ⟨HO, Hp200, Hpay⟩
  ihave Hk00 := (Entails.of_eq ((payload_d m c 2 0 0 0).symm.trans (payload_own_20 m 0 c))) $$ Hpay
  iapply (wp_waitDma2_d m K c 3 0 0 rfl (credit_Sh 0 0 _) _ _) $$ [Cl00 HO Hp300]
  · iframe # ∗; rw [MayWait_zero]; iempintro
  iintro ⟨HO, Hp300, Hpay⟩
  ihave Ho00 := (Entails.of_eq (((payload_d m c 3 0 0 0).symm.trans (payload_own_30 m 0 c)).trans (outS_landed m 0 c))) $$ Hpay
  iapply (wp_waitDma2_d m K c 2 1 0 rfl (credit_Sh 1 0 _) _ _) $$ [Cd10 HO Hp210]
  · iframe # ∗; rw [MayWait_zero]; iempintro
  iintro ⟨HO, Hp210, Hpay⟩
  ihave Hk10 := (Entails.of_eq ((payload_d m c 2 1 0 0).symm.trans (payload_own_20 m 1 c))) $$ Hpay
  iapply le_wp_ret
  iapply HQ $$ %(Scalar.muli v88 1#32)
  iframe # ∗; iexists _; iexact HO

def MidEnd (K : Dev nD × Fin 43 → ℕ) (c : Dev nD) : sProp 𝕄 :=
  iprop(records m K ∗ (bigSep Finset.univ fun x : DIx => atPos ER (dCell c x.1 x.2.1 x.2.2) 1 ∅ 0)
    ∗ (bigSep Finset.univ fun lt : LIx => atPos ER (lCell c lt.1 lt.2) 1 ∅ 0)
    ∗ closeIn m c ∗ closeOut m c ∗ closeAcc (F := F) c ∗ closeStg (F := F) c ∗ (∃ W, owes (c : Thread nD τ) 0 W))

theorem b3_lPay1_eq (t : Fin 3) (c : Dev nD) : lPay m 1 t c
    = iprop((pt(outK t c, c, fullShare, (outK t c).view.write (Elt F) (m ((c : Thread nD τ).loc main_v1)) ((accK t 0 c).view.read (Elt F) (B1 (xs m) c)) Finset.univ) : sProp 𝕄)
        ∗ (pt(accK t 0 c, c, fullShare.right, B1 (xs m) c) : sProp 𝕄)) := rfl

set_option maxHeartbeats 4000000 in
theorem part22_run (c : Dev nD) (K : Dev nD × Fin 43 → ℕ) (fa : Buf (Elt F) ((c : Thread nD τ).loc cc0_scratch0))
    (v130 v596 : BitVec 32) {Q : PUnit → sProp 𝕄} :
    iprop(Mid21 m K c fa ∗ (MidEnd m K c -∗ Q ⟨⟩))
      ⊢ WP(c, atBufs (k0_part22 (F := F)) c v130 v596, Q) := by
  unfold atBufs
  rw [k0_part22_eq_skeleton]
  unfold k0_part22_skel Mid21 MidEnd MidG bandP0s bandP0h bandPF bandFixX lcSent stgs lcDone rsDone closeIn closeOut closeAcc closeStg
  rw [agSent_eq 2 0 c, agDone_eq 0 0 c, agDone_eq 0 1 c, agDone_eq 0 2 c, agDone_eq 1 1 c, agDone_eq 1 2 c, agDone_eq 2 1 c, agDone_eq 2 2 c]
  simp only [bigSep_dix, bigSep_lix]
  simp only [Prog.lift, Prog.bind_op, Prog.bind_ret, Prog.pure_eq_ret]
  iintro ⟨⟨#HR, #Hlev, Hbar, ⟨%W, HO⟩,
      ⟨⟨P000, P100, P001, P101, P002, P102⟩, ⟨P202, P302⟩, ⟨P201, P301⟩, ⟨P200, P300⟩, ⟨HxK0, HxS0, HaS0⟩, HaL0, HoS0, ⟨S00, S01, S02, L00⟩, ⟨Hl0, Clc0⟩⟩,
      ⟨⟨P010, P110, P011, P111, P012, P112⟩, ⟨P212, P312⟩, ⟨P211, P311⟩, Hp210, Hp310, Cl10, ⟨HxK1, HxS1, HaS1⟩, HaL1, ⟨S10, S11, S12, L01⟩, ⟨Hl1, Clc1⟩⟩,
      ⟨⟨P020, P120, P021, P121, P022, P122⟩, ⟨P222, P322⟩, ⟨P221, P321⟩, ⟨Hp220, Hp320, Cd20, Cl20⟩, ⟨HxK2, HxS2, HaS2⟩, ⟨S20, S21, S22, L02⟩, ⟨Hl2, Clc2⟩⟩⟩, HQ⟩
  ihave #HI310 := (inv_d m K c 3 1 0) $$ HR
  ihave #HI220 := (inv_d m K c 2 2 0) $$ HR
  ihave #HI320 := (inv_d m K c 3 2 0) $$ HR
  ihave #HIl10 := (inv_l m K c 1 0) $$ HR
  ihave #HIl11 := (inv_l m K c 1 1) $$ HR
  ihave #HIl12 := (inv_l m K c 1 2) $$ HR
  iapply (wp_waitDma2_d m K c 3 1 0 rfl (credit_Sh 1 0 _) _ _) $$ [Cl10 HO Hp310]
  · iframe # ∗; rw [MayWait_zero]; iempintro
  iintro ⟨HO, Hp310, Hpay⟩
  ihave HoS1 := (Entails.of_eq (((payload_d m c 3 1 0 0).symm.trans (payload_own_30 m 1 c)).trans (outS_landed m 1 c))) $$ Hpay
  iapply (wp_waitDma2_d m K c 2 2 0 rfl (credit_Sh 2 0 _) _ _) $$ [Cd20 HO Hp220]
  · iframe # ∗; rw [MayWait_zero]; iempintro
  iintro ⟨HO, Hp220, Hpay⟩
  ihave HaL2 := (Entails.of_eq ((payload_d m c 2 2 0 0).symm.trans (payload_own_20 m 2 c))) $$ Hpay
  iapply (wp_waitDma2_d m K c 3 2 0 rfl (credit_Sh 2 0 _) _ _) $$ [Cl20 HO Hp320]
  · iframe # ∗; rw [MayWait_zero]; iempintro
  iintro ⟨HO, Hp320, Hpay⟩
  ihave HoS2 := (Entails.of_eq (((payload_d m c 3 2 0 0).symm.trans (payload_own_30 m 2 c)).trans (outS_landed m 2 c))) $$ Hpay
  iapply (wp_waitDma2_l m K c 1 0 rfl (credit_Sh 0 0 _) _ _) $$ [Clc0 HO Hl0]
  · iframe # ∗; rw [MayWait_zero]; iempintro
  iintro ⟨HO, Hl0, Hpay⟩
  ihave ⟨Hw0, HaR0⟩ := (Entails.of_eq (b3_lPay1_eq m 0 c)) $$ Hpay
  ihave HoK0 := (Entails.of_eq (outK_copied m 0 c)) $$ Hw0
  ihave Hacc0 := (pt_halve (accK 0 0 c) c fullShare (B1 (xs m) c)).2 $$ [$]
  iapply (wp_waitDma2_l m K c 1 1 rfl (credit_Sh 1 0 _) _ _) $$ [Clc1 HO Hl1]
  · iframe # ∗; rw [MayWait_zero]; iempintro
  iintro ⟨HO, Hl1, Hpay⟩
  ihave ⟨Hw1, HaR1⟩ := (Entails.of_eq (b3_lPay1_eq m 1 c)) $$ Hpay
  ihave HoK1 := (Entails.of_eq (outK_copied m 1 c)) $$ Hw1
  ihave Hacc1 := (pt_halve (accK 1 0 c) c fullShare (B1 (xs m) c)).2 $$ [$]
  iapply (wp_waitDma2_l m K c 1 2 rfl (credit_Sh 2 0 _) _ _) $$ [Clc2 HO Hl2]
  · iframe # ∗; rw [MayWait_zero]; iempintro
  iintro ⟨HO, Hl2, Hpay⟩
  ihave ⟨Hw2, HaR2⟩ := (Entails.of_eq (b3_lPay1_eq m 2 c)) $$ Hpay
  ihave HoK2 := (Entails.of_eq (outK_copied m 2 c)) $$ Hw2
  ihave Hacc2 := (pt_halve (accK 2 0 c) c fullShare (B1 (xs m) c)).2 $$ [$]
  iapply le_wp_ret
  iapply HQ
  iframe # ∗
  isplitl [Hacc0 HaS0 Hacc1 HaS1 Hacc2 HaS2]
  · isplitl [Hacc0]; · iexists _; iexact Hacc0
    isplitl [HaS0]; · iexists _; iexact HaS0
    isplitl [Hacc1]; · iexists _; iexact Hacc1
    isplitl [HaS1]; · iexists _; iexact HaS1
    isplitl [Hacc2]; · iexists _; iexact Hacc2
    iexists _; iexact HaS2
  iexists _; iexact HO

end Cert.KernelIdeal.Hyp

end
-- ==== Proof.BodyAll.lean ====
import proofs.«901103_g7700000000001104_dist_treered_v7x_i8_m1024_n1024_f32_1_alg».proof.Proof.Body
import proofs.«901103_g7700000000001104_dist_treered_v7x_i8_m1024_n1024_f32_1_alg».proof.Proof.Part67
import proofs.«901103_g7700000000001104_dist_treered_v7x_i8_m1024_n1024_f32_1_alg».proof.Proof.BodyMid
import proofs.«901103_g7700000000001104_dist_treered_v7x_i8_m1024_n1024_f32_1_alg».proof.Proof.BodyMid1c
import proofs.«901103_g7700000000001104_dist_treered_v7x_i8_m1024_n1024_f32_1_alg».proof.Proof.BodyMid1b
import proofs.«901103_g7700000000001104_dist_treered_v7x_i8_m1024_n1024_f32_1_alg».proof.Proof.BodyMid1d
import proofs.«901103_g7700000000001104_dist_treered_v7x_i8_m1024_n1024_f32_1_alg».proof.Proof.BodyMid2d
import proofs.«901103_g7700000000001104_dist_treered_v7x_i8_m1024_n1024_f32_1_alg».proof.Proof.BodyMid2c
import proofs.«901103_g7700000000001104_dist_treered_v7x_i8_m1024_n1024_f32_1_alg».proof.Proof.BodyMid2b
import proofs.«901103_g7700000000001104_dist_treered_v7x_i8_m1024_n1024_f32_1_alg».proof.Proof.Body2
import proofs.«901103_g7700000000001104_dist_treered_v7x_i8_m1024_n1024_f32_1_alg».proof.Proof.Body2b
import proofs.«901103_g7700000000001104_dist_treered_v7x_i8_m1024_n1024_f32_1_alg».proof.Proof.Body3

noncomputable section

namespace Cert.KernelIdeal.Hyp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

theorem body_obligation (c : Dev nD) : BodyObligation (dats (F := F) m 0 c) (defs₀ (F := F)) 𝒱₀ () Set.univ := fun t => by
  rw [fin_N0 t]
  show iprop((dats (F := F) m 0 c).Φ t0_0.castSucc ∗ (dats (F := F) m 0 c).owesAt () t0_0.castSucc ∗ _)
    ⊢ wp Idealize.ShloMosaic.frame (wpE (defs₀ (F := F)) 𝒱₀ (c : Thread nD τ) none) Set.univ (bodyAt0 (F := F) t0_0) _
  rw [show (dats (F := F) m 0 c).Φ t0_0.castSucc = Φ₀ m c from rfl]
  dsimp only [bodyAt0]
  rw [cc0_body_eq_skeleton]; unfold cc0_body_skel
  iintro ⟨HΦ, HO, -⟩
  ihave HS := (preamble m c) $$ [HΦ HO]
  · iframe
  icases HS with ⟨%K, %fa, %W, %f1, %f2, %f3, %f4, %f5, %f6, %f7, %f8, %f9, HS⟩
  rw [wp_bind]
  iapply (part1_full m c K fa W f1 f2 f3 f4 f5 f6 f7 f8 f9)
  iframe HS
  iintro %v7 %v31 HS
  rw [wp_bind]
  iapply (part2_full m c K fa W v7 v31 f7 f5 f3)
  iframe HS
  iintro %v37 %v40 %v46 %v51 %v54 %v60 HM
  rw [wp_bind]
  iapply (part3_run c (Mid5 m c K fa) v7 v54)
  iframe HM
  iintro %v65 %v68 %v74 %v79 %v82 %v88 %v90 %v91 HM
  rw [wp_bind]
  iapply (part4_run c (Mid5 m c K fa) v7 v82 v90 v91)
  iframe HM
  iintro %v93 %v96 %v102 %v107 %v110 %v116 %v121 %v122 %c512 HM
  rw [wp_bind]
  iapply (part5_run c (Mid5 m c K fa) v7 v122 c512)
  iframe HM
  iintro %v124 %v130 %v135 %v138 %v144 %v149 %v152 %v153 %v154 HM
  rw [wp_bind]
  iapply (part6_run m c K fa v37 v46 v79 v88 v121 v130 v153 v154)
  iframe HM
  iintro %v158 HM
  rw [wp_bind]
  iapply (part7_run m c K fa v40 v82 v124)
  iframe HM
  iintro HM
  rw [wp_bind]
  iapply (part8_run m c K fa v40 v46 v51 v60)
  iframe HM
  iintro HM
  rw [wp_bind]
  iapply (part9_run m c K fa v82 v88 v93 v102)
  iframe HM
  iintro HM
  rw [wp_bind]
  iapply (part10_run m c K fa v124 v130 v135 v144)
  iframe HM
  iintro HM
  rw [wp_bind]
  iapply (part11_run m c K fa v54 v60 v65 v74)
  iframe HM
  iintro HM
  rw [wp_bind]
  iapply (part12_alt m c K fa v96 v102 v107 v116 v144)
  iframe HM
  iintro HM
  rw [wp_bind]
  iapply (part13_run m c K fa v68 v74 v138 v149 v158)
  iframe HM
  iintro %v383 %v385 HM
  rw [wp_bind]
  iapply (part14_run m c K fa v68 v74 v110 v116 v383 v385)
  iframe HM
  iintro %v409 %v413 HM
  rw [wp_bind]
  iapply (part15_run m c K fa v110 v116 v152 v158 v409 v413)
  iframe HM
  iintro HM
  rw [wp_bind]
  iapply (part16_run m c K fa v54 v60 v74 v152 v158)
  iframe HM
  iintro HM
  rw [wp_bind]
  iapply (part17_run m c K fa v96 v102 v116)
  iframe HM
  iintro HM
  rw [wp_bind]
  iapply (part18_run m c K fa v60 v138 v144 v158)
  iframe HM
  iintro HM
  rw [wp_bind]
  iapply (part19_run m c K fa v40 v46 v82 v102)
  iframe HM
  iintro %c1_514 HM
  rw [wp_bind]
  iapply (part20_run m c K fa v82 v88 v124 v130 v144 c1_514)
  iframe HM
  iintro HM
  rw [wp_bind]
  iapply (part21_run m c K fa v46 v88 v124)
  iframe HM
  iintro %v596 HM
  rw [wp_bind]
  iapply (part22_run m c K fa v130 v596)
  iframe HM
  iintro HM
  unfold MidEnd
  icases HM with ⟨#HR, Hd, Hl, Hin, Hout, Hacc, Hstg, ⟨%W', HO⟩⟩
  simp only [Prog.pure_eq_ret, wp_ret]
  imod (close_body m K c) $$ [Hd Hl Hin Hout Hacc Hstg] with HΦ
  · isplitr; · iexact HR
    iframe
  imodintro
  rw [show (dats (F := F) m 0 c).Φ t0_0.succ = Φ₁ m c from rfl]
  isplitl [HΦ]; · iexact HΦ
  isplitl [HO]
  · unfold Dat.owesAt Pipeline.owesWithin
    iexists W'
    isplitr
    · ipureintro; exact fun _ _ => Or.inl trivial
    · iexact HO
  · rw [show (Finset.univ : Finset (Fin cfg0.W)) = ∅ from rfl, bigSep_empty]
    iempintro

end Cert.KernelIdeal.Hyp

end
-- ==== Proof.Run.lean ====
import proofs.«901103_g7700000000001104_dist_treered_v7x_i8_m1024_n1024_f32_1_alg».proof.Proof.BodyAll

noncomputable section

namespace Cert.KernelIdeal.Hyp

open Cert.KernelIdeal Idealize.ShloMosaic Idealize.SL.Sem

variable {F : FTy → Type} [FloatOps F]

theorem run (m : (ℓ : Loc nD τ sig) → Buf (Elt F) ℓ) (ρ : Dev nD → PrngReg) :
    θ_run defs (onTc (τ := τ) (main (F := F))) (s₀ m ρ) (QC m) :=
  run_main m ρ (body_obligation m)

end Cert.KernelIdeal.Hyp

end
-- ==== Proof.KernelSide.Vals.lean ====
import proofs.«901103_g7700000000001104_dist_treered_v7x_i8_m1024_n1024_f32_1_alg».proof.Kernel
import Idealize.ShloMosaic.Lib.ValueIdx

noncomputable section

namespace Cert.Kernel.Hyp

open Idealize.ShloMosaic Cert.Kernel

variable {F : FTy → Type} [FloatOps F]

def nb (b : Fin 3) (c : Dev nD) : Dev nD :=
  (![![1, 0, 3, 2, 5, 4, 7, 6], ![3, 2, 1, 0, 7, 6, 5, 4], ![4, 5, 6, 7, 0, 1, 2, 3]] : Fin 3 → Fin 8 → Fin 8) b c

theorem nb_nb (b : Fin 3) (c : Dev nD) : nb b (nb b c) = c := by revert b c; decide
def posBit (b : Fin 3) (c : Dev nD) : Bool :=
  (![![false, true, true, false, false, true, true, false], ![false, false, true, true, false, false, true, true],
     ![false, false, false, false, true, true, true, true]] : Fin 3 → Fin 8 → Bool) b c

def par (t k : Fin 3) (c : Dev nD) : Dev nD := nb (t + k) c

def bandOf (i : ℕ) : Fin 3 := if i < 344 then 0 else if i < 680 then 1 else 2

def tOf (ij : S1024x1024.Idx) : Fin 3 := bandOf (ij 0).val

def colBit (k : Fin 3) (j : ℕ) : Bool :=
  match k with
  | 0 => decide (512 ≤ j)
  | 1 => decide ((j / 256) % 2 = 1)
  | 2 => decide ((j / 128) % 2 = 1)

def keeps (k : Fin 3) (c : Dev nD) (ij : S1024x1024.Idx) : Prop := colBit k (ij 1).val = posBit (tOf ij + k) c

instance (k : Fin 3) (c : Dev nD) (ij : S1024x1024.Idx) : Decidable (keeps k c ij) := by unfold keeps; infer_instance

def A0 (xs : Dev nD → Vec F S1x1024x1024 .f32) (c : Dev nD) : Vec F S1024x1024 .f32 :=
  fun ij => xs c (ValueIdx.ix3 (0 : Fin 1) (ij 0) (ij 1))

def stepAdd (A : Dev nD → Vec F S1024x1024 .f32) (k : Fin 3) (c : Dev nD) : Vec F S1024x1024 .f32 :=
  fun ij => FloatOps.addf (φ := .f32) (A c ij) (A (par (tOf ij) k c) ij)

def A1 (xs : Dev nD → Vec F S1x1024x1024 .f32) : Dev nD → Vec F S1024x1024 .f32 := stepAdd (A0 xs) 0
def A2 (xs : Dev nD → Vec F S1x1024x1024 .f32) : Dev nD → Vec F S1024x1024 .f32 := stepAdd (A1 xs) 1
def A3 (xs : Dev nD → Vec F S1x1024x1024 .f32) : Dev nD → Vec F S1024x1024 .f32 := stepAdd (A2 xs) 2

def B2 (xs : Dev nD → Vec F S1x1024x1024 .f32) (c : Dev nD) : Vec F S1024x1024 .f32 :=
  fun ij => if keeps 2 c ij then A3 xs c ij else A3 xs (par (tOf ij) 2 c) ij

def B1 (xs : Dev nD → Vec F S1x1024x1024 .f32) (c : Dev nD) : Vec F S1024x1024 .f32 :=
  fun ij => if keeps 1 c ij then B2 xs c ij else B2 xs (par (tOf ij) 1 c) ij

def B0 (xs : Dev nD → Vec F S1x1024x1024 .f32) (c : Dev nD) : Vec F S1024x1024 .f32 :=
  fun ij => if keeps 0 c ij then B1 xs c ij else B1 xs (par (tOf ij) 0 c) ij

end Cert.Kernel.Hyp

end
-- ==== Proof.KernelSide.Tables.lean ====
import proofs.«901103_g7700000000001104_dist_treered_v7x_i8_m1024_n1024_f32_1_alg».proof.Proof.KernelSide.Vals
import proofs.«901103_g7700000000001104_dist_treered_v7x_i8_m1024_n1024_f32_1_alg».proof.Proof.Gen.Kernel

set_option Elab.async false

namespace Cert.Kernel.Hyp

open Idealize.ShloMosaic Cert.Kernel Cert.Kernel.Gen

def r0 (t : Fin 3) : ℕ := (![0, 344, 680] : Fin 3 → ℕ) t

def kLo (t : Fin 3) : Fin 3 → Dev nD → ℕ
  | 0, c => if posBit (t + 0) c then 512 else 0
  | 1, c => (if posBit (t + 0) c then 512 else 0) + (if posBit (t + 1) c then 256 else 0)
  | 2, c => (if posBit (t + 0) c then 512 else 0) + (if posBit (t + 1) c then 256 else 0) + (if posBit (t + 2) c then 128 else 0)
def sLo (t : Fin 3) : Fin 3 → Dev nD → ℕ
  | 0, c => if posBit (t + 0) c then 0 else 512
  | 1, c => (if posBit (t + 0) c then 512 else 0) + (if posBit (t + 1) c then 0 else 256)
  | 2, c => (if posBit (t + 0) c then 512 else 0) + (if posBit (t + 1) c then 256 else 0) + (if posBit (t + 2) c then 0 else 128)

theorem sLo_par (t k : Fin 3) (c : Dev nD) : sLo t k (par t k c) = kLo t k c := by revert t k c; decide
theorem kLo_par (t k : Fin 3) (c : Dev nD) : kLo t k (par t k c) = sLo t k c := by revert t k c; decide

theorem dev1_eq (c : Dev nD) : (⟨k0_dev1 c, k0_dev1_lt c⟩ : Dev nD) = nb 0 c := by revert c; decide +kernel
theorem dev2_eq (c : Dev nD) : (⟨k0_dev2 c, k0_dev2_lt c⟩ : Dev nD) = nb 1 c := by revert c; decide +kernel
theorem dev3_eq (c : Dev nD) : (⟨k0_dev3 c, k0_dev3_lt c⟩ : Dev nD) = nb 2 c := by revert c; decide +kernel
theorem dev4_eq (c : Dev nD) : (⟨k0_dev4 c, k0_dev4_lt c⟩ : Dev nD) = nb 0 c := by revert c; decide +kernel
theorem dev5_eq (c : Dev nD) : (⟨k0_dev5 c, k0_dev5_lt c⟩ : Dev nD) = nb 1 c := by revert c; decide +kernel
theorem dev6_eq (c : Dev nD) : (⟨k0_dev6 c, k0_dev6_lt c⟩ : Dev nD) = nb 2 c := by revert c; decide +kernel
theorem dev7_eq (c : Dev nD) : (⟨k0_dev7 c, k0_dev7_lt c⟩ : Dev nD) = nb 1 c := by revert c; decide +kernel
theorem dev8_eq (c : Dev nD) : (⟨k0_dev8 c, k0_dev8_lt c⟩ : Dev nD) = nb 2 c := by revert c; decide +kernel
theorem dev9_eq (c : Dev nD) : (⟨k0_dev9 c, k0_dev9_lt c⟩ : Dev nD) = nb 0 c := by revert c; decide +kernel
theorem dev10_eq (c : Dev nD) : (⟨k0_dev10 c, k0_dev10_lt c⟩ : Dev nD) = nb 2 c := by revert c; decide +kernel
theorem dev11_eq (c : Dev nD) : (⟨k0_dev11 c, k0_dev11_lt c⟩ : Dev nD) = nb 0 c := by revert c; decide +kernel
theorem dev12_eq (c : Dev nD) : (⟨k0_dev12 c, k0_dev12_lt c⟩ : Dev nD) = nb 1 c := by revert c; decide +kernel
theorem dev13_eq (c : Dev nD) : (⟨k0_dev13 c, k0_dev13_lt c⟩ : Dev nD) = nb 2 c := by revert c; decide +kernel
theorem dev14_eq (c : Dev nD) : (⟨k0_dev14 c, k0_dev14_lt c⟩ : Dev nD) = nb 0 c := by revert c; decide +kernel
theorem dev15_eq (c : Dev nD) : (⟨k0_dev15 c, k0_dev15_lt c⟩ : Dev nD) = nb 1 c := by revert c; decide +kernel
theorem dev16_eq (c : Dev nD) : (⟨k0_dev16 c, k0_dev16_lt c⟩ : Dev nD) = nb 1 c := by revert c; decide +kernel
theorem dev17_eq (c : Dev nD) : (⟨k0_dev17 c, k0_dev17_lt c⟩ : Dev nD) = nb 2 c := by revert c; decide +kernel
theorem dev18_eq (c : Dev nD) : (⟨k0_dev18 c, k0_dev18_lt c⟩ : Dev nD) = nb 0 c := by revert c; decide +kernel
theorem dev19_eq (c : Dev nD) : (⟨k0_dev19 c, k0_dev19_lt c⟩ : Dev nD) = nb 0 c := by revert c; decide +kernel
theorem dev20_eq (c : Dev nD) : (⟨k0_dev20 c, k0_dev20_lt c⟩ : Dev nD) = nb 1 c := by revert c; decide +kernel
theorem dev21_eq (c : Dev nD) : (⟨k0_dev21 c, k0_dev21_lt c⟩ : Dev nD) = nb 2 c := by revert c; decide +kernel

theorem off1_send (c : Dev nD) : k0_off1 c 0#32 512#32 = ![0, r0 0, sLo 0 0 c] := by funext a; revert c a; decide +kernel
theorem off1_keep (c : Dev nD) : k0_off1 c 512#32 0#32 = ![0, r0 0, kLo 0 0 c] := by funext a; revert c a; decide +kernel
theorem off2_send (c : Dev nD) : k0_off2 c 0#32 512#32 = ![0, r0 1, sLo 1 0 c] := by funext a; revert c a; decide +kernel
theorem off2_keep (c : Dev nD) : k0_off2 c 512#32 0#32 = ![0, r0 1, kLo 1 0 c] := by funext a; revert c a; decide +kernel
theorem off3_send (c : Dev nD) : k0_off3 c 0#32 512#32 = ![0, r0 2, sLo 2 0 c] := by funext a; revert c a; decide +kernel
theorem off3_keep (c : Dev nD) : k0_off3 c 512#32 0#32 = ![0, r0 2, kLo 2 0 c] := by funext a; revert c a; decide +kernel
theorem off4_eq (c : Dev nD) : k0_off4 c = ![r0 0, kLo 0 0 c] := by funext a; revert c a; decide +kernel
theorem off5_eq (c : Dev nD) : k0_off5 c = ![r0 1, kLo 1 0 c] := by funext a; revert c a; decide +kernel
theorem off6_eq (c : Dev nD) : k0_off6 c = ![r0 2, kLo 2 0 c] := by funext a; revert c a; decide +kernel
theorem off7_eq (c : Dev nD) : k0_off7 c = ![r0 0, kLo 0 0 c] := by funext a; revert c a; decide +kernel
theorem off9_eq (c : Dev nD) : k0_off9 c = ![r0 1, kLo 1 0 c] := by funext a; revert c a; decide +kernel
theorem off11_eq (c : Dev nD) : k0_off11 c = ![r0 2, kLo 2 0 c] := by funext a; revert c a; decide +kernel
theorem off13_eq (c : Dev nD) : k0_off13 c = ![r0 0, kLo 0 1 c] := by funext a; revert c a; decide +kernel
theorem off15_eq (c : Dev nD) : k0_off15 c = ![r0 1, kLo 1 1 c] := by funext a; revert c a; decide +kernel
theorem off17_eq (c : Dev nD) : k0_off17 c = ![r0 2, kLo 2 1 c] := by funext a; revert c a; decide +kernel
theorem off19_eq (c : Dev nD) : k0_off19 c = ![r0 0, kLo 0 2 c] := by funext a; revert c a; decide +kernel
theorem off20_eq (c : Dev nD) : k0_off20 c = ![r0 1, kLo 1 2 c] := by funext a; revert c a; decide +kernel
theorem off21_eq (c : Dev nD) : k0_off21 c = ![r0 2, kLo 2 2 c] := by funext a; revert c a; decide +kernel
theorem off8_send (c : Dev nD) : k0_off8 c 0#32 256#32 = ![r0 0, sLo 0 1 c] := by funext a; revert c a; decide +kernel
theorem off8_keep (c : Dev nD) : k0_off8 c 256#32 0#32 = ![r0 0, kLo 0 1 c] := by funext a; revert c a; decide +kernel
theorem off10_send (c : Dev nD) : k0_off10 c 0#32 256#32 = ![r0 1, sLo 1 1 c] := by funext a; revert c a; decide +kernel
theorem off10_keep (c : Dev nD) : k0_off10 c 256#32 0#32 = ![r0 1, kLo 1 1 c] := by funext a; revert c a; decide +kernel
theorem off12_send (c : Dev nD) : k0_off12 c 0#32 256#32 = ![r0 2, sLo 2 1 c] := by funext a; revert c a; decide +kernel
theorem off12_keep (c : Dev nD) : k0_off12 c 256#32 0#32 = ![r0 2, kLo 2 1 c] := by funext a; revert c a; decide +kernel
theorem off14_send (c : Dev nD) : k0_off14 c 0#32 128#32 = ![r0 0, sLo 0 2 c] := by funext a; revert c a; decide +kernel
theorem off14_keep (c : Dev nD) : k0_off14 c 128#32 0#32 = ![r0 0, kLo 0 2 c] := by funext a; revert c a; decide +kernel
theorem off16_send (c : Dev nD) : k0_off16 c 0#32 128#32 = ![r0 1, sLo 1 2 c] := by funext a; revert c a; decide +kernel
theorem off16_keep (c : Dev nD) : k0_off16 c 128#32 0#32 = ![r0 1, kLo 1 2 c] := by funext a; revert c a; decide +kernel
theorem off18_send (c : Dev nD) : k0_off18 c 0#32 128#32 = ![r0 2, sLo 2 2 c] := by funext a; revert c a; decide +kernel
theorem off18_keep (c : Dev nD) : k0_off18 c 128#32 0#32 = ![r0 2, kLo 2 2 c] := by funext a; revert c a; decide +kernel

end Cert.Kernel.Hyp
-- ==== Proof.KernelSide.Sched.lean ====
import proofs.«901103_g7700000000001104_dist_treered_v7x_i8_m1024_n1024_f32_1_alg».proof.Proof.KernelSide.Tables
import proofs.«901103_g7700000000001104_dist_treered_v7x_i8_m1024_n1024_f32_1_alg».proof.Proof.Gen.Kernel.Skeleton
import proofs.«901103_g7700000000001104_dist_treered_v7x_i8_m1024_n1024_f32_1_alg».proof.Proof.Gen.Kernel.Launch
import proofs.«901103_g7700000000001104_dist_treered_v7x_i8_m1024_n1024_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

abbrev barS : Sem sig := (SemArray.scalar (sig.barrier 0 rfl) : Sems sig S_).sem

abbrev dsem (a : Fin 4) (t k : Fin 3) : DmaSem sig :=
  ⟨9 * a.val + 3 * t.val + k.val, by have := a.isLt; have := t.isLt; have := k.isLt; show _ < 42; omega⟩

abbrev lsem (l : Fin 2) (t : Fin 3) : DmaSem sig :=
  ⟨36 + 3 * l.val + t.val, by have := l.isLt; have := t.isLt; show _ < 42; omega⟩

abbrev barCell (c : Dev nD) : GSem nD τ sig := ((c : Thread nD τ), .reg barS)
abbrev dCell (c : Dev nD) (a : Fin 4) (t k : Fin 3) : GSem nD τ sig := ((c : Thread nD τ), .dma (dsem a t k))

abbrev rows : Fin 3 → ℕ | 0 => 344 | 1 => 336 | 2 => 344
abbrev cols : Fin 3 → ℕ | 0 => 512 | 1 => 256 | 2 => 128
abbrev sz (t k : Fin 3) : Fin 2 → ℕ := ![rows t, cols k]

abbrev Sh (t k : Fin 3) : Shape := ⟨2, sz t k⟩

theorem kLo_inb (t k : Fin 3) (c : Dev nD) : ∀ a, (![r0 t, kLo t k c] : Fin 2 → ℕ) a + sz t k a ≤ S1024x1024.size a := by
  revert t k c; decide
theorem sLo_inb (t k : Fin 3) (c : Dev nD) : ∀ a, (![r0 t, sLo t k c] : Fin 2 → ℕ) a + sz t k a ≤ S1024x1024.size a := by
  revert t k c; decide
theorem xk_inb (t : Fin 3) (c : Dev nD) : ∀ a, (![0, r0 t, kLo t 0 c] : Fin 3 → ℕ) a + (![1, rows t, 512] : Fin 3 → ℕ) a ≤ S1x1024x1024.size a := by
  revert t c; decide
theorem xs_inb (t : Fin 3) (c : Dev nD) : ∀ a, (![0, r0 t, sLo t 0 c] : Fin 3 → ℕ) a + (![1, rows t, 512] : Fin 3 → ℕ) a ≤ S1x1024x1024.size a := by
  revert t c; decide
theorem sq3 (t : Fin 3) : (⟨3, ![1, rows t, 512]⟩ : Shape).Squeezes (Sh t 0) := by revert t; decide

abbrev kR (t k : Fin 3) (c : Dev nD) := Rect.unit (s := S1024x1024) ![r0 t, kLo t k c] (sz t k) (kLo_inb t k c)
abbrev sR (t k : Fin 3) (c : Dev nD) := Rect.unit (s := S1024x1024) ![r0 t, sLo t k c] (sz t k) (sLo_inb t k c)

abbrev accM : Memref sig .tc .vmem S1024x1024 .f32 := Memref.whole cc0_scratch0
abbrev outM : Memref sig .tc .hbm S1024x1024 .f32 := Memref.whole main_v1
abbrev xM : Memref sig .tc .hbm S1x1024x1024 .f32 := Memref.whole main_arg0

abbrev accK (t k : Fin 3) (c : Dev nD) : Memref sig .tc .vmem (Sh t k) .f32 :=
  accM.slice (kR t k c) (fun _ => rfl)
abbrev accS (t k : Fin 3) (c : Dev nD) : Memref sig .tc .vmem (Sh t k) .f32 :=
  accM.slice (sR t k c) (fun _ => rfl)

abbrev outK (t : Fin 3) (c : Dev nD) : Memref sig .tc .hbm (Sh t 0) .f32 :=
  outM.slice (kR t 0 c) (fun _ => rfl)
abbrev outS (t : Fin 3) (c : Dev nD) : Memref sig .tc .hbm (Sh t 0) .f32 :=
  outM.slice (sR t 0 c) (fun _ => rfl)

abbrev xK (t : Fin 3) (c : Dev nD) : Memref sig .tc .hbm (Sh t 0) .f32 :=
  (xM.slice (Rect.unit (s := S1x1024x1024) ![0, r0 t, kLo t 0 c] ![1, rows t, 512] (xk_inb t c)) (fun _ => rfl)).squeeze (Sh t 0) (sq3 t)
abbrev xS (t : Fin 3) (c : Dev nD) : Memref sig .tc .hbm (Sh t 0) .f32 :=
  (xM.slice (Rect.unit (s := S1x1024x1024) ![0, r0 t, sLo t 0 c] ![1, rows t, 512] (xs_inb t c)) (fun _ => rfl)).squeeze (Sh t 0) (sq3 t)

abbrev stg : (t k : Fin 3) → Memref sig .tc .vmem (Sh t k) .f32
  | 0, 0 => Memref.whole cc0_scratch1 | 0, 1 => Memref.whole cc0_scratch2 | 0, 2 => Memref.whole cc0_scratch3
  | 1, 0 => Memref.whole cc0_scratch4 | 1, 1 => Memref.whole cc0_scratch5 | 1, 2 => Memref.whole cc0_scratch6
  | 2, 0 => Memref.whole cc0_scratch7 | 2, 1 => Memref.whole cc0_scratch8 | 2, 2 => Memref.whole cc0_scratch9

abbrev xs (c : Dev nD) : Vec F S1x1024x1024 .f32 := m ((c : Thread nD τ).loc main_arg0)

theorem accSl_congr (o o' szv : Fin 2 → ℕ) (h : ∀ a, o a + szv a ≤ S1024x1024.size a) (h' : ∀ a, o' a + szv a ≤ S1024x1024.size a) (e : o = o') :
    accM.slice (Rect.unit (s := S1024x1024) o szv h) (fun _ => rfl) = accM.slice (Rect.unit (s := S1024x1024) o' szv h') (fun _ => rfl) := by
  subst e; rfl
theorem outSl_congr (o o' szv : Fin 2 → ℕ) (h : ∀ a, o a + szv a ≤ S1024x1024.size a) (h' : ∀ a, o' a + szv a ≤ S1024x1024.size a) (e : o = o') :
    outM.slice (Rect.unit (s := S1024x1024) o szv h) (fun _ => rfl) = outM.slice (Rect.unit (s := S1024x1024) o' szv h') (fun _ => rfl) := by
  subst e; rfl
theorem xSl_congr (o o' szv : Fin 3 → ℕ) (h : ∀ a, o a + szv a ≤ S1x1024x1024.size a) (h' : ∀ a, o' a + szv a ≤ S1x1024x1024.size a) (e : o = o') :
    xM.slice (Rect.unit (s := S1x1024x1024) o szv h) (fun _ => rfl) = xM.slice (Rect.unit (s := S1x1024x1024) o' szv h') (fun _ => rfl) := by
  subst e; rfl
end Cert.Kernel.Hyp

end
-- ==== Proof.KernelSide.Pay.lean ====
import proofs.«901103_g7700000000001104_dist_treered_v7x_i8_m1024_n1024_f32_1_alg».proof.Proof.KernelSide.Sched

noncomputable section

namespace Cert.Kernel.Hyp

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ UU ℕ

variable (m : (ℓ : Loc nD τ sig) → Buf (Elt F) ℓ)

def dPay (a : Fin 4) (t k : Fin 3) (c : Dev nD) : sProp 𝕄 :=
  match a, t, k with
  | 0, t, 0 => ((xS t c).view.loc (c : Thread nD τ) ↦[(xS t c).view.set]{fullShare} xs m c)
  | 0, _, _ => iprop(emp)
  | 1, 0, 0 => ((stg 0 0).view.loc (c : Thread nD τ) ↦[(stg 0 0).view.set]{fullShare} ((xK 0 c).view.read (Elt F) (xs m (par 0 0 c))))
  | 1, 0, 1 => iprop(((stg 0 1).view.loc (c : Thread nD τ) ↦[(stg 0 1).view.set]{fullShare} ((accK 0 1 c).view.read (Elt F) (A1 (xs m) (par 0 1 c)))) ∗ ((accK 0 1 c).view.loc ((par 0 1 c) : Thread nD τ) ↦[(accK 0 1 c).view.set]{fullShare} (A1 (xs m) (par 0 1 c))))
  | 1, 0, 2 => iprop(((stg 0 2).view.loc (c : Thread nD τ) ↦[(stg 0 2).view.set]{fullShare} ((accK 0 2 c).view.read (Elt F) (A2 (xs m) (par 0 2 c)))) ∗ ((accK 0 2 c).view.loc ((par 0 2 c) : Thread nD τ) ↦[(accK 0 2 c).view.set]{fullShare} (A2 (xs m) (par 0 2 c))))
  | 1, 1, 0 => ((stg 1 0).view.loc (c : Thread nD τ) ↦[(stg 1 0).view.set]{fullShare} ((xK 1 c).view.read (Elt F) (xs m (par 1 0 c))))
  | 1, 1, 1 => iprop(((stg 1 1).view.loc (c : Thread nD τ) ↦[(stg 1 1).view.set]{fullShare} ((accK 1 1 c).view.read (Elt F) (A1 (xs m) (par 1 1 c)))) ∗ ((accK 1 1 c).view.loc ((par 1 1 c) : Thread nD τ) ↦[(accK 1 1 c).view.set]{fullShare} (A1 (xs m) (par 1 1 c))))
  | 1, 1, 2 => iprop(((stg 1 2).view.loc (c : Thread nD τ) ↦[(stg 1 2).view.set]{fullShare} ((accK 1 2 c).view.read (Elt F) (A2 (xs m) (par 1 2 c)))) ∗ ((accK 1 2 c).view.loc ((par 1 2 c) : Thread nD τ) ↦[(accK 1 2 c).view.set]{fullShare} (A2 (xs m) (par 1 2 c))))
  | 1, 2, 0 => ((stg 2 0).view.loc (c : Thread nD τ) ↦[(stg 2 0).view.set]{fullShare} ((xK 2 c).view.read (Elt F) (xs m (par 2 0 c))))
  | 1, 2, 1 => iprop(((stg 2 1).view.loc (c : Thread nD τ) ↦[(stg 2 1).view.set]{fullShare} ((accK 2 1 c).view.read (Elt F) (A1 (xs m) (par 2 1 c)))) ∗ ((accK 2 1 c).view.loc ((par 2 1 c) : Thread nD τ) ↦[(accK 2 1 c).view.set]{fullShare} (A1 (xs m) (par 2 1 c))))
  | 1, 2, 2 => iprop(((stg 2 2).view.loc (c : Thread nD τ) ↦[(stg 2 2).view.set]{fullShare} ((accK 2 2 c).view.read (Elt F) (A2 (xs m) (par 2 2 c)))) ∗ ((accK 2 2 c).view.loc ((par 2 2 c) : Thread nD τ) ↦[(accK 2 2 c).view.set]{fullShare} (A2 (xs m) (par 2 2 c))))
  | 2, t, 0 => ((accK t 0 c).view.loc (c : Thread nD τ) ↦[(accK t 0 c).view.set]{fullShare.left} (B1 (xs m) c))
  | 2, t, 1 => ((accK t 1 c).view.loc (c : Thread nD τ) ↦[(accK t 1 c).view.set]{fullShare} (B2 (xs m) c))
  | 2, t, 2 => ((accK t 2 c).view.loc (c : Thread nD τ) ↦[(accK t 2 c).view.set]{fullShare} (A3 (xs m) c))
  | 3, t, 0 => ((outS t c).view.loc (c : Thread nD τ) ↦[(outS t c).view.set]{fullShare} ((outS t c).view.write (Elt F) (m ((c : Thread nD τ).loc main_v1)) ((accS t 0 c).view.read (Elt F) (B1 (xs m) (par t 0 c))) Finset.univ))
  | 3, t, 1 => ((accS t 1 c).view.loc (c : Thread nD τ) ↦[(accS t 1 c).view.set]{fullShare} ((accS t 1 c).view.write (Elt F) (A1 (xs m) c) ((accS t 1 c).view.read (Elt F) (B2 (xs m) (par t 1 c))) Finset.univ))
  | 3, t, 2 => ((accS t 2 c).view.loc (c : Thread nD τ) ↦[(accS t 2 c).view.set]{fullShare} ((accS t 2 c).view.write (Elt F) (A2 (xs m) c) ((accS t 2 c).view.read (Elt F) (A3 (xs m) (par t 2 c))) Finset.univ))

def barPay (c : Dev nD) (b : Fin 3) : sProp 𝕄 :=
  match b with
  | 0 => iprop((∃ f, ((stg 0 0).view.loc (nb 0 c : Thread nD τ) ↦[(stg 0 0).view.set]{fullShare} f)) ∗ (∃ f, ((stg 2 1).view.loc (nb 0 c : Thread nD τ) ↦[(stg 2 1).view.set]{fullShare} f)) ∗ (∃ f, ((stg 1 2).view.loc (nb 0 c : Thread nD τ) ↦[(stg 1 2).view.set]{fullShare} f)) ∗ ((outK 0 c).view.loc (nb 0 c : Thread nD τ) ↦[(outK 0 c).view.set]{fullShare} (m ((nb 0 c : Thread nD τ).loc main_v1))))
  | 1 => iprop((∃ f, ((stg 1 0).view.loc (nb 1 c : Thread nD τ) ↦[(stg 1 0).view.set]{fullShare} f)) ∗ (∃ f, ((stg 0 1).view.loc (nb 1 c : Thread nD τ) ↦[(stg 0 1).view.set]{fullShare} f)) ∗ (∃ f, ((stg 2 2).view.loc (nb 1 c : Thread nD τ) ↦[(stg 2 2).view.set]{fullShare} f)) ∗ ((outK 1 c).view.loc (nb 1 c : Thread nD τ) ↦[(outK 1 c).view.set]{fullShare} (m ((nb 1 c : Thread nD τ).loc main_v1))))
  | 2 => iprop((∃ f, ((stg 2 0).view.loc (nb 2 c : Thread nD τ) ↦[(stg 2 0).view.set]{fullShare} f)) ∗ (∃ f, ((stg 1 1).view.loc (nb 2 c : Thread nD τ) ↦[(stg 1 1).view.set]{fullShare} f)) ∗ (∃ f, ((stg 0 2).view.loc (nb 2 c : Thread nD τ) ↦[(stg 0 2).view.set]{fullShare} f)) ∗ ((outK 2 c).view.loc (nb 2 c : Thread nD τ) ↦[(outK 2 c).view.set]{fullShare} (m ((nb 2 c : Thread nD τ).loc main_v1))))

def lPay (l : Fin 2) (t : Fin 3) (c : Dev nD) : sProp 𝕄 :=
  match l with
  | 0 => iprop((∃ fd, ((accK t 0 c).view.loc (c : Thread nD τ) ↦[(accK t 0 c).view.set]{fullShare} ((accK t 0 c).view.write (Elt F) fd ((xK t c).view.read (Elt F) (xs m c)) Finset.univ))) ∗ ((xK t c).view.loc (c : Thread nD τ) ↦[(xK t c).view.set]{fullShare} xs m c))
  | 1 => iprop(((outK t c).view.loc (c : Thread nD τ) ↦[(outK t c).view.set]{fullShare} ((outK t c).view.write (Elt F) (m ((c : Thread nD τ).loc main_v1)) ((accK t 0 c).view.read (Elt F) (B1 (xs m) c)) Finset.univ)) ∗ ((accK t 0 c).view.loc (c : Thread nD τ) ↦[(accK t 0 c).view.set]{fullShare.right} (B1 (xs m) c)))

theorem xsl1_send (c : Dev nD) : (Memref.whole main_arg0 : Memref sig .tc .hbm S1x1024x1024 .f32).slice (Rect.unit (s := S1x1024x1024) (k0_off1 c 0#32 512#32) S1x344x512.size (k0_off1_inb c 0)) (fun _ => rfl) = xM.slice (Rect.unit (s := S1x1024x1024) ![0, r0 0, sLo 0 0 c] ![1, rows 0, 512] (xs_inb 0 c)) (fun _ => rfl) := xSl_congr _ _ _ _ _ (off1_send c)
theorem xsl1_keep (c : Dev nD) : (Memref.whole main_arg0 : Memref sig .tc .hbm S1x1024x1024 .f32).slice (Rect.unit (s := S1x1024x1024) (k0_off1 c 512#32 0#32) S1x344x512.size (k0_off1_inb c 1)) (fun _ => rfl) = xM.slice (Rect.unit (s := S1x1024x1024) ![0, r0 0, kLo 0 0 c] ![1, rows 0, 512] (xk_inb 0 c)) (fun _ => rfl) := xSl_congr _ _ _ _ _ (off1_keep c)
theorem xsl2_send (c : Dev nD) : (Memref.whole main_arg0 : Memref sig .tc .hbm S1x1024x1024 .f32).slice (Rect.unit (s := S1x1024x1024) (k0_off2 c 0#32 512#32) S1x336x512.size (k0_off2_inb c 0)) (fun _ => rfl) = xM.slice (Rect.unit (s := S1x1024x1024) ![0, r0 1, sLo 1 0 c] ![1, rows 1, 512] (xs_inb 1 c)) (fun _ => rfl) := xSl_congr _ _ _ _ _ (off2_send c)
theorem xsl2_keep (c : Dev nD) : (Memref.whole main_arg0 : Memref sig .tc .hbm S1x1024x1024 .f32).slice (Rect.unit (s := S1x1024x1024) (k0_off2 c 512#32 0#32) S1x336x512.size (k0_off2_inb c 1)) (fun _ => rfl) = xM.slice (Rect.unit (s := S1x1024x1024) ![0, r0 1, kLo 1 0 c] ![1, rows 1, 512] (xk_inb 1 c)) (fun _ => rfl) := xSl_congr _ _ _ _ _ (off2_keep c)
theorem xsl3_send (c : Dev nD) : (Memref.whole main_arg0 : Memref sig .tc .hbm S1x1024x1024 .f32).slice (Rect.unit (s := S1x1024x1024) (k0_off3 c 0#32 512#32) S1x344x512.size (k0_off3_inb c 0)) (fun _ => rfl) = xM.slice (Rect.unit (s := S1x1024x1024) ![0, r0 2, sLo 2 0 c] ![1, rows 2, 512] (xs_inb 2 c)) (fun _ => rfl) := xSl_congr _ _ _ _ _ (off3_send c)
theorem xsl3_keep (c : Dev nD) : (Memref.whole main_arg0 : Memref sig .tc .hbm S1x1024x1024 .f32).slice (Rect.unit (s := S1x1024x1024) (k0_off3 c 512#32 0#32) S1x344x512.size (k0_off3_inb c 1)) (fun _ => rfl) = xM.slice (Rect.unit (s := S1x1024x1024) ![0, r0 2, kLo 2 0 c] ![1, rows 2, 512] (xk_inb 2 c)) (fun _ => rfl) := xSl_congr _ _ _ _ _ (off3_keep c)
theorem accsl4 (c : Dev nD) : (Memref.whole cc0_scratch0 : Memref sig .tc .vmem S1024x1024 .f32).slice (Rect.unit (s := S1024x1024) (k0_off4 c) S344x512.size (k0_off4_inb c)) (fun _ => rfl) = accK 0 0 c := accSl_congr _ _ _ _ _ (off4_eq c)
theorem outsl4 (c : Dev nD) : (Memref.whole main_v1 : Memref sig .tc .hbm S1024x1024 .f32).slice (Rect.unit (s := S1024x1024) (k0_off4 c) S344x512.size (k0_off4_inb c)) (fun _ => rfl) = outK 0 c := outSl_congr _ _ _ _ _ (off4_eq c)
theorem accsl5 (c : Dev nD) : (Memref.whole cc0_scratch0 : Memref sig .tc .vmem S1024x1024 .f32).slice (Rect.unit (s := S1024x1024) (k0_off5 c) S336x512.size (k0_off5_inb c)) (fun _ => rfl) = accK 1 0 c := accSl_congr _ _ _ _ _ (off5_eq c)
theorem outsl5 (c : Dev nD) : (Memref.whole main_v1 : Memref sig .tc .hbm S1024x1024 .f32).slice (Rect.unit (s := S1024x1024) (k0_off5 c) S336x512.size (k0_off5_inb c)) (fun _ => rfl) = outK 1 c := outSl_congr _ _ _ _ _ (off5_eq c)
theorem accsl6 (c : Dev nD) : (Memref.whole cc0_scratch0 : Memref sig .tc .vmem S1024x1024 .f32).slice (Rect.unit (s := S1024x1024) (k0_off6 c) S344x512.size (k0_off6_inb c)) (fun _ => rfl) = accK 2 0 c := accSl_congr _ _ _ _ _ (off6_eq c)
theorem outsl6 (c : Dev nD) : (Memref.whole main_v1 : Memref sig .tc .hbm S1024x1024 .f32).slice (Rect.unit (s := S1024x1024) (k0_off6 c) S344x512.size (k0_off6_inb c)) (fun _ => rfl) = outK 2 c := outSl_congr _ _ _ _ _ (off6_eq c)
theorem accsl8_send (c : Dev nD) : (Memref.whole cc0_scratch0 : Memref sig .tc .vmem S1024x1024 .f32).slice (Rect.unit (s := S1024x1024) (k0_off8 c 0#32 256#32) S344x256.size (k0_off8_inb c 0)) (fun _ => rfl) = accS 0 1 c := accSl_congr _ _ _ _ _ (off8_send c)
theorem accsl8_keep (c : Dev nD) : (Memref.whole cc0_scratch0 : Memref sig .tc .vmem S1024x1024 .f32).slice (Rect.unit (s := S1024x1024) (k0_off8 c 256#32 0#32) S344x256.size (k0_off8_inb c 1)) (fun _ => rfl) = accK 0 1 c := accSl_congr _ _ _ _ _ (off8_keep c)
theorem accsl10_send (c : Dev nD) : (Memref.whole cc0_scratch0 : Memref sig .tc .vmem S1024x1024 .f32).slice (Rect.unit (s := S1024x1024) (k0_off10 c 0#32 256#32) S336x256.size (k0_off10_inb c 0)) (fun _ => rfl) = accS 1 1 c := accSl_congr _ _ _ _ _ (off10_send c)
theorem accsl10_keep (c : Dev nD) : (Memref.whole cc0_scratch0 : Memref sig .tc .vmem S1024x1024 .f32).slice (Rect.unit (s := S1024x1024) (k0_off10 c 256#32 0#32) S336x256.size (k0_off10_inb c 1)) (fun _ => rfl) = accK 1 1 c := accSl_congr _ _ _ _ _ (off10_keep c)
theorem accsl12_send (c : Dev nD) : (Memref.whole cc0_scratch0 : Memref sig .tc .vmem S1024x1024 .f32).slice (Rect.unit (s := S1024x1024) (k0_off12 c 0#32 256#32) S344x256.size (k0_off12_inb c 0)) (fun _ => rfl) = accS 2 1 c := accSl_congr _ _ _ _ _ (off12_send c)
theorem accsl12_keep (c : Dev nD) : (Memref.whole cc0_scratch0 : Memref sig .tc .vmem S1024x1024 .f32).slice (Rect.unit (s := S1024x1024) (k0_off12 c 256#32 0#32) S344x256.size (k0_off12_inb c 1)) (fun _ => rfl) = accK 2 1 c := accSl_congr _ _ _ _ _ (off12_keep c)
theorem accsl14_send (c : Dev nD) : (Memref.whole cc0_scratch0 : Memref sig .tc .vmem S1024x1024 .f32).slice (Rect.unit (s := S1024x1024) (k0_off14 c 0#32 128#32) S344x128.size (k0_off14_inb c 0)) (fun _ => rfl) = accS 0 2 c := accSl_congr _ _ _ _ _ (off14_send c)
theorem accsl14_keep (c : Dev nD) : (Memref.whole cc0_scratch0 : Memref sig .tc .vmem S1024x1024 .f32).slice (Rect.unit (s := S1024x1024) (k0_off14 c 128#32 0#32) S344x128.size (k0_off14_inb c 1)) (fun _ => rfl) = accK 0 2 c := accSl_congr _ _ _ _ _ (off14_keep c)
theorem accsl16_send (c : Dev nD) : (Memref.whole cc0_scratch0 : Memref sig .tc .vmem S1024x1024 .f32).slice (Rect.unit (s := S1024x1024) (k0_off16 c 0#32 128#32) S336x128.size (k0_off16_inb c 0)) (fun _ => rfl) = accS 1 2 c := accSl_congr _ _ _ _ _ (off16_send c)
theorem accsl16_keep (c : Dev nD) : (Memref.whole cc0_scratch0 : Memref sig .tc .vmem S1024x1024 .f32).slice (Rect.unit (s := S1024x1024) (k0_off16 c 128#32 0#32) S336x128.size (k0_off16_inb c 1)) (fun _ => rfl) = accK 1 2 c := accSl_congr _ _ _ _ _ (off16_keep c)
theorem accsl18_send (c : Dev nD) : (Memref.whole cc0_scratch0 : Memref sig .tc .vmem S1024x1024 .f32).slice (Rect.unit (s := S1024x1024) (k0_off18 c 0#32 128#32) S344x128.size (k0_off18_inb c 0)) (fun _ => rfl) = accS 2 2 c := accSl_congr _ _ _ _ _ (off18_send c)
theorem accsl18_keep (c : Dev nD) : (Memref.whole cc0_scratch0 : Memref sig .tc .vmem S1024x1024 .f32).slice (Rect.unit (s := S1024x1024) (k0_off18 c 128#32 0#32) S344x128.size (k0_off18_inb c 1)) (fun _ => rfl) = accK 2 2 c := accSl_congr _ _ _ _ _ (off18_keep c)
end Cert.Kernel.Hyp

end
-- ==== Proof.KernelSide.Proto.lean ====
import proofs.«901103_g7700000000001104_dist_treered_v7x_i8_m1024_n1024_f32_1_alg».proof.Proof.KernelSide.Pay

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

abbrev aOf (j : DmaSem sig) : Fin 4 := ⟨min (j.val / 9) 3, by omega⟩
abbrev tOfS (j : DmaSem sig) : Fin 3 := ⟨(j.val / 3) % 3, Nat.mod_lt _ (by decide)⟩
abbrev kOfS (j : DmaSem sig) : Fin 3 := ⟨j.val % 3, Nat.mod_lt _ (by decide)⟩

theorem aOf_dsem (a : Fin 4) (t k : Fin 3) : aOf (dsem a t k) = a := by revert a t k; decide
theorem tOfS_dsem (a : Fin 4) (t k : Fin 3) : tOfS (dsem a t k) = t := by revert a t k; decide
theorem kOfS_dsem (a : Fin 4) (t k : Fin 3) : kOfS (dsem a t k) = k := by revert a t k; decide
theorem dsem_lt (a : Fin 4) (t k : Fin 3) : (dsem a t k).val < 36 := by revert a t k; decide

abbrev lOfS (j : DmaSem sig) : Fin 2 := ⟨((j.val - 36) / 3) % 2, Nat.mod_lt _ (by decide)⟩
theorem lOfS_lsem (l : Fin 2) (t : Fin 3) : lOfS (lsem l t) = l := by revert l t; decide
theorem kOfS_lsem (l : Fin 2) (t : Fin 3) : kOfS (lsem l t) = t := by revert l t; decide
theorem lsem_ge (l : Fin 2) (t : Fin 3) : ¬ (lsem l t).val < 36 := by revert l t; decide

abbrev lCell (c : Dev nD) (l : Fin 2) (t : Fin 3) : GSem nD τ sig := ((c : Thread nD τ), .dma (lsem l t))

def amt (t k : Fin 3) : ℕ := (stg t k).view.dmaCredit
theorem amt_pos (t k : Fin 3) : 0 < amt t k := by
  fin_cases t <;> fin_cases k <;> exact View.dmaCredit_pos _ (by decide)

def Rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma j => if j.val < 36 then amt (tOfS j) (kOfS j) else amt (kOfS j) 0
  payload g _ d := match g.2 with
    | .reg _ => barPay m g.1.1 d
    | .dma j => if j.val < 36 then dPay m (aOf j) (tOfS j) (kOfS j) g.1.1 else lPay m (lOfS j) (kOfS j) g.1.1
  amount_pos g _ _ _ := by
    cases g.2 with
    | reg _ => exact Nat.one_pos
    | dma j => show 0 < (if j.val < 36 then amt (tOfS j) (kOfS j) else amt (kOfS j) 0); split <;> exact amt_pos _ _

section Tables
variable (c : Dev nD) (a : Fin 4) (t k : Fin 3)

theorem duties_bar : (Rd (F := F) m).duties (barCell c) 0 = Finset.univ := by dsimp only [Rd]; exact if_pos ⟨rfl, rfl⟩
theorem duties_d : (Rd (F := F) m).duties (dCell c a t k) 0 = {0} := by
  dsimp only [Rd]; exact if_pos ⟨rfl, rfl⟩
theorem duties_later (g : GSem nD τ sig) : ∀ r, 1 ≤ r → (Rd (F := F) m).duties g r = ∅ :=
  fun r hr => if_neg fun h => by omega
theorem amount_bar (d : Fin 3) : (Rd (F := F) m).amount (barCell c) 0 d = 1 := rfl
theorem amount_d (d : Fin 3) : (Rd (F := F) m).amount (dCell c a t k) 0 d = amt t k :=
  (if_pos (dsem_lt a t k)).trans (by rw [tOfS_dsem, kOfS_dsem])
theorem payload_bar (d : Fin 3) : (Rd (F := F) m).payload (barCell c) 0 d = barPay m c d := rfl
theorem payload_d (d : Fin 3) : (Rd (F := F) m).payload (dCell c a t k) 0 d = dPay m a t k c :=
  (if_pos (dsem_lt a t k)).trans (by rw [aOf_dsem, tOfS_dsem, kOfS_dsem])
theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_d : (Rd (F := F) m).expect (dCell c a t k) 0 = amt t k := by
  unfold Schedule.expect Schedule.amountOf; rw [duties_d, Finset.sum_singleton, amount_d]

theorem duties_l (l : Fin 2) : (Rd (F := F) m).duties (lCell c l t) 0 = {0} := by
  dsimp only [Rd]; exact if_pos ⟨rfl, rfl⟩
theorem amount_l (l : Fin 2) (d : Fin 3) : (Rd (F := F) m).amount (lCell c l t) 0 d = amt t 0 :=
  (if_neg (lsem_ge l t)).trans (by rw [kOfS_lsem])
theorem payload_l (l : Fin 2) (d : Fin 3) : (Rd (F := F) m).payload (lCell c l t) 0 d = lPay m l t c :=
  (if_neg (lsem_ge l t)).trans (by rw [lOfS_lsem, kOfS_lsem])
theorem expect_l (l : Fin 2) : (Rd (F := F) m).expect (lCell c l t) 0 = amt t 0 := by
  unfold Schedule.expect Schedule.amountOf; rw [duties_l, Finset.sum_singleton, amount_l]

end Tables

def owedBar (c : Dev nD) : CellTallies nD τ sig Unit :=
  tallyAt (barCell (nb 0 c)) () 1 + tallyAt (barCell (nb 1 c)) () 1 + tallyAt (barCell (nb 2 c)) () 1

def owedRow (a : Fin 4) (t : Fin 3) (c : Dev nD) : CellTallies nD τ sig Unit :=
  tallyAt (dCell (par t 0 c) a t 0) () (amt t 0) + tallyAt (dCell (par t 1 c) a t 1) () (amt t 1) + tallyAt (dCell (par t 2 c) a t 2) () (amt t 2)
def O₀ (c : Dev nD) : CellTallies nD τ sig Unit :=
  owedBar c + (owedRow 1 0 c + owedRow 1 1 c + owedRow 1 2 c) + (owedRow 3 0 c + owedRow 3 1 c + owedRow 3 2 c)

def L (g : GSem nD τ sig) : Finset Unit := if g.1.2 = .tc then {()} else ∅

def lv (g : GSem nD τ sig) (_ : Unit) : ℕ :=
  match g.2 with
  | .reg _ => 1
  | .dma j => if 9 ≤ j.val ∧ j.val < 18 then 2 + 3 * (j.val % 3) + (j.val / 3) % 3
      else if 27 ≤ j.val ∧ j.val < 36 then 2 + 3 * (5 - j.val % 3) + (j.val / 3) % 3 else 0

theorem L_of_ne (g : GSem nD τ sig) (h : g.1.2 ≠ .tc) : L g = ∅ := if_neg h
theorem L_tc (c : Dev nD) (sm : SemLoc sig) : L ((c : Thread nD τ), sm) = {()} := if_pos rfl

abbrev csem (i : Fin 43) : SemLoc sig := if h : i.val = 0 then .reg barS else .dma ⟨i.val - 1, by have := i.isLt; show _ < 42; omega⟩
abbrev kcell (ci : Dev nD × Fin 43) : GSem nD τ sig := ((ci.1 : Thread nD τ), csem ci.2)
abbrev cidx (a : Fin 4) (t k : Fin 3) : Fin 43 := ⟨1 + (9 * a.val + 3 * t.val + k.val), by have := a.isLt; have := t.isLt; have := k.isLt; omega⟩
abbrev lidx (l : Fin 2) (t : Fin 3) : Fin 43 := ⟨37 + (3 * l.val + t.val), by have := l.isLt; have := t.isLt; omega⟩
theorem kcell_lidx (c : Dev nD) (l : Fin 2) (t : Fin 3) : kcell (c, lidx l t) = lCell c l t := by
  fin_cases l <;> fin_cases t <;> rfl
theorem kcell_cidx (c : Dev nD) (a : Fin 4) (t k : Fin 3) : kcell (c, cidx a t k) = dCell c a t k := by
  revert a t k; intro a t k; fin_cases a <;> fin_cases t <;> fin_cases k <;> rfl

def records (K : Dev nD × Fin 43 → ℕ) : sProp 𝕄 :=
  iprop((bigSep Finset.univ fun ci : Dev nD × Fin 43 => cellInv ER (Rd m) (K ci) (kcell ci))
    ∗ bigSep Finset.univ fun ci : Dev nD × Fin 43 => reached ER (kcell ci) 0)

instance records_persistent (K : Dev nD × Fin 43 → ℕ) : BI.Persistent (records m K) := by unfold records; infer_instance

def payToks (c : Dev nD) : sProp 𝕄 :=
  iprop((bigSep Finset.univ fun b : Fin 3 => dutyTok ER (barCell (nb b c)) 0 b)
    ∗ (bigSep Finset.univ fun tk : Fin 3 × Fin 3 =>
        iprop(dutyTok ER (dCell c 0 tk.1 tk.2) 0 0 ∗ dutyTok ER (dCell (par tk.1 tk.2 c) 1 tk.1 tk.2) 0 0
          ∗ dutyTok ER (dCell c 2 tk.1 tk.2) 0 0 ∗ dutyTok ER (dCell (par tk.1 tk.2 c) 3 tk.1 tk.2) 0 0))
    ∗ bigSep Finset.univ fun lt : Fin 2 × Fin 3 => dutyTok ER (lCell c lt.1 lt.2) 0 0)

def ghost (K : Dev nD × Fin 43 → ℕ) (c : Dev nD) : sProp 𝕄 :=
  iprop(records m K ∗ (bigSep Finset.univ fun i : Fin 43 => atPos ER (kcell (c, i)) 0 ∅ 0) ∗ payToks c)

def creds (c : Dev nD) : sProp 𝕄 :=
  iprop(cred (tallyAt (barCell c) () 3)
    ∗ bigSep Finset.univ fun tk : Fin 3 × Fin 3 =>
        iprop(cred (tallyAt (dCell c 1 tk.1 tk.2) () (amt tk.1 tk.2)) ∗ cred (tallyAt (dCell c 3 tk.1 tk.2) () (amt tk.1 tk.2))))

def start (c : Dev nD) : sProp 𝕄 :=
  iprop((∃ K, ghost m K c) ∗ creds c ∗ levAts L lv
    ∗ (((c : Thread nD τ).loc main_arg0) ↦{fullShare} m ((c : Thread nD τ).loc main_arg0))
    ∗ (((c : Thread nD τ).loc main_v1) ↦{fullShare} m ((c : Thread nD τ).loc main_v1)))

def Φ₀ (c : Dev nD) : sProp 𝕄 := iprop(start m c ∗ Pipeline.scopedRest (Ix := Unit) (Name := ℕ) (U := UU) (Lvl := ℕ) (Val := Elt F) cfg0.spec c)

abbrev osem : Fin 42 → SemLoc sig := fun j => .dma j

def Φ₁ (c : Dev nD) : sProp 𝕄 :=
  iprop((((c : Thread nD τ).loc main_arg0) ↦{fullShare} m ((c : Thread nD τ).loc main_arg0))
    ∗ (((c : Thread nD τ).loc main_v1) ↦{fullShare} (B0 (xs m) c : Vec F S1024x1024 .f32))
    ∗ Pipeline.ownSems0 (Ix := Unit) (Name := ℕ) (U := UU) (Lvl := ℕ) (Val := Elt F) (τ := τ) osem c
    ∗ Pipeline.scopedRest (Ix := Unit) (Name := ℕ) (U := UU) (Lvl := ℕ) (Val := Elt F) cfg0.spec c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

def QC : PUnit × MemSt nD τ sig (Elt F) → Prop := fun r =>
  ∀ c : Dev nD, r.2.mem ((c : Thread nD τ).loc main_v1) = (B0 (xs m) c : Vec F S1024x1024 .f32)
    ∧ r.2.mem ((c : Thread nD τ).loc main_arg0) = m ((c : Thread nD τ).loc main_arg0)

end Cert.Kernel.Hyp

end
-- ==== Proof.KernelSide.Prep.lean ====
import proofs.«901103_g7700000000001104_dist_treered_v7x_i8_m1024_n1024_f32_1_alg».proof.Proof.KernelSide.Proto

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem inv_k (K : Dev nD × Fin 43 → ℕ) (ci : Dev nD × Fin 43) : records m K ⊢ cellInv ER (Rd m) (K ci) (kcell ci) := by
  unfold records
  refine BIBase.Entails.trans ?_ (bigSep_elim (Φ := fun ci : Dev nD × Fin 43 => (cellInv ER (Rd m) (K ci) (kcell ci) : sProp 𝕄)) (Finset.mem_univ ci))
  iintro ⟨HI, -⟩; iexact HI
theorem reached_k (K : Dev nD × Fin 43 → ℕ) (ci : Dev nD × Fin 43) : records m K ⊢ reached ER (kcell ci) 0 := by
  unfold records
  refine BIBase.Entails.trans ?_ (bigSep_elim (Φ := fun ci : Dev nD × Fin 43 => (reached ER (kcell ci) 0 : sProp 𝕄)) (Finset.mem_univ ci))
  iintro ⟨-, HR⟩; iexact HR
theorem inv_bar (K : Dev nD × Fin 43 → ℕ) (d : Dev nD) : records m K ⊢ cellInv ER (Rd m) (K (d, 0)) (barCell d) := inv_k m K (d, 0)
theorem reached_bar (K : Dev nD × Fin 43 → ℕ) (d : Dev nD) : records m K ⊢ reached ER (barCell d) 0 := reached_k m K (d, 0)
theorem inv_d (K : Dev nD × Fin 43 → ℕ) (d : Dev nD) (a : Fin 4) (t k : Fin 3) :
    records m K ⊢ cellInv ER (Rd m) (K (d, cidx a t k)) (dCell d a t k) := by
  rw [← kcell_cidx d a t k]; exact inv_k m K _
theorem reached_d (K : Dev nD × Fin 43 → ℕ) (d : Dev nD) (a : Fin 4) (t k : Fin 3) : records m K ⊢ reached ER (dCell d a t k) 0 := by
  rw [← kcell_cidx d a t k]; exact reached_k m K _
theorem inv_l (K : Dev nD × Fin 43 → ℕ) (d : Dev nD) (l : Fin 2) (t : Fin 3) :
    records m K ⊢ cellInv ER (Rd m) (K (d, lidx l t)) (lCell d l t) := by
  rw [← kcell_lidx d l t]; exact inv_k m K _
theorem reached_l (K : Dev nD × Fin 43 → ℕ) (d : Dev nD) (l : Fin 2) (t : Fin 3) : records m K ⊢ reached ER (lCell d l t) 0 := by
  rw [← kcell_lidx d l t]; exact reached_k m K _

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin33 (Φ : Fin 3 × Fin 3 → sProp 𝕄) :
    bigSep Finset.univ Φ = iprop(Φ (0, 0) ∗ Φ (1, 0) ∗ Φ (2, 0) ∗ Φ (0, 1) ∗ Φ (1, 1) ∗ Φ (2, 1) ∗ Φ (0, 2) ∗ Φ (1, 2) ∗ Φ (2, 2)) :=
  bigSep_univ_eq_bigSepL [(0, 0), (1, 0), (2, 0), (0, 1), (1, 1), (2, 1), (0, 2), (1, 2), (2, 2)] (by decide) (by decide) Φ
theorem bigSep_fin23 (Φ : Fin 2 × Fin 3 → sProp 𝕄) :
    bigSep Finset.univ Φ = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ

-- A printed part of the body at the buffers the launch calls the body with.
abbrev atBufs {β : Sort _}
    (f : (a0 : Memref sig .tc .hbm S1x1024x1024 .f32) → a0.IsWhole → (a1 : Memref sig .tc .hbm S1024x1024 .f32) → a1.IsWhole →
      (a2 : Memref sig .tc .vmem S1024x1024 .f32) → a2.IsWhole → (a3 : Memref sig .tc .vmem S344x512 .f32) → a3.IsWhole →
      (a4 : Memref sig .tc .vmem S344x256 .f32) → a4.IsWhole → (a5 : Memref sig .tc .vmem S344x128 .f32) → a5.IsWhole →
      (a6 : Memref sig .tc .vmem S336x512 .f32) → a6.IsWhole → (a7 : Memref sig .tc .vmem S336x256 .f32) → a7.IsWhole →
      (a8 : Memref sig .tc .vmem S336x128 .f32) → a8.IsWhole → (a9 : Memref sig .tc .vmem S344x512 .f32) → a9.IsWhole →
      (a10 : Memref sig .tc .vmem S344x256 .f32) → a10.IsWhole → (a11 : Memref sig .tc .vmem S344x128 .f32) → a11.IsWhole →
      DmaSems sig S3x3 → DmaSems sig S3x3 → DmaSems sig S3x3 → DmaSems sig S3x3 → DmaSems sig S3 → DmaSems sig S3 → β) : β :=
  f (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15

end Cert.Kernel.Hyp

end
-- ==== Proof.KernelSide.Levels.lean ====
import proofs.«901103_g7700000000001104_dist_treered_v7x_i8_m1024_n1024_f32_1_alg».proof.Proof.KernelSide.Proto

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem mayWait_cut (c : Dev nD) (sm : SemLoc sig) (O : CellTallies nD τ sig Unit) (n : ℕ)
    (hw : lv ((c : Thread nD τ), sm) () ≤ n)
    (hO : ∀ (g : GSem nD τ sig) (u : Unit), 0 < O g u → g.1.2 = .tc ∧ n < lv g u) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hw)
    (fun g u hg => (hO g u hg).2)

theorem pos_tally {g' g : GSem nD τ sig} {n : ℕ} {u : Unit} (h : 0 < (tallyAt g' () n : CellTallies nD τ sig Unit) g u) : g = g' := by
  rw [tallyAt_apply] at h
  by_contra hne
  rw [if_neg (fun h' => hne h'.1)] at h
  exact Nat.lt_irrefl 0 h

theorem lv_bar (d : Dev nD) : lv (barCell d) () = 1 := rfl
theorem lv_dep (d : Dev nD) (t k : Fin 3) : lv (dCell d 0 t k) () = 0 := by fin_cases t <;> fin_cases k <;> rfl
theorem lv_land (d : Dev nD) (t k : Fin 3) : lv (dCell d 1 t k) () = 2 + 3 * k.val + t.val := by fin_cases t <;> fin_cases k <;> rfl
theorem lv_bdep (d : Dev nD) (t k : Fin 3) : lv (dCell d 2 t k) () = 0 := by fin_cases t <;> fin_cases k <;> rfl
theorem lv_bland (d : Dev nD) (t k : Fin 3) : lv (dCell d 3 t k) () = 2 + 3 * (5 - k.val) + t.val := by fin_cases t <;> fin_cases k <;> rfl
theorem lv_local (d : Dev nD) (l : Fin 2) (t : Fin 3) : lv (((d : Thread nD τ), .dma (lsem l t)) : GSem nD τ sig) () = 0 := by fin_cases l <;> fin_cases t <;> rfl

end Cert.Kernel.Hyp

end
-- ==== Proof.KernelSide.Payer.lean ====
import proofs.«901103_g7700000000001104_dist_treered_v7x_i8_m1024_n1024_f32_1_alg».proof.Proof.KernelSide.Proto

noncomputable section

namespace Cert.Kernel.Hyp

open Cert.Kernel Cert.Kernel.Gen
open Idealize.ShloMosaic
open Idealize.ShloMosaic.TcCoe
open Idealize.SL Idealize.SL.RA Idealize.SL.BI
open scoped Idealize.SL.BI
open Idealize.SL.BI.BIBase

variable {F : FTy → Type} [FloatOps F]

local notation "𝕄" => MT nD τ sig Unit (Elt F) ℕ UU ℕ

variable (m : (ℓ : Loc nD τ sig) → Buf (Elt F) ℓ)

theorem par_invol (t k : Fin 3) (c : Dev nD) : par t k (par t k c) = c := nb_nb (t + k) c

theorem kLo_nbr (b : Fin 3) (c : Dev nD) : kLo b 0 (nb b c) = sLo b 0 c := by revert b c; decide

section Owner
variable (t : Fin 3) (c : Dev nD)

theorem payload_own_00 : (Rd (F := F) m).payload (dCell c 0 t 0) 0 0 = ((xS t c).view.loc (c : Thread nD τ) ↦[(xS t c).view.set]{fullShare} xs m c) := by
  rw [payload_d]; rfl
theorem payload_own_10_0 (c : Dev nD) : (Rd (F := F) m).payload (dCell c 1 0 0) 0 0
    = ((stg 0 0).view.loc (c : Thread nD τ) ↦[(stg 0 0).view.set]{fullShare} ((xK 0 c).view.read (Elt F) (xs m (par 0 0 c)))) := by
  rw [payload_d]; rfl
theorem payload_own_11_0 (c : Dev nD) : (Rd (F := F) m).payload (dCell c 1 0 1) 0 0
    = iprop(((stg 0 1).view.loc (c : Thread nD τ) ↦[(stg 0 1).view.set]{fullShare} ((accK 0 1 c).view.read (Elt F) (A1 (xs m) (par 0 1 c))))
        ∗ ((accK 0 1 c).view.loc (par 0 1 c : Thread nD τ) ↦[(accK 0 1 c).view.set]{fullShare} (A1 (xs m) (par 0 1 c)))) := by
  rw [payload_d]; rfl
theorem payload_own_12_0 (c : Dev nD) : (Rd (F := F) m).payload (dCell c 1 0 2) 0 0
    = iprop(((stg 0 2).view.loc (c : Thread nD τ) ↦[(stg 0 2).view.set]{fullShare} ((accK 0 2 c).view.read (Elt F) (A2 (xs m) (par 0 2 c))))
        ∗ ((accK 0 2 c).view.loc (par 0 2 c : Thread nD τ) ↦[(accK 0 2 c).view.set]{fullShare} (A2 (xs m) (par 0 2 c)))) := by
  rw [payload_d]; rfl
theorem payload_own_10_1 (c : Dev nD) : (Rd (F := F) m).payload (dCell c 1 1 0) 0 0
    = ((stg 1 0).view.loc (c : Thread nD τ) ↦[(stg 1 0).view.set]{fullShare} ((xK 1 c).view.read (Elt F) (xs m (par 1 0 c)))) := by
  rw [payload_d]; rfl
theorem payload_own_11_1 (c : Dev nD) : (Rd (F := F) m).payload (dCell c 1 1 1) 0 0
    = iprop(((stg 1 1).view.loc (c : Thread nD τ) ↦[(stg 1 1).view.set]{fullShare} ((accK 1 1 c).view.read (Elt F) (A1 (xs m) (par 1 1 c))))
        ∗ ((accK 1 1 c).view.loc (par 1 1 c : Thread nD τ) ↦[(accK 1 1 c).view.set]{fullShare} (A1 (xs m) (par 1 1 c)))) := by
  rw [payload_d]; rfl
theorem payload_own_12_1 (c : Dev nD) : (Rd (F := F) m).payload (dCell c 1 1 2) 0 0
    = iprop(((stg 1 2).view.loc (c : Thread nD τ) ↦[(stg 1 2).view.set]{fullShare} ((accK 1 2 c).view.read (Elt F) (A2 (xs m) (par 1 2 c))))
        ∗ ((accK 1 2 c).view.loc (par 1 2 c : Thread nD τ) ↦[(accK 1 2 c).view.set]{fullShare} (A2 (xs m) (par 1 2 c)))) := by
  rw [payload_d]; rfl
theorem payload_own_10_2 (c : Dev nD) : (Rd (F := F) m).payload (dCell c 1 2 0) 0 0
    = ((stg 2 0).view.loc (c : Thread nD τ) ↦[(stg 2 0).view.set]{fullShare} ((xK 2 c).view.read (Elt F) (xs m (par 2 0 c)))) := by
  rw [payload_d]; rfl
theorem payload_own_11_2 (c : Dev nD) : (Rd (F := F) m).payload (dCell c 1 2 1) 0 0
    = iprop(((stg 2 1).view.loc (c : Thread nD τ) ↦[(stg 2 1).view.set]{fullShare} ((accK 2 1 c).view.read (Elt F) (A1 (xs m) (par 2 1 c))))
        ∗ ((accK 2 1 c).view.loc (par 2 1 c : Thread nD τ) ↦[(accK 2 1 c).view.set]{fullShare} (A1 (xs m) (par 2 1 c)))) := by
  rw [payload_d]; rfl
theorem payload_own_12_2 (c : Dev nD) : (Rd (F := F) m).payload (dCell c 1 2 2) 0 0
    = iprop(((stg 2 2).view.loc (c : Thread nD τ) ↦[(stg 2 2).view.set]{fullShare} ((accK 2 2 c).view.read (Elt F) (A2 (xs m) (par 2 2 c))))
        ∗ ((accK 2 2 c).view.loc (par 2 2 c : Thread nD τ) ↦[(accK 2 2 c).view.set]{fullShare} (A2 (xs m) (par 2 2 c)))) := by
  rw [payload_d]; rfl
theorem payload_own_20 : (Rd (F := F) m).payload (dCell c 2 t 0) 0 0
    = ((accK t 0 c).view.loc (c : Thread nD τ) ↦[(accK t 0 c).view.set]{fullShare.left} (B1 (xs m) c)) := by
  rw [payload_d]; rfl
theorem payload_own_21 : (Rd (F := F) m).payload (dCell c 2 t 1) 0 0
    = ((accK t 1 c).view.loc (c : Thread nD τ) ↦[(accK t 1 c).view.set]{fullShare} (B2 (xs m) c)) := by
  rw [payload_d]; rfl
theorem payload_own_22 : (Rd (F := F) m).payload (dCell c 2 t 2) 0 0
    = ((accK t 2 c).view.loc (c : Thread nD τ) ↦[(accK t 2 c).view.set]{fullShare} (A3 (xs m) c)) := by
  rw [payload_d]; rfl
theorem payload_own_30 : (Rd (F := F) m).payload (dCell c 3 t 0) 0 0
    = ((outS t c).view.loc (c : Thread nD τ) ↦[(outS t c).view.set]{fullShare}
        ((outS t c).view.write (Elt F) (m ((c : Thread nD τ).loc main_v1)) ((accS t 0 c).view.read (Elt F) (B1 (xs m) (par t 0 c))) Finset.univ)) := by
  rw [payload_d]; rfl
theorem payload_own_31 : (Rd (F := F) m).payload (dCell c 3 t 1) 0 0
    = ((accS t 1 c).view.loc (c : Thread nD τ) ↦[(accS t 1 c).view.set]{fullShare}
        ((accS t 1 c).view.write (Elt F) (A1 (xs m) c) ((accS t 1 c).view.read (Elt F) (B2 (xs m) (par t 1 c))) Finset.univ)) := by
  rw [payload_d]; rfl
theorem payload_own_32 : (Rd (F := F) m).payload (dCell c 3 t 2) 0 0
    = ((accS t 2 c).view.loc (c : Thread nD τ) ↦[(accS t 2 c).view.set]{fullShare}
        ((accS t 2 c).view.write (Elt F) (A2 (xs m) c) ((accS t 2 c).view.read (Elt F) (A3 (xs m) (par t 2 c))) Finset.univ)) := by
  rw [payload_d]; rfl

end Owner

theorem payload_bar_give0 (c : Dev nD) : (Rd (F := F) m).payload (barCell (nb 0 c)) 0 0
    = iprop((∃ f, ((c : Thread nD τ).loc cc0_scratch1) ↦{fullShare} f) ∗ (∃ f, ((c : Thread nD τ).loc cc0_scratch8) ↦{fullShare} f) ∗ (∃ f, ((c : Thread nD τ).loc cc0_scratch6) ↦{fullShare} f)
        ∗ ((outS 0 c).view.loc (c : Thread nD τ) ↦[(outS 0 c).view.set]{fullShare} (m ((c : Thread nD τ).loc main_v1)))) := by
  simp only [payload_bar, barPay, outK, kR, View.set_whole]; rw [nb_nb]
  generalize kLo_inb _ _ (nb _ c) = h; revert h; rw [kLo_nbr]; exact fun _ => rfl

theorem payload_bar_give1 (c : Dev nD) : (Rd (F := F) m).payload (barCell (nb 1 c)) 0 1
    = iprop((∃ f, ((c : Thread nD τ).loc cc0_scratch4) ↦{fullShare} f) ∗ (∃ f, ((c : Thread nD τ).loc cc0_scratch2) ↦{fullShare} f) ∗ (∃ f, ((c : Thread nD τ).loc cc0_scratch9) ↦{fullShare} f)
        ∗ ((outS 1 c).view.loc (c : Thread nD τ) ↦[(outS 1 c).view.set]{fullShare} (m ((c : Thread nD τ).loc main_v1)))) := by
  simp only [payload_bar, barPay, outK, kR, View.set_whole]; rw [nb_nb]
  generalize kLo_inb _ _ (nb _ c) = h; revert h; rw [kLo_nbr]; exact fun _ => rfl

theorem payload_bar_give2 (c : Dev nD) : (Rd (F := F) m).payload (barCell (nb 2 c)) 0 2
    = iprop((∃ f, ((c : Thread nD τ).loc cc0_scratch7) ↦{fullShare} f) ∗ (∃ f, ((c : Thread nD τ).loc cc0_scratch5) ↦{fullShare} f) ∗ (∃ f, ((c : Thread nD τ).loc cc0_scratch3) ↦{fullShare} f)
        ∗ ((outS 2 c).view.loc (c : Thread nD τ) ↦[(outS 2 c).view.set]{fullShare} (m ((c : Thread nD τ).loc main_v1)))) := by
  simp only [payload_bar, barPay, outK, kR, View.set_whole]; rw [nb_nb]
  generalize kLo_inb _ _ (nb _ c) = h; revert h; rw [kLo_nbr]; exact fun _ => rfl

end Cert.Kernel.Hyp

end
-- ==== Proof.KernelSide.Store.lean ====
import proofs.«901103_g7700000000001104_dist_treered_v7x_i8_m1024_n1024_f32_1_alg».proof.Proof.KernelSide.Proto

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

instance dPay_storable (a : Fin 4) (t k : Fin 3) (c : Dev nD) : BI.Storable (upEmb : UEmb _ 𝕄) (dPay (F := F) m a t k c) := by
  unfold dPay; split <;> infer_instance
set_option synthInstance.maxHeartbeats 400000 in
instance barPay_storable (c : Dev nD) (b : Fin 3) : BI.Storable (upEmb : UEmb _ 𝕄) (barPay (F := F) m c b) := by
  unfold barPay; split <;> infer_instance
set_option synthInstance.maxHeartbeats 400000 in
instance lPay_storable (l : Fin 2) (t : Fin 3) (c : Dev nD) : BI.Storable (upEmb : UEmb _ 𝕄) (lPay (F := F) m l t c) := by
  unfold lPay; split <;> infer_instance
instance Rd_payload_storable (g : GSem nD τ sig) (r : ℕ) (d : Fin 3) :
    BI.Storable (upEmb : UEmb _ 𝕄) ((Rd (F := F) m).payload g r d) := by
  show BI.Storable upEmb (match g.2 with
    | .reg _ => barPay m g.1.1 d
    | .dma j => if j.val < 36 then dPay m (aOf j) (tOfS j) (kOfS j) g.1.1 else lPay m (lOfS j) (kOfS j) g.1.1)
  split
  · infer_instance
  · split <;> infer_instance

end Cert.Kernel.Hyp

end
-- ==== Proof.KernelSide.Regions.lean ====
import proofs.«901103_g7700000000001104_dist_treered_v7x_i8_m1024_n1024_f32_1_alg».proof.Proof.KernelSide.Sched

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem geo0 (t : Fin 3) (c : Dev nD) :
    (kLo t 0 c = 512 ∧ sLo t 0 c = 0) ∨ (kLo t 0 c = 0 ∧ sLo t 0 c = 512) := by revert t c; decide

theorem geo1 (t : Fin 3) (c : Dev nD) :
    (kLo t 1 c = kLo t 0 c + 256 ∧ sLo t 1 c = kLo t 0 c) ∨ (kLo t 1 c = kLo t 0 c ∧ sLo t 1 c = kLo t 0 c + 256) := by
  revert t c; decide

theorem geo2 (t : Fin 3) (c : Dev nD) :
    (kLo t 2 c = kLo t 1 c + 128 ∧ sLo t 2 c = kLo t 1 c) ∨ (kLo t 2 c = kLo t 1 c ∧ sLo t 2 c = kLo t 1 c + 128) := by
  revert t c; decide

theorem r0_vals : r0 0 = 0 ∧ r0 1 = 344 ∧ r0 2 = 680 := ⟨rfl, rfl, rfl⟩
theorem rows_vals : rows 0 = 344 ∧ rows 1 = 336 ∧ rows 2 = 344 := ⟨rfl, rfl, rfl⟩
theorem cols_vals : cols 0 = 512 ∧ cols 1 = 256 ∧ cols 2 = 128 := ⟨rfl, rfl, rfl⟩

theorem mem_rect2 (o szv : Fin 2 → ℕ) (h : ∀ a, o a + szv a ≤ S1024x1024.size a) (i : S1024x1024.Idx) :
    i ∈ (Rect.unit (s := S1024x1024) o szv h).set ↔
      (o 0 ≤ (i 0).val ∧ (i 0).val < o 0 + szv 0) ∧ (o 1 ≤ (i 1).val ∧ (i 1).val < o 1 + szv 1) := by
  rw [Rect.mem_set_unit]; exact Fin.forall_fin_two

theorem mem_rect3 (o szv : Fin 3 → ℕ) (h : ∀ a, o a + szv a ≤ S1x1024x1024.size a) (i : S1x1024x1024.Idx) :
    i ∈ (Rect.unit (s := S1x1024x1024) o szv h).set ↔
      (o 0 ≤ (i 0).val ∧ (i 0).val < o 0 + szv 0) ∧ (o 1 ≤ (i 1).val ∧ (i 1).val < o 1 + szv 1)
        ∧ (o 2 ≤ (i 2).val ∧ (i 2).val < o 2 + szv 2) := by
  rw [Rect.mem_set_unit]
  refine ⟨fun H => ⟨H 0, H 1, H 2⟩, fun H a => ?_⟩
  match a with
  | ⟨0, _⟩ => exact H.1
  | ⟨1, _⟩ => exact H.2.1
  | ⟨2, _⟩ => exact H.2.2

theorem accK_set (t k : Fin 3) (c : Dev nD) :
    (accK t k c).view.set = (kR t k c).set :=
  View.set_slice_whole _ _
theorem accS_set (t k : Fin 3) (c : Dev nD) :
    (accS t k c).view.set = (sR t k c).set :=
  View.set_slice_whole _ _
theorem outK_set (t : Fin 3) (c : Dev nD) :
    (outK t c).view.set = (kR t 0 c).set :=
  View.set_slice_whole _ _
theorem outS_set (t : Fin 3) (c : Dev nD) :
    (outS t c).view.set = (sR t 0 c).set :=
  View.set_slice_whole _ _
abbrev xkR (t : Fin 3) (c : Dev nD) := Rect.unit (s := S1x1024x1024) ![0, r0 t, kLo t 0 c] ![1, rows t, 512] (xk_inb t c)
abbrev xsR (t : Fin 3) (c : Dev nD) := Rect.unit (s := S1x1024x1024) ![0, r0 t, sLo t 0 c] ![1, rows t, 512] (xs_inb t c)

theorem xK_set (t : Fin 3) (c : Dev nD) :
    (xK t c).view.set = (xkR t c).set :=
  (View.set_reshape _ _).trans (View.set_slice_whole _ _)
theorem xS_set (t : Fin 3) (c : Dev nD) :
    (xS t c).view.set = (xsR t c).set :=
  (View.set_reshape _ _).trans (View.set_slice_whole _ _)

local notation "pt(" M ", " d ", " q ", " f ")" =>
  pointsTo (View.loc (d : Thread nD τ) (Memref.view M)) (View.set (Memref.view M)) q f

theorem pt_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

theorem biEntails_of_eq {P Q : sProp 𝕄} (e : P = Q) : P ⊣⊢ Q := ⟨Entails.of_eq e, Entails.of_eq e.symm⟩

theorem six_cover (c : Dev nD) :
    (Finset.univ : Finset S1024x1024.Idx) =
      (kR 0 0 c).set ∪
      ((sR 0 0 c).set ∪
      ((kR 1 0 c).set ∪
      ((sR 1 0 c).set ∪
      ((kR 2 0 c).set ∪
       (sR 2 0 c).set)))) := by
  ext i
  have h0 : (i 0).val < 1024 := (i 0).isLt
  have h1 : (i 1).val < 1024 := (i 1).isLt
  have g0 := geo0 0 c; have g1 := geo0 1 c; have g2 := geo0 2 c
  obtain ⟨e0, e1, e2⟩ := r0_vals
  obtain ⟨w0, w1, w2⟩ := rows_vals
  obtain ⟨v0, -, -⟩ := cols_vals
  simp only [Finset.mem_univ, Finset.mem_union, mem_rect2, true_iff, Matrix.cons_val_zero, Matrix.cons_val_one,
    Matrix.head_cons, e0, e1, e2, w0, w1, w2, v0]
  omega

theorem six_disj (c : Dev nD) :
    Disjoint (kR 0 0 c).set
      ((sR 0 0 c).set ∪
      ((kR 1 0 c).set ∪
      ((sR 1 0 c).set ∪
      ((kR 2 0 c).set ∪
       (sR 2 0 c).set)))) ∧
    Disjoint (sR 0 0 c).set
      ((kR 1 0 c).set ∪
      ((sR 1 0 c).set ∪
      ((kR 2 0 c).set ∪
       (sR 2 0 c).set))) ∧
    Disjoint (kR 1 0 c).set
      ((sR 1 0 c).set ∪
      ((kR 2 0 c).set ∪
       (sR 2 0 c).set)) ∧
    Disjoint (sR 1 0 c).set
      ((kR 2 0 c).set ∪
       (sR 2 0 c).set) ∧
    Disjoint (kR 2 0 c).set
       (sR 2 0 c).set := by
  have g0 := geo0 0 c; have g1 := geo0 1 c; have g2 := geo0 2 c
  obtain ⟨e0, e1, e2⟩ := r0_vals
  obtain ⟨w0, w1, w2⟩ := rows_vals
  obtain ⟨v0, -, -⟩ := cols_vals
  refine ⟨?_, ?_, ?_, ?_, ?_⟩ <;>
  · rw [Finset.disjoint_left]
    intro i hi hj
    simp only [Finset.mem_union, mem_rect2, Matrix.cons_val_zero, Matrix.cons_val_one,
      Matrix.head_cons, e0, e1, e2, w0, w1, w2, v0] at hi hj
    omega

theorem out_split (c : Dev nD) (f : Buf (Elt F) ((c : Thread nD τ).loc main_v1)) :
    (((c : Thread nD τ).loc main_v1) ↦{fullShare} f : sProp 𝕄) ⊣⊢
      iprop(pt(outK 0 c, c, fullShare, f) ∗ pt(outS 0 c, c, fullShare, f) ∗ pt(outK 1 c, c, fullShare, f)
        ∗ pt(outS 1 c, c, fullShare, f) ∗ pt(outK 2 c, c, fullShare, f) ∗ pt(outS 2 c, c, fullShare, f)) := by
  obtain ⟨d1, d2, d3, d4, d5⟩ := six_disj c
  rw [outK_set, outK_set, outK_set, outS_set, outS_set, outS_set]
  refine biEntails_of_eq ?_
  refine (congrArg (fun S => pointsTo _ S fullShare f) (six_cover c)).trans ?_
  rw [pt_union_eq d1, pt_union_eq d2, pt_union_eq d3, pt_union_eq d4, pt_union_eq d5]

theorem acc_split (c : Dev nD) (f : Buf (Elt F) ((c : Thread nD τ).loc cc0_scratch0)) :
    (((c : Thread nD τ).loc cc0_scratch0) ↦{fullShare} f : sProp 𝕄) ⊣⊢
      iprop(pt(accK 0 0 c, c, fullShare, f) ∗ pt(accS 0 0 c, c, fullShare, f) ∗ pt(accK 1 0 c, c, fullShare, f)
        ∗ pt(accS 1 0 c, c, fullShare, f) ∗ pt(accK 2 0 c, c, fullShare, f) ∗ pt(accS 2 0 c, c, fullShare, f)) := by
  obtain ⟨d1, d2, d3, d4, d5⟩ := six_disj c
  rw [accK_set, accK_set, accK_set, accS_set, accS_set, accS_set]
  refine biEntails_of_eq ?_
  refine (congrArg (fun S => pointsTo _ S fullShare f) (six_cover c)).trans ?_
  rw [pt_union_eq d1, pt_union_eq d2, pt_union_eq d3, pt_union_eq d4, pt_union_eq d5]

theorem six_cover3 (c : Dev nD) :
    (Finset.univ : Finset S1x1024x1024.Idx) =
      (xkR 0 c).set ∪
      ((xsR 0 c).set ∪
      ((xkR 1 c).set ∪
      ((xsR 1 c).set ∪
      ((xkR 2 c).set ∪
       (xsR 2 c).set)))) := by
  ext i
  have hz : (i 0).val < 1 := (i 0).isLt
  have h0 : (i 1).val < 1024 := (i 1).isLt
  have h1 : (i 2).val < 1024 := (i 2).isLt
  have g0 := geo0 0 c; have g1 := geo0 1 c; have g2 := geo0 2 c
  obtain ⟨e0, e1, e2⟩ := r0_vals
  obtain ⟨w0, w1, w2⟩ := rows_vals
  simp only [Finset.mem_univ, Finset.mem_union, mem_rect3, true_iff, Matrix.cons_val_zero, Matrix.cons_val_one,
    Matrix.cons_val_two, Matrix.head_cons, Matrix.tail_cons, e0, e1, e2, w0, w1, w2]
  omega

theorem six_disj3 (c : Dev nD) :
    Disjoint (xkR 0 c).set
      ((xsR 0 c).set ∪
      ((xkR 1 c).set ∪
      ((xsR 1 c).set ∪
      ((xkR 2 c).set ∪
       (xsR 2 c).set)))) ∧
    Disjoint (xsR 0 c).set
      ((xkR 1 c).set ∪
      ((xsR 1 c).set ∪
      ((xkR 2 c).set ∪
       (xsR 2 c).set))) ∧
    Disjoint (xkR 1 c).set
      ((xsR 1 c).set ∪
      ((xkR 2 c).set ∪
       (xsR 2 c).set)) ∧
    Disjoint (xsR 1 c).set
      ((xkR 2 c).set ∪
       (xsR 2 c).set) ∧
    Disjoint (xkR 2 c).set
       (xsR 2 c).set := by
  have g0 := geo0 0 c; have g1 := geo0 1 c; have g2 := geo0 2 c
  obtain ⟨e0, e1, e2⟩ := r0_vals
  obtain ⟨w0, w1, w2⟩ := rows_vals
  refine ⟨?_, ?_, ?_, ?_, ?_⟩ <;>
  · rw [Finset.disjoint_left]
    intro i hi hj
    simp only [Finset.mem_union, mem_rect3, Matrix.cons_val_zero, Matrix.cons_val_one, Matrix.cons_val_two,
      Matrix.head_cons, Matrix.tail_cons, e0, e1, e2, w0, w1, w2] at hi hj
    omega

theorem x_split (c : Dev nD) (f : Buf (Elt F) ((c : Thread nD τ).loc main_arg0)) :
    (((c : Thread nD τ).loc main_arg0) ↦{fullShare} f : sProp 𝕄) ⊣⊢
      iprop(pt(xK 0 c, c, fullShare, f) ∗ pt(xS 0 c, c, fullShare, f) ∗ pt(xK 1 c, c, fullShare, f)
        ∗ pt(xS 1 c, c, fullShare, f) ∗ pt(xK 2 c, c, fullShare, f) ∗ pt(xS 2 c, c, fullShare, f)) := by
  obtain ⟨d1, d2, d3, d4, d5⟩ := six_disj3 c
  rw [xK_set, xK_set, xK_set, xS_set, xS_set, xS_set]
  refine biEntails_of_eq ?_
  refine (congrArg (fun S => pointsTo _ S fullShare f) (six_cover3 c)).trans ?_
  rw [pt_union_eq d1, pt_union_eq d2, pt_union_eq d3, pt_union_eq d4, pt_union_eq d5]

theorem half1 (t : Fin 3) (c : Dev nD) :
    (kR t 0 c).set = (sR t 1 c).set ∪ (kR t 1 c).set ∧ Disjoint (sR t 1 c).set (kR t 1 c).set := by
  have g := geo1 t c
  obtain ⟨v0, v1, -⟩ := cols_vals
  refine ⟨?_, Finset.disjoint_left.2 fun i hi hj => ?_⟩
  · ext i
    simp only [Finset.mem_union, mem_rect2, Matrix.cons_val_zero, Matrix.cons_val_one, Matrix.head_cons, v0, v1]
    omega
  · simp only [mem_rect2, Matrix.cons_val_zero, Matrix.cons_val_one, Matrix.head_cons, v1] at hi hj
    omega
theorem half2 (t : Fin 3) (c : Dev nD) :
    (kR t 1 c).set = (sR t 2 c).set ∪ (kR t 2 c).set ∧ Disjoint (sR t 2 c).set (kR t 2 c).set := by
  have g := geo2 t c
  obtain ⟨-, v1, v2⟩ := cols_vals
  refine ⟨?_, Finset.disjoint_left.2 fun i hi hj => ?_⟩
  · ext i
    simp only [Finset.mem_union, mem_rect2, Matrix.cons_val_zero, Matrix.cons_val_one, Matrix.head_cons, v1, v2]
    omega
  · simp only [mem_rect2, Matrix.cons_val_zero, Matrix.cons_val_one, Matrix.head_cons, v2] at hi hj
    omega

theorem accK_split01 (t : Fin 3) (c : Dev nD) (q : PosShare TreeShare) (f : Buf (Elt F) ((c : Thread nD τ).loc cc0_scratch0)) :
    (pt(accK t 0 c, c, q, f) : sProp 𝕄) ⊣⊢ iprop(pt(accS t 1 c, c, q, f) ∗ pt(accK t 1 c, c, q, f)) := by
  rw [accK_set, accK_set, accS_set]
  refine biEntails_of_eq ?_
  refine (congrArg (fun S => pointsTo _ S q f) (half1 t c).1).trans ?_
  rw [pt_union_eq (half1 t c).2]

theorem accK_split12 (t : Fin 3) (c : Dev nD) (q : PosShare TreeShare) (f : Buf (Elt F) ((c : Thread nD τ).loc cc0_scratch0)) :
    (pt(accK t 1 c, c, q, f) : sProp 𝕄) ⊣⊢ iprop(pt(accS t 2 c, c, q, f) ∗ pt(accK t 2 c, c, q, f)) := by
  rw [accK_set, accK_set, accS_set]
  refine biEntails_of_eq ?_
  refine (congrArg (fun S => pointsTo _ S q f) (half2 t c).1).trans ?_
  rw [pt_union_eq (half2 t c).2]

theorem pt_halve {sp : Space} {s : Shape} {e : EltTy} (M : Memref sig .tc sp s e) (d : Dev nD) (q : PosShare TreeShare)
    (f : Buf (Elt F) (M.view.loc (d : Thread nD τ))) :
    (pt(M, d, q, f) : sProp 𝕄) ⊣⊢ iprop(pt(M, d, q.left, f) ∗ pt(M, d, q.right, f)) :=
  pointsTo_share (PosShare.mem_left_op_right q)

theorem pt_congr {sp : Space} {s : Shape} {e : EltTy} (M : Memref sig .tc sp s e) (d : Dev nD) (q : PosShare TreeShare)
    (f g : Buf (Elt F) (M.view.loc (d : Thread nD τ))) (h : ∀ i ∈ M.view.set, f i = g i) :
    (pt(M, d, q, f) : sProp 𝕄) = pt(M, d, q, g) :=
  pointsTo_congr h

end Cert.Kernel.Hyp

end
-- ==== Proof.KernelSide.Restate.lean ====
import proofs.«901103_g7700000000001104_dist_treered_v7x_i8_m1024_n1024_f32_1_alg».proof.Proof.KernelSide.Sched
import Idealize.ShloMosaic.Lib.Pipeline.Value

noncomputable section

namespace Cert.Kernel.Hyp

open Cert.Kernel
open Idealize.ShloMosaic

variable {F : FTy → Type} [FloatOps F]
variable (xs : Dev nD → Vec F S1x1024x1024 .f32)

theorem fin3_cases (k : Fin 3) : k = 0 ∨ k = 1 ∨ k = 2 := by revert k; decide

theorem mem_kR (t k : Fin 3) (c : Dev nD) (i : S1024x1024.Idx) :
    i ∈ (kR t k c).set ↔
      (r0 t ≤ (i 0).val ∧ (i 0).val < r0 t + rows t) ∧ (kLo t k c ≤ (i 1).val ∧ (i 1).val < kLo t k c + cols k) := by
  rw [Rect.mem_set_unit]; exact Fin.forall_fin_two

theorem mem_sR (t k : Fin 3) (c : Dev nD) (i : S1024x1024.Idx) :
    i ∈ (sR t k c).set ↔
      (r0 t ≤ (i 0).val ∧ (i 0).val < r0 t + rows t) ∧ (sLo t k c ≤ (i 1).val ∧ (i 1).val < sLo t k c + cols k) := by
  rw [Rect.mem_set_unit]; exact Fin.forall_fin_two

theorem bandOf_of_rows (t : Fin 3) (a : ℕ) (h1 : r0 t ≤ a) (h2 : a < r0 t + rows t) : bandOf a = t := by
  unfold bandOf
  rcases fin3_cases t with rfl | rfl | rfl
  · have h2' : a < 0 + 344 := h2
    rw [if_pos (by omega)]
  · have h1' : 344 ≤ a := h1
    have h2' : a < 344 + 336 := h2
    rw [if_neg (by omega), if_pos (by omega)]
  · have h1' : 680 ≤ a := h1
    rw [if_neg (by omega), if_neg (by omega)]

theorem colBit_kLo (t k k' : Fin 3) (hk : k' ≤ k) (c : Dev nD) (j : ℕ) (h1 : kLo t k c ≤ j) (h2 : j < kLo t k c + cols k) :
    colBit k' j = posBit (t + k') c := by
  rcases fin3_cases k with rfl | rfl | rfl <;> rcases fin3_cases k' with rfl | rfl | rfl <;>
    first
    | exact absurd hk (by decide)
    | (simp only [kLo, cols] at h1 h2
       generalize posBit (t + 0) c = b0 at *
       generalize posBit (t + 1) c = b1 at *
       generalize posBit (t + 2) c = b2 at *
       cases b0 <;> cases b1 <;> cases b2 <;> simp [colBit] at h1 h2 ⊢ <;> omega)

theorem colBit_sLo_lt (t k k' : Fin 3) (hk : k' < k) (c : Dev nD) (j : ℕ) (h1 : sLo t k c ≤ j) (h2 : j < sLo t k c + cols k) :
    colBit k' j = posBit (t + k') c := by
  rcases fin3_cases k with rfl | rfl | rfl <;> rcases fin3_cases k' with rfl | rfl | rfl <;>
    first
    | exact absurd hk (by decide)
    | (simp only [sLo, cols] at h1 h2
       generalize posBit (t + 0) c = b0 at *
       generalize posBit (t + 1) c = b1 at *
       generalize posBit (t + 2) c = b2 at *
       cases b0 <;> cases b1 <;> cases b2 <;> simp [colBit] at h1 h2 ⊢ <;> omega)

theorem colBit_sLo_self (t k : Fin 3) (c : Dev nD) (j : ℕ) (h1 : sLo t k c ≤ j) (h2 : j < sLo t k c + cols k) :
    colBit k j = !posBit (t + k) c := by
  rcases fin3_cases k with rfl | rfl | rfl <;>
    (simp only [sLo, cols] at h1 h2
     generalize posBit (t + 0) c = b0 at *
     generalize posBit (t + 1) c = b1 at *
     generalize posBit (t + 2) c = b2 at *
     cases b0 <;> cases b1 <;> cases b2 <;> simp [colBit] at h1 h2 ⊢ <;> omega)

theorem accK_facts (t k : Fin 3) (c : Dev nD) (i : S1024x1024.Idx) (h : i ∈ (accK t k c).view.set) :
    tOf i = t ∧ ∀ k' ≤ k, keeps k' c i := by
  rw [View.set_slice_whole, mem_kR] at h
  have ht : tOf i = t := bandOf_of_rows t _ h.1.1 h.1.2
  refine ⟨ht, fun k' hk => ?_⟩
  unfold keeps
  rw [ht]
  exact colBit_kLo t k k' hk c _ h.2.1 h.2.2

theorem accS_facts (t k : Fin 3) (c : Dev nD) (i : S1024x1024.Idx) (h : i ∈ (accS t k c).view.set) :
    tOf i = t ∧ (∀ k' < k, keeps k' c i) ∧ ¬ keeps k c i := by
  rw [View.set_slice_whole, mem_sR] at h
  have ht : tOf i = t := bandOf_of_rows t _ h.1.1 h.1.2
  refine ⟨ht, fun k' hk => ?_, ?_⟩
  · unfold keeps
    rw [ht]
    exact colBit_sLo_lt t k k' hk c _ h.2.1 h.2.2
  · unfold keeps
    rw [ht, colBit_sLo_self t k c _ h.2.1 h.2.2]
    cases posBit (t + k) c <;> decide

theorem outK_facts (t : Fin 3) (c : Dev nD) (i : S1024x1024.Idx) (h : i ∈ (outK t c).view.set) :
    tOf i = t ∧ keeps 0 c i := by
  rw [View.set_slice_whole] at h
  exact (accK_facts t 0 c i (by rwa [View.set_slice_whole])).imp_right (· 0 le_rfl)

theorem outS_facts (t : Fin 3) (c : Dev nD) (i : S1024x1024.Idx) (h : i ∈ (outS t c).view.set) :
    tOf i = t ∧ ¬ keeps 0 c i := by
  rw [View.set_slice_whole] at h
  exact (accS_facts t 0 c i (by rwa [View.set_slice_whole])).imp_right (·.2)

theorem B2_on_accK2 (t : Fin 3) (c : Dev nD) (i : S1024x1024.Idx) (h : i ∈ (accK t 2 c).view.set) :
    A3 xs c i = B2 xs c i := by
  exact (if_pos ((accK_facts t 2 c i h).2 2 le_rfl)).symm

theorem B2_on_accS2 (t : Fin 3) (c : Dev nD) (i : S1024x1024.Idx) (h : i ∈ (accS t 2 c).view.set) :
    A3 xs (par t 2 c) i = B2 xs c i := by
  obtain ⟨ht, _, hn⟩ := accS_facts t 2 c i h
  exact ((if_neg hn).trans (by rw [ht])).symm

theorem B1_on_accK1 (t : Fin 3) (c : Dev nD) (i : S1024x1024.Idx) (h : i ∈ (accK t 1 c).view.set) :
    B2 xs c i = B1 xs c i := by
  exact (if_pos ((accK_facts t 1 c i h).2 1 le_rfl)).symm

theorem B1_on_accS1 (t : Fin 3) (c : Dev nD) (i : S1024x1024.Idx) (h : i ∈ (accS t 1 c).view.set) :
    B2 xs (par t 1 c) i = B1 xs c i := by
  obtain ⟨ht, _, hn⟩ := accS_facts t 1 c i h
  exact ((if_neg hn).trans (by rw [ht])).symm

theorem B0_on_outK (t : Fin 3) (c : Dev nD) (i : S1024x1024.Idx) (h : i ∈ (outK t c).view.set) :
    B1 xs c i = B0 xs c i := by
  exact (if_pos (outK_facts t c i h).2).symm

theorem B0_on_outS (t : Fin 3) (c : Dev nD) (i : S1024x1024.Idx) (h : i ∈ (outS t c).view.set) :
    B1 xs (par t 0 c) i = B0 xs c i := by
  obtain ⟨ht, hn⟩ := outS_facts t c i h
  exact ((if_neg hn).trans (by rw [ht])).symm

theorem accK_read (t k : Fin 3) (c : Dev nD) (g : Vec F S1024x1024 .f32) (j : (Sh t k).Idx) :
    (accK t k c).view.read (Elt F) g j = g ((accK t k c).view.emb j) := rfl
theorem write_read_of_mem {sig : RefSig} {κ : Kind} {sp : Space} {s : Shape} {e : EltTy} (v : View sig κ sp s e)
    (f g : v.ty.Contents (Elt F)) {i : v.ty.Idx} (h : i ∈ v.set) :
    v.write (Elt F) f (v.read (Elt F) g) Finset.univ i = g i := by
  rw [View.write_read_eq_piecewise, Finset.piecewise_eq_of_mem _ _ _ (by rw [View.setOn_univ]; exact h)]

theorem accS_write_read (t k : Fin 3) (c : Dev nD) (f g : Vec F S1024x1024 .f32) (i : S1024x1024.Idx)
    (h : i ∈ (accS t k c).view.set) :
    (accS t k c).view.write (Elt F) f ((accS t k c).view.read (Elt F) g) Finset.univ i = g i :=
  write_read_of_mem (accS t k c).view f g h
theorem outK_write_accK_read (t : Fin 3) (c : Dev nD) (f g : Vec F S1024x1024 .f32) (i : S1024x1024.Idx)
    (h : i ∈ (outK t c).view.set) :
    (outK t c).view.write (Elt F) f ((accK t 0 c).view.read (Elt F) g) Finset.univ i = g i := by
  obtain ⟨y, rfl⟩ := View.exists_emb_of_mem_set _ h
  rw [View.write_emb_of_mem _ _ (Finset.mem_univ y)]
  rfl
theorem outS_write_accS_read (t : Fin 3) (c : Dev nD) (f g : Vec F S1024x1024 .f32) (i : S1024x1024.Idx)
    (h : i ∈ (outS t c).view.set) :
    (outS t c).view.write (Elt F) f ((accS t 0 c).view.read (Elt F) g) Finset.univ i = g i := by
  obtain ⟨y, rfl⟩ := View.exists_emb_of_mem_set _ h
  rw [View.write_emb_of_mem _ _ (Finset.mem_univ y)]
  rfl

theorem xK_read (t : Fin 3) (c : Dev nD) (X : Vec F S1x1024x1024 .f32) (j : (Sh t 0).Idx) :
    (xK t c).view.read (Elt F) X j
      = X (ValueIdx.ix3 (0 : Fin 1) ((accK t 0 c).view.emb j 0) ((accK t 0 c).view.emb j 1)) := by
  have hc : (⟨3, ![1, rows t, 512]⟩ : Shape).ShapeCasts (Sh t 0) := (sq3 t).numel_eq
  refine (shapeCast_dropUnit_apply ![rows t, 512]
    (xM.view.readAt (Elt F) (Rect.unit (s := S1x1024x1024) ![0, r0 t, kLo t 0 c] ![1, rows t, 512] (xk_inb t c)).toLoadRect X) hc j).trans ?_
  show X _ = X _
  congr 1
  funext a
  match a with
  | ⟨0, _⟩ => exact Fin.ext rfl
  | ⟨1, _⟩ => exact Fin.ext rfl
  | ⟨2, _⟩ => exact Fin.ext rfl

theorem xK_read_A0 (t : Fin 3) (c c' : Dev nD) (j : (Sh t 0).Idx) :
    (xK t c).view.read (Elt F) (xs c') j = A0 xs c' ((accK t 0 c).view.emb j) := xK_read t c (xs c') j
theorem accK_write_xK_read (t : Fin 3) (c c' : Dev nD) (f : Vec F S1024x1024 .f32) (i : S1024x1024.Idx)
    (h : i ∈ (accK t 0 c).view.set) :
    (accK t 0 c).view.write (Elt F) f ((xK t c).view.read (Elt F) (xs c')) Finset.univ i = A0 xs c' i := by
  obtain ⟨y, rfl⟩ := View.exists_emb_of_mem_set _ h
  rw [View.write_emb_of_mem _ _ (Finset.mem_univ y)]
  exact xK_read_A0 xs t c c' y

theorem acc_step (A : Dev nD → Vec F S1024x1024 .f32) (t k : Fin 3) (c : Dev nD) (f : Vec F S1024x1024 .f32)
    (S : Vec F (Sh t k) .f32) (hS : ∀ j, S j = A (par t k c) ((accK t k c).view.emb j))
    (i : S1024x1024.Idx) (h : i ∈ (accK t k c).view.set) :
    (accM.access (kR t k c)).write (Elt F) f
        (addf (accM.view.readAt (Elt F) (kR t k c).toLoadRect (A c)) S)
        Finset.univ i
      = stepAdd A k c i := by
  obtain ⟨ht, _⟩ := accK_facts t k c i h
  obtain ⟨y, rfl⟩ := View.exists_emb_of_mem_set (accK t k c).view h
  rw [View.write_emb_of_mem _ _ (Finset.mem_univ y)]
  show FloatOps.addf (A c ((accK t k c).view.emb y)) (S y) = FloatOps.addf (A c _) (A (par (tOf _) k c) _)
  rw [hS y, ht]

end Cert.Kernel.Hyp

end
-- ==== Proof.KernelSide.Mid.lean ====
import proofs.«901103_g7700000000001104_dist_treered_v7x_i8_m1024_n1024_f32_1_alg».proof.Proof.KernelSide.Store
import proofs.«901103_g7700000000001104_dist_treered_v7x_i8_m1024_n1024_f32_1_alg».proof.Proof.KernelSide.Regions
import proofs.«901103_g7700000000001104_dist_treered_v7x_i8_m1024_n1024_f32_1_alg».proof.Proof.KernelSide.Restate

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

abbrev oweB (t k : Fin 3) (c : Dev nD) : CellTallies nD τ sig Unit := tallyAt (dCell (par t k c) 3 t k) () (amt t k)

def bandFix (t : Fin 3) (c : Dev nD) (fa : Buf (Elt F) ((c : Thread nD τ).loc cc0_scratch0)) : sProp 𝕄 :=
  iprop((pt(xK t c, c, fullShare, xs m c) : sProp 𝕄) ∗ (pt(xS t c, c, fullShare, xs m c) : sProp 𝕄)
    ∗ (pt(outK t c, c, fullShare, m ((c : Thread nD τ).loc main_v1)) : sProp 𝕄)
    ∗ (pt(accS t 0 c, c, fullShare, fa) : sProp 𝕄))

abbrev outRem (t : Fin 3) (c : Dev nD) : sProp 𝕄 :=
  (pt(outK t c, par t 0 c, fullShare, m ((par t 0 c : Thread nD τ).loc main_v1)) : sProp 𝕄)

def lcFresh (l : Fin 2) (t : Fin 3) (c : Dev nD) : sProp 𝕄 :=
  iprop(atPos ER (lCell c l t) 0 ∅ 0 ∗ dutyTok ER (lCell c l t) 0 0)

def lcSent (l : Fin 2) (t : Fin 3) (c : Dev nD) : sProp 𝕄 :=
  iprop(atPos ER (lCell c l t) 0 ∅ 0 ∗ cred (tallyAt (lCell c l t) () (amt t 0)))

def lcDone (l : Fin 2) (t : Fin 3) (c : Dev nD) : sProp 𝕄 := atPos ER (lCell c l t) 1 ∅ 0

abbrev stgAny (t k : Fin 3) (c : Dev nD) : sProp 𝕄 :=
  iprop(∃ f, (pt(stg t k, c, fullShare, f) : sProp 𝕄))

def rsDone (t : Fin 3) (c : Dev nD) : sProp 𝕄 :=
  iprop(atPos ER (dCell c 0 t 0) 1 ∅ 0 ∗ atPos ER (dCell c 1 t 0) 1 ∅ 0 ∗ atPos ER (dCell c 0 t 1) 1 ∅ 0 ∗ atPos ER (dCell c 1 t 1) 1 ∅ 0
    ∗ atPos ER (dCell c 0 t 2) 1 ∅ 0 ∗ atPos ER (dCell c 1 t 2) 1 ∅ 0)

def agFresh (t k : Fin 3) (c : Dev nD) : sProp 𝕄 :=
  iprop(atPos ER (dCell c 2 t k) 0 ∅ 0 ∗ atPos ER (dCell c 3 t k) 0 ∅ 0
    ∗ dutyTok ER (dCell c 2 t k) 0 0 ∗ dutyTok ER (dCell (par t k c) 3 t k) 0 0
    ∗ cred (tallyAt (dCell c 3 t k) () (amt t k)))

def agSent (t k : Fin 3) (c : Dev nD) : sProp 𝕄 :=
  iprop(atPos ER (dCell c 2 t k) 0 ∅ 0 ∗ atPos ER (dCell c 3 t k) 0 ∅ 0
    ∗ cred (tallyAt (dCell c 2 t k) () (amt t k)) ∗ cred (tallyAt (dCell c 3 t k) () (amt t k)))

def agDone (t k : Fin 3) (c : Dev nD) : sProp 𝕄 :=
  iprop(atPos ER (dCell c 2 t k) 1 ∅ 0 ∗ atPos ER (dCell c 3 t k) 1 ∅ 0)

def O14 (c : Dev nD) : CellTallies nD τ sig Unit :=
  (oweB 0 0 c + oweB 0 1 c) + (oweB 1 0 c + oweB 1 1 c + oweB 1 2 c) + (oweB 2 0 c + oweB 2 1 c + oweB 2 2 c)

def band0_14 (c : Dev nD) (fa : Buf (Elt F) ((c : Thread nD τ).loc cc0_scratch0)) : sProp 𝕄 :=
  iprop(rsDone (F := F) 0 c ∗ agSent (F := F) 0 2 c ∗ agFresh (F := F) 0 1 c ∗ agFresh (F := F) 0 0 c
    ∗ bandFix m 0 c fa ∗ outRem m 0 c
    ∗ (pt(accK 0 1 c, par 0 1 c, fullShare, A1 (xs m) (par 0 1 c)) : sProp 𝕄)
    ∗ stgAny (F := F) 0 0 c ∗ stgAny (F := F) 0 1 c ∗ stgAny (F := F) 0 2 c ∗ lcDone (F := F) 0 0 c ∗ lcFresh (F := F) 1 0 c)

def band1_14 (c : Dev nD) (fa : Buf (Elt F) ((c : Thread nD τ).loc cc0_scratch0)) (v413 : FVec F S336x128 .f32) : sProp 𝕄 :=
  iprop(rsDone (F := F) 1 c ∗ agFresh (F := F) 1 2 c ∗ agFresh (F := F) 1 1 c ∗ agFresh (F := F) 1 0 c
    ∗ bandFix m 1 c fa ∗ outRem m 1 c
    ∗ (pt(accK 1 1 c, par 1 1 c, fullShare, A1 (xs m) (par 1 1 c)) : sProp 𝕄)
    ∗ (pt(accK 1 2 c, c, fullShare, A2 (xs m) c) : sProp 𝕄)
    ∗ (pt(accK 1 2 c, par 1 2 c, fullShare, A2 (xs m) (par 1 2 c)) : sProp 𝕄)
    ∗ ⌜∀ j : (Sh 1 2).Idx, v413 j = A3 (xs m) c ((accK 1 2 c).view.emb j)⌝
    ∗ stgAny (F := F) 1 0 c ∗ stgAny (F := F) 1 1 c ∗ stgAny (F := F) 1 2 c ∗ lcDone (F := F) 0 1 c ∗ lcFresh (F := F) 1 1 c)

def band2_14 (c : Dev nD) (fa : Buf (Elt F) ((c : Thread nD τ).loc cc0_scratch0)) : sProp 𝕄 :=
  iprop(atPos ER (dCell c 0 2 0) 1 ∅ 0 ∗ atPos ER (dCell c 1 2 0) 1 ∅ 0 ∗ atPos ER (dCell c 0 2 1) 1 ∅ 0 ∗ atPos ER (dCell c 1 2 1) 1 ∅ 0
    ∗ atPos ER (dCell c 0 2 2) 0 ∅ 0 ∗ atPos ER (dCell c 1 2 2) 0 ∅ 0
    ∗ cred (tallyAt (dCell c 0 2 2) () (amt 2 2)) ∗ cred (tallyAt (dCell c 1 2 2) () (amt 2 2))
    ∗ agFresh (F := F) 2 2 c ∗ agFresh (F := F) 2 1 c ∗ agFresh (F := F) 2 0 c
    ∗ bandFix m 2 c fa ∗ outRem m 2 c
    ∗ (pt(accK 2 1 c, par 2 1 c, fullShare, A1 (xs m) (par 2 1 c)) : sProp 𝕄)
    ∗ (pt(accK 2 2 c, c, fullShare, A2 (xs m) c) : sProp 𝕄)
    ∗ stgAny (F := F) 2 0 c ∗ stgAny (F := F) 2 1 c ∗ lcDone (F := F) 0 2 c ∗ lcFresh (F := F) 1 2 c)

def Mid14 (c : Dev nD) (K : Dev nD × Fin 43 → ℕ) (fa : Buf (Elt F) ((c : Thread nD τ).loc cc0_scratch0))
    (v413 : FVec F S336x128 .f32) : sProp 𝕄 :=
  iprop(records m K ∗ levAts L lv ∗ atPos ER (barCell c) 1 ∅ 0 ∗ (∃ W, owes (c : Thread nD τ) (O14 c) W)
    ∗ band0_14 m c fa ∗ band1_14 m c fa v413 ∗ band2_14 m c fa)

def bandFixX (t : Fin 3) (c : Dev nD) (fa : Buf (Elt F) ((c : Thread nD τ).loc cc0_scratch0)) : sProp 𝕄 :=
  iprop((pt(xK t c, c, fullShare, xs m c) : sProp 𝕄) ∗ (pt(xS t c, c, fullShare, xs m c) : sProp 𝕄)
    ∗ (pt(accS t 0 c, c, fullShare, fa) : sProp 𝕄))

def stgs (t : Fin 3) (c : Dev nD) : sProp 𝕄 :=
  iprop(stgAny (F := F) t 0 c ∗ stgAny (F := F) t 1 c ∗ stgAny (F := F) t 2 c ∗ lcDone (F := F) 0 t c)

def bandP2 (t : Fin 3) (c : Dev nD) (fa : Buf (Elt F) ((c : Thread nD τ).loc cc0_scratch0)) : sProp 𝕄 :=
  iprop(rsDone (F := F) t c ∗ agFresh (F := F) t 2 c ∗ agFresh (F := F) t 1 c ∗ agFresh (F := F) t 0 c
    ∗ bandFix m t c fa ∗ outRem m t c
    ∗ (pt(accK t 1 c, par t 1 c, fullShare, A1 (xs m) (par t 1 c)) : sProp 𝕄)
    ∗ (pt(accK t 2 c, c, fullShare, A3 (xs m) c) : sProp 𝕄)
    ∗ (pt(accK t 2 c, par t 2 c, fullShare, A2 (xs m) (par t 2 c)) : sProp 𝕄)
    ∗ stgs (F := F) t c ∗ lcFresh (F := F) 1 t c)

def bandP2s (t : Fin 3) (c : Dev nD) (fa : Buf (Elt F) ((c : Thread nD τ).loc cc0_scratch0)) : sProp 𝕄 :=
  iprop(rsDone (F := F) t c ∗ agSent (F := F) t 2 c ∗ agFresh (F := F) t 1 c ∗ agFresh (F := F) t 0 c
    ∗ bandFix m t c fa ∗ outRem m t c
    ∗ (pt(accK t 1 c, par t 1 c, fullShare, A1 (xs m) (par t 1 c)) : sProp 𝕄)
    ∗ stgs (F := F) t c ∗ lcFresh (F := F) 1 t c)

def bandP2h (t : Fin 3) (c : Dev nD) (fa : Buf (Elt F) ((c : Thread nD τ).loc cc0_scratch0)) : sProp 𝕄 :=
  iprop(rsDone (F := F) t c ∗ atPos ER (dCell c 2 t 2) 1 ∅ 0 ∗ atPos ER (dCell c 3 t 2) 0 ∅ 0 ∗ cred (tallyAt (dCell c 3 t 2) () (amt t 2))
    ∗ agFresh (F := F) t 1 c ∗ agFresh (F := F) t 0 c
    ∗ bandFix m t c fa ∗ outRem m t c
    ∗ (pt(accK t 1 c, par t 1 c, fullShare, A1 (xs m) (par t 1 c)) : sProp 𝕄)
    ∗ (pt(accK t 2 c, c, fullShare, A3 (xs m) c) : sProp 𝕄)
    ∗ stgs (F := F) t c ∗ lcFresh (F := F) 1 t c)

def bandP1 (t : Fin 3) (c : Dev nD) (fa : Buf (Elt F) ((c : Thread nD τ).loc cc0_scratch0)) : sProp 𝕄 :=
  iprop(rsDone (F := F) t c ∗ agDone (F := F) t 2 c ∗ agFresh (F := F) t 1 c ∗ agFresh (F := F) t 0 c
    ∗ bandFix m t c fa ∗ outRem m t c
    ∗ (pt(accK t 1 c, par t 1 c, fullShare, A1 (xs m) (par t 1 c)) : sProp 𝕄)
    ∗ (pt(accK t 1 c, c, fullShare, B2 (xs m) c) : sProp 𝕄)
    ∗ stgs (F := F) t c ∗ lcFresh (F := F) 1 t c)

def bandP1s (t : Fin 3) (c : Dev nD) (fa : Buf (Elt F) ((c : Thread nD τ).loc cc0_scratch0)) : sProp 𝕄 :=
  iprop(rsDone (F := F) t c ∗ agDone (F := F) t 2 c ∗ agSent (F := F) t 1 c ∗ agFresh (F := F) t 0 c
    ∗ bandFix m t c fa ∗ outRem m t c
    ∗ stgs (F := F) t c ∗ lcFresh (F := F) 1 t c)

def bandP0 (t : Fin 3) (c : Dev nD) (fa : Buf (Elt F) ((c : Thread nD τ).loc cc0_scratch0)) : sProp 𝕄 :=
  iprop(rsDone (F := F) t c ∗ agDone (F := F) t 2 c ∗ agDone (F := F) t 1 c ∗ agFresh (F := F) t 0 c
    ∗ bandFix m t c fa ∗ outRem m t c
    ∗ (pt(accK t 0 c, c, fullShare, B1 (xs m) c) : sProp 𝕄)
    ∗ stgs (F := F) t c ∗ lcFresh (F := F) 1 t c)

def bandP0s (t : Fin 3) (c : Dev nD) (fa : Buf (Elt F) ((c : Thread nD τ).loc cc0_scratch0)) : sProp 𝕄 :=
  iprop(rsDone (F := F) t c ∗ agDone (F := F) t 2 c ∗ agDone (F := F) t 1 c ∗ agSent (F := F) t 0 c
    ∗ bandFixX m t c fa ∗ stgs (F := F) t c ∗ lcSent (F := F) 1 t c)

def bandP0h (t : Fin 3) (c : Dev nD) (fa : Buf (Elt F) ((c : Thread nD τ).loc cc0_scratch0)) : sProp 𝕄 :=
  iprop(rsDone (F := F) t c ∗ agDone (F := F) t 2 c ∗ agDone (F := F) t 1 c
    ∗ atPos ER (dCell c 2 t 0) 1 ∅ 0 ∗ atPos ER (dCell c 3 t 0) 0 ∅ 0 ∗ cred (tallyAt (dCell c 3 t 0) () (amt t 0))
    ∗ bandFixX m t c fa
    ∗ (pt(accK t 0 c, c, fullShare.left, B1 (xs m) c) : sProp 𝕄)
    ∗ stgs (F := F) t c ∗ lcSent (F := F) 1 t c)

def bandPF (t : Fin 3) (c : Dev nD) (fa : Buf (Elt F) ((c : Thread nD τ).loc cc0_scratch0)) : sProp 𝕄 :=
  iprop(rsDone (F := F) t c ∗ agDone (F := F) t 2 c ∗ agDone (F := F) t 1 c ∗ agDone (F := F) t 0 c
    ∗ bandFixX m t c fa
    ∗ (pt(accK t 0 c, c, fullShare.left, B1 (xs m) c) : sProp 𝕄)
    ∗ (pt(outS t c, c, fullShare, B0 (xs m) c) : sProp 𝕄)
    ∗ stgs (F := F) t c ∗ lcSent (F := F) 1 t c)

def MidG (c : Dev nD) (K : Dev nD × Fin 43 → ℕ) (O : CellTallies nD τ sig Unit) (b0 b1 b2 : sProp 𝕄) : sProp 𝕄 :=
  iprop(records m K ∗ levAts L lv ∗ atPos ER (barCell c) 1 ∅ 0 ∗ (∃ W, owes (c : Thread nD τ) O W) ∗ b0 ∗ b1 ∗ b2)

def O15 (c : Dev nD) : CellTallies nD τ sig Unit := (oweB 0 0 c + oweB 0 1 c) + (oweB 1 0 c + oweB 1 1 c) + (oweB 2 0 c + oweB 2 1 c + oweB 2 2 c)
def O16 (c : Dev nD) : CellTallies nD τ sig Unit := (oweB 0 0 c + oweB 0 1 c) + (oweB 1 0 c + oweB 1 1 c) + (oweB 2 0 c + oweB 2 1 c)
def O17 (c : Dev nD) : CellTallies nD τ sig Unit := oweB 0 0 c + oweB 1 0 c + (oweB 2 0 c + oweB 2 1 c)
def O18 (c : Dev nD) : CellTallies nD τ sig Unit := oweB 0 0 c + oweB 1 0 c + oweB 2 0 c
def O19 (c : Dev nD) : CellTallies nD τ sig Unit := oweB 1 0 c + oweB 2 0 c
def O20 (c : Dev nD) : CellTallies nD τ sig Unit := oweB 2 0 c

variable (K : Dev nD × Fin 43 → ℕ) (c : Dev nD) (fa : Buf (Elt F) ((c : Thread nD τ).loc cc0_scratch0))

def Mid15 : sProp 𝕄 := MidG m c K (O15 c) (band0_14 m c fa) (bandP2s m 1 c fa) (bandP2 m 2 c fa)
def Mid16 : sProp 𝕄 := MidG m c K (O16 c) (bandP1 m 0 c fa) (bandP2s m 1 c fa) (bandP2s m 2 c fa)
def Mid17 : sProp 𝕄 := MidG m c K (O17 c) (bandP1s m 0 c fa) (bandP1s m 1 c fa) (bandP2h m 2 c fa)
def Mid18 : sProp 𝕄 := MidG m c K (O18 c) (bandP0 m 0 c fa) (bandP1s m 1 c fa) (bandP1s m 2 c fa)
def Mid19 : sProp 𝕄 := MidG m c K (O19 c) (bandP0s m 0 c fa) (bandP0 m 1 c fa) (bandP1s m 2 c fa)
def Mid20 : sProp 𝕄 := MidG m c K (O20 c) (bandP0s m 0 c fa) (bandP0s m 1 c fa) (bandP0 m 2 c fa)
def Mid21 : sProp 𝕄 := MidG m c K 0 (bandPF m 0 c fa) (bandP0h m 1 c fa) (bandP0s m 2 c fa)

end Cert.Kernel.Hyp

end
-- ==== Proof.KernelSide.Mid5.lean ====
import proofs.«901103_g7700000000001104_dist_treered_v7x_i8_m1024_n1024_f32_1_alg».proof.Proof.KernelSide.Mid

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

abbrev oweA (t k : Fin 3) (c : Dev nD) : CellTallies nD τ sig Unit := tallyAt (dCell (par t k c) 1 t k) () (amt t k)

def rsFresh (t k : Fin 3) (c : Dev nD) : sProp 𝕄 :=
  iprop(atPos ER (dCell c 0 t k) 0 ∅ 0 ∗ atPos ER (dCell c 1 t k) 0 ∅ 0
    ∗ dutyTok ER (dCell c 0 t k) 0 0 ∗ dutyTok ER (dCell (par t k c) 1 t k) 0 0
    ∗ cred (tallyAt (dCell c 1 t k) () (amt t k)))

def rsSent (t k : Fin 3) (c : Dev nD) : sProp 𝕄 :=
  iprop(atPos ER (dCell c 0 t k) 0 ∅ 0 ∗ atPos ER (dCell c 1 t k) 0 ∅ 0
    ∗ cred (tallyAt (dCell c 0 t k) () (amt t k)) ∗ cred (tallyAt (dCell c 1 t k) () (amt t k)))

abbrev stgPar (t k : Fin 3) (c : Dev nD) : sProp 𝕄 :=
  iprop(∃ f, (pt(stg t k, par t k c, fullShare, f) : sProp 𝕄))

def O5 (c : Dev nD) : CellTallies nD τ sig Unit :=
  (owedRow 1 0 c + owedRow 1 1 c + owedRow 1 2 c) + (owedRow 3 0 c + owedRow 3 1 c + owedRow 3 2 c)

def band5 (t : Fin 3) (c : Dev nD) (fa : Buf (Elt F) ((c : Thread nD τ).loc cc0_scratch0)) : sProp 𝕄 :=
  iprop(rsFresh (F := F) t 0 c ∗ rsFresh (F := F) t 1 c ∗ rsFresh (F := F) t 2 c
    ∗ agFresh (F := F) t 2 c ∗ agFresh (F := F) t 1 c ∗ agFresh (F := F) t 0 c
    ∗ bandFix m t c fa ∗ outRem m t c
    ∗ (pt(accK t 0 c, c, fullShare, fa) : sProp 𝕄)
    ∗ stgPar (F := F) t 0 c ∗ stgPar (F := F) t 1 c ∗ stgPar (F := F) t 2 c ∗ lcFresh (F := F) 0 t c ∗ lcFresh (F := F) 1 t c)

def Mid5 (c : Dev nD) (K : Dev nD × Fin 43 → ℕ) (fa : Buf (Elt F) ((c : Thread nD τ).loc cc0_scratch0)) : sProp 𝕄 :=
  iprop(records m K ∗ levAts L lv ∗ atPos ER (barCell c) 1 ∅ 0 ∗ (∃ W, owes (c : Thread nD τ) (O5 c) W)
    ∗ band5 m 0 c fa ∗ band5 m 1 c fa ∗ band5 m 2 c fa)

end Cert.Kernel.Hyp

end
-- ==== Proof.KernelSide.Body.lean ====
import proofs.«901103_g7700000000001104_dist_treered_v7x_i8_m1024_n1024_f32_1_alg».proof.Proof.KernelSide.Prep
import proofs.«901103_g7700000000001104_dist_treered_v7x_i8_m1024_n1024_f32_1_alg».proof.Proof.KernelSide.Levels
import proofs.«901103_g7700000000001104_dist_treered_v7x_i8_m1024_n1024_f32_1_alg».proof.Proof.KernelSide.Payer
import proofs.«901103_g7700000000001104_dist_treered_v7x_i8_m1024_n1024_f32_1_alg».proof.Proof.KernelSide.Mid5

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds Idealize.ShloMosaic.Tactic
open Idealize.ShloMosaic.Pipeline (Dat)

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

private theorem duties_bar3 (c : Dev nD) : (Rd (F := F) m).duties (barCell c) 0 = {0, 1, 2} := by rw [duties_bar]; decide
-- The neighbour across dimension b pays with its three staging buffers of that dimension and its half of result band b.
private theorem barPay_0 (c : Dev nD) : barPay (F := F) m c 0 = iprop(stgPar (F := F) 0 0 c ∗ stgPar (F := F) 2 1 c ∗ stgPar (F := F) 1 2 c ∗ outRem m 0 c) := rfl
private theorem barPay_1 (c : Dev nD) : barPay (F := F) m c 1 = iprop(stgPar (F := F) 1 0 c ∗ stgPar (F := F) 0 1 c ∗ stgPar (F := F) 2 2 c ∗ outRem m 1 c) := rfl
private theorem barPay_2 (c : Dev nD) : barPay (F := F) m c 2 = iprop(stgPar (F := F) 2 0 c ∗ stgPar (F := F) 1 1 c ∗ stgPar (F := F) 0 2 c ∗ outRem m 2 c) := rfl

-- The concrete conjunction a finite iterated one unfolds to, read as the logic's own.
private theorem sep3 {A B C : sProp 𝕄} : BI.sep A (BI.sep B C) ⊢ iprop(A ∗ B ∗ C) := .rfl

-- Everything owed after the handshake is a landing, and every landing cell lies above the barrier's level.
private theorem O5_pos (c : Dev nD) (g : GSem nD τ sig) (u : Unit) (h : 0 < O5 c g u) : g.1.2 = .tc ∧ 1 < lv g u := by
  have r : ∀ {a : Fin 4} {t : Fin 3}, (∀ d k, 1 < lv (dCell d a t k) ()) → 0 < owedRow a t c g u → g.1.2 = .tc ∧ 1 < lv g u := fun hl h => by
    unfold owedRow at h
    rcases Pipeline.add_pos_cases h with h | h
    · rcases Pipeline.add_pos_cases h with h | h <;> (obtain rfl := pos_tally h; exact ⟨rfl, hl _ _⟩)
    · obtain rfl := pos_tally h; exact ⟨rfl, hl _ _⟩
  have l1 : ∀ {t : Fin 3} d k, 1 < lv (dCell d 1 t k) () := fun d k => by rw [lv_land]; omega
  have l3 : ∀ {t : Fin 3} d k, 1 < lv (dCell d 3 t k) () := fun d k => by rw [lv_bland]; omega
  unfold O5 at h
  rcases Pipeline.add_pos_cases h with h | h <;> rcases Pipeline.add_pos_cases h with h | h
  · rcases Pipeline.add_pos_cases h with h | h <;> exact r l1 h
  · exact r l1 h
  · rcases Pipeline.add_pos_cases h with h | h <;> exact r l3 h
  · exact r l3 h

attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq
attribute [local sl_rounds] duties_bar3 amount_bar payload_bar expect_bar barPay_0 barPay_1 barPay_2
attribute [local sl_rounds high] payload_bar_give0 payload_bar_give1 payload_bar_give2

theorem part3_run (c : Dev nD) (P : sProp 𝕄) (v7 v54 : BitVec 32)
    {Q : (Σ' (v65 : BitVec 32) (v68 : BitVec 32) (v74 : BitVec 32) (v79 : BitVec 32) (v82 : BitVec 32) (v88 : BitVec 32) (v90 : BitVec 32), BitVec 1) → sProp 𝕄} :
    iprop(P ∗ (∀ v65 : BitVec 32, ∀ v68 : BitVec 32, ∀ v74 : BitVec 32, ∀ v79 : BitVec 32, ∀ v82 : BitVec 32, ∀ v88 : BitVec 32, ∀ v90 : BitVec 32, ∀ v91 : BitVec 1, P -∗ Q ⟨v65, v68, v74, v79, v82, v88, v90, v91⟩))
      ⊢ wp Idealize.ShloMosaic.frame (wpE (defs₀ (F := F)) 𝒱₀ (c : Thread nD τ) none) Set.univ (atBufs (k0_part3 (F := F)) v7 v54) Q := by
  unfold atBufs
  rw [k0_part3_eq_skeleton]
  unfold k0_part3_skel
  iintro ⟨HP, Hk⟩
  sl_exec
  sl_step
  iapply Hk $$ HP

theorem part4_run (c : Dev nD) (P : sProp 𝕄) (v7 v82 v90 : BitVec 32) (v91 : BitVec 1)
    {Q : (Σ' (v93 : BitVec 32) (v96 : BitVec 32) (v102 : BitVec 32) (v107 : BitVec 32) (v110 : BitVec 32) (v116 : BitVec 32) (v121 : BitVec 32) (v122 : BitVec 1), BitVec 32) → sProp 𝕄} :
    iprop(P ∗ (∀ v93 : BitVec 32, ∀ v96 : BitVec 32, ∀ v102 : BitVec 32, ∀ v107 : BitVec 32, ∀ v110 : BitVec 32, ∀ v116 : BitVec 32, ∀ v121 : BitVec 32, ∀ v122 : BitVec 1, ∀ c512 : BitVec 32, P -∗ Q ⟨v93, v96, v102, v107, v110, v116, v121, v122, c512⟩))
      ⊢ wp Idealize.ShloMosaic.frame (wpE (defs₀ (F := F)) 𝒱₀ (c : Thread nD τ) none) Set.univ (atBufs (k0_part4 (F := F)) v7 v82 v90 v91) Q := by
  unfold atBufs
  rw [k0_part4_eq_skeleton]
  unfold k0_part4_skel
  iintro ⟨HP, Hk⟩
  sl_exec
  sl_step
  iapply Hk $$ HP

theorem part5_run (c : Dev nD) (P : sProp 𝕄) (v7 : BitVec 32) (v122 : BitVec 1) (c512 : BitVec 32)
    {Q : (Σ' (v124 : BitVec 32) (v130 : BitVec 32) (v135 : BitVec 32) (v138 : BitVec 32) (v144 : BitVec 32) (v149 : BitVec 32) (v152 : BitVec 32) (v153 : BitVec 32), BitVec 32) → sProp 𝕄} :
    iprop(P ∗ (∀ v124 : BitVec 32, ∀ v130 : BitVec 32, ∀ v135 : BitVec 32, ∀ v138 : BitVec 32, ∀ v144 : BitVec 32, ∀ v149 : BitVec 32, ∀ v152 : BitVec 32, ∀ v153 : BitVec 32, ∀ v154 : BitVec 32, P -∗ Q ⟨v124, v130, v135, v138, v144, v149, v152, v153, v154⟩))
      ⊢ wp Idealize.ShloMosaic.frame (wpE (defs₀ (F := F)) 𝒱₀ (c : Thread nD τ) none) Set.univ (atBufs (k0_part5 (F := F)) v7 v122 c512) Q := by
  unfold atBufs
  rw [k0_part5_eq_skeleton]
  unfold k0_part5_skel
  iintro ⟨HP, Hk⟩
  sl_exec
  sl_step
  iapply Hk $$ HP

-- What c's signal across dimension b carries to that neighbour, with the token that lets c send it.
def give (b : Fin 3) (c : Dev nD) {ℓ₁ ℓ₂ ℓ₃ : Loc nD τ sig} (f₁ : Buf (Elt F) ℓ₁) (f₂ : Buf (Elt F) ℓ₂) (f₃ : Buf (Elt F) ℓ₃) : sProp 𝕄 :=
  iprop(dutyTok ER (barCell (nb b c)) 0 b ∗ (ℓ₁ ↦{fullShare} f₁ : sProp 𝕄) ∗ (ℓ₂ ↦{fullShare} f₂ : sProp 𝕄) ∗ (ℓ₃ ↦{fullShare} f₃ : sProp 𝕄)
    ∗ (pt(outS b c, c, fullShare, m ((c : Thread nD τ).loc main_v1)) : sProp 𝕄))

def rest5 (t : Fin 3) (c : Dev nD) (fa : Buf (Elt F) ((c : Thread nD τ).loc cc0_scratch0)) : sProp 𝕄 :=
  iprop(rsFresh t 0 c ∗ rsFresh t 1 c ∗ rsFresh t 2 c ∗ agFresh t 2 c ∗ agFresh t 1 c ∗ agFresh t 0 c
    ∗ bandFix m t c fa ∗ (pt(accK t 0 c, c, fullShare, fa) : sProp 𝕄)
    ∗ lcFresh 0 t c ∗ lcFresh 1 t c)

def S1 (c : Dev nD) (K : Dev nD × Fin 43 → ℕ) (fa : Buf (Elt F) ((c : Thread nD τ).loc cc0_scratch0)) (W : Waits sig Unit) (f1 : Buf (Elt F) ((c : Thread nD τ).loc cc0_scratch1)) (f2 : Buf (Elt F) ((c : Thread nD τ).loc cc0_scratch2)) (f3 : Buf (Elt F) ((c : Thread nD τ).loc cc0_scratch3)) (f4 : Buf (Elt F) ((c : Thread nD τ).loc cc0_scratch4)) (f5 : Buf (Elt F) ((c : Thread nD τ).loc cc0_scratch5)) (f6 : Buf (Elt F) ((c : Thread nD τ).loc cc0_scratch6)) (f7 : Buf (Elt F) ((c : Thread nD τ).loc cc0_scratch7)) (f8 : Buf (Elt F) ((c : Thread nD τ).loc cc0_scratch8)) (f9 : Buf (Elt F) ((c : Thread nD τ).loc cc0_scratch9)) : sProp 𝕄 :=
  iprop(records m K ∗ levAts L lv ∗ owes (c : Thread nD τ) (O5 c + tallyAt (barCell (nb 2 c)) () 1 + tallyAt (barCell (nb 1 c)) () 1 + tallyAt (barCell (nb 0 c)) () 1) W
    ∗ give m 0 c f1 f8 f6 ∗ give m 1 c f4 f2 f9 ∗ give m 2 c f7 f5 f3
    ∗ atPos ER (barCell c) 0 ∅ 0 ∗ cred (tallyAt (barCell c) () 3)
    ∗ rest5 m 0 c fa ∗ rest5 m 1 c fa ∗ rest5 m 2 c fa)

def S2 (c : Dev nD) (K : Dev nD × Fin 43 → ℕ) (fa : Buf (Elt F) ((c : Thread nD τ).loc cc0_scratch0)) (W : Waits sig Unit) (f7 : Buf (Elt F) ((c : Thread nD τ).loc cc0_scratch7)) (f5 : Buf (Elt F) ((c : Thread nD τ).loc cc0_scratch5)) (f3 : Buf (Elt F) ((c : Thread nD τ).loc cc0_scratch3)) : sProp 𝕄 :=
  iprop(records m K ∗ levAts L lv ∗ owes (c : Thread nD τ) (O5 c + tallyAt (barCell (nb 2 c)) () 1) W
    ∗ give m 2 c f7 f5 f3
    ∗ atPos ER (barCell c) 0 ∅ 0 ∗ cred (tallyAt (barCell c) () 3)
    ∗ rest5 m 0 c fa ∗ rest5 m 1 c fa ∗ rest5 m 2 c fa)

private theorem O₀_eq (c : Dev nD) : O₀ c = O5 c + tallyAt (barCell (nb 2 c)) () 1 + tallyAt (barCell (nb 1 c)) () 1 + tallyAt (barCell (nb 0 c)) () 1 := by
  unfold O₀ O5 owedBar; ac_rfl

-- A device's forty-three cells, listed: its barrier cell, its thirty-six transfer cells, its six local copies' cells.
private theorem cells43 (c : Dev nD) (Φ : GSem nD τ sig → sProp 𝕄) : (bigSep Finset.univ fun i : Fin 43 => Φ (kcell (c, i)))
    = iprop(Φ (barCell c) ∗ Φ (dCell c 0 0 0) ∗ Φ (dCell c 0 0 1) ∗ Φ (dCell c 0 0 2) ∗ Φ (dCell c 0 1 0) ∗ Φ (dCell c 0 1 1) ∗ Φ (dCell c 0 1 2) ∗ Φ (dCell c 0 2 0) ∗ Φ (dCell c 0 2 1) ∗ Φ (dCell c 0 2 2) ∗ Φ (dCell c 1 0 0) ∗ Φ (dCell c 1 0 1) ∗ Φ (dCell c 1 0 2) ∗ Φ (dCell c 1 1 0) ∗ Φ (dCell c 1 1 1) ∗ Φ (dCell c 1 1 2) ∗ Φ (dCell c 1 2 0) ∗ Φ (dCell c 1 2 1) ∗ Φ (dCell c 1 2 2) ∗ Φ (dCell c 2 0 0) ∗ Φ (dCell c 2 0 1) ∗ Φ (dCell c 2 0 2) ∗ Φ (dCell c 2 1 0) ∗ Φ (dCell c 2 1 1) ∗ Φ (dCell c 2 1 2) ∗ Φ (dCell c 2 2 0) ∗ Φ (dCell c 2 2 1) ∗ Φ (dCell c 2 2 2) ∗ Φ (dCell c 3 0 0) ∗ Φ (dCell c 3 0 1) ∗ Φ (dCell c 3 0 2) ∗ Φ (dCell c 3 1 0) ∗ Φ (dCell c 3 1 1) ∗ Φ (dCell c 3 1 2) ∗ Φ (dCell c 3 2 0) ∗ Φ (dCell c 3 2 1) ∗ Φ (dCell c 3 2 2) ∗ Φ (lCell c 0 0) ∗ Φ (lCell c 0 1) ∗ Φ (lCell c 0 2) ∗ Φ (lCell c 1 0) ∗ Φ (lCell c 1 1) ∗ Φ (lCell c 1 2)) := by
  rw [bigSep_univ_eq_bigSepL (List.finRange 43) (by decide) (by decide)]
  rfl

set_option maxHeartbeats 2000000 in
theorem preamble (c : Dev nD) :
    iprop(Φ₀ m c ∗ (dats (F := F) m 0 c).owesAt () t0_0.castSucc)
      ⊢ iprop(∃ K : Dev nD × Fin 43 → ℕ, ∃ fa : Buf (Elt F) ((c : Thread nD τ).loc cc0_scratch0), ∃ W : Waits sig Unit, ∃ f1 : Buf (Elt F) ((c : Thread nD τ).loc cc0_scratch1), ∃ f2 : Buf (Elt F) ((c : Thread nD τ).loc cc0_scratch2), ∃ f3 : Buf (Elt F) ((c : Thread nD τ).loc cc0_scratch3), ∃ f4 : Buf (Elt F) ((c : Thread nD τ).loc cc0_scratch4), ∃ f5 : Buf (Elt F) ((c : Thread nD τ).loc cc0_scratch5), ∃ f6 : Buf (Elt F) ((c : Thread nD τ).loc cc0_scratch6), ∃ f7 : Buf (Elt F) ((c : Thread nD τ).loc cc0_scratch7), ∃ f8 : Buf (Elt F) ((c : Thread nD τ).loc cc0_scratch8), ∃ f9 : Buf (Elt F) ((c : Thread nD τ).loc cc0_scratch9), S1 m c K fa W f1 f2 f3 f4 f5 f6 f7 f8 f9) := by
  unfold Φ₀ start ghost payToks creds Dat.owesAt Pipeline.owesWithin S1 give rest5 rsFresh agFresh bandFix lcFresh
  rw [scopedRest0_eq, show (dats (F := F) m 0 c).owed t0_0.castSucc = O₀ c from rfl, O₀_eq, cells43 c fun g => atPos ER g 0 ∅ 0, bigSep_fin3, bigSep_fin33, bigSep_fin33, bigSep_fin23]
  dsimp only
  iintro ⟨⟨⟨⟨%K, #HR, ⟨Hpb, Hp000, Hp001, Hp002, Hp010, Hp011, Hp012, Hp020, Hp021, Hp022, Hp100, Hp101, Hp102, Hp110, Hp111, Hp112, Hp120, Hp121, Hp122, Hp200, Hp201, Hp202, Hp210, Hp211, Hp212, Hp220, Hp221, Hp222, Hp300, Hp301, Hp302, Hp310, Hp311, Hp312, Hp320, Hp321, Hp322, HpL00, HpL01, HpL02, HpL10, HpL11, HpL12⟩, ⟨Tb0, Tb1, Tb2⟩, ⟨⟨T000, T100, T200, T300⟩, ⟨T010, T110, T210, T310⟩, ⟨T020, T120, T220, T320⟩, ⟨T001, T101, T201, T301⟩, ⟨T011, T111, T211, T311⟩, ⟨T021, T121, T221, T321⟩, ⟨T002, T102, T202, T302⟩, ⟨T012, T112, T212, T312⟩, ⟨T022, T122, T222, T322⟩⟩, ⟨TL00, TL01, TL02, TL10, TL11, TL12⟩⟩, ⟨Cb, ⟨C100, C300⟩, ⟨C110, C310⟩, ⟨C120, C320⟩, ⟨C101, C301⟩, ⟨C111, C311⟩, ⟨C121, C321⟩, ⟨C102, C302⟩, ⟨C112, C312⟩, ⟨C122, C322⟩⟩, #Hlev, Hx, Hout⟩, ⟨%fa, Hacc⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩⟩, ⟨%W, %hW, HO⟩⟩
  ihave Hx6 := (x_split c _).1 $$ Hx
  icases Hx6 with ⟨HxK0, HxS0, HxK1, HxS1, HxK2, HxS2⟩
  ihave Ho6 := (out_split c _).1 $$ Hout
  icases Ho6 with ⟨HoK0, HoS0, HoK1, HoS1, HoK2, HoS2⟩
  ihave Ha6 := (acc_split c _).1 $$ Hacc
  icases Ha6 with ⟨HaK0, HaS0, HaK1, HaS1, HaK2, HaS2⟩
  iexists K, fa, W, f1, f2, f3, f4, f5, f6, f7, f8, f9
  isplitl []; · iexact HR
  isplitl []; · iexact Hlev
  iframe

theorem part1_full (c : Dev nD) (K : Dev nD × Fin 43 → ℕ) (fa : Buf (Elt F) ((c : Thread nD τ).loc cc0_scratch0)) (W : Waits sig Unit) (f1 : Buf (Elt F) ((c : Thread nD τ).loc cc0_scratch1)) (f2 : Buf (Elt F) ((c : Thread nD τ).loc cc0_scratch2)) (f3 : Buf (Elt F) ((c : Thread nD τ).loc cc0_scratch3)) (f4 : Buf (Elt F) ((c : Thread nD τ).loc cc0_scratch4)) (f5 : Buf (Elt F) ((c : Thread nD τ).loc cc0_scratch5)) (f6 : Buf (Elt F) ((c : Thread nD τ).loc cc0_scratch6)) (f7 : Buf (Elt F) ((c : Thread nD τ).loc cc0_scratch7)) (f8 : Buf (Elt F) ((c : Thread nD τ).loc cc0_scratch8)) (f9 : Buf (Elt F) ((c : Thread nD τ).loc cc0_scratch9))
    {Q : (Σ' (d0 : Dev nD) (v7 : BitVec 32) (v8 : Sems sig S_), BitVec 32) → sProp 𝕄} :
    iprop(S1 m c K fa W f1 f2 f3 f4 f5 f6 f7 f8 f9
        ∗ (∀ v7 : BitVec 32, ∀ v31 : BitVec 32, S2 m c K fa W f7 f5 f3 -∗ Q ⟨c, v7, (SemArray.scalar (sig.barrier 0 rfl)), v31⟩))
      ⊢ wp Idealize.ShloMosaic.frame (wpE (defs₀ (F := F)) 𝒱₀ (c : Thread nD τ) none) Set.univ (atBufs (k0_part1 (F := F))) Q := by
  unfold atBufs
  rw [k0_part1_eq_skeleton]
  unfold k0_part1_skel S1 S2 give
  iintro ⟨⟨#HR, #Hlev, HO, ⟨Tb0, Hs1, Hs8, Hs6, HoS0⟩, ⟨Tb1, Hs4, Hs2, Hs9, HoS1⟩, ⟨Tb2, Hs7, Hs5, Hs3, HoS2⟩, Hpb, Cb, Hr0, Hr1, Hr2⟩, Hk⟩
  ihave #Ibn0 := (inv_bar m K (nb 0 c)) $$ HR
  ihave #Rbn0 := (reached_bar m K (nb 0 c)) $$ HR
  ihave #Ibn1 := (inv_bar m K (nb 1 c)) $$ HR
  ihave #Rbn1 := (reached_bar m K (nb 1 c)) $$ HR
  sl_exec
  sl_step
  iapply Hk
  isplitl []; · iexact HR
  isplitl []; · iexact Hlev
  iframe

theorem part2_full (c : Dev nD) (K : Dev nD × Fin 43 → ℕ) (fa : Buf (Elt F) ((c : Thread nD τ).loc cc0_scratch0)) (W : Waits sig Unit) (v7 v31 : BitVec 32) (f7 : Buf (Elt F) ((c : Thread nD τ).loc cc0_scratch7)) (f5 : Buf (Elt F) ((c : Thread nD τ).loc cc0_scratch5)) (f3 : Buf (Elt F) ((c : Thread nD τ).loc cc0_scratch3))
    {Q : (Σ' (v37 : BitVec 32) (v40 : BitVec 32) (v46 : BitVec 32) (v51 : BitVec 32) (v54 : BitVec 32), BitVec 32) → sProp 𝕄} :
    iprop(S2 m c K fa W f7 f5 f3
        ∗ (∀ v37 : BitVec 32, ∀ v40 : BitVec 32, ∀ v46 : BitVec 32, ∀ v51 : BitVec 32, ∀ v54 : BitVec 32, ∀ v60 : BitVec 32, Mid5 m c K fa -∗ Q ⟨v37, v40, v46, v51, v54, v60⟩))
      ⊢ wp Idealize.ShloMosaic.frame (wpE (defs₀ (F := F)) 𝒱₀ (c : Thread nD τ) none) Set.univ (atBufs (k0_part2 (F := F)) c v7 (SemArray.scalar (sig.barrier 0 rfl)) v31) Q := by
  unfold atBufs
  rw [k0_part2_eq_skeleton]
  unfold k0_part2_skel S2 give Mid5 band5 rest5
  have hmwB : (levAts L lv : sProp 𝕄) ⊢ MayWait (c : Thread nD τ) (.reg barS) () (O5 c) :=
    mayWait_cut c _ _ 1 (le_of_eq (lv_bar c)) (O5_pos c)
  iintro ⟨⟨#HR, #Hlev, HO, ⟨Tb2, Hs7, Hs5, Hs3, HoS2⟩, Hpb, Cb, ⟨R0rs0, R0rs1, R0rs2, R0ag2, R0ag1, R0ag0, R0fix, R0acc, R0lc0, R0lc1⟩, ⟨R1rs0, R1rs1, R1rs2, R1ag2, R1ag1, R1ag0, R1fix, R1acc, R1lc0, R1lc1⟩, ⟨R2rs0, R2rs1, R2rs2, R2ag2, R2ag1, R2ag0, R2fix, R2acc, R2lc0, R2lc1⟩⟩, Hk⟩
  ihave #Ibn2 := (inv_bar m K (nb 2 c)) $$ HR
  ihave #Rbn2 := (reached_bar m K (nb 2 c)) $$ HR
  ihave #Ib := (inv_bar m K c) $$ HR
  sl_exec
  sl_step
  ihave Hp := sep3 $$ Hpb_pay1
  icases Hp with ⟨⟨G00, G21, G12, OR0⟩, ⟨G10, G01, G22, OR1⟩, ⟨G20, G11, G02, OR2⟩⟩
  iapply Hk
  isplitl []; · iexact HR
  isplitl []; · iexact Hlev
  isplitl [Hpb]; · iexact Hpb
  isplitl [HO]; · iexists _; iexact HO
  iframe

end Cert.Kernel.Hyp

end
-- ==== Proof.KernelSide.Steps.lean ====
import proofs.«901103_g7700000000001104_dist_treered_v7x_i8_m1024_n1024_f32_1_alg».proof.Proof.KernelSide.Levels
import proofs.«901103_g7700000000001104_dist_treered_v7x_i8_m1024_n1024_f32_1_alg».proof.Proof.KernelSide.Payer
import proofs.«901103_g7700000000001104_dist_treered_v7x_i8_m1024_n1024_f32_1_alg».proof.Proof.KernelSide.Restate

noncomputable section

namespace Cert.Kernel.Hyp

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "WP(" c ", " e ", " Q ")" =>
  wp Idealize.ShloMosaic.frame (wpE (defs₀ (F := F)) 𝒱₀ (c : Thread nD τ) none) Set.univ e Q

theorem credit_Sh (t k : Fin 3) {sp : Space} (M : Memref sig .tc sp (Sh t k) .f32) : M.view.dmaCredit = amt t k := rfl

theorem dmem (c : Dev nD) (a : Fin 4) (t k : Fin 3) : (0 : Fin 3) ∈ (Rd m).duties (dCell c a t k) 0 := by
  rw [duties_d]; exact Finset.mem_singleton_self _

variable (K : Dev nD × Fin 43 → ℕ)

/-- A wait for the whole round of a transfer semaphore's cell takes the cell's one payload `P`. -/
theorem wp_waitDma2_g (c : Dev nD) (sm : DmaSem sig) (κ n : ℕ) (P : sProp 𝕄)
    (he : (Rd m).expect ((c : Thread nD τ), .dma sm) 0 = n)
    (hr : bigSep ((Rd m).duties ((c : Thread nD τ), .dma sm) 0 \ ∅) ((Rd m).payload ((c : Thread nD τ), .dma sm) 0) = P)
    {sem : DmaSem sig} (hsem : sem = sm) {sp sp' : Space} {s s' : Shape} {e' : EltTy} {κ' : Kind}
    {src : Memref sig .tc sp' s' e'} {dst : Memref sig κ' sp s .f32} {hsrc : src.view.WordExact} {hdst : dst.view.WordExact}
    (hamt : dst.view.dmaCredit = n)
    {α : Type} {Q : α → sProp 𝕄} {kk : PUnit → Prog (TpuEff nD τ sig (Elt F) Λ₀ .tc) α}
    (O : CellTallies nD τ sig Unit) (W : Waits sig Unit) :
    iprop(cellInv ER (Rd m) κ ((c : Thread nD τ), .dma sm) ∗ cred (tallyAt ((c : Thread nD τ), .dma sm) () n)
        ∗ owes (c : Thread nD τ) O W ∗ MayWait (c : Thread nD τ) (.dma sm) () O ∗ atPos ER ((c : Thread nD τ), .dma sm) 0 ∅ 0)
      ⊢ iprop(((owes (c : Thread nD τ) O (insert (SemLoc.dma sm, ()) W) ∗ atPos ER ((c : Thread nD τ), .dma sm) 1 ∅ 0 ∗ P) -∗ WP(c, kk ⟨⟩, Q))
          -∗ WP(c, .op (.waitDma2 sem src dst hsrc hdst) kk, Q)) := by
  subst hsem hamt hr
  iintro H Hk
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [Nat.zero_add, he])) $$ H
  iintro ⟨HO, Hat, -, Hpay⟩
  iapply Hk
  iframe

theorem wp_waitDma2_d (c : Dev nD) (a : Fin 4) (t k : Fin 3) {sem : DmaSem sig} (hsem : sem = dsem a t k)
    {sp sp' : Space} {s' : Shape} {e' : EltTy} {κ' : Kind}
    {src : Memref sig .tc sp' s' e'} {dst : Memref sig κ' sp (Sh t k) .f32} {hsrc : src.view.WordExact} {hdst : dst.view.WordExact}
    (hamt : dst.view.dmaCredit = amt t k)
    {α : Type} {Q : α → sProp 𝕄} {kk : PUnit → Prog (TpuEff nD τ sig (Elt F) Λ₀ .tc) α}
    (O : CellTallies nD τ sig Unit) (W : Waits sig Unit) :
    iprop(cellInv ER (Rd m) (K (c, cidx a t k)) (dCell c a t k) ∗ cred (tallyAt (dCell c a t k) () (amt t k))
        ∗ owes (c : Thread nD τ) O W ∗ MayWait (c : Thread nD τ) (.dma (dsem a t k)) () O ∗ atPos ER (dCell c a t k) 0 ∅ 0)
      ⊢ iprop(((owes (c : Thread nD τ) O (insert (SemLoc.dma (dsem a t k), ()) W) ∗ atPos ER (dCell c a t k) 1 ∅ 0
              ∗ dPay m a t k c) -∗ WP(c, kk ⟨⟩, Q))
          -∗ WP(c, .op (.waitDma2 sem src dst hsrc hdst) kk, Q)) :=
  wp_waitDma2_g m c _ _ _ _ (expect_d m c a t k)
    (by rw [Finset.sdiff_empty, duties_d, bigSep_singleton, payload_d]) hsem hamt O W

theorem wp_send_half0 (c n : Dev nD) (t : Fin 3) (hn : n = par t 0 c)
    {Ms : Memref sig .tc .hbm (Sh t 0) .f32} {Md : Memref sig .tc .vmem (Sh t 0) .f32} (hMs : Ms = xS t c) (hMd : Md = stg t 0)
    {sS sR : DmaSem sig} (hsS : sS = dsem 0 t 0) (hsR : sR = dsem 1 t 0)
    {hsc : Md.view.ref.isScScratch = false} {hsrc : Ms.view.WordExact} {hdst : Md.view.WordExact}
    {hsem : DmaTarget.Typed .hbm (.dma sR) (.remote (Dev.tc n : Thread nD τ) Md (.dma sS) hsc)}
    {α : Type} {Q : α → sProp 𝕄} {k' : PUnit → Prog (TpuEff nD τ sig (Elt F) Λ₀ .tc) α}
    (fd : Buf (Elt F) ((stg t 0).view.loc (par t 0 c : Thread nD τ))) (O : CellTallies nD τ sig Unit) (W : Waits sig Unit) :
    iprop(cellInv ER (Rd m) (K (c, cidx 0 t 0)) (dCell c 0 t 0) ∗ cellInv ER (Rd m) (K (par t 0 c, cidx 1 t 0)) (dCell (par t 0 c) 1 t 0)
        ∗ ((xS t c).view.loc (c : Thread nD τ) ↦[(xS t c).view.set]{fullShare} xs m c)
        ∗ ((stg t 0).view.loc (par t 0 c : Thread nD τ) ↦[(stg t 0).view.set]{fullShare} fd)
        ∗ owes (c : Thread nD τ) (O + tallyAt (dCell (par t 0 c) 1 t 0) () (amt t 0)) W
        ∗ dutyTok ER (dCell c 0 t 0) 0 0 ∗ reached ER (dCell c 0 t 0) 0
        ∗ dutyTok ER (dCell (par t 0 c) 1 t 0) 0 0 ∗ reached ER (dCell (par t 0 c) 1 t 0) 0)
      ⊢ iprop(((cred (tallyAt (dCell c 0 t 0) () (amt t 0)) ∗ owes (c : Thread nD τ) O W) -∗ WP(c, k' ⟨⟩, Q))
          -∗ WP(c, .op (.enqueueDma Ms (.remote (Dev.tc n : Thread nD τ) Md (.dma sS) hsc) (.dma sR) hsrc hdst hsem) k', Q)) := by
  subst hMs hMd hn hsS hsR
  exact Rounds.wp_send_pointsTo 𝒱₀ ER (Rd m) _ none (c' := Dev.tc _) (sS := .dma _) (sem := .dma _) (dmem ..) (dmem ..)
    () () _ (credit_Sh _ _ (stg t 0)) (amount_d ..) (amount_d ..) O rfl (by rw [payload_own_00])
    (by
      rcases fin3_cases t with rfl | rfl | rfl <;>
      · simp only [payload_d, dPay, xK]; rw [par_invol]
        generalize xk_inb _ (par _ _ c) = h; revert h; rw [kLo_par]; intro h; rw [View.write_whole_univ])

theorem wp_send_half1 (c n : Dev nD) (t : Fin 3) (hn : n = par t 1 c)
    {Ms : Memref sig .tc .vmem (Sh t 1) .f32} {Md : Memref sig .tc .vmem (Sh t 1) .f32} (hMs : Ms = accS t 1 c) (hMd : Md = stg t 1)
    {sS sR : DmaSem sig} (hsS : sS = dsem 0 t 1) (hsR : sR = dsem 1 t 1)
    {hsc : Md.view.ref.isScScratch = false} {hsrc : Ms.view.WordExact} {hdst : Md.view.WordExact}
    {hsem : DmaTarget.Typed .vmem (.dma sR) (.remote (Dev.tc n : Thread nD τ) Md (.dma sS) hsc)}
    {α : Type} {Q : α → sProp 𝕄} {k' : PUnit → Prog (TpuEff nD τ sig (Elt F) Λ₀ .tc) α}
    (fd : Buf (Elt F) ((stg t 1).view.loc (par t 1 c : Thread nD τ))) (O : CellTallies nD τ sig Unit) (W : Waits sig Unit) :
    iprop(cellInv ER (Rd m) (K (c, cidx 0 t 1)) (dCell c 0 t 1) ∗ cellInv ER (Rd m) (K (par t 1 c, cidx 1 t 1)) (dCell (par t 1 c) 1 t 1)
        ∗ ((accS t 1 c).view.loc (c : Thread nD τ) ↦[(accS t 1 c).view.set]{fullShare} (A1 (xs m) c))
        ∗ ((stg t 1).view.loc (par t 1 c : Thread nD τ) ↦[(stg t 1).view.set]{fullShare} fd)
        ∗ owes (c : Thread nD τ) (O + tallyAt (dCell (par t 1 c) 1 t 1) () (amt t 1)) W
        ∗ dutyTok ER (dCell c 0 t 1) 0 0 ∗ reached ER (dCell c 0 t 1) 0
        ∗ dutyTok ER (dCell (par t 1 c) 1 t 1) 0 0 ∗ reached ER (dCell (par t 1 c) 1 t 1) 0)
      ⊢ iprop(((cred (tallyAt (dCell c 0 t 1) () (amt t 1)) ∗ owes (c : Thread nD τ) O W) -∗ WP(c, k' ⟨⟩, Q))
          -∗ WP(c, .op (.enqueueDma Ms (.remote (Dev.tc n : Thread nD τ) Md (.dma sS) hsc) (.dma sR) hsrc hdst hsem) k', Q)) := by
  subst hMs hMd hn hsS hsR
  exact Rounds.wp_send_landing_pointsTo 𝒱₀ ER (Rd m) _ none (c' := Dev.tc _) (sS := .dma _) (sem := .dma _) (dmem ..) (dmem ..)
    () () _ (credit_Sh _ _ (stg t 1)) (amount_d ..) (amount_d ..) O rfl (by rw [payload_d]; exact .rfl)
    (by
      rcases fin3_cases t with rfl | rfl | rfl <;>
      · simp only [payload_d, dPay, accK, kR]; rw [par_invol]
        generalize kLo_inb _ _ (par _ _ c) = h; revert h; rw [kLo_par]; intro h; rw [View.write_whole_univ])

theorem wp_send_half2 (c n : Dev nD) (t : Fin 3) (hn : n = par t 2 c)
    {Ms : Memref sig .tc .vmem (Sh t 2) .f32} {Md : Memref sig .tc .vmem (Sh t 2) .f32} (hMs : Ms = accS t 2 c) (hMd : Md = stg t 2)
    {sS sR : DmaSem sig} (hsS : sS = dsem 0 t 2) (hsR : sR = dsem 1 t 2)
    {hsc : Md.view.ref.isScScratch = false} {hsrc : Ms.view.WordExact} {hdst : Md.view.WordExact}
    {hsem : DmaTarget.Typed .vmem (.dma sR) (.remote (Dev.tc n : Thread nD τ) Md (.dma sS) hsc)}
    {α : Type} {Q : α → sProp 𝕄} {k' : PUnit → Prog (TpuEff nD τ sig (Elt F) Λ₀ .tc) α}
    (fd : Buf (Elt F) ((stg t 2).view.loc (par t 2 c : Thread nD τ))) (O : CellTallies nD τ sig Unit) (W : Waits sig Unit) :
    iprop(cellInv ER (Rd m) (K (c, cidx 0 t 2)) (dCell c 0 t 2) ∗ cellInv ER (Rd m) (K (par t 2 c, cidx 1 t 2)) (dCell (par t 2 c) 1 t 2)
        ∗ ((accS t 2 c).view.loc (c : Thread nD τ) ↦[(accS t 2 c).view.set]{fullShare} (A2 (xs m) c))
        ∗ ((stg t 2).view.loc (par t 2 c : Thread nD τ) ↦[(stg t 2).view.set]{fullShare} fd)
        ∗ owes (c : Thread nD τ) (O + tallyAt (dCell (par t 2 c) 1 t 2) () (amt t 2)) W
        ∗ dutyTok ER (dCell c 0 t 2) 0 0 ∗ reached ER (dCell c 0 t 2) 0
        ∗ dutyTok ER (dCell (par t 2 c) 1 t 2) 0 0 ∗ reached ER (dCell (par t 2 c) 1 t 2) 0)
      ⊢ iprop(((cred (tallyAt (dCell c 0 t 2) () (amt t 2)) ∗ owes (c : Thread nD τ) O W) -∗ WP(c, k' ⟨⟩, Q))
          -∗ WP(c, .op (.enqueueDma Ms (.remote (Dev.tc n : Thread nD τ) Md (.dma sS) hsc) (.dma sR) hsrc hdst hsem) k', Q)) := by
  subst hMs hMd hn hsS hsR
  exact Rounds.wp_send_landing_pointsTo 𝒱₀ ER (Rd m) _ none (c' := Dev.tc _) (sS := .dma _) (sem := .dma _) (dmem ..) (dmem ..)
    () () _ (credit_Sh _ _ (stg t 2)) (amount_d ..) (amount_d ..) O rfl (by rw [payload_d]; exact .rfl)
    (by
      rcases fin3_cases t with rfl | rfl | rfl <;>
      · simp only [payload_d, dPay, accK, kR]; rw [par_invol]
        generalize kLo_inb _ _ (par _ _ c) = h; revert h; rw [kLo_par]; intro h; rw [View.write_whole_univ])

theorem wp_send_back2 (c n : Dev nD) (t : Fin 3) (hn : n = par t 2 c)
    {Ms : Memref sig .tc .vmem (Sh t 2) .f32} {Md : Memref sig .tc .vmem (Sh t 2) .f32} (hMs : Ms = accK t 2 c) (hMd : Md = accK t 2 c)
    {sS sR : DmaSem sig} (hsS : sS = dsem 2 t 2) (hsR : sR = dsem 3 t 2)
    {hsc : Md.view.ref.isScScratch = false} {hsrc : Ms.view.WordExact} {hdst : Md.view.WordExact}
    {hsem : DmaTarget.Typed .vmem (.dma sR) (.remote (Dev.tc n : Thread nD τ) Md (.dma sS) hsc)}
    {α : Type} {Q : α → sProp 𝕄} {k' : PUnit → Prog (TpuEff nD τ sig (Elt F) Λ₀ .tc) α}
    (O : CellTallies nD τ sig Unit) (W : Waits sig Unit) :
    iprop(cellInv ER (Rd m) (K (c, cidx 2 t 2)) (dCell c 2 t 2) ∗ cellInv ER (Rd m) (K (par t 2 c, cidx 3 t 2)) (dCell (par t 2 c) 3 t 2)
        ∗ ((accK t 2 c).view.loc (c : Thread nD τ) ↦[(accK t 2 c).view.set]{fullShare} (A3 (xs m) c))
        ∗ ((accK t 2 c).view.loc (par t 2 c : Thread nD τ) ↦[(accK t 2 c).view.set]{fullShare} (A2 (xs m) (par t 2 c)))
        ∗ owes (c : Thread nD τ) (O + tallyAt (dCell (par t 2 c) 3 t 2) () (amt t 2)) W
        ∗ dutyTok ER (dCell c 2 t 2) 0 0 ∗ reached ER (dCell c 2 t 2) 0
        ∗ dutyTok ER (dCell (par t 2 c) 3 t 2) 0 0 ∗ reached ER (dCell (par t 2 c) 3 t 2) 0)
      ⊢ iprop(((cred (tallyAt (dCell c 2 t 2) () (amt t 2)) ∗ owes (c : Thread nD τ) O W) -∗ WP(c, k' ⟨⟩, Q))
          -∗ WP(c, .op (.enqueueDma Ms (.remote (Dev.tc n : Thread nD τ) Md (.dma sS) hsc) (.dma sR) hsrc hdst hsem) k', Q)) := by
  subst hMs hMd hn hsS hsR
  exact Rounds.wp_send_pointsTo 𝒱₀ ER (Rd m) _ none (c' := Dev.tc _) (sS := .dma _) (sem := .dma _) (dmem ..) (dmem ..)
    () () _ (credit_Sh _ _ (accK t 2 c)) (amount_d ..) (amount_d ..) O rfl (by rw [payload_own_22])
    (by
      rw [payload_own_32, par_invol]; simp only [accS, outS, sR]
      generalize sLo_inb _ _ (par _ _ c) = h; revert h; rw [sLo_par]; exact fun _ => .rfl)

theorem wp_send_back1 (c n : Dev nD) (t : Fin 3) (hn : n = par t 1 c)
    {Ms : Memref sig .tc .vmem (Sh t 1) .f32} {Md : Memref sig .tc .vmem (Sh t 1) .f32} (hMs : Ms = accK t 1 c) (hMd : Md = accK t 1 c)
    {sS sR : DmaSem sig} (hsS : sS = dsem 2 t 1) (hsR : sR = dsem 3 t 1)
    {hsc : Md.view.ref.isScScratch = false} {hsrc : Ms.view.WordExact} {hdst : Md.view.WordExact}
    {hsem : DmaTarget.Typed .vmem (.dma sR) (.remote (Dev.tc n : Thread nD τ) Md (.dma sS) hsc)}
    {α : Type} {Q : α → sProp 𝕄} {k' : PUnit → Prog (TpuEff nD τ sig (Elt F) Λ₀ .tc) α}
    (O : CellTallies nD τ sig Unit) (W : Waits sig Unit) :
    iprop(cellInv ER (Rd m) (K (c, cidx 2 t 1)) (dCell c 2 t 1) ∗ cellInv ER (Rd m) (K (par t 1 c, cidx 3 t 1)) (dCell (par t 1 c) 3 t 1)
        ∗ ((accK t 1 c).view.loc (c : Thread nD τ) ↦[(accK t 1 c).view.set]{fullShare} (B2 (xs m) c))
        ∗ ((accK t 1 c).view.loc (par t 1 c : Thread nD τ) ↦[(accK t 1 c).view.set]{fullShare} (A1 (xs m) (par t 1 c)))
        ∗ owes (c : Thread nD τ) (O + tallyAt (dCell (par t 1 c) 3 t 1) () (amt t 1)) W
        ∗ dutyTok ER (dCell c 2 t 1) 0 0 ∗ reached ER (dCell c 2 t 1) 0
        ∗ dutyTok ER (dCell (par t 1 c) 3 t 1) 0 0 ∗ reached ER (dCell (par t 1 c) 3 t 1) 0)
      ⊢ iprop(((cred (tallyAt (dCell c 2 t 1) () (amt t 1)) ∗ owes (c : Thread nD τ) O W) -∗ WP(c, k' ⟨⟩, Q))
          -∗ WP(c, .op (.enqueueDma Ms (.remote (Dev.tc n : Thread nD τ) Md (.dma sS) hsc) (.dma sR) hsrc hdst hsem) k', Q)) := by
  subst hMs hMd hn hsS hsR
  exact Rounds.wp_send_pointsTo 𝒱₀ ER (Rd m) _ none (c' := Dev.tc _) (sS := .dma _) (sem := .dma _) (dmem ..) (dmem ..)
    () () _ (credit_Sh _ _ (accK t 1 c)) (amount_d ..) (amount_d ..) O rfl (by rw [payload_own_21])
    (by
      rw [payload_own_31, par_invol]; simp only [accS, outS, sR]
      generalize sLo_inb _ _ (par _ _ c) = h; revert h; rw [sLo_par]; exact fun _ => .rfl)

theorem wp_send_back0 (c n : Dev nD) (t : Fin 3) (hn : n = par t 0 c)
    {Ms : Memref sig .tc .vmem (Sh t 0) .f32} {Md : Memref sig .tc .hbm (Sh t 0) .f32} (hMs : Ms = accK t 0 c) (hMd : Md = outK t c)
    {sS sR : DmaSem sig} (hsS : sS = dsem 2 t 0) (hsR : sR = dsem 3 t 0)
    {hsc : Md.view.ref.isScScratch = false} {hsrc : Ms.view.WordExact} {hdst : Md.view.WordExact}
    {hsem : DmaTarget.Typed .vmem (.dma sR) (.remote (Dev.tc n : Thread nD τ) Md (.dma sS) hsc)}
    {α : Type} {Q : α → sProp 𝕄} {k' : PUnit → Prog (TpuEff nD τ sig (Elt F) Λ₀ .tc) α}
    (O : CellTallies nD τ sig Unit) (W : Waits sig Unit) :
    iprop(cellInv ER (Rd m) (K (c, cidx 2 t 0)) (dCell c 2 t 0) ∗ cellInv ER (Rd m) (K (par t 0 c, cidx 3 t 0)) (dCell (par t 0 c) 3 t 0)
        ∗ ((accK t 0 c).view.loc (c : Thread nD τ) ↦[(accK t 0 c).view.set]{fullShare.left} (B1 (xs m) c))
        ∗ ((outK t c).view.loc (par t 0 c : Thread nD τ) ↦[(outK t c).view.set]{fullShare} (m ((par t 0 c : Thread nD τ).loc main_v1)))
        ∗ owes (c : Thread nD τ) (O + tallyAt (dCell (par t 0 c) 3 t 0) () (amt t 0)) W
        ∗ dutyTok ER (dCell c 2 t 0) 0 0 ∗ reached ER (dCell c 2 t 0) 0
        ∗ dutyTok ER (dCell (par t 0 c) 3 t 0) 0 0 ∗ reached ER (dCell (par t 0 c) 3 t 0) 0)
      ⊢ iprop(((cred (tallyAt (dCell c 2 t 0) () (amt t 0)) ∗ owes (c : Thread nD τ) O W) -∗ WP(c, k' ⟨⟩, Q))
          -∗ WP(c, .op (.enqueueDma Ms (.remote (Dev.tc n : Thread nD τ) Md (.dma sS) hsc) (.dma sR) hsrc hdst hsem) k', Q)) := by
  subst hMs hMd hn hsS hsR
  exact Rounds.wp_send_pointsTo 𝒱₀ ER (Rd m) _ none (c' := Dev.tc _) (sS := .dma _) (sem := .dma _) (dmem ..) (dmem ..)
    () () _ (credit_Sh _ _ (outK t c)) (amount_d ..) (amount_d ..) O rfl (by rw [payload_own_20])
    (by
      rw [payload_own_30, par_invol]; simp only [accS, outS, sR]
      generalize sLo_inb _ _ (par _ _ c) = h; revert h; rw [sLo_par]; exact fun _ => .rfl)

theorem wp_copy_l0 (c : Dev nD) (t : Fin 3)
    {Ms : Memref sig .tc .hbm (Sh t 0) .f32} {Md : Memref sig .tc .vmem (Sh t 0) .f32} (hMs : Ms = xK t c) (hMd : Md = accK t 0 c)
    {sL : DmaSem sig} (hsL : sL = lsem 0 t)
    {hsrc : Ms.view.WordExact} {hdst : Md.view.WordExact} {hsem : DmaTarget.Typed (nD := nD) (p := .tc) .hbm (.dma sL) (.here Md)}
    {α : Type} {Q : α → sProp 𝕄} {k' : PUnit → Prog (TpuEff nD τ sig (Elt F) Λ₀ .tc) α}
    (fd : Buf (Elt F) ((accK t 0 c).view.loc (c : Thread nD τ))) :
    iprop(cellInv ER (Rd m) (K (c, lidx 0 t)) (lCell c 0 t)
        ∗ ((xK t c).view.loc (c : Thread nD τ) ↦[(xK t c).view.set]{fullShare} xs m c)
        ∗ ((accK t 0 c).view.loc (c : Thread nD τ) ↦[(accK t 0 c).view.set]{fullShare} fd)
        ∗ dutyTok ER (lCell c 0 t) 0 0 ∗ reached ER (lCell c 0 t) 0)
      ⊢ iprop((cred (tallyAt (lCell c 0 t) () (amt t 0)) -∗ WP(c, k' ⟨⟩, Q))
          -∗ WP(c, .op (.enqueueDma Ms (.here Md) (.dma sL) hsrc hdst hsem) k', Q)) := by
  subst hMs hMd hsL
  exact Rounds.wp_copy_pointsTo 𝒱₀ ER (Rd m) (c : Thread nD τ) none (sem := .dma _) (q := fullShare) (fd := fd)
    (by rw [duties_l]; exact Finset.mem_singleton_self _) () _ (credit_Sh t 0 _) (amount_l m c t 0 0)
    (by simp only [payload_l, lPay]; iintro ⟨H1, H2⟩; iframe; iexists fd; iexact H1)

theorem wp_copy_l1 (c : Dev nD) (t : Fin 3)
    {Ms : Memref sig .tc .vmem (Sh t 0) .f32} {Md : Memref sig .tc .hbm (Sh t 0) .f32} (hMs : Ms = accK t 0 c) (hMd : Md = outK t c)
    {sL : DmaSem sig} (hsL : sL = lsem 1 t)
    {hsrc : Ms.view.WordExact} {hdst : Md.view.WordExact} {hsem : DmaTarget.Typed (nD := nD) (p := .tc) .vmem (.dma sL) (.here Md)}
    {α : Type} {Q : α → sProp 𝕄} {k' : PUnit → Prog (TpuEff nD τ sig (Elt F) Λ₀ .tc) α} :
    iprop(cellInv ER (Rd m) (K (c, lidx 1 t)) (lCell c 1 t)
        ∗ ((accK t 0 c).view.loc (c : Thread nD τ) ↦[(accK t 0 c).view.set]{fullShare.right} (B1 (xs m) c))
        ∗ ((outK t c).view.loc (c : Thread nD τ) ↦[(outK t c).view.set]{fullShare} (m ((c : Thread nD τ).loc main_v1)))
        ∗ dutyTok ER (lCell c 1 t) 0 0 ∗ reached ER (lCell c 1 t) 0)
      ⊢ iprop((cred (tallyAt (lCell c 1 t) () (amt t 0)) -∗ WP(c, k' ⟨⟩, Q))
          -∗ WP(c, .op (.enqueueDma Ms (.here Md) (.dma sL) hsrc hdst hsem) k', Q)) := by
  subst hMs hMd hsL
  exact Rounds.wp_copy_pointsTo 𝒱₀ ER (Rd m) (c : Thread nD τ) none (sem := .dma _)
    (by rw [duties_l]; exact Finset.mem_singleton_self _) () _ (credit_Sh t 0 _) (amount_l m c t 1 0)
    (by rw [payload_l]; exact .rfl)

theorem wp_waitDma2_l (c : Dev nD) (l : Fin 2) (t : Fin 3) {sem : DmaSem sig} (hsem : sem = lsem l t)
    {sp sp' : Space} {s' : Shape} {e' : EltTy} {κ' : Kind}
    {src : Memref sig .tc sp' s' e'} {dst : Memref sig κ' sp (Sh t 0) .f32} {hsrc : src.view.WordExact} {hdst : dst.view.WordExact}
    (hamt : dst.view.dmaCredit = amt t 0)
    {α : Type} {Q : α → sProp 𝕄} {kk : PUnit → Prog (TpuEff nD τ sig (Elt F) Λ₀ .tc) α}
    (O : CellTallies nD τ sig Unit) (W : Waits sig Unit) :
    iprop(cellInv ER (Rd m) (K (c, lidx l t)) (lCell c l t) ∗ cred (tallyAt (lCell c l t) () (amt t 0))
        ∗ owes (c : Thread nD τ) O W ∗ MayWait (c : Thread nD τ) (.dma (lsem l t)) () O ∗ atPos ER (lCell c l t) 0 ∅ 0)
      ⊢ iprop(((owes (c : Thread nD τ) O (insert (SemLoc.dma (lsem l t), ()) W) ∗ atPos ER (lCell c l t) 1 ∅ 0
              ∗ lPay m l t c) -∗ WP(c, kk ⟨⟩, Q))
          -∗ WP(c, .op (.waitDma2 sem src dst hsrc hdst) kk, Q)) :=
  wp_waitDma2_g m c _ _ _ _ (expect_l m c t l)
    (by rw [Finset.sdiff_empty, duties_l, bigSep_singleton, payload_l]) hsem hamt O W

end Cert.Kernel.Hyp

end
-- ==== Proof.KernelSide.Mid7.lean ====
import proofs.«901103_g7700000000001104_dist_treered_v7x_i8_m1024_n1024_f32_1_alg».proof.Proof.KernelSide.Mid5

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

def rsHalf (t k : Fin 3) (c : Dev nD) : sProp 𝕄 :=
  iprop(atPos ER (dCell c 0 t k) 1 ∅ 0 ∗ atPos ER (dCell c 1 t k) 0 ∅ 0 ∗ cred (tallyAt (dCell c 1 t k) () (amt t k)))

def rsBoth (t k : Fin 3) (c : Dev nD) : sProp 𝕄 :=
  iprop(atPos ER (dCell c 0 t k) 1 ∅ 0 ∗ atPos ER (dCell c 1 t k) 1 ∅ 0)

def O13 (c : Dev nD) : CellTallies nD τ sig Unit := O14 c + oweB 0 2 c
def O12 (c : Dev nD) : CellTallies nD τ sig Unit := O13 c + oweA 2 2 c
def O11 (c : Dev nD) : CellTallies nD τ sig Unit := O12 c + oweA 1 2 c
def O10 (c : Dev nD) : CellTallies nD τ sig Unit := O11 c + oweA 0 2 c
def O9 (c : Dev nD) : CellTallies nD τ sig Unit := O10 c + oweA 2 1 c
def O8 (c : Dev nD) : CellTallies nD τ sig Unit := O9 c + oweA 1 1 c
def O7 (c : Dev nD) : CellTallies nD τ sig Unit := O8 c + oweA 0 1 c

def bS0 (t : Fin 3) (c : Dev nD) (fa : Buf (Elt F) ((c : Thread nD τ).loc cc0_scratch0)) : sProp 𝕄 :=
  iprop(rsSent (F := F) t 0 c ∗ rsFresh (F := F) t 1 c ∗ stgPar (F := F) t 1 c ∗ rsFresh (F := F) t 2 c ∗ stgPar (F := F) t 2 c
    ∗ agFresh (F := F) t 2 c ∗ agFresh (F := F) t 1 c ∗ agFresh (F := F) t 0 c
    ∗ lcSent (F := F) 0 t c ∗ lcFresh (F := F) 1 t c
    ∗ (pt(outK t c, c, fullShare, m ((c : Thread nD τ).loc main_v1)) : sProp 𝕄)
    ∗ (pt(accS t 0 c, c, fullShare, fa) : sProp 𝕄)
    ∗ outRem m t c)

def bS1 (t : Fin 3) (c : Dev nD) (fa : Buf (Elt F) ((c : Thread nD τ).loc cc0_scratch0)) : sProp 𝕄 :=
  iprop(rsSent (F := F) t 0 c ∗ rsFresh (F := F) t 1 c ∗ stgPar (F := F) t 1 c ∗ rsFresh (F := F) t 2 c ∗ stgPar (F := F) t 2 c
    ∗ agFresh (F := F) t 2 c ∗ agFresh (F := F) t 1 c ∗ agFresh (F := F) t 0 c
    ∗ lcDone (F := F) 0 t c ∗ lcFresh (F := F) 1 t c
    ∗ (pt(outK t c, c, fullShare, m ((c : Thread nD τ).loc main_v1)) : sProp 𝕄)
    ∗ (pt(accS t 0 c, c, fullShare, fa) : sProp 𝕄)
    ∗ outRem m t c
    ∗ (pt(accK t 0 c, c, fullShare, A0 (xs m) c) : sProp 𝕄)
    ∗ (pt(xK t c, c, fullShare, xs m c) : sProp 𝕄))

def bS2 (t : Fin 3) (c : Dev nD) (fa : Buf (Elt F) ((c : Thread nD τ).loc cc0_scratch0)) : sProp 𝕄 :=
  iprop(rsHalf (F := F) t 0 c ∗ rsFresh (F := F) t 1 c ∗ stgPar (F := F) t 1 c ∗ rsFresh (F := F) t 2 c ∗ stgPar (F := F) t 2 c
    ∗ agFresh (F := F) t 2 c ∗ agFresh (F := F) t 1 c ∗ agFresh (F := F) t 0 c
    ∗ bandFix m t c fa ∗ outRem m t c
    ∗ (pt(accK t 0 c, c, fullShare, A0 (xs m) c) : sProp 𝕄)
    ∗ lcDone (F := F) 0 t c ∗ lcFresh (F := F) 1 t c)

def bS5 (t : Fin 3) (c : Dev nD) (fa : Buf (Elt F) ((c : Thread nD τ).loc cc0_scratch0)) : sProp 𝕄 :=
  iprop(rsBoth (F := F) t 0 c ∗ rsSent (F := F) t 1 c ∗ rsFresh (F := F) t 2 c ∗ stgPar (F := F) t 2 c
    ∗ agFresh (F := F) t 2 c ∗ agFresh (F := F) t 1 c ∗ agFresh (F := F) t 0 c
    ∗ bandFix m t c fa ∗ outRem m t c
    ∗ (pt(accK t 1 c, c, fullShare, A1 (xs m) c) : sProp 𝕄)
    ∗ stgAny (F := F) t 0 c
    ∗ lcDone (F := F) 0 t c ∗ lcFresh (F := F) 1 t c)

def bS6 (t : Fin 3) (c : Dev nD) (fa : Buf (Elt F) ((c : Thread nD τ).loc cc0_scratch0)) : sProp 𝕄 :=
  iprop(rsBoth (F := F) t 0 c ∗ rsHalf (F := F) t 1 c ∗ rsFresh (F := F) t 2 c ∗ stgPar (F := F) t 2 c
    ∗ agFresh (F := F) t 2 c ∗ agFresh (F := F) t 1 c ∗ agFresh (F := F) t 0 c
    ∗ bandFix m t c fa ∗ outRem m t c
    ∗ (pt(accK t 1 c, c, fullShare, A1 (xs m) c) : sProp 𝕄)
    ∗ stgAny (F := F) t 0 c
    ∗ lcDone (F := F) 0 t c ∗ lcFresh (F := F) 1 t c)

def bS9 (t : Fin 3) (c : Dev nD) (fa : Buf (Elt F) ((c : Thread nD τ).loc cc0_scratch0)) : sProp 𝕄 :=
  iprop(rsBoth (F := F) t 0 c ∗ rsBoth (F := F) t 1 c ∗ rsSent (F := F) t 2 c
    ∗ agFresh (F := F) t 2 c ∗ agFresh (F := F) t 1 c ∗ agFresh (F := F) t 0 c
    ∗ bandFix m t c fa ∗ outRem m t c
    ∗ (pt(accK t 1 c, par t 1 c, fullShare, A1 (xs m) (par t 1 c)) : sProp 𝕄)
    ∗ (pt(accK t 2 c, c, fullShare, A2 (xs m) c) : sProp 𝕄)
    ∗ stgAny (F := F) t 0 c ∗ stgAny (F := F) t 1 c
    ∗ lcDone (F := F) 0 t c ∗ lcFresh (F := F) 1 t c)

def bS11 (c : Dev nD) (fa : Buf (Elt F) ((c : Thread nD τ).loc cc0_scratch0)) (v385 : Vec F S344x128 .f32) : sProp 𝕄 :=
  iprop(rsBoth (F := F) 0 0 c ∗ rsBoth (F := F) 0 1 c ∗ rsBoth (F := F) 0 2 c
    ∗ agFresh (F := F) 0 2 c ∗ agFresh (F := F) 0 1 c ∗ agFresh (F := F) 0 0 c
    ∗ bandFix m 0 c fa ∗ outRem m 0 c
    ∗ (pt(accK 0 1 c, par 0 1 c, fullShare, A1 (xs m) (par 0 1 c)) : sProp 𝕄)
    ∗ (pt(accK 0 2 c, c, fullShare, A2 (xs m) c) : sProp 𝕄)
    ∗ (pt(accK 0 2 c, par 0 2 c, fullShare, A2 (xs m) (par 0 2 c)) : sProp 𝕄)
    ∗ (pt(stg 0 2, c, fullShare, (accK 0 2 c).view.read (Elt F) (A2 (xs m) (par 0 2 c))) : sProp 𝕄)
    ∗ ⌜∀ j : (Sh 0 2).Idx, v385 j = A2 (xs m) c ((accK 0 2 c).view.emb j)⌝
    ∗ stgAny (F := F) 0 0 c ∗ stgAny (F := F) 0 1 c
    ∗ lcDone (F := F) 0 0 c ∗ lcFresh (F := F) 1 0 c)

def Mid7 (c : Dev nD) (K : Dev nD × Fin 43 → ℕ) (fa : Buf (Elt F) ((c : Thread nD τ).loc cc0_scratch0)) : sProp 𝕄 :=
  iprop(records m K ∗ levAts L lv ∗ atPos ER (barCell c) 1 ∅ 0 ∗ (∃ W, owes (c : Thread nD τ) (O7 c) W)
    ∗ bS2 m 0 c fa ∗ bS0 m 1 c fa ∗ bS0 m 2 c fa)
def Mid8 (c : Dev nD) (K : Dev nD × Fin 43 → ℕ) (fa : Buf (Elt F) ((c : Thread nD τ).loc cc0_scratch0)) : sProp 𝕄 :=
  iprop(records m K ∗ levAts L lv ∗ atPos ER (barCell c) 1 ∅ 0 ∗ (∃ W, owes (c : Thread nD τ) (O8 c) W)
    ∗ bS5 m 0 c fa ∗ bS1 m 1 c fa ∗ bS0 m 2 c fa)
def Mid9 (c : Dev nD) (K : Dev nD × Fin 43 → ℕ) (fa : Buf (Elt F) ((c : Thread nD τ).loc cc0_scratch0)) : sProp 𝕄 :=
  iprop(records m K ∗ levAts L lv ∗ atPos ER (barCell c) 1 ∅ 0 ∗ (∃ W, owes (c : Thread nD τ) (O9 c) W)
    ∗ bS5 m 0 c fa ∗ bS5 m 1 c fa ∗ bS1 m 2 c fa)
def Mid10 (c : Dev nD) (K : Dev nD × Fin 43 → ℕ) (fa : Buf (Elt F) ((c : Thread nD τ).loc cc0_scratch0)) : sProp 𝕄 :=
  iprop(records m K ∗ levAts L lv ∗ atPos ER (barCell c) 1 ∅ 0 ∗ (∃ W, owes (c : Thread nD τ) (O10 c) W)
    ∗ bS5 m 0 c fa ∗ bS5 m 1 c fa ∗ bS5 m 2 c fa)
def Mid11 (c : Dev nD) (K : Dev nD × Fin 43 → ℕ) (fa : Buf (Elt F) ((c : Thread nD τ).loc cc0_scratch0)) : sProp 𝕄 :=
  iprop(records m K ∗ levAts L lv ∗ atPos ER (barCell c) 1 ∅ 0 ∗ (∃ W, owes (c : Thread nD τ) (O11 c) W)
    ∗ bS9 m 0 c fa ∗ bS6 m 1 c fa ∗ bS5 m 2 c fa)
def Mid12 (c : Dev nD) (K : Dev nD × Fin 43 → ℕ) (fa : Buf (Elt F) ((c : Thread nD τ).loc cc0_scratch0)) : sProp 𝕄 :=
  iprop(records m K ∗ levAts L lv ∗ atPos ER (barCell c) 1 ∅ 0 ∗ (∃ W, owes (c : Thread nD τ) (O12 c) W)
    ∗ bS9 m 0 c fa ∗ bS9 m 1 c fa ∗ bS6 m 2 c fa)
def Mid13 (c : Dev nD) (K : Dev nD × Fin 43 → ℕ) (fa : Buf (Elt F) ((c : Thread nD τ).loc cc0_scratch0)) (v385 : Vec F S344x128 .f32) : sProp 𝕄 :=
  iprop(records m K ∗ levAts L lv ∗ atPos ER (barCell c) 1 ∅ 0 ∗ (∃ W, owes (c : Thread nD τ) (O13 c) W)
    ∗ bS11 m c fa v385 ∗ bS9 m 1 c fa ∗ bS9 m 2 c fa)

end Cert.Kernel.Hyp

end
-- ==== Proof.KernelSide.MidSteps.lean ====
import proofs.«901103_g7700000000001104_dist_treered_v7x_i8_m1024_n1024_f32_1_alg».proof.Proof.KernelSide.Steps
import proofs.«901103_g7700000000001104_dist_treered_v7x_i8_m1024_n1024_f32_1_alg».proof.Proof.KernelSide.Prep
import proofs.«901103_g7700000000001104_dist_treered_v7x_i8_m1024_n1024_f32_1_alg».proof.Proof.KernelSide.Mid7

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

theorem ms_oweB_lv {t k : Fin 3} {c : Dev nD} {g : GSem nD τ sig} {u : Unit} (h : 0 < oweB t k c g u) :
    g.1.2 = .tc ∧ lv g u = 2 + 3 * (5 - k.val) + t.val := by
  obtain rfl := pos_tally h; exact ⟨rfl, lv_bland _ t k⟩
theorem ms_oweA_lv {t k : Fin 3} {c : Dev nD} {g : GSem nD τ sig} {u : Unit} (h : 0 < oweA t k c g u) :
    g.1.2 = .tc ∧ lv g u = 2 + 3 * k.val + t.val := by
  obtain rfl := pos_tally h; exact ⟨rfl, lv_land _ t k⟩
theorem ms_O14_lv (c : Dev nD) {g : GSem nD τ sig} {u : Unit} (h : 0 < O14 c g u) : g.1.2 = .tc ∧ 12 ≤ lv g u := by
  unfold O14 at h
  repeat' (first
    | (have e := ms_oweB_lv h; exact ⟨e.1, by rw [e.2]; decide⟩)
    | (rcases Pipeline.add_pos_cases h with h | h))
-- A sum's positive entries lie at or above n when the first summand's lie above n and the second's sit at a level at or above n.
theorem ms_add_lv {A B : CellTallies nD τ sig Unit} {n l : ℕ} {g : GSem nD τ sig} {u : Unit}
    (hA : 0 < A g u → g.1.2 = .tc ∧ n + 1 ≤ lv g u) (hB : 0 < B g u → g.1.2 = .tc ∧ lv g u = l) (hn : n ≤ l)
    (h : 0 < (A + B) g u) : g.1.2 = .tc ∧ n ≤ lv g u :=
  (Pipeline.add_pos_cases h).elim (fun h => ⟨(hA h).1, Nat.le_of_succ_le (hA h).2⟩) fun h => ⟨(hB h).1, by rw [(hB h).2]; exact hn⟩
theorem ms_O13_lv (c : Dev nD) {g : GSem nD τ sig} {u : Unit} (h : 0 < O13 c g u) : g.1.2 = .tc ∧ 11 ≤ lv g u :=
  ms_add_lv (ms_O14_lv c) ms_oweB_lv (by decide) h
theorem ms_O12_lv (c : Dev nD) {g : GSem nD τ sig} {u : Unit} (h : 0 < O12 c g u) : g.1.2 = .tc ∧ 10 ≤ lv g u :=
  ms_add_lv (ms_O13_lv c) ms_oweA_lv (by decide) h
theorem ms_O11_lv (c : Dev nD) {g : GSem nD τ sig} {u : Unit} (h : 0 < O11 c g u) : g.1.2 = .tc ∧ 9 ≤ lv g u :=
  ms_add_lv (ms_O12_lv c) ms_oweA_lv (by decide) h
theorem ms_O10_lv (c : Dev nD) {g : GSem nD τ sig} {u : Unit} (h : 0 < O10 c g u) : g.1.2 = .tc ∧ 8 ≤ lv g u :=
  ms_add_lv (ms_O11_lv c) ms_oweA_lv (by decide) h
theorem ms_O9_lv (c : Dev nD) {g : GSem nD τ sig} {u : Unit} (h : 0 < O9 c g u) : g.1.2 = .tc ∧ 7 ≤ lv g u :=
  ms_add_lv (ms_O10_lv c) ms_oweA_lv (by decide) h
theorem ms_O8_lv (c : Dev nD) {g : GSem nD τ sig} {u : Unit} (h : 0 < O8 c g u) : g.1.2 = .tc ∧ 6 ≤ lv g u :=
  ms_add_lv (ms_O9_lv c) ms_oweA_lv (by decide) h
theorem ms_O7_lv (c : Dev nD) {g : GSem nD τ sig} {u : Unit} (h : 0 < O7 c g u) : g.1.2 = .tc ∧ 5 ≤ lv g u :=
  ms_add_lv (ms_O8_lv c) ms_oweA_lv (by decide) h

theorem ms_mayWait_lv (c : Dev nD) (sm : SemLoc sig) (O : CellTallies nD τ sig Unit) (N : ℕ)
    (hw : lv ((c : Thread nD τ), sm) () < N)
    (hO : ∀ (g : GSem nD τ sig) (u : Unit), 0 < O g u → g.1.2 = .tc ∧ N ≤ lv g u) :
    (levAts L lv : sProp 𝕄) ⊢ MayWait (c : Thread nD τ) sm () O :=
  mayWait_cut c sm O (lv ((c : Thread nD τ), sm) ()) le_rfl fun g u h => ⟨(hO g u h).1, lt_of_lt_of_le hw (hO g u h).2⟩

theorem zero_off : (![0, 0] : Fin 2 → ℕ) = fun _ => 0 := by funext a; fin_cases a <;> rfl

/-- A wait on a transfer cell: the records give the cell's invariant, the levels the leave to wait. -/
theorem wait_d' (K : Dev nD × Fin 43 → ℕ) {c : Dev nD} {a : Fin 4} {t k : Fin 3} {O : CellTallies nD τ sig Unit} {N : ℕ} {A B D R : sProp 𝕄}
    (h : iprop(cellInv ER (Rd m) (K (c, cidx a t k)) (dCell c a t k) ∗ A ∗ B ∗ MayWait (c : Thread nD τ) (.dma (dsem a t k)) () O ∗ D) ⊢ R)
    (hO : ∀ {g : GSem nD τ sig} {u : Unit}, 0 < O g u → g.1.2 = .tc ∧ N ≤ lv g u)
    (hw : lv ((c : Thread nD τ), .dma (dsem a t k)) () < N := by first | rw [lv_dep]; decide | rw [lv_land]; decide) :
    iprop(records m K ∗ levAts L lv ∗ A ∗ B ∗ D) ⊢ R := by
  iintro ⟨#HR, #Hlev, A, B, D⟩
  ihave #I := (inv_d m K c a t k) $$ HR
  ihave Hmw := (ms_mayWait_lv c (.dma (dsem a t k)) O N hw (fun _ _ => hO)) $$ Hlev
  iapply h
  iframe I A B Hmw D

theorem wait_l' (K : Dev nD × Fin 43 → ℕ) {c : Dev nD} {l : Fin 2} {t : Fin 3} {O : CellTallies nD τ sig Unit} {N : ℕ} {A B D R : sProp 𝕄}
    (h : iprop(cellInv ER (Rd m) (K (c, lidx l t)) (lCell c l t) ∗ A ∗ B ∗ MayWait (c : Thread nD τ) (.dma (lsem l t)) () O ∗ D) ⊢ R)
    (hO : ∀ {g : GSem nD τ sig} {u : Unit}, 0 < O g u → g.1.2 = .tc ∧ N ≤ lv g u)
    (hw : lv ((c : Thread nD τ), .dma (lsem l t)) () < N := by rw [lv_local]; decide) :
    iprop(records m K ∗ levAts L lv ∗ A ∗ B ∗ D) ⊢ R := by
  iintro ⟨#HR, #Hlev, A, B, D⟩
  ihave #I := (inv_l m K c l t) $$ HR
  ihave Hmw := (ms_mayWait_lv c (.dma (lsem l t)) O N hw (fun _ _ => hO)) $$ Hlev
  iapply h
  iframe I A B Hmw D

/-- A transfer's two cell invariants and its two reached rounds come from the records. -/
theorem send_half' (K : Dev nD × Fin 43 → ℕ) {c p : Dev nD} {ad al : Fin 4} {t k : Fin 3} {A B D T₁ T₂ R : sProp 𝕄}
    (h : iprop(cellInv ER (Rd m) (K (c, cidx ad t k)) (dCell c ad t k) ∗ cellInv ER (Rd m) (K (p, cidx al t k)) (dCell p al t k)
        ∗ A ∗ B ∗ D ∗ T₁ ∗ reached ER (dCell c ad t k) 0 ∗ T₂ ∗ reached ER (dCell p al t k) 0) ⊢ R) :
    iprop(records m K ∗ A ∗ B ∗ D ∗ T₁ ∗ T₂) ⊢ R := by
  iintro ⟨#HR, A, B, D, T₁, T₂⟩
  ihave #I₁ := (inv_d m K c ad t k) $$ HR
  ihave #I₂ := (inv_d m K p al t k) $$ HR
  ihave #R₁ := (reached_d m K c ad t k) $$ HR
  ihave #R₂ := (reached_d m K p al t k) $$ HR
  iapply h
  iframe I₁ I₂ A B D T₁ R₁ T₂ R₂

theorem lPay0_eq (t : Fin 3) (c : Dev nD) : lPay m 0 t c
    = iprop((∃ fd, (pt(accK t 0 c, c, fullShare, (accK t 0 c).view.write (Elt F) fd ((xK t c).view.read (Elt F) (xs m c)) Finset.univ) : sProp 𝕄))
        ∗ (pt(xK t c, c, fullShare, xs m c) : sProp 𝕄)) := rfl

theorem ms_accM_setOn_sub (t k : Fin 3) (c : Dev nD) :
    accM.view.setOn (kR t k c).toLoadRect.set ⊆ (accK t k c).view.set := by
  rw [accK_set]
  intro x hx
  obtain ⟨y, hy, rfl⟩ := Finset.mem_map.mp hx
  exact hy

theorem wp_accumulate_tk (c : Dev nD) (t k : Fin 3) (A : Dev nD → Vec F S1024x1024 .f32)
    {off : Fin 2 → ℕ} {inb : ∀ a, off a + sz t k a ≤ S1024x1024.size a} (e : off = ![r0 t, kLo t k c])
    {stgM : Memref sig .tc .vmem (Sh t k) .f32} {off0 : Fin 2 → ℕ} {inb0 : ∀ a, off0 a + sz t k a ≤ (Sh t k).size a}
    (fS : Buf (Elt F) (stgM.view.loc (c : Thread nD τ)))
    (hS2 : stgM.view.setOn (Rect.unit (s := Sh t k) off0 (sz t k) inb0).toLoadRect.set ⊆ stgM.view.set)
    (hfS : ∀ j, stgM.view.readAt (Elt F) (Rect.unit (s := Sh t k) off0 (sz t k) inb0).toLoadRect fS j = A (par t k c) ((accK t k c).view.emb j))
    (pay : FVec F (Sh t k) .f32 → FVec F (Sh t k) .f32 → FVec F (Sh t k) .f32) (hpay : ∀ a b, pay a b = addf a b)
    {hl1 hl2 hl3 hx hm}
    {α : Type} {Q : α → sProp 𝕄} {kk : PUnit → Prog (TpuEff nD τ sig (Elt F) Λ₀ .tc) α} :
    iprop((pt(accK t k c, c, fullShare, A c) : sProp 𝕄) ∗ (stgM.view.loc (c : Thread nD τ) ↦[stgM.view.set]{fullShare} fS))
      ⊢ iprop((((pt(accK t k c, c, fullShare, stepAdd A k c) : sProp 𝕄) ∗ (stgM.view.loc (c : Thread nD τ) ↦[stgM.view.set]{fullShare} fS))
            -∗ WP(c, kk ⟨⟩, Q))
          -∗ WP(c, (.op (.load accM (Rect.unit (s := S1024x1024) off (sz t k) inb).toLoadRect hl1) fun (v1 : FVec F (Sh t k) .f32) =>
                    .op (.load stgM (Rect.unit (s := Sh t k) off0 (sz t k) inb0).toLoadRect hl2) fun (v2 : FVec F (Sh t k) .f32) =>
                    .op (.load accM (Rect.unit (s := S1024x1024) off (sz t k) inb).toLoadRect hl3) fun (_ : FVec F (Sh t k) .f32) =>
                    .op (.store accM (Rect.unit (s := S1024x1024) off (sz t k) inb) (pay v1 v2) Finset.univ hx hm) kk), Q)) := by
  subst e
  iintro ⟨Hacc, Hstg⟩ Hk
  iapply (wp_load 𝒱₀ (c : Thread nD τ) none Set.univ (ms_accM_setOn_sub t k c)) $$ Hacc
  iintro Hacc
  iapply (wp_load 𝒱₀ (c : Thread nD τ) none Set.univ hS2) $$ Hstg
  iintro Hstg
  iapply (wp_load 𝒱₀ (c : Thread nD τ) none Set.univ (ms_accM_setOn_sub t k c)) $$ Hacc
  iintro Hacc
  have hSt : (accM.access (kR t k c)).setOn Finset.univ ⊆ (accK t k c).view.set := by
    rw [View.setOn_univ]
  iapply (wp_store 𝒱₀ (c : Thread nD τ) none Set.univ (m := accM) (r := kR t k c) hSt) $$ Hacc
  iintro Hacc
  ihave Hacc := (Entails.of_eq (pt_congr (accK t k c) c fullShare _ (stepAdd A k c) (fun i hi => by
      rw [hpay]
      exact acc_step A t k c (A c) _ hfS i hi))) $$ Hacc
  iapply Hk
  iframe

end Cert.Kernel.Hyp

end
-- ==== Proof.KernelSide.Part67.lean ====
import proofs.«901103_g7700000000001104_dist_treered_v7x_i8_m1024_n1024_f32_1_alg».proof.Proof.KernelSide.MidSteps

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

def band6 (t : Fin 3) (c : Dev nD) (fa : Buf (Elt F) ((c : Thread nD τ).loc cc0_scratch0)) : sProp 𝕄 :=
  iprop(rsSent (F := F) t 0 c ∗ rsFresh (F := F) t 1 c ∗ stgPar (F := F) t 1 c ∗ rsFresh (F := F) t 2 c ∗ stgPar (F := F) t 2 c
    ∗ agFresh (F := F) t 2 c ∗ agFresh (F := F) t 1 c ∗ agFresh (F := F) t 0 c
    ∗ lcFresh (F := F) 0 t c ∗ lcFresh (F := F) 1 t c
    ∗ (pt(xK t c, c, fullShare, xs m c) : sProp 𝕄)
    ∗ (pt(accK t 0 c, c, fullShare, fa) : sProp 𝕄)
    ∗ (pt(outK t c, c, fullShare, m ((c : Thread nD τ).loc main_v1)) : sProp 𝕄)
    ∗ (pt(accS t 0 c, c, fullShare, fa) : sProp 𝕄)
    ∗ outRem m t c)

def Mid6 (c : Dev nD) (K : Dev nD × Fin 43 → ℕ) (fa : Buf (Elt F) ((c : Thread nD τ).loc cc0_scratch0)) : sProp 𝕄 :=
  iprop(records m K ∗ levAts L lv ∗ atPos ER (barCell c) 1 ∅ 0 ∗ (∃ W, owes (c : Thread nD τ) (O7 c) W)
    ∗ band6 m 0 c fa ∗ band6 m 1 c fa ∗ band6 m 2 c fa)

theorem O5_split (c : Dev nD) : O5 c = O7 c + oweA 2 0 c + oweA 1 0 c + oweA 0 0 c := by
  unfold O5 O7 O8 O9 O10 O11 O12 O13 O14 owedRow
  abel

theorem part6_run (c : Dev nD) (K : Dev nD × Fin 43 → ℕ) (fa : Buf (Elt F) ((c : Thread nD τ).loc cc0_scratch0))
    (v37 v46 v79 v88 v121 v130 v153 v154 : BitVec 32) {Q : BitVec 32 → sProp 𝕄} :
    iprop(Mid5 m c K fa ∗ (∀ v158 : BitVec 32, Mid6 m c K fa -∗ Q v158))
      ⊢ WP(c, atBufs (k0_part6 (F := F)) c v37 v46 v79 v88 v121 v130 v153 v154, Q) := by
  unfold atBufs
  rw [k0_part6_eq_skeleton]
  dsimp only [k0_part6_skel]
  simp only [Prog.lift, Prog.bind_op, Prog.bind_ret, Prog.pure_eq_ret]
  unfold Mid5 band5 rsFresh bandFix
  iintro ⟨⟨#HR, #Hlev, HatB, ⟨%W, HO⟩,
    ⟨⟨Hd00, Hl00, Td00, Tl00, Cl00⟩, F01, F02, G02, G01, G00, ⟨HxK0, HxS0, HoK0, HaS0⟩, HoR0, HaK0, ⟨%g00, Hs00⟩, Hs01, Hs02, Lc00, Lc10⟩,
    ⟨⟨Hd10, Hl10, Td10, Tl10, Cl10⟩, F11, F12, G12, G11, G10, ⟨HxK1, HxS1, HoK1, HaS1⟩, HoR1, HaK1, ⟨%g10, Hs10⟩, Hs11, Hs12, Lc01, Lc11⟩,
    ⟨⟨Hd20, Hl20, Td20, Tl20, Cl20⟩, F21, F22, G22, G21, G20, ⟨HxK2, HxS2, HoK2, HaS2⟩, HoR2, HaK2, ⟨%g20, Hs20⟩, Hs21, Hs22, Lc02, Lc12⟩⟩, Hk⟩
  rw [O5_split]
  iapply (send_half' m K (wp_send_half0 m K c _ 0 (dev4_eq c) (congrArg (fun M => M.squeeze S344x512 squeezes_S1x344x512_S344x512) (xsl1_send c)) rfl rfl rfl g00 _ _)) $$ [$]
  iintro ⟨Cd00, HO⟩
  iapply (send_half' m K (wp_send_half0 m K c _ 1 (dev5_eq c) (congrArg (fun M => M.squeeze S336x512 squeezes_S1x336x512_S336x512) (xsl2_send c)) rfl rfl rfl g10 _ _)) $$ [$]
  iintro ⟨Cd10, HO⟩
  iapply (send_half' m K (wp_send_half0 m K c _ 2 (dev6_eq c) (congrArg (fun M => M.squeeze S344x512 squeezes_S1x344x512_S344x512) (xsl3_send c)) rfl rfl rfl g20 _ _)) $$ [$]
  iintro ⟨Cd20, HO⟩
  rw [wp_ret]; imodintro
  iapply Hk
  unfold Mid6 band6 rsSent rsFresh
  iframe # ∗; iexists W; iexact HO

theorem part7_run (c : Dev nD) (K : Dev nD × Fin 43 → ℕ) (fa : Buf (Elt F) ((c : Thread nD τ).loc cc0_scratch0))
    (v40 v82 v124 : BitVec 32) {Q : PUnit → sProp 𝕄} :
    iprop(Mid6 m c K fa ∗ (Mid7 m c K fa -∗ Q ⟨⟩))
      ⊢ WP(c, atBufs (k0_part7 (F := F)) c v40 v82 v124, Q) := by
  unfold atBufs
  rw [k0_part7_eq_skeleton]
  dsimp only [k0_part7_skel]
  simp only [Prog.lift, Prog.bind_op, Prog.bind_ret, Prog.pure_eq_ret]
  unfold Mid6 band6 rsSent lcFresh
  iintro ⟨⟨#HR, #Hlev, HatB, ⟨%W, HO⟩,
    ⟨⟨Hd00, Hl00, Cd00, Cl00⟩, F01, Hs01, F02, Hs02, G02, G01, G00, ⟨La00, Lt00⟩, Lc10, HxK0, HaK0, HoK0, HaS0, HoR0⟩,
    ⟨⟨Hd10, Hl10, Cd10, Cl10⟩, F11, Hs11, F12, Hs12, G12, G11, G10, ⟨La01, Lt01⟩, Lc11, HxK1, HaK1, HoK1, HaS1, HoR1⟩,
    ⟨⟨Hd20, Hl20, Cd20, Cl20⟩, F21, Hs21, F22, Hs22, G22, G21, G20, ⟨La02, Lt02⟩, Lc12, HxK2, HaK2, HoK2, HaS2, HoR2⟩⟩, Hk⟩
  ihave #IL00 := (inv_l m K c 0 0) $$ HR
  ihave #RL00 := (reached_l m K c 0 0) $$ HR
  iapply (wp_copy_l0 m K c 0 (congrArg (fun M => M.squeeze S344x512 squeezes_S1x344x512_S344x512) (xsl1_keep c)) (accsl4 c) rfl fa) $$ [$]
  iintro CL00
  ihave #IL01 := (inv_l m K c 0 1) $$ HR
  ihave #RL01 := (reached_l m K c 0 1) $$ HR
  iapply (wp_copy_l0 m K c 1 (congrArg (fun M => M.squeeze S336x512 squeezes_S1x336x512_S336x512) (xsl2_keep c)) (accsl5 c) rfl fa) $$ [$]
  iintro CL01
  ihave #IL02 := (inv_l m K c 0 2) $$ HR
  ihave #RL02 := (reached_l m K c 0 2) $$ HR
  iapply (wp_copy_l0 m K c 2 (congrArg (fun M => M.squeeze S344x512 squeezes_S1x344x512_S344x512) (xsl3_keep c)) (accsl6 c) rfl fa) $$ [$]
  iintro CL02
  iapply (wait_l' m K (wp_waitDma2_l m K c 0 0 rfl (credit_Sh 0 0 _) _ _) (ms_O7_lv c)) $$ [$]
  iintro ⟨HO, La00, Hpay⟩
  ihave ⟨⟨%fd, HaK0⟩, HxK0⟩ := (Entails.of_eq (lPay0_eq m 0 c)) $$ Hpay
  iapply (wait_d' m K (wp_waitDma2_d m K c 0 0 0 rfl (credit_Sh 0 0 _) _ _) (ms_O7_lv c)) $$ [$]
  iintro ⟨HO, Hd00, Hpay⟩
  ihave HxS0 := (Entails.of_eq ((payload_d m c 0 0 0 0).symm.trans (payload_own_00 m 0 c))) $$ Hpay
  ihave HaK0 := (Entails.of_eq (pt_congr (accK 0 0 c) c fullShare _ (A0 (xs m) c) (fun i hi => accK_write_xK_read (xs m) 0 c c fd i hi))) $$ HaK0
  rw [wp_ret]; imodintro
  iapply Hk
  unfold Mid7 bS2 bS0 rsHalf rsSent lcSent lcDone lcFresh bandFix
  iframe # ∗; iexists _; iexact HO

end Cert.Kernel.Hyp

end
-- ==== Proof.KernelSide.BodyMid.lean ====
import proofs.«901103_g7700000000001104_dist_treered_v7x_i8_m1024_n1024_f32_1_alg».proof.Proof.KernelSide.MidSteps

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

theorem part8_run (c : Dev nD) (K : Dev nD × Fin 43 → ℕ) (fa : Buf (Elt F) ((c : Thread nD τ).loc cc0_scratch0))
    (v40 v46 v51 v60 : BitVec 32) {Q : PUnit → sProp 𝕄} :
    iprop(Mid7 m c K fa ∗ (Mid8 m c K fa -∗ Q ⟨⟩))
      ⊢ WP(c, atBufs (k0_part8 (F := F)) c v40 v46 v51 v60, Q) := by
  unfold atBufs
  rw [k0_part8_eq_skeleton]
  dsimp only [k0_part8_skel]
  simp only [accsl8_send c, accsl5 c, xsl2_keep c, xsl1_send c]
  simp only [Prog.lift, Prog.bind_op, Prog.bind_ret, Prog.pure_eq_ret]
  unfold Mid7 Mid8 bS2 bS5 bS0 bS1 O7 rsHalf rsBoth rsFresh rsSent lcSent lcDone
  iintro ⟨⟨#HR, #Hlev, Hbar, ⟨%W, HO⟩,
      ⟨⟨Hp000, Hp100, C100⟩, ⟨Hp001, Hp101, T001, T101, C101⟩, ⟨%fd01, Hstg01p⟩, Hrs02, Hsp02, Hag02, Hag01, Hag00, Hfix0, Hrem0, HaccK00, Hl00, Hl10⟩,
      ⟨Hrs10, Hrs11, Hsp11, Hrs12, Hsp12, Hag12, Hag11, Hag10, ⟨Hpl01, Cl01⟩, Hl11, Hout1, HaccS10, Hrem1⟩,
      Hb2⟩, Hk⟩
  iapply (wait_d' m K (wp_waitDma2_d m K c 1 0 0 rfl (credit_Sh 0 0 _) (O8 c + oweA 0 1 c) W) (ms_O7_lv c)) $$ [$]
  iintro ⟨HO, Hp100, Hstg00⟩
  ihave Hstg00 := (Entails.of_eq ((payload_d m c 1 0 0 0).symm.trans (payload_own_10_0 m c))) $$ Hstg00
  iapply (wp_accumulate_tk c 0 0 (A0 (xs m)) (off7_eq c) (stgM := Memref.whole cc0_scratch1)
      ((xK 0 c).view.read (Elt F) (xs m (par 0 0 c)))
      (by rw [Memref.view_whole, View.set_whole]; exact Finset.subset_univ _)
      (fun j => (congrFun (Memref.readAt_unit_zero (Elt F) cc0_scratch1 zero_off _ _) j).trans (xK_read_A0 (xs m) 0 c (par 0 0 c) j))
      k0_pay1 (fun a b => shapeCast_self _ _)) $$ [$]
  iintro ⟨HaccK00, Hstg00⟩
  ihave HaccK00 := (Entails.of_eq (pt_congr (accK 0 0 c) c fullShare (stepAdd (A0 (xs m)) 0 c) (A1 (xs m) c) (fun i _ => rfl))) $$ HaccK00
  ihave ⟨HaccS01, HaccK01⟩ := (accK_split01 0 c fullShare (A1 (xs m) c)).1 $$ HaccK00
  iapply (send_half' m K (wp_send_half1 m K c _ 0 (dev7_eq c) rfl rfl rfl rfl fd01 (O8 c) _)) $$ [$]
  iintro ⟨C001, HO⟩
  iapply (wait_l' m K (wp_waitDma2_l m K c 0 1 rfl (credit_Sh 1 0 _) (O8 c) _) (ms_O8_lv c)) $$ [$]
  iintro ⟨HO, Hpl01, Hlp⟩
  ihave ⟨⟨%fd1, HaccK10⟩, HxK1⟩ := (Entails.of_eq (lPay0_eq m 1 c)) $$ Hlp
  ihave HaccK10 := (Entails.of_eq (pt_congr (accK 1 0 c) c fullShare _ (A0 (xs m) c) (fun i hi => accK_write_xK_read (xs m) 1 c c fd1 i hi))) $$ HaccK10
  iapply le_wp_ret
  iapply Hk
  iframe # ∗
  isplitl [HO] <;> iexists _ <;> iassumption

end Cert.Kernel.Hyp

end
-- ==== Proof.KernelSide.Body2Pre.lean ====
import proofs.«901103_g7700000000001104_dist_treered_v7x_i8_m1024_n1024_f32_1_alg».proof.Proof.KernelSide.Mid
import proofs.«901103_g7700000000001104_dist_treered_v7x_i8_m1024_n1024_f32_1_alg».proof.Proof.KernelSide.Payer
import proofs.«901103_g7700000000001104_dist_treered_v7x_i8_m1024_n1024_f32_1_alg».proof.Proof.KernelSide.Prep
import proofs.«901103_g7700000000001104_dist_treered_v7x_i8_m1024_n1024_f32_1_alg».proof.Proof.KernelSide.Levels

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

theorem agFresh_eq (t k : Fin 3) (c : Dev nD) : agFresh (F := F) t k c = iprop(atPos ER (dCell c 2 t k) 0 ∅ 0 ∗ atPos ER (dCell c 3 t k) 0 ∅ 0
    ∗ dutyTok ER (dCell c 2 t k) 0 0 ∗ dutyTok ER (dCell (par t k c) 3 t k) 0 0
    ∗ cred (tallyAt (dCell c 3 t k) () (amt t k))) := rfl
theorem agSent_eq (t k : Fin 3) (c : Dev nD) : agSent (F := F) t k c = iprop(atPos ER (dCell c 2 t k) 0 ∅ 0 ∗ atPos ER (dCell c 3 t k) 0 ∅ 0
    ∗ cred (tallyAt (dCell c 2 t k) () (amt t k)) ∗ cred (tallyAt (dCell c 3 t k) () (amt t k))) := rfl
theorem agDone_eq (t k : Fin 3) (c : Dev nD) : agDone (F := F) t k c = iprop(atPos ER (dCell c 2 t k) 1 ∅ 0 ∗ atPos ER (dCell c 3 t k) 1 ∅ 0) := rfl

theorem dev13_par (c : Dev nD) : (⟨k0_dev13 c, k0_dev13_lt c⟩ : Dev nD) = par 0 2 c := dev13_eq c
theorem dev14_par (c : Dev nD) : (⟨k0_dev14 c, k0_dev14_lt c⟩ : Dev nD) = par 1 2 c := dev14_eq c
theorem dev15_par (c : Dev nD) : (⟨k0_dev15 c, k0_dev15_lt c⟩ : Dev nD) = par 2 2 c := dev15_eq c
theorem dev16_par (c : Dev nD) : (⟨k0_dev16 c, k0_dev16_lt c⟩ : Dev nD) = par 0 1 c := dev16_eq c
theorem dev17_par (c : Dev nD) : (⟨k0_dev17 c, k0_dev17_lt c⟩ : Dev nD) = par 1 1 c := dev17_eq c
theorem dev18_par (c : Dev nD) : (⟨k0_dev18 c, k0_dev18_lt c⟩ : Dev nD) = par 2 1 c := dev18_eq c
theorem dev19_par (c : Dev nD) : (⟨k0_dev19 c, k0_dev19_lt c⟩ : Dev nD) = par 0 0 c := dev19_eq c
theorem dev20_par (c : Dev nD) : (⟨k0_dev20 c, k0_dev20_lt c⟩ : Dev nD) = par 1 0 c := dev20_eq c
theorem dev21_par (c : Dev nD) : (⟨k0_dev21 c, k0_dev21_lt c⟩ : Dev nD) = par 2 0 c := dev21_eq c

theorem join2 (t : Fin 3) (c : Dev nD) :
    iprop((pt(accK t 2 c, c, fullShare, A3 (xs m) c) : sProp 𝕄)
      ∗ (pt(accS t 2 c, c, fullShare, (accS t 2 c).view.write (Elt F) (A2 (xs m) c) ((accS t 2 c).view.read (Elt F) (A3 (xs m) (par t 2 c))) Finset.univ) : sProp 𝕄))
      ⊢ (pt(accK t 1 c, c, fullShare, B2 (xs m) c) : sProp 𝕄) := by
  rw [pt_congr (accK t 2 c) c fullShare (A3 (xs m) c) (B2 (xs m) c) (fun i hi => B2_on_accK2 (xs m) t c i hi),
    pt_congr (accS t 2 c) c fullShare _ (B2 (xs m) c) (fun i hi => (accS_write_read t 2 c _ _ i hi).trans (B2_on_accS2 (xs m) t c i hi))]
  iintro ⟨Hk, Hs⟩
  iapply (accK_split12 t c fullShare (B2 (xs m) c)).2
  iframe

theorem join1 (t : Fin 3) (c : Dev nD) :
    iprop((pt(accK t 1 c, c, fullShare, B2 (xs m) c) : sProp 𝕄)
      ∗ (pt(accS t 1 c, c, fullShare, (accS t 1 c).view.write (Elt F) (A1 (xs m) c) ((accS t 1 c).view.read (Elt F) (B2 (xs m) (par t 1 c))) Finset.univ) : sProp 𝕄))
      ⊢ (pt(accK t 0 c, c, fullShare, B1 (xs m) c) : sProp 𝕄) := by
  rw [pt_congr (accK t 1 c) c fullShare (B2 (xs m) c) (B1 (xs m) c) (fun i hi => B1_on_accK1 (xs m) t c i hi),
    pt_congr (accS t 1 c) c fullShare _ (B1 (xs m) c) (fun i hi => (accS_write_read t 1 c _ _ i hi).trans (B1_on_accS1 (xs m) t c i hi))]
  iintro ⟨Hk, Hs⟩
  iapply (accK_split01 t c fullShare (B1 (xs m) c)).2
  iframe

theorem outS_landed (t : Fin 3) (c : Dev nD) :
    (pt(outS t c, c, fullShare, (outS t c).view.write (Elt F) (m ((c : Thread nD τ).loc main_v1)) ((accS t 0 c).view.read (Elt F) (B1 (xs m) (par t 0 c))) Finset.univ) : sProp 𝕄)
      = (pt(outS t c, c, fullShare, B0 (xs m) c) : sProp 𝕄) :=
  pt_congr (outS t c) c fullShare _ (B0 (xs m) c) (fun i hi => (outS_write_accS_read t c _ _ i hi).trans (B0_on_outS (xs m) t c i hi))

theorem outK_copied (t : Fin 3) (c : Dev nD) :
    (pt(outK t c, c, fullShare, (outK t c).view.write (Elt F) (m ((c : Thread nD τ).loc main_v1)) ((accK t 0 c).view.read (Elt F) (B1 (xs m) c)) Finset.univ) : sProp 𝕄)
      = (pt(outK t c, c, fullShare, B0 (xs m) c) : sProp 𝕄) :=
  pt_congr (outK t c) c fullShare _ (B0 (xs m) c) (fun i hi => (outK_write_accK_read t c _ _ i hi).trans (B0_on_outK (xs m) t c i hi))

theorem acc_stored3 (t : Fin 3) (c : Dev nD) (f : Vec F S1024x1024 .f32) (v : (Sh t 2).Idx → F .f32)
    (hv : ∀ j : (Sh t 2).Idx, v j = A3 (xs m) c ((accK t 2 c).view.emb j)) :
    (pt(accK t 2 c, c, fullShare, (accM.access (Rect.unit (s := S1024x1024) ![r0 t, kLo t 2 c] (sz t 2) (kLo_inb t 2 c))).write (Elt F) f v Finset.univ) : sProp 𝕄)
      = (pt(accK t 2 c, c, fullShare, A3 (xs m) c) : sProp 𝕄) :=
  pt_congr (accK t 2 c) c fullShare _ (A3 (xs m) c) (fun i hi => by
    obtain ⟨y, rfl⟩ := View.exists_emb_of_mem_set (accK t 2 c).view hi
    rw [View.write_emb_of_mem _ _ (Finset.mem_univ y)]
    exact hv y)

end Cert.Kernel.Hyp

end
-- ==== Proof.KernelSide.BodyMid1c.lean ====
import proofs.«901103_g7700000000001104_dist_treered_v7x_i8_m1024_n1024_f32_1_alg».proof.Proof.KernelSide.MidSteps
import proofs.«901103_g7700000000001104_dist_treered_v7x_i8_m1024_n1024_f32_1_alg».proof.Proof.KernelSide.Body2Pre

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

theorem part9_run (c : Dev nD) (K : Dev nD × Fin 43 → ℕ) (fa : Buf (Elt F) ((c : Thread nD τ).loc cc0_scratch0))
    (v82 v88 v93 v102 : BitVec 32) {Q : PUnit → sProp 𝕄} :
    iprop(Mid8 m c K fa ∗ (Mid9 m c K fa -∗ Q ⟨⟩))
      ⊢ WP(c, atBufs (k0_part9 (F := F)) c v82 v88 v93 v102, Q) := by
  unfold atBufs
  rw [k0_part9_eq_skeleton]
  unfold k0_part9_skel Mid8 Mid9 bS0 bS1 bS5 O8 rsSent rsBoth rsFresh bandFix lcSent lcDone
  simp only [Prog.lift, Prog.bind_op, Prog.bind_ret, Prog.pure_eq_ret]
  iintro ⟨⟨#HR, #Hlev, Hbar, ⟨%W, HO⟩, B0,
      ⟨⟨Hp010, Hp110, Cd10, Cl10⟩, ⟨Hp011, Hp111, Td11, Tl11, Cl11⟩, ⟨%fd11, Hsp11⟩, F12, Hsp12, G12, G11, G10, Ld1, Lf1,
        HoK1, HaS1, HoR1, HaK1, HxK1⟩,
      ⟨R20, F21, Hsp21, F22, Hsp22, G22, G21, G20, ⟨Hl2, Clc2⟩, Lf2, HoK2, HaS2, HoR2⟩⟩, HQ⟩
  iapply (wait_d' m K (wp_waitDma2_d m K c 0 1 0 rfl (credit_Sh 1 0 _) (O9 c + oweA 1 1 c) W) (ms_O8_lv c)) $$ [$]
  iintro ⟨HO, Hp010, Hpay⟩
  ihave HxS1 := (Entails.of_eq ((payload_d m c 0 1 0 0).symm.trans (payload_own_00 m 1 c))) $$ Hpay
  iapply (wait_d' m K (wp_waitDma2_d m K c 1 1 0 rfl (credit_Sh 1 0 _) (O9 c + oweA 1 1 c) _) (ms_O8_lv c)) $$ [$]
  iintro ⟨HO, Hp110, Hpay⟩
  ihave Hstg10 := (Entails.of_eq ((payload_d m c 1 1 0 0).symm.trans (payload_own_10_1 m c))) $$ Hpay
  iapply (wp_accumulate_tk c 1 0 (A0 (xs m)) (off9_eq c) (stgM := Memref.whole cc0_scratch4)
      ((xK 1 c).view.read (Elt F) (xs m (par 1 0 c)))
      (by rw [Memref.view_whole, View.set_whole]; exact Finset.subset_univ _)
      (fun j => (congrFun (Memref.readAt_unit_zero (Elt F) cc0_scratch4 zero_off _ _) j).trans (xK_read_A0 (xs m) 1 c (par 1 0 c) j))
      k0_pay2 (fun a b => shapeCast_self _ _)) $$ [HaK1 Hstg10]
  · iframe
  iintro ⟨HaK1, Hstg10⟩
  ihave HaK1 := (Entails.of_eq (pt_congr (accK 1 0 c) c fullShare (stepAdd (A0 (xs m)) 0 c) (A1 (xs m) c) (fun i _ => rfl))) $$ HaK1
  ihave ⟨HaS11, HaK11⟩ := (accK_split01 1 c fullShare (A1 (xs m) c)).1 $$ HaK1
  iapply (send_half' m K (wp_send_half1 m K c _ 1 (dev8_eq c) (accsl10_send c) rfl rfl rfl fd11 (O9 c) _)) $$ [$]
  iintro ⟨Cd11, HO⟩
  iapply (wait_l' m K (wp_waitDma2_l m K c 0 2 rfl (credit_Sh 2 0 _) (O9 c) _) (ms_O9_lv c)) $$ [$]
  iintro ⟨HO, Hl2, Hpay⟩
  ihave ⟨⟨%fd2, HaK2⟩, HxK2⟩ := (Entails.of_eq (lPay0_eq m 2 c)) $$ Hpay
  ihave HaK2 := (Entails.of_eq (pt_congr (accK 2 0 c) c fullShare _ (A0 (xs m) c) (fun i hi => accK_write_xK_read (xs m) 2 c c fd2 i hi))) $$ HaK2
  iapply le_wp_ret
  iapply HQ
  iframe # ∗
  isplitl [HO] <;> iexists _ <;> iassumption

end Cert.Kernel.Hyp

end
-- ==== Proof.KernelSide.BodyMid1b.lean ====
import proofs.«901103_g7700000000001104_dist_treered_v7x_i8_m1024_n1024_f32_1_alg».proof.Proof.KernelSide.MidSteps

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

theorem part10_run (c : Dev nD) (K : Dev nD × Fin 43 → ℕ) (fa : Buf (Elt F) ((c : Thread nD τ).loc cc0_scratch0))
    (v124 v130 v135 v144 : BitVec 32) {Q : PUnit → sProp 𝕄} :
    iprop(Mid9 m c K fa ∗ (Mid10 m c K fa -∗ Q ⟨⟩))
      ⊢ WP(c, atBufs (k0_part10 (F := F)) c v124 v130 v135 v144, Q) := by
  unfold atBufs
  rw [k0_part10_eq_skeleton]
  dsimp only [k0_part10_skel]
  simp only [accsl12_send c, xsl3_send c]
  simp only [Prog.lift, Prog.bind_op, Prog.bind_ret, Prog.pure_eq_ret]
  unfold Mid9 Mid10 bS1 bS5 O9 rsSent rsBoth rsFresh bandFix
  iintro ⟨⟨#HR, #Hlev, Hbar, ⟨%W, HO⟩, B0, B1,
      ⟨⟨Hp020, Hp120, Cd20, Cl20⟩, ⟨Hp021, Hp121, Td21, Tl21, Cl21⟩, ⟨%fd21, Hsp21⟩, F22, Hsp22, G22, G21, G20, Ld2, Lf2,
        HoK2, HaS2, HoR2, HaK2, HxK2⟩⟩, HQ⟩
  iapply (wait_d' m K (wp_waitDma2_d m K c 0 2 0 rfl (credit_Sh 2 0 _) (O10 c + oweA 2 1 c) W) (ms_O9_lv c)) $$ [$]
  iintro ⟨HO, Hp020, Hpay⟩
  ihave HxS2 := (Entails.of_eq ((payload_d m c 0 2 0 0).symm.trans (payload_own_00 m 2 c))) $$ Hpay
  iapply (wait_d' m K (wp_waitDma2_d m K c 1 2 0 rfl (credit_Sh 2 0 _) (O10 c + oweA 2 1 c) _) (ms_O9_lv c)) $$ [$]
  iintro ⟨HO, Hp120, Hpay⟩
  ihave Hstg20 := (Entails.of_eq ((payload_d m c 1 2 0 0).symm.trans (payload_own_10_2 m c))) $$ Hpay
  iapply (wp_accumulate_tk c 2 0 (A0 (xs m)) (off11_eq c) (stgM := Memref.whole cc0_scratch7)
      ((xK 2 c).view.read (Elt F) (xs m (par 2 0 c)))
      (by rw [Memref.view_whole, View.set_whole]; exact Finset.subset_univ _)
      (fun j => (congrFun (Memref.readAt_unit_zero (Elt F) cc0_scratch7 zero_off _ _) j).trans (xK_read_A0 (xs m) 2 c (par 2 0 c) j))
      k0_pay3 (fun a b => shapeCast_self _ _)) $$ [$]
  iintro ⟨HaK2, Hstg20⟩
  ihave HaK2 := (Entails.of_eq (pt_congr (accK 2 0 c) c fullShare (stepAdd (A0 (xs m)) 0 c) (A1 (xs m) c) (fun i _ => rfl))) $$ HaK2
  ihave ⟨HaS21, HaK21⟩ := (accK_split01 2 c fullShare (A1 (xs m) c)).1 $$ HaK2
  iapply (send_half' m K (wp_send_half1 m K c _ 2 (dev9_eq c) rfl rfl rfl rfl fd21 (O10 c) _)) $$ [$]
  iintro ⟨Cd21, HO⟩
  iapply le_wp_ret
  iapply HQ
  iframe # ∗
  isplitl [HO] <;> iexists _ <;> iassumption

end Cert.Kernel.Hyp

end
-- ==== Proof.KernelSide.BodyMid1d.lean ====
import proofs.«901103_g7700000000001104_dist_treered_v7x_i8_m1024_n1024_f32_1_alg».proof.Proof.KernelSide.MidSteps

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

theorem part11_run (c : Dev nD) (K : Dev nD × Fin 43 → ℕ) (fa : Buf (Elt F) ((c : Thread nD τ).loc cc0_scratch0))
    (v54 v60 v65 v74 : BitVec 32) {Q : PUnit → sProp 𝕄} :
    iprop(Mid10 m c K fa ∗ (Mid11 m c K fa -∗ Q ⟨⟩))
      ⊢ WP(c, atBufs (k0_part11 (F := F)) c v54 v60 v65 v74, Q) := by
  unfold atBufs
  rw [k0_part11_eq_skeleton]
  dsimp only [k0_part11_skel]
  simp only [accsl8_send c, accsl14_send c, accsl10_send c]
  simp only [Prog.lift, Prog.bind_op, Prog.bind_ret, Prog.pure_eq_ret]
  unfold Mid10 Mid11 bS5 bS9 bS6 O10 rsSent rsBoth rsHalf rsFresh
  iintro ⟨⟨#HR, #Hlev, Hbar, ⟨%W, HO⟩,
      ⟨Rb00, ⟨Hp001, Hp101, Cd01, Cl01⟩, ⟨Hp002, Hp102, Td02, Tl02, Cl02⟩, ⟨%fd02, Hsp02⟩, G02, G01, G00, Hfix0, HoR0, HaK01, Hst00, Ld0, Lf0⟩,
      ⟨Rb10, ⟨Hp011, Hp111, Cd11, Cl11⟩, F12, Hsp12, G12, G11, G10, Hfix1, HoR1, HaK11, Hst10, Ld1, Lf1⟩,
      B2⟩, HQ⟩
  iapply (wait_d' m K (wp_waitDma2_d m K c 0 0 1 rfl (credit_Sh 0 1 _) (O11 c + oweA 0 2 c) W) (ms_O10_lv c)) $$ [$]
  iintro ⟨HO, Hp001, -⟩
  iapply (wait_d' m K (wp_waitDma2_d m K c 1 0 1 rfl (credit_Sh 0 1 _) (O11 c + oweA 0 2 c) _) (ms_O10_lv c)) $$ [$]
  iintro ⟨HO, Hp101, Hpay⟩
  ihave ⟨Hstg01, HaP01⟩ := (Entails.of_eq ((payload_d m c 1 0 1 0).symm.trans (payload_own_11_0 m c))) $$ Hpay
  iapply (wp_accumulate_tk c 0 1 (A1 (xs m)) (off13_eq c) (stgM := Memref.whole cc0_scratch2)
      ((accK 0 1 c).view.read (Elt F) (A1 (xs m) (par 0 1 c)))
      (by rw [Memref.view_whole, View.set_whole]; exact Finset.subset_univ _)
      (fun j => (congrFun (Memref.readAt_unit_zero (Elt F) cc0_scratch2 zero_off _ _) j).trans (accK_read 0 1 c (A1 (xs m) (par 0 1 c)) j))
      k0_pay4 (fun a b => shapeCast_self _ _)) $$ [$]
  iintro ⟨HaK01, Hstg01⟩
  ihave HaK01 := (Entails.of_eq (pt_congr (accK 0 1 c) c fullShare (stepAdd (A1 (xs m)) 1 c) (A2 (xs m) c) (fun i _ => rfl))) $$ HaK01
  ihave ⟨HaS02, HaK02⟩ := (accK_split12 0 c fullShare (A2 (xs m) c)).1 $$ HaK01
  iapply (send_half' m K (wp_send_half2 m K c _ 0 (dev10_eq c) rfl rfl rfl rfl fd02 (O11 c) _)) $$ [$]
  iintro ⟨Cd02, HO⟩
  iapply (wait_d' m K (wp_waitDma2_d m K c 0 1 1 rfl (credit_Sh 1 1 _) (O11 c) _) (ms_O11_lv c)) $$ [$]
  iintro ⟨HO, Hp011, -⟩
  iapply le_wp_ret
  iapply HQ
  iframe # ∗
  isplitl [HO] <;> iexists _ <;> iassumption

end Cert.Kernel.Hyp

end
-- ==== Proof.KernelSide.BodyMid2d.lean ====
import proofs.«901103_g7700000000001104_dist_treered_v7x_i8_m1024_n1024_f32_1_alg».proof.Proof.KernelSide.MidSteps

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

theorem part12_alt (c : Dev nD) (K : Dev nD × Fin 43 → ℕ) (fa : Buf (Elt F) ((c : Thread nD τ).loc cc0_scratch0))
    (v96 v102 v107 v116 v144 : BitVec 32) {Q : PUnit → sProp 𝕄} :
    iprop(Mid11 m c K fa ∗ (Mid12 m c K fa -∗ Q ⟨⟩))
      ⊢ WP(c, atBufs (k0_part12 (F := F)) c v96 v102 v107 v116 v144, Q) := by
  unfold atBufs
  rw [k0_part12_eq_skeleton]
  dsimp only [k0_part12_skel]
  simp only [accsl10_send c, accsl16_send c, accsl12_send c]
  simp only [Prog.lift, Prog.bind_op, Prog.bind_ret, Prog.pure_eq_ret]
  unfold Mid11 Mid12 bS5 bS9 bS6 O11 rsSent rsBoth rsHalf rsFresh
  iintro ⟨⟨#HR, #Hlev, Hbar, ⟨%W, HO⟩,
      B0,
      ⟨Rb10, ⟨Hp011, Hp111, Cl11⟩, ⟨Hp012, Hp112, Td12, Tl12, Cl12⟩, ⟨%fd12, Hsp12⟩, G12, G11, G10, Hfix1, HoR1, HaK11, Hst10, Ld1, Lf1⟩,
      ⟨Rb20, ⟨Hp021, Hp121, Cd21, Cl21⟩, F22, Hsp22, G22, G21, G20, Hfix2, HoR2, HaK21, Hst20, Ld2, Lf2⟩⟩, HQ⟩
  iapply (wait_d' m K (wp_waitDma2_d m K c 1 1 1 rfl (credit_Sh 1 1 _) (O12 c + oweA 1 2 c) W) (ms_O11_lv c)) $$ [$]
  iintro ⟨HO, Hp111, Hpay⟩
  ihave ⟨Hstg11, HaP11⟩ := (Entails.of_eq ((payload_d m c 1 1 1 0).symm.trans (payload_own_11_1 m c))) $$ Hpay
  iapply (wp_accumulate_tk c 1 1 (A1 (xs m)) (off15_eq c) (stgM := Memref.whole cc0_scratch5)
      ((accK 1 1 c).view.read (Elt F) (A1 (xs m) (par 1 1 c)))
      (by rw [Memref.view_whole, View.set_whole]; exact Finset.subset_univ _)
      (fun j => (congrFun (Memref.readAt_unit_zero (Elt F) cc0_scratch5 zero_off _ _) j).trans (accK_read 1 1 c (A1 (xs m) (par 1 1 c)) j))
      k0_pay5 (fun a b => shapeCast_self _ _)) $$ [$]
  iintro ⟨HaK11, Hstg11⟩
  ihave HaK11 := (Entails.of_eq (pt_congr (accK 1 1 c) c fullShare (stepAdd (A1 (xs m)) 1 c) (A2 (xs m) c) (fun i _ => rfl))) $$ HaK11
  ihave ⟨HaS12, HaK12⟩ := (accK_split12 1 c fullShare (A2 (xs m) c)).1 $$ HaK11
  iapply (send_half' m K (wp_send_half2 m K c _ 1 (dev11_eq c) rfl rfl rfl rfl fd12 (O12 c) _)) $$ [$]
  iintro ⟨Cd12, HO⟩
  iapply (wait_d' m K (wp_waitDma2_d m K c 0 2 1 rfl (credit_Sh 2 1 _) (O12 c) _) (ms_O12_lv c)) $$ [$]
  iintro ⟨HO, Hp021, -⟩
  iapply le_wp_ret
  iapply HQ
  iframe # ∗
  isplitl [HO] <;> iexists _ <;> iassumption

end Cert.Kernel.Hyp

end
-- ==== Proof.KernelSide.BodyMid2c.lean ====
import proofs.«901103_g7700000000001104_dist_treered_v7x_i8_m1024_n1024_f32_1_alg».proof.Proof.KernelSide.MidSteps

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

private theorem acc_sub (t k : Fin 3) (c : Dev nD) {o : Fin 2 → ℕ} {h : ∀ a, o a + sz t k a ≤ S1024x1024.size a} (e : o = ![r0 t, kLo t k c]) :
    (accM.access (Rect.unit (s := S1024x1024) o (sz t k) h)).set ⊆ (accK t k c).view.set := by
  subst e; exact subset_rfl

private theorem acc_read_at (t k : Fin 3) (c : Dev nD) {o : Fin 2 → ℕ} {h : ∀ a, o a + sz t k a ≤ S1024x1024.size a} (e : o = ![r0 t, kLo t k c])
    (g : Vec F S1024x1024 .f32) (j : (Sh t k).Idx) :
    (accM.access (Rect.unit (s := S1024x1024) o (sz t k) h)).read (Elt F) g j = g ((accK t k c).view.emb j) := by
  subst e; rfl

theorem part13_run (c : Dev nD) (K : Dev nD × Fin 43 → ℕ) (fa : Buf (Elt F) ((c : Thread nD τ).loc cc0_scratch0))
    (v68 v74 v138 v149 v158 : BitVec 32) {Q : (Σ' (v383 : BitVec 32), Vec F S344x128 .f32) → sProp 𝕄} :
    iprop(Mid12 m c K fa ∗ (∀ v383 v385, Mid13 m c K fa v385 -∗ Q ⟨v383, v385⟩))
      ⊢ WP(c, atBufs (k0_part13 (F := F)) c v68 v74 v138 v149 v158, Q) := by
  unfold atBufs
  rw [k0_part13_eq_skeleton]
  dsimp only [k0_part13_skel]
  simp only [accsl12_send c, accsl18_send c, accsl14_send c]
  simp only [Prog.lift, Prog.bind_op, Prog.bind_ret, Prog.pure_eq_ret]
  unfold Mid12 Mid13 bS6 bS9 bS11 O12 rsSent rsBoth rsHalf rsFresh
  iintro ⟨⟨#HR, #Hlev, Hbar, ⟨%W, HO⟩,
      ⟨Rb00, Rb01, ⟨Hp002, Hp102, Cd02, Cl02⟩, G02, G01, G00, Hfix0, HoR0, HaP01, HaK02, Hst00, Hst01, Ld0, Lf0⟩,
      B1,
      ⟨Rb20, ⟨Hp021, Hp121, Cl21⟩, ⟨Hp022, Hp122, Td22, Tl22, Cl22⟩, ⟨%fd22, Hsp22⟩, G22, G21, G20, Hfix2, HoR2, HaK21, Hst20, Ld2, Lf2⟩⟩, HQ⟩
  iapply (wait_d' m K (wp_waitDma2_d m K c 1 2 1 rfl (credit_Sh 2 1 _) (O13 c + oweA 2 2 c) W) (ms_O12_lv c)) $$ [$]
  iintro ⟨HO, Hp121, Hpay⟩
  ihave ⟨Hstg21, HaP21⟩ := (Entails.of_eq ((payload_d m c 1 2 1 0).symm.trans (payload_own_11_2 m c))) $$ Hpay
  iapply (wp_accumulate_tk c 2 1 (A1 (xs m)) (off17_eq c) (stgM := Memref.whole cc0_scratch8)
      ((accK 2 1 c).view.read (Elt F) (A1 (xs m) (par 2 1 c)))
      (by rw [Memref.view_whole, View.set_whole]; exact Finset.subset_univ _)
      (fun j => (congrFun (Memref.readAt_unit_zero (Elt F) cc0_scratch8 zero_off _ _) j).trans (accK_read 2 1 c (A1 (xs m) (par 2 1 c)) j))
      k0_pay6 (fun a b => shapeCast_self _ _)) $$ [$]
  iintro ⟨HaK21, Hstg21⟩
  ihave HaK21 := (Entails.of_eq (pt_congr (accK 2 1 c) c fullShare (stepAdd (A1 (xs m)) 1 c) (A2 (xs m) c) (fun i _ => rfl))) $$ HaK21
  ihave ⟨HaS22, HaK22⟩ := (accK_split12 2 c fullShare (A2 (xs m) c)).1 $$ HaK21
  iapply (send_half' m K (wp_send_half2 m K c _ 2 (dev12_eq c) rfl rfl rfl rfl fd22 (O13 c) _)) $$ [$]
  iintro ⟨Cd22, HO⟩
  iapply (wait_d' m K (wp_waitDma2_d m K c 0 0 2 rfl (credit_Sh 0 2 _) (O13 c) _) (ms_O13_lv c)) $$ [$]
  iintro ⟨HO, Hp002, -⟩
  iapply (wait_d' m K (wp_waitDma2_d m K c 1 0 2 rfl (credit_Sh 0 2 _) (O13 c) _) (ms_O13_lv c)) $$ [$]
  iintro ⟨HO, Hp102, Hpay⟩
  ihave ⟨Hstg02, HaP02⟩ := (Entails.of_eq ((payload_d m c 1 0 2 0).symm.trans (payload_own_12_0 m c))) $$ Hpay
  iapply (wp_load_rect 𝒱₀ (c : Thread nD τ) none Set.univ (m := accM) (r := Rect.unit (s := S1024x1024) (k0_off19 c) S344x128.size (k0_off19_inb c))
    (S := (accK 0 2 c).view.set) (q := fullShare) (f := A2 (xs m) c) (acc_sub 0 2 c (off19_eq c))) $$ [HaK02]
  · iexact HaK02
  iintro HaK02
  iapply le_wp_ret
  iapply HQ $$ %v68 %((accM.access (Rect.unit (s := S1024x1024) (k0_off19 c) S344x128.size (k0_off19_inb c))).read (Elt F) (A2 (xs m) c))
  iframe # ∗
  isplitl [HO]; · iexists _; iexact HO
  isplitr; · ipureintro; exact acc_read_at 0 2 c (off19_eq c) _
  iexists _; iexact Hstg21

end Cert.Kernel.Hyp

end
-- ==== Proof.KernelSide.BodyMid2b.lean ====
import proofs.«901103_g7700000000001104_dist_treered_v7x_i8_m1024_n1024_f32_1_alg».proof.Proof.KernelSide.MidSteps
import proofs.«901103_g7700000000001104_dist_treered_v7x_i8_m1024_n1024_f32_1_alg».proof.Proof.KernelSide.Body2Pre

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

private theorem acc_sub (t k : Fin 3) (c : Dev nD) {o : Fin 2 → ℕ} {h : ∀ a, o a + sz t k a ≤ S1024x1024.size a} (e : o = ![r0 t, kLo t k c]) :
    (accM.access (Rect.unit (s := S1024x1024) o (sz t k) h)).set ⊆ (accK t k c).view.set := by
  subst e; exact subset_rfl

private theorem acc_read_at (t k : Fin 3) (c : Dev nD) {o : Fin 2 → ℕ} {h : ∀ a, o a + sz t k a ≤ S1024x1024.size a} (e : o = ![r0 t, kLo t k c])
    (g : Vec F S1024x1024 .f32) (j : (Sh t k).Idx) :
    (accM.access (Rect.unit (s := S1024x1024) o (sz t k) h)).read (Elt F) g j = g ((accK t k c).view.emb j) := by
  subst e; rfl

private theorem acc_stored3' (t : Fin 3) (c : Dev nD) (f : Vec F S1024x1024 .f32) {o : Fin 2 → ℕ} {h : ∀ a, o a + sz t 2 a ≤ S1024x1024.size a}
    (e : o = ![r0 t, kLo t 2 c]) (v : (Sh t 2).Idx → F .f32) (hv : ∀ j : (Sh t 2).Idx, v j = A3 (xs m) c ((accK t 2 c).view.emb j)) :
    (pt(accK t 2 c, c, fullShare, (accM.access (Rect.unit (s := S1024x1024) o (sz t 2) h)).write (Elt F) f v Finset.univ) : sProp 𝕄)
      = (pt(accK t 2 c, c, fullShare, A3 (xs m) c) : sProp 𝕄) := by
  subst e; exact acc_stored3 m t c f v hv

/-- What the device held plus what its step-2 partner held, on the kept eighth, is the third step's sum. -/
private theorem sum3 (t : Fin 3) (c : Dev nD) (pay : FVec F (Sh t 2) .f32 → FVec F (Sh t 2) .f32 → FVec F (Sh t 2) .f32) (hpay : ∀ a b, pay a b = addf a b)
    (a b : (Sh t 2).Idx → F .f32) (ha : ∀ j, a j = A2 (xs m) c ((accK t 2 c).view.emb j)) (hb : ∀ j, b j = A2 (xs m) (par t 2 c) ((accK t 2 c).view.emb j))
    (j : (Sh t 2).Idx) : pay a b j = A3 (xs m) c ((accK t 2 c).view.emb j) := by
  obtain ⟨ht, _⟩ := accK_facts t 2 c _ ((accK t 2 c).view.emb_mem_set j)
  rw [hpay]
  show FloatOps.addf (φ := .f32) (a j) (b j) = FloatOps.addf (φ := .f32) (A2 (xs m) c _) (A2 (xs m) (par (tOf _) 2 c) _)
  rw [ht, ha j, hb j]

theorem part14_run (c : Dev nD) (K : Dev nD × Fin 43 → ℕ) (fa : Buf (Elt F) ((c : Thread nD τ).loc cc0_scratch0))
    (v68 v74 v110 v116 v383 : BitVec 32) (v385 : Vec F S344x128 .f32)
    {Q : (Σ' (v409 : BitVec 32), FVec F S336x128 .f32) → sProp 𝕄} :
    iprop(Mid13 m c K fa v385 ∗ (∀ v409 v413, Mid14 m c K fa v413 -∗ Q ⟨v409, v413⟩))
      ⊢ WP(c, atBufs (k0_part14 (F := F)) c v68 v74 v110 v116 v383 v385, Q) := by
  unfold atBufs
  rw [k0_part14_eq_skeleton]
  unfold k0_part14_skel Mid13 Mid14 bS11 bS9 band0_14 band1_14 band2_14 O13 rsBoth rsSent rsDone
  rw [agFresh_eq 0 2 c, agSent_eq 0 2 c]
  simp only [Prog.lift, Prog.bind_op, Prog.bind_ret, Prog.pure_eq_ret]
  iintro ⟨⟨#HR, #Hlev, Hbar, ⟨%W, HO⟩,
      ⟨⟨P000, P100⟩, ⟨P001, P101⟩, ⟨P002, P102⟩, ⟨Hp202, Hp302, Td02, Tl02, Cl02⟩, G01, G00, Hfix0, Hrem0, HaP01, HaK02, HaP02, Hstg02, %hv385, S00, S01, L00, Lf0⟩,
      ⟨⟨P010, P110⟩, ⟨P011, P111⟩, ⟨P012, P112, Cd12, Cl12⟩, G12, G11, G10, Hfix1, Hrem1, HaP11, HaK12, S10, S11, L01, Lf1⟩,
      ⟨⟨P020, P120⟩, ⟨P021, P121⟩, ⟨P022, P122, Cd22, Cl22⟩, G22, G21, G20, Hfix2, Hrem2, HaP21, HaK22, S20, S21, L02, Lf2⟩⟩, HQ⟩
  iapply (wp_load_rect 𝒱₀ (c : Thread nD τ) none Set.univ (m := (Memref.whole cc0_scratch3 : Memref sig .tc .vmem S344x128 .f32)) (r := Rect.unit (s := S344x128) ![0, 0] S344x128.size inb_S344x128_S344x128_0_0)
    (S := (stg 0 2).view.set) (q := fullShare) (f := (accK 0 2 c).view.read (Elt F) (A2 (xs m) (par 0 2 c))) (View.set_slice_subset _ _)) $$ [Hstg02]
  · iexact Hstg02
  iintro Hstg02
  iapply (wp_load_rect 𝒱₀ (c : Thread nD τ) none Set.univ (m := accM) (r := Rect.unit (s := S1024x1024) (k0_off19 c) S344x128.size (k0_off19_inb c))
    (S := (accK 0 2 c).view.set) (q := fullShare) (f := A2 (xs m) c) (acc_sub 0 2 c (off19_eq c))) $$ [HaK02]
  · iexact HaK02
  iintro HaK02
  iapply (wp_store 𝒱₀ (c : Thread nD τ) none Set.univ (m := accM) (r := Rect.unit (s := S1024x1024) (k0_off19 c) S344x128.size (k0_off19_inb c))
    (S := (accK 0 2 c).view.set) (f := A2 (xs m) c) (acc_sub 0 2 c (off19_eq c))) $$ [HaK02]
  · iexact HaK02
  iintro HaK02
  ihave HaK02 := (Entails.of_eq (acc_stored3' m 0 c (A2 (xs m) c) (off19_eq c)
      (k0_pay7 v385 (((Memref.whole cc0_scratch3 : Memref sig .tc .vmem S344x128 .f32).access (Rect.unit (s := S344x128) ![0, 0] S344x128.size inb_S344x128_S344x128_0_0)).read (Elt F) ((accK 0 2 c).view.read (Elt F) (A2 (xs m) (par 0 2 c)))))
      (sum3 m 0 c k0_pay7 (fun _ _ => shapeCast_self _ _) v385 _ hv385 (fun j => (congrFun (Memref.read_access_unit_zero (Elt F) cc0_scratch3 zero_off _ _) j).trans (accK_read 0 2 c (A2 (xs m) (par 0 2 c)) j))))) $$ HaK02
  iapply (send_half' m K (wp_send_back2 m K c _ 0 (dev13_par c) (accsl14_keep c) (accsl14_keep c) rfl rfl (O14 c) W)) $$ [$]
  iintro ⟨Cd02, HO⟩
  iapply (wait_d' m K (wp_waitDma2_d m K c 0 1 2 rfl (credit_Sh 1 2 _) (O14 c) W) (ms_O14_lv c)) $$ [$]
  iintro ⟨HO, P012, -⟩
  iapply (wait_d' m K (wp_waitDma2_d m K c 1 1 2 rfl (credit_Sh 1 2 _) (O14 c) _) (ms_O14_lv c)) $$ [$]
  iintro ⟨HO, P112, Hpay⟩
  ihave ⟨Hstg12, HaP12⟩ := (Entails.of_eq ((payload_d m c 1 1 2 0).symm.trans (payload_own_12_1 m c))) $$ Hpay
  iapply (wp_load_rect 𝒱₀ (c : Thread nD τ) none Set.univ (m := accM) (r := Rect.unit (s := S1024x1024) (k0_off20 c) S336x128.size (k0_off20_inb c))
    (S := (accK 1 2 c).view.set) (q := fullShare) (f := A2 (xs m) c) (acc_sub 1 2 c (off20_eq c))) $$ [HaK12]
  · iexact HaK12
  iintro HaK12
  iapply (wp_load_rect 𝒱₀ (c : Thread nD τ) none Set.univ (m := (Memref.whole cc0_scratch6 : Memref sig .tc .vmem S336x128 .f32)) (r := Rect.unit (s := S336x128) ![0, 0] S336x128.size inb_S336x128_S336x128_0_0)
    (S := (stg 1 2).view.set) (q := fullShare) (f := (accK 1 2 c).view.read (Elt F) (A2 (xs m) (par 1 2 c))) (View.set_slice_subset _ _)) $$ [Hstg12]
  · iexact Hstg12
  iintro Hstg12
  iapply le_wp_ret
  iapply HQ $$ %v110 %(k0_pay8 ((accM.access (Rect.unit (s := S1024x1024) (k0_off20 c) S336x128.size (k0_off20_inb c))).read (Elt F) (A2 (xs m) c))
      (((Memref.whole cc0_scratch6 : Memref sig .tc .vmem S336x128 .f32).access (Rect.unit (s := S336x128) ![0, 0] S336x128.size inb_S336x128_S336x128_0_0)).read (Elt F) ((accK 1 2 c).view.read (Elt F) (A2 (xs m) (par 1 2 c)))))
  iframe # ∗
  isplitl [HO]; · iexists _; iexact HO
  isplitl [Hstg02]; · iexists _; iexact Hstg02
  isplitr
  · ipureintro
    exact sum3 m 1 c k0_pay8 (fun _ _ => rfl) _ _ (acc_read_at 1 2 c (off20_eq c) _)
      (fun j => (congrFun (Memref.read_access_unit_zero (Elt F) cc0_scratch6 zero_off _ _) j).trans (accK_read 1 2 c (A2 (xs m) (par 1 2 c)) j))
  iexists _; iexact Hstg12

end Cert.Kernel.Hyp

end
-- ==== Proof.KernelSide.Body2.lean ====
import proofs.«901103_g7700000000001104_dist_treered_v7x_i8_m1024_n1024_f32_1_alg».proof.Proof.KernelSide.MidSteps
import proofs.«901103_g7700000000001104_dist_treered_v7x_i8_m1024_n1024_f32_1_alg».proof.Proof.KernelSide.Body2Pre

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

private theorem acc_sub (t k : Fin 3) (c : Dev nD) (o : Fin 2 → ℕ) (h : ∀ a, o a + sz t k a ≤ S1024x1024.size a) (e : o = ![r0 t, kLo t k c]) :
    (accM.access (Rect.unit (s := S1024x1024) o (sz t k) h)).set ⊆ (accK t k c).view.set := by
  subst e; exact subset_rfl

private theorem acc_stored3' (t : Fin 3) (c : Dev nD) (f : Vec F S1024x1024 .f32) (o : Fin 2 → ℕ) (h : ∀ a, o a + sz t 2 a ≤ S1024x1024.size a)
    (e : o = ![r0 t, kLo t 2 c]) (v : (Sh t 2).Idx → F .f32) (hv : ∀ j : (Sh t 2).Idx, v j = A3 (xs m) c ((accK t 2 c).view.emb j)) :
    (pt(accK t 2 c, c, fullShare, (accM.access (Rect.unit (s := S1024x1024) o (sz t 2) h)).write (Elt F) f v Finset.univ) : sProp 𝕄)
      = (pt(accK t 2 c, c, fullShare, A3 (xs m) c) : sProp 𝕄) := by
  subst e; exact acc_stored3 m t c f v hv

local macro "owes_lv" : tactic => `(tactic| (
  intro g u h
  repeat' (first
    | exact ⟨(ms_oweB_lv h).1, by rw [(ms_oweB_lv h).2]; decide⟩
    | (rcases Pipeline.add_pos_cases h with h | h))))

set_option maxHeartbeats 4000000 in
theorem part15_run (c : Dev nD) (K : Dev nD × Fin 43 → ℕ) (fa : Buf (Elt F) ((c : Thread nD τ).loc cc0_scratch0))
    (v110 v116 v152 v158 v409 : BitVec 32) (v413 : FVec F S336x128 .f32) {Q : PUnit → sProp 𝕄} :
    iprop(Mid14 m c K fa v413 ∗ (Mid15 m K c fa -∗ Q ⟨⟩))
      ⊢ WP(c, atBufs (k0_part15 (F := F)) c v110 v116 v152 v158 v409 v413, Q) := by
  unfold atBufs
  rw [k0_part15_eq_skeleton]
  unfold k0_part15_skel Mid14 Mid15 MidG band1_14 band2_14 bandP2s bandP2 O14 O15 stgs rsDone
  rw [agFresh_eq 1 2 c, agFresh_eq 2 2 c, agSent_eq 1 2 c]
  rw [show (oweB 0 0 c + oweB 0 1 c) + (oweB 1 0 c + oweB 1 1 c + oweB 1 2 c) + (oweB 2 0 c + oweB 2 1 c + oweB 2 2 c)
    = ((oweB 0 0 c + oweB 0 1 c) + (oweB 1 0 c + oweB 1 1 c) + (oweB 2 0 c + oweB 2 1 c + oweB 2 2 c)) + oweB 1 2 c from by abel]
  simp only [Prog.lift, Prog.bind_op, Prog.bind_ret, Prog.pure_eq_ret]
  iintro ⟨⟨#HR, #Hlev, Hbar, ⟨%W, HO⟩, H0,
      ⟨Hrs1, ⟨Hp212, Hp312, Td12, Tl12, Cl12⟩, Hag11, Hag10, Hfix1, Hrem1, Hr11, Hk12, Hr12, %hv, Hs10, Hs11, Hs12, Hlc01, Hlc11⟩,
      ⟨Hp020, Hp120, Hp021, Hp121, Hp022, Hp122, Cd22, Cr22, Hag22, Hag21, Hag20, Hfix2, Hrem2, Hr21, Hk22, Hs20, Hs21, Hlc02, Hlc12⟩⟩, HQ⟩
  have hv9 : ∀ j : (Sh 1 2).Idx, k0_pay9 v413 j = A3 (xs m) c ((accK 1 2 c).view.emb j) := fun j =>
    (congrFun (shapeCast_self v413 shapeCasts_S336x128_S336x128) j).trans (hv j)
  iapply (wp_load_rect 𝒱₀ (c : Thread nD τ) none Set.univ (m := accM) (r := Rect.unit (s := S1024x1024) (k0_off20 c) S336x128.size (k0_off20_inb c))
    (S := (accK 1 2 c).view.set) (q := fullShare) (f := A2 (xs m) c) (acc_sub 1 2 c _ _ (off20_eq c))) $$ [$]
  iintro Hk12
  iapply (wp_store 𝒱₀ (c : Thread nD τ) none Set.univ (m := accM) (r := Rect.unit (s := S1024x1024) (k0_off20 c) S336x128.size (k0_off20_inb c))
    (S := (accK 1 2 c).view.set) (f := A2 (xs m) c) (acc_sub 1 2 c _ _ (off20_eq c))) $$ [$]
  iintro Hk12
  ihave Hk12 := (Entails.of_eq (acc_stored3' m 1 c (A2 (xs m) c) (k0_off20 c) (k0_off20_inb c) (off20_eq c) (k0_pay9 v413) hv9)) $$ Hk12
  iapply (send_half' m K (wp_send_back2 m K c _ 1 (dev14_par c) (accsl16_keep c) (accsl16_keep c) rfl rfl _ _)) $$ [$]
  iintro ⟨Cd12, HO⟩
  iapply (wait_d' m K (wp_waitDma2_d m K c 0 2 2 rfl (credit_Sh 2 2 _) ((oweB 0 0 c + oweB 0 1 c) + (oweB 1 0 c + oweB 1 1 c) + (oweB 2 0 c + oweB 2 1 c + oweB 2 2 c)) _) (N := 1) (by owes_lv)) $$ [$]
  iintro ⟨HO, Hp022, -⟩
  iapply (wait_d' m K (wp_waitDma2_d m K c 1 2 2 rfl (credit_Sh 2 2 _) ((oweB 0 0 c + oweB 0 1 c) + (oweB 1 0 c + oweB 1 1 c) + (oweB 2 0 c + oweB 2 1 c + oweB 2 2 c)) _) (N := 11) (by owes_lv)) $$ [$]
  iintro ⟨HO, Hp122, Hpay⟩
  ihave ⟨Hs22, Hr22⟩ := (Entails.of_eq ((payload_d m c 1 2 2 0).symm.trans (payload_own_12_2 m c))) $$ Hpay
  iapply (wp_accumulate_tk c 2 2 (A2 (xs m)) (off21_eq c) (stgM := Memref.whole cc0_scratch9)
      ((accK 2 2 c).view.read (Elt F) (A2 (xs m) (par 2 2 c)))
      (by rw [Memref.view_whole, View.set_whole]; exact Finset.subset_univ _)
      (fun j => congrFun (Memref.readAt_unit_zero (Elt F) cc0_scratch9 zero_off _ _) j)
      k0_pay10 (fun a b => shapeCast_self _ _)) $$ [$]
  iintro ⟨Hk22, Hs22⟩
  ihave Hk22 := (Entails.of_eq (pt_congr (accK 2 2 c) c fullShare (stepAdd (A2 (xs m)) 2 c) (A3 (xs m) c) (fun i _ => rfl))) $$ Hk22
  iapply le_wp_ret
  iapply HQ
  iframe # ∗
  isplitl [HO]; · iexists _; iexact HO
  iexists _; iexact Hs22

set_option maxHeartbeats 4000000 in
theorem part16_run (c : Dev nD) (K : Dev nD × Fin 43 → ℕ) (fa : Buf (Elt F) ((c : Thread nD τ).loc cc0_scratch0))
    (v54 v60 v74 v152 v158 : BitVec 32) {Q : PUnit → sProp 𝕄} :
    iprop(Mid15 m K c fa ∗ (Mid16 m K c fa -∗ Q ⟨⟩))
      ⊢ WP(c, atBufs (k0_part16 (F := F)) c v54 v60 v74 v152 v158, Q) := by
  unfold atBufs
  rw [k0_part16_eq_skeleton]
  unfold k0_part16_skel Mid15 Mid16 MidG band0_14 bandP1 bandP2 bandP2s O15 O16 stgs
  rw [agFresh_eq 2 2 c, agSent_eq 2 2 c, agSent_eq 0 2 c, agDone_eq 0 2 c]
  rw [show ((oweB 0 0 c + oweB 0 1 c) + (oweB 1 0 c + oweB 1 1 c) + (oweB 2 0 c + oweB 2 1 c + oweB 2 2 c))
    = ((oweB 0 0 c + oweB 0 1 c) + (oweB 1 0 c + oweB 1 1 c) + (oweB 2 0 c + oweB 2 1 c)) + oweB 2 2 c from by abel]
  simp only [Prog.lift, Prog.bind_op, Prog.bind_ret, Prog.pure_eq_ret]
  iintro ⟨⟨#HR, #Hlev, Hbar, ⟨%W, HO⟩,
      ⟨Hrs0, ⟨Hp202, Hp302, Cd02, Cl02⟩, Hag01, Hag00, Hfix0, Hrem0, Hr01, Hs00, Hs01, Hs02, Hlc00, Hlc10⟩,
      B1,
      ⟨Hrs2, ⟨Hp222, Hp322, Td22, Tl22, Cl22⟩, Hag21, Hag20, Hfix2, Hrem2, Hr21, Hk22, Hr22, Hstg2, Hlc12⟩⟩, HQ⟩
  iapply (send_half' m K (wp_send_back2 m K c _ 2 (dev15_par c) (accsl18_keep c) (accsl18_keep c) rfl rfl _ _)) $$ [$]
  iintro ⟨Cd22, HO⟩
  iapply (wait_d' m K (wp_waitDma2_d m K c 2 0 2 rfl (credit_Sh 0 2 _) ((oweB 0 0 c + oweB 0 1 c) + (oweB 1 0 c + oweB 1 1 c) + (oweB 2 0 c + oweB 2 1 c)) _) (N := 1) (by owes_lv) (by rw [lv_bdep]; decide)) $$ [$]
  iintro ⟨HO, Hp202, Hpay⟩
  ihave Hk02 := (Entails.of_eq ((payload_d m c 2 0 2 0).symm.trans (payload_own_22 m 0 c))) $$ Hpay
  iapply (wait_d' m K (wp_waitDma2_d m K c 3 0 2 rfl (credit_Sh 0 2 _) ((oweB 0 0 c + oweB 0 1 c) + (oweB 1 0 c + oweB 1 1 c) + (oweB 2 0 c + oweB 2 1 c)) _) (N := 12) (by owes_lv) (by rw [lv_bland]; decide)) $$ [$]
  iintro ⟨HO, Hp302, Hpay⟩
  ihave Hl02 := (Entails.of_eq ((payload_d m c 3 0 2 0).symm.trans (payload_own_32 m 0 c))) $$ Hpay
  ihave Hk01 := (join2 m 0 c) $$ [$]
  iapply le_wp_ret
  iapply HQ
  iframe # ∗; iexists _; iexact HO

end Cert.Kernel.Hyp

end
-- ==== Proof.KernelSide.Body2b.lean ====
import proofs.«901103_g7700000000001104_dist_treered_v7x_i8_m1024_n1024_f32_1_alg».proof.Proof.KernelSide.MidSteps
import proofs.«901103_g7700000000001104_dist_treered_v7x_i8_m1024_n1024_f32_1_alg».proof.Proof.KernelSide.Body2Pre

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

local macro "owes_above" : tactic => `(tactic| (
  intro g u h
  repeat' (first
    | exact ⟨(ms_oweB_lv h).1, by rw [(ms_oweB_lv h).2]; decide⟩
    | (rcases Pipeline.add_pos_cases h with h | h))))

set_option maxHeartbeats 2000000 in
theorem part17_run (c : Dev nD) (K : Dev nD × Fin 43 → ℕ) (fa : Buf (Elt F) ((c : Thread nD τ).loc cc0_scratch0))
    (v96 v102 v116 : BitVec 32) {Q : PUnit → sProp 𝕄} :
    iprop(Mid16 m K c fa ∗ (Mid17 m K c fa -∗ Q ⟨⟩))
      ⊢ WP(c, atBufs (k0_part17 (F := F)) c v96 v102 v116, Q) := by
  unfold atBufs
  rw [k0_part17_eq_skeleton]
  unfold k0_part17_skel Mid16 Mid17 MidG bandP1 bandP2s bandP1s bandP2h O16 O17
  rw [agFresh_eq 0 1 c, agSent_eq 0 1 c, agSent_eq 1 2 c, agDone_eq 1 2 c, agFresh_eq 1 1 c, agSent_eq 1 1 c, agSent_eq 2 2 c]
  rw [show (oweB 0 0 c + oweB 0 1 c) + (oweB 1 0 c + oweB 1 1 c) + (oweB 2 0 c + oweB 2 1 c)
      = (oweB 0 0 c + oweB 1 0 c + (oweB 2 0 c + oweB 2 1 c) + oweB 1 1 c) + oweB 0 1 c from by abel]
  simp only [Prog.lift, Prog.bind_op, Prog.bind_ret, Prog.pure_eq_ret]
  iintro ⟨⟨#HR, #Hlev, Hbar, ⟨%W, HO⟩,
      ⟨Hrs0, Hag02, ⟨Hp201, Hp301, Td01, Tl01, Cl01⟩, Hag00, Hfix0, Hrem0, HaP0, HaK0, Hstg0, Hlc0⟩,
      ⟨Hrs1, ⟨Hp212, Hp312, Cd12, Cl12⟩, ⟨Hp211, Hp311, Td11, Tl11, Cl11⟩, Hag10, Hfix1, Hrem1, HaP1, Hstg1, Hlc1⟩,
      ⟨Hrs2, ⟨Hp222, Hp322, Cd22, Cl22⟩, Hag21, Hag20, Hfix2, Hrem2, HaP2, Hstg2, Hlc2⟩⟩, HQ⟩
  iapply (send_half' m K (wp_send_back1 m K c _ 0 (dev16_par c) (accsl8_keep c) (accsl8_keep c) rfl rfl _ _)) $$ [$]
  iintro ⟨Cd01, HO⟩
  iapply (wait_d' m K (wp_waitDma2_d m K c 2 1 2 rfl (credit_Sh 1 2 _) (oweB 0 0 c + oweB 1 0 c + (oweB 2 0 c + oweB 2 1 c) + oweB 1 1 c) _) (N := 1) (by owes_above) (by rw [lv_bdep]; decide)) $$ [$]
  iintro ⟨HO, Hp212, Hpay⟩
  ihave Hk12 := (Entails.of_eq ((payload_d m c 2 1 2 0).symm.trans (payload_own_22 m 1 c))) $$ Hpay
  iapply (wait_d' m K (wp_waitDma2_d m K c 3 1 2 rfl (credit_Sh 1 2 _) (oweB 0 0 c + oweB 1 0 c + (oweB 2 0 c + oweB 2 1 c) + oweB 1 1 c) _) (N := 13) (by owes_above) (by rw [lv_bland]; decide)) $$ [$]
  iintro ⟨HO, Hp312, Hpay⟩
  ihave Hs12 := (Entails.of_eq ((payload_d m c 3 1 2 0).symm.trans (payload_own_32 m 1 c))) $$ Hpay
  ihave HaK1 := (join2 m 1 c) $$ [$]
  iapply (send_half' m K (wp_send_back1 m K c _ 1 (dev17_par c) (accsl10_keep c) (accsl10_keep c) rfl rfl _ _)) $$ [$]
  iintro ⟨Cd11, HO⟩
  iapply (wait_d' m K (wp_waitDma2_d m K c 2 2 2 rfl (credit_Sh 2 2 _) (oweB 0 0 c + oweB 1 0 c + (oweB 2 0 c + oweB 2 1 c)) _) (N := 1) (by owes_above) (by rw [lv_bdep]; decide)) $$ [$]
  iintro ⟨HO, Hp222, Hpay⟩
  ihave Hk22 := (Entails.of_eq ((payload_d m c 2 2 2 0).symm.trans (payload_own_22 m 2 c))) $$ Hpay
  iapply le_wp_ret
  iapply HQ
  iframe # ∗; iexists _; iexact HO

set_option maxHeartbeats 2000000 in
theorem part18_run (c : Dev nD) (K : Dev nD × Fin 43 → ℕ) (fa : Buf (Elt F) ((c : Thread nD τ).loc cc0_scratch0))
    (v60 v138 v144 v158 : BitVec 32) {Q : PUnit → sProp 𝕄} :
    iprop(Mid17 m K c fa ∗ (Mid18 m K c fa -∗ Q ⟨⟩))
      ⊢ WP(c, atBufs (k0_part18 (F := F)) c v60 v138 v144 v158, Q) := by
  unfold atBufs
  rw [k0_part18_eq_skeleton]
  unfold k0_part18_skel Mid17 Mid18 MidG bandP1s bandP2h bandP0 O17 O18
  rw [agSent_eq 0 1 c, agDone_eq 0 1 c, agFresh_eq 2 1 c, agSent_eq 2 1 c, agDone_eq 2 2 c]
  rw [show oweB 0 0 c + oweB 1 0 c + (oweB 2 0 c + oweB 2 1 c) = (oweB 0 0 c + oweB 1 0 c + oweB 2 0 c) + oweB 2 1 c from by abel]
  simp only [Prog.lift, Prog.bind_op, Prog.bind_ret, Prog.pure_eq_ret]
  iintro ⟨⟨#HR, #Hlev, Hbar, ⟨%W, HO⟩,
      ⟨Hrs0, Hag02, ⟨Hp201, Hp301, Cd01, Cl01⟩, Hag00, Hfix0, Hrem0, Hstg0, Hlc0⟩,
      B1,
      ⟨Hrs2, Hp222, Hp322, Cl22, ⟨Hp221, Hp321, Td21, Tl21, Cl21⟩, Hag20, Hfix2, Hrem2, HaP2, Hk22, Hstg2, Hlc2⟩⟩, HQ⟩
  iapply (wait_d' m K (wp_waitDma2_d m K c 3 2 2 rfl (credit_Sh 2 2 _) ((oweB 0 0 c + oweB 1 0 c + oweB 2 0 c) + oweB 2 1 c) _) (N := 14) (by owes_above) (by rw [lv_bland]; decide)) $$ [$]
  iintro ⟨HO, Hp322, Hpay⟩
  ihave Hs22 := (Entails.of_eq ((payload_d m c 3 2 2 0).symm.trans (payload_own_32 m 2 c))) $$ Hpay
  ihave HaK2 := (join2 m 2 c) $$ [$]
  iapply (send_half' m K (wp_send_back1 m K c _ 2 (dev18_par c) (accsl12_keep c) (accsl12_keep c) rfl rfl _ _)) $$ [$]
  iintro ⟨Cd21, HO⟩
  iapply (wait_d' m K (wp_waitDma2_d m K c 2 0 1 rfl (credit_Sh 0 1 _) (oweB 0 0 c + oweB 1 0 c + oweB 2 0 c) _) (N := 1) (by owes_above) (by rw [lv_bdep]; decide)) $$ [$]
  iintro ⟨HO, Hp201, Hpay⟩
  ihave Hk01 := (Entails.of_eq ((payload_d m c 2 0 1 0).symm.trans (payload_own_21 m 0 c))) $$ Hpay
  iapply (wait_d' m K (wp_waitDma2_d m K c 3 0 1 rfl (credit_Sh 0 1 _) (oweB 0 0 c + oweB 1 0 c + oweB 2 0 c) _) (N := 15) (by owes_above) (by rw [lv_bland]; decide)) $$ [$]
  iintro ⟨HO, Hp301, Hpay⟩
  ihave Hs01 := (Entails.of_eq ((payload_d m c 3 0 1 0).symm.trans (payload_own_31 m 0 c))) $$ Hpay
  ihave HaK0 := (join1 m 0 c) $$ [$]
  iapply le_wp_ret
  iapply HQ
  iframe # ∗; iexists _; iexact HO

end Cert.Kernel.Hyp

end
-- ==== Proof.KernelSide.Launch.lean ====
import proofs.«901103_g7700000000001104_dist_treered_v7x_i8_m1024_n1024_f32_1_alg».proof.Proof.KernelSide.Store

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

abbrev DIx : Type := Fin 4 × Fin 3 × Fin 3

abbrev TK : Type := Fin 3 × Fin 3

abbrev LIx : Type := Fin 2 × Fin 3

def e43 : Unit ⊕ (DIx ⊕ LIx) ≃ Fin 43 where
  toFun := fun | .inl _ => 0 | .inr (.inl x) => cidx x.1 x.2.1 x.2.2 | .inr (.inr lt) => lidx lt.1 lt.2
  invFun i := if h : i.val = 0 then .inl () else if h' : i.val < 37 then
      .inr (.inl (⟨min ((i.val - 1) / 9) 3, by omega⟩, ⟨((i.val - 1) / 3) % 3, Nat.mod_lt _ (by decide)⟩, ⟨(i.val - 1) % 3, Nat.mod_lt _ (by decide)⟩))
    else .inr (.inr (⟨min ((i.val - 37) / 3) 1, by omega⟩, ⟨(i.val - 37) % 3, Nat.mod_lt _ (by decide)⟩))
  left_inv := by intro x; revert x; decide
  right_inv := by intro x; revert x; decide

def e42 : DIx ⊕ LIx ≃ DmaSem sig where
  toFun := fun | .inl x => dsem x.1 x.2.1 x.2.2 | .inr lt => lsem lt.1 lt.2
  invFun j := if h : j.val < 36 then .inl (aOf j, tOfS j, kOfS j) else
    .inr (⟨min ((j.val - 36) / 3) 1, by omega⟩, ⟨(j.val - 36) % 3, Nat.mod_lt _ (by decide)⟩)
  left_inv := by intro x; revert x; decide
  right_inv := by intro x; revert x; decide

omit [FloatOps F] in
private theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
private theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in

theorem cells43 (c : Dev nD) (Φ : GSem nD τ sig → sProp 𝕄) :
    (bigSep Finset.univ fun i : Fin 43 => Φ (kcell (c, i)))
      = iprop(Φ (barCell c) ∗ (bigSep Finset.univ fun x : DIx => Φ (dCell c x.1 x.2.1 x.2.2)) ∗ bigSep Finset.univ fun lt : LIx => Φ (lCell c lt.1 lt.2)) := by
  rw [bigSep_univ_equiv e43, bigSep_univ_sum, bigSep_univ_of_subsingleton (), bigSep_univ_sum]
  refine congrArg₂ _ rfl (congrArg₂ _ (bigSep_congr fun x _ => ?_) (bigSep_congr fun lt _ => ?_))
  · rw [show e43 (.inr (.inl x)) = cidx x.1 x.2.1 x.2.2 from rfl, kcell_cidx]
  · rw [show e43 (.inr (.inr lt)) = lidx lt.1 lt.2 from rfl, kcell_lidx]

theorem csem_injective : Function.Injective (csem : Fin 43 → SemLoc sig) := by decide

theorem kcell_injective : Function.Injective (kcell : Dev nD × Fin 43 → GSem nD τ sig) := by
  rintro ⟨c, i⟩ ⟨c', i'⟩ h
  have h1 : c = c' := congrArg (fun g : GSem nD τ sig => g.1.1) h
  subst h1
  have h2 : csem i = csem i' := congrArg Prod.snd h
  rw [csem_injective h2]

def hyperCells : Finset (GSem nD τ sig) := Finset.univ.map ⟨kcell, kcell_injective⟩

theorem lsem_injective {l l' : Fin 2} {t t' : Fin 3} (h : lsem l t = lsem l' t') : l = l' ∧ t = t' :=
  ⟨(lOfS_lsem l t).symm.trans ((congrArg lOfS h).trans (lOfS_lsem l' t')), (kOfS_lsem l t).symm.trans ((congrArg kOfS h).trans (kOfS_lsem l' t'))⟩
theorem dsem_ne_lsem (a : Fin 4) (t k : Fin 3) (l : Fin 2) (t' : Fin 3) : dsem a t k ≠ lsem l t' :=
  fun h => lsem_ge l t' (h ▸ dsem_lt a t k)

theorem dsem_injective {a a' : Fin 4} {t t' k k' : Fin 3} (h : dsem a t k = dsem a' t' k') : a = a' ∧ t = t' ∧ k = k' :=
  ⟨(aOf_dsem a t k).symm.trans ((congrArg aOf h).trans (aOf_dsem a' t' k')),
   (tOfS_dsem a t k).symm.trans ((congrArg tOfS h).trans (tOfS_dsem a' t' k')),
   (kOfS_dsem a t k).symm.trans ((congrArg kOfS h).trans (kOfS_dsem a' t' k'))⟩

abbrev TokIx : Type := Fin 3 ⊕ (DIx ⊕ LIx)
abbrev tokOf (cj : Dev nD × TokIx) : GSem nD τ sig × ℕ × Fin 3 := match cj.2 with
  | .inl b => (barCell cj.1, 0, b)
  | .inr (.inl x) => (dCell cj.1 x.1 x.2.1 x.2.2, 0, 0)
  | .inr (.inr lt) => (lCell cj.1 lt.1 lt.2, 0, 0)

theorem tokOf_injective : Function.Injective (tokOf : Dev nD × TokIx → GSem nD τ sig × ℕ × Fin 3) := by
  rintro ⟨c, j⟩ ⟨c', j'⟩ h
  have h1 : c = c' := by
    have := congrArg (fun x : GSem nD τ sig × ℕ × Fin 3 => x.1.1.1) h
    rcases j with b | x | lt <;> rcases j' with b' | x' | lt' <;> exact this
  subst h1
  have hs := congrArg (fun y : GSem nD τ sig × ℕ × Fin 3 => y.1.2) h
  rcases j with b | x | lt <;> rcases j' with b' | x' | lt'
  · have : b = b' := congrArg (fun x : GSem nD τ sig × ℕ × Fin 3 => x.2.2) h
    rw [this]
  · exact absurd hs (fun h' => by cases h')
  · exact absurd hs (fun h' => by cases h')
  · exact absurd hs (fun h' => by cases h')
  · obtain ⟨ha, ht, hk⟩ := dsem_injective (SemLoc.dma.inj hs)
    obtain ⟨a, t, k⟩ := x; obtain ⟨a', t', k'⟩ := x'
    simp only at ha ht hk; subst ha ht hk; rfl
  · exact absurd (SemLoc.dma.inj hs) (dsem_ne_lsem _ _ _ _ _)
  · exact absurd hs (fun h' => by cases h')
  · exact absurd (SemLoc.dma.inj hs).symm (dsem_ne_lsem _ _ _ _ _)
  · obtain ⟨hl, ht⟩ := lsem_injective (SemLoc.dma.inj hs)
    obtain ⟨l, t⟩ := lt; obtain ⟨l', t'⟩ := lt'
    simp only at hl ht; subst hl ht; rfl

def hyperToks : Finset (GSem nD τ sig × ℕ × Fin 3) := Finset.univ.map ⟨tokOf, tokOf_injective⟩

def u₀ : UU :=
  (initOf (Pipeline.cells cfgs cellOf_inj) (Pipeline.launchToks cfgs cellOf_inj), initOf hyperCells hyperToks)

def toks (c : Dev nD) : sProp 𝕄 :=
  iprop((bigSep Finset.univ fun b : Fin 3 => dutyTok ER (barCell c) 0 b)
    ∗ (bigSep Finset.univ fun x : DIx => dutyTok ER (dCell c x.1 x.2.1 x.2.2) 0 0)
    ∗ bigSep Finset.univ fun lt : LIx => dutyTok ER (lCell c lt.1 lt.2) 0 0)

def G (c : Dev nD) : sProp 𝕄 :=
  iprop((bigSep Finset.univ fun i : Fin 43 => roundState ER (Rd m) (kcell (c, i)) 0)
    ∗ (bigSep Finset.univ fun i : Fin 43 => iprop(atPos ER (kcell (c, i)) 0 ∅ 0 ∗ reached ER (kcell (c, i)) 0)) ∗ toks c)

def G' (c : Dev nD) : sProp 𝕄 := iprop(∃ K, ghost m K c)

theorem fund_hyper : BI.own (ER (initOf hyperCells hyperToks)) ⊢ (|==> bigSep Finset.univ (G m) : sProp 𝕄) := by
  have hX (Φ : GSem nD τ sig → sProp 𝕄) : bigSep hyperCells Φ = bigSep Finset.univ fun c : Dev nD => bigSep Finset.univ fun i : Fin 43 => Φ (kcell (c, i)) := by
    unfold hyperCells; rw [bigSep_map, bigSep_univ_prod]; rfl
  have hT : bigSep hyperToks (fun x => (dutyTok ER x.1 x.2.1 x.2.2 : sProp 𝕄)) = bigSep Finset.univ fun c : Dev nD => toks c := by
    unfold hyperToks; rw [bigSep_map, bigSep_univ_prod]
    exact bigSep_congr fun c _ => by unfold toks; rw [bigSep_univ_sum, bigSep_univ_sum]; rfl
  iintro HX
  imod (Rounds.fund ER (Rd m) hyperCells hyperToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  iframe

omit [FloatOps F] in

theorem ownSems0_split (c : Dev nD) : (Pipeline.ownSems0 (Ix := Unit) (Name := ℕ) (U := UU) (Lvl := ℕ) (Val := Elt F) (τ := τ) osem c : sProp 𝕄)
    = iprop((bigSep Finset.univ fun x : DIx => semVal (dCell c x.1 x.2.1 x.2.2) 0) ∗ bigSep Finset.univ fun lt : LIx => semVal (lCell c lt.1 lt.2) 0) := by
  unfold Pipeline.ownSems0
  rw [bigSep_univ_equiv e42, bigSep_univ_sum]
  rfl
omit [FloatOps F] in

theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 43 => semVal (kcell (c, i)) 0 : sProp 𝕄) := by
  rw [ownSems0_split, unscopedSems0_eq, cells43 c (fun g => semVal g 0)]
  iintro ⟨⟨HD, HL⟩, HB⟩
  iframe

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 43 => iprop(∃ κ : ℕ, cellInv ER (Rd m) κ (kcell (c, i))))
          ∗ (bigSep Finset.univ fun i : Fin 43 => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · iframe
  imod (show iprop((bigSep Finset.univ fun i : Fin 43 => semVal (kcell (c, i)) 0) ∗ bigSep Finset.univ fun i : Fin 43 => roundState ER (Rd m) (kcell (c, i)) 0)
      ⊢ (|={Set.univ}=> bigSep Finset.univ fun i : Fin 43 => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · iframe
  imodintro
  iframe

omit [FloatOps F] in

private theorem deal {α : Type} [Fintype α] (f : α → Dev nD → Dev nD) (hf : ∀ x c, f x (f x c) = c) (Φ : Dev nD → α → sProp 𝕄) :
    (bigSep Finset.univ fun c : Dev nD => bigSep Finset.univ fun x : α => Φ c x)
      = bigSep Finset.univ fun c : Dev nD => bigSep Finset.univ fun x : α => Φ (f x c) x :=
  calc (bigSep Finset.univ fun c : Dev nD => bigSep Finset.univ fun x : α => Φ c x)
      = bigSep Finset.univ fun x : α => bigSep Finset.univ fun c : Dev nD => Φ c x := bigSep_univ_comm _
    _ = bigSep Finset.univ fun x : α => bigSep Finset.univ fun c : Dev nD => Φ (f x c) x :=
        bigSep_congr fun x _ => bigSep_univ_equiv (⟨f x, f x, hf x, hf x⟩ : Dev nD ≃ Dev nD) (fun c => Φ c x)
    _ = _ := bigSep_univ_comm _

omit [FloatOps F] in
private theorem par_par (t k : Fin 3) (c : Dev nD) : par t k (par t k c) = c := nb_nb (t + k) c

omit [FloatOps F] in

theorem toks_around : (bigSep Finset.univ fun c : Dev nD => (toks c : sProp 𝕄)) ⊢ bigSep Finset.univ fun c : Dev nD => payToks c := by
  unfold toks payToks
  simp only [bigSep_univ_prod (α := Fin 4) (β := TK), bigSep_fin4, bigSep_sep']
  rw [deal (fun b c => nb b c) nb_nb (fun c b => (dutyTok ER (barCell c) 0 b : sProp 𝕄)),
    deal (fun (tk : TK) c => par tk.1 tk.2 c) (fun tk c => par_par tk.1 tk.2 c) (fun c tk => (dutyTok ER (dCell c 1 tk.1 tk.2) 0 0 : sProp 𝕄)),
    deal (fun (tk : TK) c => par tk.1 tk.2 c) (fun tk c => par_par tk.1 tk.2 c) (fun c tk => (dutyTok ER (dCell c 3 tk.1 tk.2) 0 0 : sProp 𝕄))]

theorem inv_at (K : Dev nD × Fin 43 → ℕ) (ci : Dev nD × Fin 43) :
    (bigSep Finset.univ fun ci : Dev nD × Fin 43 => (cellInv ER (Rd m) (K ci) (kcell ci) : sProp 𝕄)) ⊢ cellInv ER (Rd m) (K ci) (kcell ci) :=
  bigSep_elim (Finset.mem_univ ci)

def linear (c : Dev nD) : sProp 𝕄 :=
  iprop((bigSep Finset.univ fun i : Fin 43 => atPos ER (kcell (c, i)) 0 ∅ 0) ∗ payToks c)

theorem ghost_intro (K : Dev nD × Fin 43 → ℕ) (c : Dev nD) : iprop(records m K ∗ linear c) ⊢ G' m c := by
  unfold linear G' ghost
  iintro ⟨#HR, Hat, Htok⟩
  iexists K
  iframe; iexact HR

theorem regroup :
    (bigSep Finset.univ fun c : Dev nD => iprop((bigSep Finset.univ fun i : Fin 43 => iprop(∃ κ : ℕ, cellInv ER (Rd m) κ (kcell (c, i))))
          ∗ (bigSep Finset.univ fun i : Fin 43 => iprop(atPos ER (kcell (c, i)) 0 ∅ 0 ∗ reached ER (kcell (c, i)) 0)) ∗ toks c) : sProp 𝕄)
      ⊢ bigSep Finset.univ (G' m) := by
  simp only [bigSep_sep']
  rw [← bigSep_univ_prod (fun ci : Dev nD × Fin 43 => iprop(∃ κ : ℕ, cellInv ER (Rd m) κ (kcell ci))),
    ← bigSep_univ_prod (fun ci : Dev nD × Fin 43 => (reached ER (kcell ci) 0 : sProp 𝕄))]
  iintro ⟨HI, ⟨Hat, #HR⟩, Htok⟩
  ihave HK := (BI.bigSep_exists_pi Finset.univ (fun (ci : Dev nD × Fin 43) (κ : ℕ) => (cellInv ER (Rd m) κ (kcell ci) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (show iprop((bigSep Finset.univ fun c : Dev nD => bigSep Finset.univ fun i : Fin 43 => (atPos ER (kcell (c, i)) 0 ∅ 0 : sProp 𝕄))
        ∗ (bigSep Finset.univ fun c : Dev nD => (payToks c : sProp 𝕄))) = bigSep Finset.univ fun c : Dev nD => linear c from by
      unfold linear; rw [bigSep_sep']))
    iframe

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in

theorem cred_bar (b : Fin 3) (c : Dev nD) :
    (Pipeline.launchCred (fun d : Dev nD => (tallyAt (barCell (nb b d)) () 1 : CellTallies nD τ sig Unit)) c : sProp 𝕄) ⊢ cred (tallyAt (barCell c) () 1) :=
  Pipeline.launchCred_tallyAt (.reg barS) (nb b) (nb b) (nb_nb b) (nb_nb b) () 1 c
omit [FloatOps F] in

theorem cred_d (a : Fin 4) (t k : Fin 3) (c : Dev nD) :
    (Pipeline.launchCred (fun d : Dev nD => (tallyAt (dCell (par t k d) a t k) () (amt t k) : CellTallies nD τ sig Unit)) c : sProp 𝕄)
      ⊢ cred (tallyAt (dCell c a t k) () (amt t k)) :=
  Pipeline.launchCred_tallyAt (.dma (dsem a t k)) (par t k) (par t k) (par_par t k) (par_par t k) () (amt t k) c

omit [FloatOps F] in
theorem cred_row (a : Fin 4) (t : Fin 3) (c : Dev nD) :
    (Pipeline.launchCred (owedRow a t) c : sProp 𝕄)
      ⊢ iprop(cred (tallyAt (dCell c a t 0) () (amt t 0)) ∗ cred (tallyAt (dCell c a t 1) () (amt t 1)) ∗ cred (tallyAt (dCell c a t 2) () (amt t 2))) := by
  delta owedRow; rw [Pipeline.launchCred_add, Pipeline.launchCred_add]
  iintro ⟨⟨H0, H1⟩, H2⟩
  isplitl [H0]; · iapply (cred_d (F := F) a t 0 c); iexact H0
  isplitl [H1]; · iapply (cred_d (F := F) a t 1 c); iexact H1
  iapply (cred_d (F := F) a t 2 c); iexact H2

omit [FloatOps F] in
theorem cred_owedBar (c : Dev nD) : (Pipeline.launchCred owedBar c : sProp 𝕄) ⊢ cred (tallyAt (barCell c) () 3) := by
  delta owedBar; rw [Pipeline.launchCred_add, Pipeline.launchCred_add,
    show (tallyAt (barCell c) () 3 : CellTallies nD τ sig Unit) = tallyAt (barCell c) () 1 + tallyAt (barCell c) () 1 + tallyAt (barCell c) () 1 from by
      rw [tallyAt_add, tallyAt_add]]
  iintro ⟨⟨H0, H1⟩, H2⟩
  iapply (cred_add _ _).2
  isplitr [H2]
  · iapply (cred_add _ _).2
    isplitl [H0]
    · iapply (cred_bar (F := F) 0 c); iexact H0
    · iapply (cred_bar (F := F) 1 c); iexact H1
  · iapply (cred_bar (F := F) 2 c); iexact H2

omit [FloatOps F] in
private theorem bigSep_tk (Φ : TK → sProp 𝕄) : bigSep Finset.univ Φ
    = iprop((Φ (0, 0) ∗ Φ (0, 1) ∗ Φ (0, 2)) ∗ (Φ (1, 0) ∗ Φ (1, 1) ∗ Φ (1, 2)) ∗ (Φ (2, 0) ∗ Φ (2, 1) ∗ Φ (2, 2))) := by
  rw [bigSep_univ_prod, bigSep_fin3, bigSep_fin3, bigSep_fin3, bigSep_fin3]

omit [FloatOps F] in
theorem creds_intro (c : Dev nD) : (Pipeline.launchCred O₀ c : sProp 𝕄) ⊢ creds c := by
  delta O₀; rw [Pipeline.launchCred_add, Pipeline.launchCred_add, Pipeline.launchCred_add, Pipeline.launchCred_add, Pipeline.launchCred_add, Pipeline.launchCred_add]
  unfold creds
  rw [bigSep_tk]
  iintro ⟨⟨HB, ⟨H10, H11⟩, H12⟩, ⟨H30, H31⟩, H32⟩
  ihave HB' := (cred_owedBar (F := F) c) $$ HB
  icases (cred_row (F := F) 1 0 c) $$ H10 with ⟨A00, A01, A02⟩
  icases (cred_row (F := F) 1 1 c) $$ H11 with ⟨A10, A11, A12⟩
  icases (cred_row (F := F) 1 2 c) $$ H12 with ⟨A20, A21, A22⟩
  icases (cred_row (F := F) 3 0 c) $$ H30 with ⟨B00, B01, B02⟩
  icases (cred_row (F := F) 3 1 c) $$ H31 with ⟨B10, B11, B12⟩
  icases (cred_row (F := F) 3 2 c) $$ H32 with ⟨B20, B21, B22⟩
  iframe

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Hx, Ho⟩, Hlev, Hcr, -, HG⟩
  ihave Hc := (creds_intro (F := F) c) $$ Hcr
  imodintro
  unfold start
  iframe

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  iframe

def Yc (c : Dev nD) : sProp 𝕄 :=
  iprop((((c : Thread nD τ).loc main_arg0) ↦{fullShare} m ((c : Thread nD τ).loc main_arg0))
    ∗ (((c : Thread nD τ).loc main_v1) ↦{fullShare} (B0 (xs m) c : Vec F S1024x1024 .f32)))

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl]
  unfold Φ₁ Yc
  iintro ⟨Hx, Ho, Hs, Hr⟩
  iframe

theorem waits (c : Dev nD) : (levAts L lv : sProp 𝕄) ⊢ Pipeline.cellsWaits cfgs (dats m) () 0 c :=
  Pipeline.cellsWaits_intro cfgs (dats m) () 0 c fun w s t => absurd w.isLt (Nat.not_lt_zero _)

set_option maxRecDepth 8000 in

theorem run_main (hbody : ∀ c : Dev nD, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_hyper m) $$ HX with HG
      imodintro
      iframe)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => s.mem ((c : Thread nD τ).loc main_v1) = (B0 (xs m) c : Vec F S1024x1024 .f32)
      ∧ s.mem ((c : Thread nD τ).loc main_arg0) = m ((c : Thread nD τ).loc main_arg0))
    (hY := fun c s' => by
      unfold Yc
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun s h c => (h c).2.2)

end Cert.Kernel.Hyp

end
-- ==== Proof.KernelSide.Close.lean ====
import proofs.«901103_g7700000000001104_dist_treered_v7x_i8_m1024_n1024_f32_1_alg».proof.Proof.KernelSide.Launch
import proofs.«901103_g7700000000001104_dist_treered_v7x_i8_m1024_n1024_f32_1_alg».proof.Proof.KernelSide.Regions

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem cell_close (K : Dev nD × Fin 43 → ℕ) (ci : Dev nD × Fin 43) :
    iprop(records m K ∗ atPos ER (kcell ci) 1 ∅ 0) ⊢ (|={Set.univ}=> semVal (kcell ci) 0 : sProp 𝕄) := by
  unfold records
  iintro ⟨⟨#HI, -⟩, Hat⟩
  iapply (Rounds.cell_close ER (Rd m) (Set.mem_univ (K ci)) (fun h => h) (R := 1) (fun r hr => duties_later m (kcell ci) r hr))
  isplitr
  · iapply (inv_at m K ci); iexact HI
  · iexact Hat

theorem cells_close_l (K : Dev nD × Fin 43 → ℕ) (c : Dev nD) :
    iprop(records m K ∗ bigSep Finset.univ fun lt : LIx => atPos ER (lCell c lt.1 lt.2) 1 ∅ 0)
      ⊢ (|={Set.univ}=> bigSep Finset.univ fun lt : LIx => semVal (lCell c lt.1 lt.2) 0 : sProp 𝕄) :=
  (bigSep_with_persistent (R := records m K) fun lt _ => by rw [← kcell_lidx]; exact cell_close m K (c, lidx lt.1 lt.2)).trans (bigSep_fupd _ _)

omit [FloatOps F] in

theorem bigSep_lix (Φ : LIx → sProp 𝕄) : bigSep Finset.univ Φ
    = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ

theorem cells_close (K : Dev nD × Fin 43 → ℕ) (c : Dev nD) :
    iprop(records m K ∗ bigSep Finset.univ fun x : DIx => atPos ER (dCell c x.1 x.2.1 x.2.2) 1 ∅ 0)
      ⊢ (|={Set.univ}=> bigSep Finset.univ fun x : DIx => semVal (dCell c x.1 x.2.1 x.2.2) 0 : sProp 𝕄) :=
  (bigSep_with_persistent (R := records m K) fun x _ => by rw [← kcell_cidx]; exact cell_close m K (c, cidx x.1 x.2.1 x.2.2)).trans (bigSep_fupd _ _)

omit [FloatOps F] in

theorem bigSep_dix (Φ : DIx → sProp 𝕄) : bigSep Finset.univ Φ
    = iprop(Φ (0, 0, 0) ∗ Φ (0, 0, 1) ∗ Φ (0, 0, 2) ∗ Φ (0, 1, 0) ∗ Φ (0, 1, 1) ∗ Φ (0, 1, 2) ∗ Φ (0, 2, 0) ∗ Φ (0, 2, 1) ∗ Φ (0, 2, 2) ∗ Φ (1, 0, 0) ∗ Φ (1, 0, 1) ∗ Φ (1, 0, 2) ∗ Φ (1, 1, 0) ∗ Φ (1, 1, 1) ∗ Φ (1, 1, 2) ∗ Φ (1, 2, 0) ∗ Φ (1, 2, 1) ∗ Φ (1, 2, 2) ∗ Φ (2, 0, 0) ∗ Φ (2, 0, 1) ∗ Φ (2, 0, 2) ∗ Φ (2, 1, 0) ∗ Φ (2, 1, 1) ∗ Φ (2, 1, 2) ∗ Φ (2, 2, 0) ∗ Φ (2, 2, 1) ∗ Φ (2, 2, 2) ∗ Φ (3, 0, 0) ∗ Φ (3, 0, 1) ∗ Φ (3, 0, 2) ∗ Φ (3, 1, 0) ∗ Φ (3, 1, 1) ∗ Φ (3, 1, 2) ∗ Φ (3, 2, 0) ∗ Φ (3, 2, 1) ∗ Φ (3, 2, 2)) :=
  bigSep_univ_eq_bigSepL [(0, 0, 0), (0, 0, 1), (0, 0, 2), (0, 1, 0), (0, 1, 1), (0, 1, 2), (0, 2, 0), (0, 2, 1), (0, 2, 2), (1, 0, 0), (1, 0, 1), (1, 0, 2), (1, 1, 0), (1, 1, 1), (1, 1, 2), (1, 2, 0), (1, 2, 1), (1, 2, 2), (2, 0, 0), (2, 0, 1), (2, 0, 2), (2, 1, 0), (2, 1, 1), (2, 1, 2), (2, 2, 0), (2, 2, 1), (2, 2, 2), (3, 0, 0), (3, 0, 1), (3, 0, 2), (3, 1, 0), (3, 1, 1), (3, 1, 2), (3, 2, 0), (3, 2, 1), (3, 2, 2)] (by decide) (by decide) Φ

omit [FloatOps F] in

theorem acc_join (c : Dev nD) (f1 f2 f3 f4 f5 f6 : Buf (Elt F) ((c : Thread nD τ).loc cc0_scratch0)) :
    iprop(((accK 0 0 c).view.loc (c : Thread nD τ) ↦[(accK 0 0 c).view.set]{fullShare} f1)
        ∗ ((accS 0 0 c).view.loc (c : Thread nD τ) ↦[(accS 0 0 c).view.set]{fullShare} f2)
        ∗ ((accK 1 0 c).view.loc (c : Thread nD τ) ↦[(accK 1 0 c).view.set]{fullShare} f3)
        ∗ ((accS 1 0 c).view.loc (c : Thread nD τ) ↦[(accS 1 0 c).view.set]{fullShare} f4)
        ∗ ((accK 2 0 c).view.loc (c : Thread nD τ) ↦[(accK 2 0 c).view.set]{fullShare} f5)
        ∗ ((accS 2 0 c).view.loc (c : Thread nD τ) ↦[(accS 2 0 c).view.set]{fullShare} f6))
      ⊢ (∃ f, ((c : Thread nD τ).loc cc0_scratch0) ↦{fullShare} f : sProp 𝕄) := by
  obtain ⟨d1, d2, d3, d4, d5⟩ := six_disj c
  rw [accK_set, accK_set, accK_set, accS_set, accS_set, accS_set]
  show iprop((((c : Thread nD τ).loc cc0_scratch0) ↦[(kR 0 0 c).set]{fullShare} f1)
        ∗ (((c : Thread nD τ).loc cc0_scratch0) ↦[(sR 0 0 c).set]{fullShare} f2)
        ∗ (((c : Thread nD τ).loc cc0_scratch0) ↦[(kR 1 0 c).set]{fullShare} f3)
        ∗ (((c : Thread nD τ).loc cc0_scratch0) ↦[(sR 1 0 c).set]{fullShare} f4)
        ∗ (((c : Thread nD τ).loc cc0_scratch0) ↦[(kR 2 0 c).set]{fullShare} f5)
        ∗ (((c : Thread nD τ).loc cc0_scratch0) ↦[(sR 2 0 c).set]{fullShare} f6)) ⊢ _
  iintro ⟨H1, H2, H3, H4, H5, H6⟩
  ihave H56 := (pointsTo_join (ℓ := ((c : Thread nD τ).loc cc0_scratch0)) (q := fullShare) d5) $$ [H5 H6]
  · iframe
  ihave H46 := (pointsTo_join (ℓ := ((c : Thread nD τ).loc cc0_scratch0)) (q := fullShare) d4) $$ [H4 H56]
  · iframe
  ihave H36 := (pointsTo_join (ℓ := ((c : Thread nD τ).loc cc0_scratch0)) (q := fullShare) d3) $$ [H3 H46]
  · iframe
  ihave H26 := (pointsTo_join (ℓ := ((c : Thread nD τ).loc cc0_scratch0)) (q := fullShare) d2) $$ [H2 H36]
  · iframe
  ihave H16 := (pointsTo_join (ℓ := ((c : Thread nD τ).loc cc0_scratch0)) (q := fullShare) d1) $$ [H1 H26]
  · iframe
  iexists _
  rw [six_cover c]
  iexact H16

def closeIn (c : Dev nD) : sProp 𝕄 :=
  iprop(((xK 0 c).view.loc (c : Thread nD τ) ↦[(xK 0 c).view.set]{fullShare} xs m c)
    ∗ ((xS 0 c).view.loc (c : Thread nD τ) ↦[(xS 0 c).view.set]{fullShare} xs m c)
    ∗ ((xK 1 c).view.loc (c : Thread nD τ) ↦[(xK 1 c).view.set]{fullShare} xs m c)
    ∗ ((xS 1 c).view.loc (c : Thread nD τ) ↦[(xS 1 c).view.set]{fullShare} xs m c)
    ∗ ((xK 2 c).view.loc (c : Thread nD τ) ↦[(xK 2 c).view.set]{fullShare} xs m c)
    ∗ ((xS 2 c).view.loc (c : Thread nD τ) ↦[(xS 2 c).view.set]{fullShare} xs m c))

def closeOut (c : Dev nD) : sProp 𝕄 :=
  iprop(((outK 0 c).view.loc (c : Thread nD τ) ↦[(outK 0 c).view.set]{fullShare} (B0 (xs m) c : Vec F S1024x1024 .f32))
    ∗ ((outS 0 c).view.loc (c : Thread nD τ) ↦[(outS 0 c).view.set]{fullShare} (B0 (xs m) c : Vec F S1024x1024 .f32))
    ∗ ((outK 1 c).view.loc (c : Thread nD τ) ↦[(outK 1 c).view.set]{fullShare} (B0 (xs m) c : Vec F S1024x1024 .f32))
    ∗ ((outS 1 c).view.loc (c : Thread nD τ) ↦[(outS 1 c).view.set]{fullShare} (B0 (xs m) c : Vec F S1024x1024 .f32))
    ∗ ((outK 2 c).view.loc (c : Thread nD τ) ↦[(outK 2 c).view.set]{fullShare} (B0 (xs m) c : Vec F S1024x1024 .f32))
    ∗ ((outS 2 c).view.loc (c : Thread nD τ) ↦[(outS 2 c).view.set]{fullShare} (B0 (xs m) c : Vec F S1024x1024 .f32)))

def closeAcc (c : Dev nD) : sProp 𝕄 :=
  iprop((∃ f : Buf (Elt F) ((c : Thread nD τ).loc cc0_scratch0), ((accK 0 0 c).view.loc (c : Thread nD τ) ↦[(accK 0 0 c).view.set]{fullShare} f))
    ∗ (∃ f : Buf (Elt F) ((c : Thread nD τ).loc cc0_scratch0), ((accS 0 0 c).view.loc (c : Thread nD τ) ↦[(accS 0 0 c).view.set]{fullShare} f))
    ∗ (∃ f : Buf (Elt F) ((c : Thread nD τ).loc cc0_scratch0), ((accK 1 0 c).view.loc (c : Thread nD τ) ↦[(accK 1 0 c).view.set]{fullShare} f))
    ∗ (∃ f : Buf (Elt F) ((c : Thread nD τ).loc cc0_scratch0), ((accS 1 0 c).view.loc (c : Thread nD τ) ↦[(accS 1 0 c).view.set]{fullShare} f))
    ∗ (∃ f : Buf (Elt F) ((c : Thread nD τ).loc cc0_scratch0), ((accK 2 0 c).view.loc (c : Thread nD τ) ↦[(accK 2 0 c).view.set]{fullShare} f))
    ∗ (∃ f : Buf (Elt F) ((c : Thread nD τ).loc cc0_scratch0), ((accS 2 0 c).view.loc (c : Thread nD τ) ↦[(accS 2 0 c).view.set]{fullShare} f)))

def closeStg (c : Dev nD) : sProp 𝕄 :=
  iprop((∃ f, ((stg 0 0).view.loc (c : Thread nD τ) ↦[(stg 0 0).view.set]{fullShare} f))
    ∗ (∃ f, ((stg 0 1).view.loc (c : Thread nD τ) ↦[(stg 0 1).view.set]{fullShare} f))
    ∗ (∃ f, ((stg 0 2).view.loc (c : Thread nD τ) ↦[(stg 0 2).view.set]{fullShare} f))
    ∗ (∃ f, ((stg 1 0).view.loc (c : Thread nD τ) ↦[(stg 1 0).view.set]{fullShare} f))
    ∗ (∃ f, ((stg 1 1).view.loc (c : Thread nD τ) ↦[(stg 1 1).view.set]{fullShare} f))
    ∗ (∃ f, ((stg 1 2).view.loc (c : Thread nD τ) ↦[(stg 1 2).view.set]{fullShare} f))
    ∗ (∃ f, ((stg 2 0).view.loc (c : Thread nD τ) ↦[(stg 2 0).view.set]{fullShare} f))
    ∗ (∃ f, ((stg 2 1).view.loc (c : Thread nD τ) ↦[(stg 2 1).view.set]{fullShare} f))
    ∗ (∃ f, ((stg 2 2).view.loc (c : Thread nD τ) ↦[(stg 2 2).view.set]{fullShare} f)))

theorem close_body (K : Dev nD × Fin 43 → ℕ) (c : Dev nD) :
    iprop(records m K ∗ (bigSep Finset.univ fun x : DIx => atPos ER (dCell c x.1 x.2.1 x.2.2) 1 ∅ 0)
        ∗ (bigSep Finset.univ fun lt : LIx => atPos ER (lCell c lt.1 lt.2) 1 ∅ 0)
        ∗ closeIn m c ∗ closeOut m c ∗ closeAcc c ∗ closeStg c)
      ⊢ (|={Set.univ}=> Φ₁ m c : sProp 𝕄) := by
  iintro ⟨#HR, Hat, Hatl, Hin, Hout, Hacc, Hstg⟩
  imod (cells_close m K c) $$ [Hat] with Hsem
  · iframe; iexact HR
  imod (cells_close_l m K c) $$ [Hatl] with Hloc
  · iframe; iexact HR
  imodintro
  unfold Φ₁
  isplitl [Hin]
  · unfold closeIn; iapply (x_split c (xs m c)).2; iexact Hin
  isplitl [Hout]
  · unfold closeOut; iapply (out_split c (B0 (xs m) c : Vec F S1024x1024 .f32)).2; iexact Hout
  isplitl [Hsem Hloc]
  · rw [ownSems0_split]
    isplitl [Hsem] <;> iassumption
  · rw [scopedRest0_eq]
    unfold closeAcc closeStg
    icases Hacc with ⟨⟨%f1, H1⟩, ⟨%f2, H2⟩, ⟨%f3, H3⟩, ⟨%f4, H4⟩, ⟨%f5, H5⟩, ⟨%f6, H6⟩⟩
    icases Hstg with ⟨S1, S2, S3, S4, S5, S6, S7, S8, S9⟩
    simp only [View.set_whole]
    isplitl [H1 H2 H3 H4 H5 H6]
    · iapply (acc_join (F := F) c f1 f2 f3 f4 f5 f6); iframe
    iframe

end Cert.Kernel.Hyp

end
-- ==== Proof.KernelSide.Body3.lean ====
import proofs.«901103_g7700000000001104_dist_treered_v7x_i8_m1024_n1024_f32_1_alg».proof.Proof.KernelSide.MidSteps
import proofs.«901103_g7700000000001104_dist_treered_v7x_i8_m1024_n1024_f32_1_alg».proof.Proof.KernelSide.Body2Pre
import proofs.«901103_g7700000000001104_dist_treered_v7x_i8_m1024_n1024_f32_1_alg».proof.Proof.KernelSide.Close

noncomputable section

namespace Cert.Kernel.Hyp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "pt(" M ", " d ", " q ", " f ")" =>
  pointsTo (View.loc (d : Thread nD τ) (Memref.view M)) (View.set (Memref.view M)) q f

local notation "WP(" c ", " e ", " Q ")" =>
  wp Idealize.ShloMosaic.frame (wpE (defs₀ (F := F)) 𝒱₀ (c : Thread nD τ) none) Set.univ e Q

local macro "owes_lv" : tactic => `(tactic| (
  intro g u h
  repeat' (first
    | exact ⟨(ms_oweB_lv h).1, by rw [(ms_oweB_lv h).2]; decide⟩
    | (rcases Pipeline.add_pos_cases h with h | h))))

theorem part19_run (c : Dev nD) (K : Dev nD × Fin 43 → ℕ) (fa : Buf (Elt F) ((c : Thread nD τ).loc cc0_scratch0))
    (v40 v46 v82 v102 : BitVec 32) {Q : BitVec 32 → sProp 𝕄} :
    iprop(Mid18 m K c fa ∗ (∀ v, Mid19 m K c fa -∗ Q v))
      ⊢ WP(c, atBufs (k0_part19 (F := F)) c v40 v46 v82 v102, Q) := by
  unfold atBufs
  rw [k0_part19_eq_skeleton]
  unfold k0_part19_skel Mid18 Mid19 MidG bandP0 bandP1s bandP0s O18 O19 bandFix bandFixX lcFresh lcSent
  rw [agFresh_eq 0 0 c, agSent_eq 1 1 c, agSent_eq 0 0 c, agDone_eq 1 1 c]
  rw [show oweB 0 0 c + oweB 1 0 c + oweB 2 0 c = (oweB 1 0 c + oweB 2 0 c) + oweB 0 0 c from by abel]
  simp only [Prog.lift, Prog.bind_op, Prog.bind_ret, Prog.pure_eq_ret]
  iintro ⟨⟨#HR, #Hlev, Hbar, ⟨%W, HO⟩,
      ⟨Hrs0, Hag02, Hag01, ⟨Hp200, Hp300, Td00, Tl00, Cl00⟩, ⟨HxK0, HxS0, HoK0, HaS0⟩, Hrem0, Hacc0, Hstg0, ⟨Hl0, Tlc0⟩⟩,
      ⟨Hrs1, Hag12, ⟨Hp211, Hp311, Cd11, Cl11⟩, Hag10, Hfix1, Hrem1, Hstg1, Hlc1⟩, B2⟩, HQ⟩
  ihave #HIl10 := (inv_l m K c 1 0) $$ HR
  ihave #Hrl10 := (reached_l m K c 1 0) $$ HR
  ihave ⟨HaL, HaR⟩ := (pt_halve (accK 0 0 c) c fullShare (B1 (xs m) c)).1 $$ Hacc0
  iapply (send_half' m K (wp_send_back0 m K c _ 0 (dev19_par c) (accsl4 c) (outsl4 c) rfl rfl _ _)) $$ [$]
  iintro ⟨Cd00, HO⟩
  iapply (wp_copy_l1 m K c 0 (accsl4 c) (outsl4 c) rfl) $$ [$]
  iintro Clc0
  iapply (wait_d' m K (wp_waitDma2_d m K c 2 1 1 rfl (credit_Sh 1 1 _) (oweB 1 0 c + oweB 2 0 c) _) (N := 1) (by owes_lv) (by rw [lv_bdep]; decide)) $$ [$]
  iintro ⟨HO, Hp211, Hpay⟩
  ihave Hk11 := (Entails.of_eq ((payload_d m c 2 1 1 0).symm.trans (payload_own_21 m 1 c))) $$ Hpay
  iapply (wait_d' m K (wp_waitDma2_d m K c 3 1 1 rfl (credit_Sh 1 1 _) (oweB 1 0 c + oweB 2 0 c) _) (N := 16) (by owes_lv) (by rw [lv_bland]; decide)) $$ [$]
  iintro ⟨HO, Hp311, Hpay⟩
  ihave Hs11 := (Entails.of_eq ((payload_d m c 3 1 1 0).symm.trans (payload_own_31 m 1 c))) $$ Hpay
  ihave Hacc1 := (join1 m 1 c) $$ [$]
  iapply le_wp_ret
  iapply HQ $$ %(1#32 : BitVec 32)
  iframe # ∗; iexists _; iexact HO

theorem part20_run (c : Dev nD) (K : Dev nD × Fin 43 → ℕ) (fa : Buf (Elt F) ((c : Thread nD τ).loc cc0_scratch0))
    (v82 v88 v124 v130 v144 c1_i32_514 : BitVec 32) {Q : PUnit → sProp 𝕄} :
    iprop(Mid19 m K c fa ∗ (Mid20 m K c fa -∗ Q ⟨⟩))
      ⊢ WP(c, atBufs (k0_part20 (F := F)) c v82 v88 v124 v130 v144 c1_i32_514, Q) := by
  unfold atBufs
  rw [k0_part20_eq_skeleton]
  unfold k0_part20_skel Mid19 Mid20 MidG bandP0 bandP1s bandP0s O19 O20 bandFix bandFixX lcFresh lcSent
  rw [agFresh_eq 1 0 c, agSent_eq 2 1 c, agSent_eq 1 0 c, agDone_eq 2 1 c]
  rw [show oweB 1 0 c + oweB 2 0 c = oweB 2 0 c + oweB 1 0 c from add_comm _ _]
  simp only [Prog.lift, Prog.bind_op, Prog.bind_ret, Prog.pure_eq_ret]
  iintro ⟨⟨#HR, #Hlev, Hbar, ⟨%W, HO⟩, B0,
      ⟨Hrs1, Hag12, Hag11, ⟨Hp210, Hp310, Td10, Tl10, Cl10⟩, ⟨HxK1, HxS1, HoK1, HaS1⟩, Hrem1, Hacc1, Hstg1, ⟨Hl1, Tlc1⟩⟩,
      ⟨Hrs2, Hag22, ⟨Hp221, Hp321, Cd21, Cl21⟩, Hag20, Hfix2, Hrem2, Hstg2, Hlc2⟩⟩, HQ⟩
  ihave #HIl11 := (inv_l m K c 1 1) $$ HR
  ihave #Hrl11 := (reached_l m K c 1 1) $$ HR
  ihave ⟨HaL, HaR⟩ := (pt_halve (accK 1 0 c) c fullShare (B1 (xs m) c)).1 $$ Hacc1
  iapply (send_half' m K (wp_send_back0 m K c _ 1 (dev20_par c) (accsl5 c) (outsl5 c) rfl rfl _ _)) $$ [$]
  iintro ⟨Cd10, HO⟩
  iapply (wp_copy_l1 m K c 1 (accsl5 c) (outsl5 c) rfl) $$ [$]
  iintro Clc1
  iapply (wait_d' m K (wp_waitDma2_d m K c 2 2 1 rfl (credit_Sh 2 1 _) (oweB 2 0 c) _) (N := 1) (by owes_lv) (by rw [lv_bdep]; decide)) $$ [$]
  iintro ⟨HO, Hp221, Hpay⟩
  ihave Hk21 := (Entails.of_eq ((payload_d m c 2 2 1 0).symm.trans (payload_own_21 m 2 c))) $$ Hpay
  iapply (wait_d' m K (wp_waitDma2_d m K c 3 2 1 rfl (credit_Sh 2 1 _) (oweB 2 0 c) _) (N := 17) (by owes_lv) (by rw [lv_bland]; decide)) $$ [$]
  iintro ⟨HO, Hp321, Hpay⟩
  ihave Hs21 := (Entails.of_eq ((payload_d m c 3 2 1 0).symm.trans (payload_own_31 m 2 c))) $$ Hpay
  ihave Hacc2 := (join1 m 2 c) $$ [$]
  iapply le_wp_ret
  iapply HQ
  iframe # ∗; iexists _; iexact HO

theorem part21_run (c : Dev nD) (K : Dev nD × Fin 43 → ℕ) (fa : Buf (Elt F) ((c : Thread nD τ).loc cc0_scratch0))
    (v46 v88 v124 : BitVec 32) {Q : BitVec 32 → sProp 𝕄} :
    iprop(Mid20 m K c fa ∗ (∀ v, Mid21 m K c fa -∗ Q v))
      ⊢ WP(c, atBufs (k0_part21 (F := F)) c v46 v88 v124, Q) := by
  unfold atBufs
  rw [k0_part21_eq_skeleton]
  unfold k0_part21_skel Mid20 Mid21 MidG bandP0 bandP0s bandP0h bandPF O20 bandFix bandFixX lcFresh lcSent
  rw [agFresh_eq 2 0 c, agSent_eq 0 0 c, agSent_eq 1 0 c, agSent_eq 2 0 c, agDone_eq 0 0 c]
  rw [show oweB 2 0 c = 0 + oweB 2 0 c from (zero_add _).symm]
  simp only [Prog.lift, Prog.bind_op, Prog.bind_ret, Prog.pure_eq_ret]
  iintro ⟨⟨#HR, #Hlev, Hbar, ⟨%W, HO⟩,
      ⟨Hrs0, Hag02, Hag01, ⟨Hp200, Hp300, Cd00, Cl00⟩, Hfix0, Hstg0, Hlc0⟩,
      ⟨Hrs1, Hag12, Hag11, ⟨Hp210, Hp310, Cd10, Cl10⟩, Hfix1, Hstg1, Hlc1⟩,
      ⟨Hrs2, Hag22, Hag21, ⟨Hp220, Hp320, Td20, Tl20, Cl20⟩, ⟨HxK2, HxS2, HoK2, HaS2⟩, Hrem2, Hacc2, Hstg2, ⟨Hl2, Tlc2⟩⟩⟩, HQ⟩
  ihave #HIl12 := (inv_l m K c 1 2) $$ HR
  ihave #Hrl12 := (reached_l m K c 1 2) $$ HR
  ihave #HI200 := (inv_d m K c 2 0 0) $$ HR
  ihave #HI300 := (inv_d m K c 3 0 0) $$ HR
  ihave #HI210 := (inv_d m K c 2 1 0) $$ HR
  ihave ⟨HaL, HaR⟩ := (pt_halve (accK 2 0 c) c fullShare (B1 (xs m) c)).1 $$ Hacc2
  iapply (send_half' m K (wp_send_back0 m K c _ 2 (dev21_par c) (accsl6 c) (outsl6 c) rfl rfl _ _)) $$ [$]
  iintro ⟨Cd20, HO⟩
  iapply (wp_copy_l1 m K c 2 (accsl6 c) (outsl6 c) rfl) $$ [$]
  iintro Clc2
  iapply (wp_waitDma2_d m K c 2 0 0 rfl (credit_Sh 0 0 _) _ _) $$ [Cd00 HO Hp200]
  · iframe # ∗; rw [MayWait_zero]; iempintro
  iintro ⟨HO, Hp200, Hpay⟩
  ihave Hk00 := (Entails.of_eq ((payload_d m c 2 0 0 0).symm.trans (payload_own_20 m 0 c))) $$ Hpay
  iapply (wp_waitDma2_d m K c 3 0 0 rfl (credit_Sh 0 0 _) _ _) $$ [Cl00 HO Hp300]
  · iframe # ∗; rw [MayWait_zero]; iempintro
  iintro ⟨HO, Hp300, Hpay⟩
  ihave Ho00 := (Entails.of_eq (((payload_d m c 3 0 0 0).symm.trans (payload_own_30 m 0 c)).trans (outS_landed m 0 c))) $$ Hpay
  iapply (wp_waitDma2_d m K c 2 1 0 rfl (credit_Sh 1 0 _) _ _) $$ [Cd10 HO Hp210]
  · iframe # ∗; rw [MayWait_zero]; iempintro
  iintro ⟨HO, Hp210, Hpay⟩
  ihave Hk10 := (Entails.of_eq ((payload_d m c 2 1 0 0).symm.trans (payload_own_20 m 1 c))) $$ Hpay
  iapply le_wp_ret
  iapply HQ $$ %(Scalar.muli v88 1#32)
  iframe # ∗; iexists _; iexact HO

def MidEnd (K : Dev nD × Fin 43 → ℕ) (c : Dev nD) : sProp 𝕄 :=
  iprop(records m K ∗ (bigSep Finset.univ fun x : DIx => atPos ER (dCell c x.1 x.2.1 x.2.2) 1 ∅ 0)
    ∗ (bigSep Finset.univ fun lt : LIx => atPos ER (lCell c lt.1 lt.2) 1 ∅ 0)
    ∗ closeIn m c ∗ closeOut m c ∗ closeAcc (F := F) c ∗ closeStg (F := F) c ∗ (∃ W, owes (c : Thread nD τ) 0 W))

theorem b3_lPay1_eq (t : Fin 3) (c : Dev nD) : lPay m 1 t c
    = iprop((pt(outK t c, c, fullShare, (outK t c).view.write (Elt F) (m ((c : Thread nD τ).loc main_v1)) ((accK t 0 c).view.read (Elt F) (B1 (xs m) c)) Finset.univ) : sProp 𝕄)
        ∗ (pt(accK t 0 c, c, fullShare.right, B1 (xs m) c) : sProp 𝕄)) := rfl

set_option maxHeartbeats 4000000 in
theorem part22_run (c : Dev nD) (K : Dev nD × Fin 43 → ℕ) (fa : Buf (Elt F) ((c : Thread nD τ).loc cc0_scratch0))
    (v130 v596 : BitVec 32) {Q : PUnit → sProp 𝕄} :
    iprop(Mid21 m K c fa ∗ (MidEnd m K c -∗ Q ⟨⟩))
      ⊢ WP(c, atBufs (k0_part22 (F := F)) c v130 v596, Q) := by
  unfold atBufs
  rw [k0_part22_eq_skeleton]
  unfold k0_part22_skel Mid21 MidEnd MidG bandP0s bandP0h bandPF bandFixX lcSent stgs lcDone rsDone closeIn closeOut closeAcc closeStg
  rw [agSent_eq 2 0 c, agDone_eq 0 0 c, agDone_eq 0 1 c, agDone_eq 0 2 c, agDone_eq 1 1 c, agDone_eq 1 2 c, agDone_eq 2 1 c, agDone_eq 2 2 c]
  simp only [bigSep_dix, bigSep_lix]
  simp only [Prog.lift, Prog.bind_op, Prog.bind_ret, Prog.pure_eq_ret]
  iintro ⟨⟨#HR, #Hlev, Hbar, ⟨%W, HO⟩,
      ⟨⟨P000, P100, P001, P101, P002, P102⟩, ⟨P202, P302⟩, ⟨P201, P301⟩, ⟨P200, P300⟩, ⟨HxK0, HxS0, HaS0⟩, HaL0, HoS0, ⟨S00, S01, S02, L00⟩, ⟨Hl0, Clc0⟩⟩,
      ⟨⟨P010, P110, P011, P111, P012, P112⟩, ⟨P212, P312⟩, ⟨P211, P311⟩, Hp210, Hp310, Cl10, ⟨HxK1, HxS1, HaS1⟩, HaL1, ⟨S10, S11, S12, L01⟩, ⟨Hl1, Clc1⟩⟩,
      ⟨⟨P020, P120, P021, P121, P022, P122⟩, ⟨P222, P322⟩, ⟨P221, P321⟩, ⟨Hp220, Hp320, Cd20, Cl20⟩, ⟨HxK2, HxS2, HaS2⟩, ⟨S20, S21, S22, L02⟩, ⟨Hl2, Clc2⟩⟩⟩, HQ⟩
  ihave #HI310 := (inv_d m K c 3 1 0) $$ HR
  ihave #HI220 := (inv_d m K c 2 2 0) $$ HR
  ihave #HI320 := (inv_d m K c 3 2 0) $$ HR
  ihave #HIl10 := (inv_l m K c 1 0) $$ HR
  ihave #HIl11 := (inv_l m K c 1 1) $$ HR
  ihave #HIl12 := (inv_l m K c 1 2) $$ HR
  iapply (wp_waitDma2_d m K c 3 1 0 rfl (credit_Sh 1 0 _) _ _) $$ [Cl10 HO Hp310]
  · iframe # ∗; rw [MayWait_zero]; iempintro
  iintro ⟨HO, Hp310, Hpay⟩
  ihave HoS1 := (Entails.of_eq (((payload_d m c 3 1 0 0).symm.trans (payload_own_30 m 1 c)).trans (outS_landed m 1 c))) $$ Hpay
  iapply (wp_waitDma2_d m K c 2 2 0 rfl (credit_Sh 2 0 _) _ _) $$ [Cd20 HO Hp220]
  · iframe # ∗; rw [MayWait_zero]; iempintro
  iintro ⟨HO, Hp220, Hpay⟩
  ihave HaL2 := (Entails.of_eq ((payload_d m c 2 2 0 0).symm.trans (payload_own_20 m 2 c))) $$ Hpay
  iapply (wp_waitDma2_d m K c 3 2 0 rfl (credit_Sh 2 0 _) _ _) $$ [Cl20 HO Hp320]
  · iframe # ∗; rw [MayWait_zero]; iempintro
  iintro ⟨HO, Hp320, Hpay⟩
  ihave HoS2 := (Entails.of_eq (((payload_d m c 3 2 0 0).symm.trans (payload_own_30 m 2 c)).trans (outS_landed m 2 c))) $$ Hpay
  iapply (wp_waitDma2_l m K c 1 0 rfl (credit_Sh 0 0 _) _ _) $$ [Clc0 HO Hl0]
  · iframe # ∗; rw [MayWait_zero]; iempintro
  iintro ⟨HO, Hl0, Hpay⟩
  ihave ⟨Hw0, HaR0⟩ := (Entails.of_eq (b3_lPay1_eq m 0 c)) $$ Hpay
  ihave HoK0 := (Entails.of_eq (outK_copied m 0 c)) $$ Hw0
  ihave Hacc0 := (pt_halve (accK 0 0 c) c fullShare (B1 (xs m) c)).2 $$ [$]
  iapply (wp_waitDma2_l m K c 1 1 rfl (credit_Sh 1 0 _) _ _) $$ [Clc1 HO Hl1]
  · iframe # ∗; rw [MayWait_zero]; iempintro
  iintro ⟨HO, Hl1, Hpay⟩
  ihave ⟨Hw1, HaR1⟩ := (Entails.of_eq (b3_lPay1_eq m 1 c)) $$ Hpay
  ihave HoK1 := (Entails.of_eq (outK_copied m 1 c)) $$ Hw1
  ihave Hacc1 := (pt_halve (accK 1 0 c) c fullShare (B1 (xs m) c)).2 $$ [$]
  iapply (wp_waitDma2_l m K c 1 2 rfl (credit_Sh 2 0 _) _ _) $$ [Clc2 HO Hl2]
  · iframe # ∗; rw [MayWait_zero]; iempintro
  iintro ⟨HO, Hl2, Hpay⟩
  ihave ⟨Hw2, HaR2⟩ := (Entails.of_eq (b3_lPay1_eq m 2 c)) $$ Hpay
  ihave HoK2 := (Entails.of_eq (outK_copied m 2 c)) $$ Hw2
  ihave Hacc2 := (pt_halve (accK 2 0 c) c fullShare (B1 (xs m) c)).2 $$ [$]
  iapply le_wp_ret
  iapply HQ
  iframe # ∗
  isplitl [Hacc0 HaS0 Hacc1 HaS1 Hacc2 HaS2]
  · isplitl [Hacc0]; · iexists _; iexact Hacc0
    isplitl [HaS0]; · iexists _; iexact HaS0
    isplitl [Hacc1]; · iexists _; iexact Hacc1
    isplitl [HaS1]; · iexists _; iexact HaS1
    isplitl [Hacc2]; · iexists _; iexact Hacc2
    iexists _; iexact HaS2
  iexists _; iexact HO

end Cert.Kernel.Hyp

end
-- ==== Proof.KernelSide.BodyAll.lean ====
import proofs.«901103_g7700000000001104_dist_treered_v7x_i8_m1024_n1024_f32_1_alg».proof.Proof.KernelSide.Body
import proofs.«901103_g7700000000001104_dist_treered_v7x_i8_m1024_n1024_f32_1_alg».proof.Proof.KernelSide.Part67
import proofs.«901103_g7700000000001104_dist_treered_v7x_i8_m1024_n1024_f32_1_alg».proof.Proof.KernelSide.BodyMid
import proofs.«901103_g7700000000001104_dist_treered_v7x_i8_m1024_n1024_f32_1_alg».proof.Proof.KernelSide.BodyMid1c
import proofs.«901103_g7700000000001104_dist_treered_v7x_i8_m1024_n1024_f32_1_alg».proof.Proof.KernelSide.BodyMid1b
import proofs.«901103_g7700000000001104_dist_treered_v7x_i8_m1024_n1024_f32_1_alg».proof.Proof.KernelSide.BodyMid1d
import proofs.«901103_g7700000000001104_dist_treered_v7x_i8_m1024_n1024_f32_1_alg».proof.Proof.KernelSide.BodyMid2d
import proofs.«901103_g7700000000001104_dist_treered_v7x_i8_m1024_n1024_f32_1_alg».proof.Proof.KernelSide.BodyMid2c
import proofs.«901103_g7700000000001104_dist_treered_v7x_i8_m1024_n1024_f32_1_alg».proof.Proof.KernelSide.BodyMid2b
import proofs.«901103_g7700000000001104_dist_treered_v7x_i8_m1024_n1024_f32_1_alg».proof.Proof.KernelSide.Body2
import proofs.«901103_g7700000000001104_dist_treered_v7x_i8_m1024_n1024_f32_1_alg».proof.Proof.KernelSide.Body2b
import proofs.«901103_g7700000000001104_dist_treered_v7x_i8_m1024_n1024_f32_1_alg».proof.Proof.KernelSide.Body3

noncomputable section

namespace Cert.Kernel.Hyp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

theorem body_obligation (c : Dev nD) : BodyObligation (dats (F := F) m 0 c) (defs₀ (F := F)) 𝒱₀ () Set.univ := fun t => by
  rw [fin_N0 t]
  show iprop((dats (F := F) m 0 c).Φ t0_0.castSucc ∗ (dats (F := F) m 0 c).owesAt () t0_0.castSucc ∗ _)
    ⊢ wp Idealize.ShloMosaic.frame (wpE (defs₀ (F := F)) 𝒱₀ (c : Thread nD τ) none) Set.univ (bodyAt0 (F := F) t0_0) _
  rw [show (dats (F := F) m 0 c).Φ t0_0.castSucc = Φ₀ m c from rfl]
  dsimp only [bodyAt0]
  rw [cc0_body_eq_skeleton]; unfold cc0_body_skel
  iintro ⟨HΦ, HO, -⟩
  ihave HS := (preamble m c) $$ [HΦ HO]
  · iframe
  icases HS with ⟨%K, %fa, %W, %f1, %f2, %f3, %f4, %f5, %f6, %f7, %f8, %f9, HS⟩
  rw [wp_bind]
  iapply (part1_full m c K fa W f1 f2 f3 f4 f5 f6 f7 f8 f9)
  iframe HS
  iintro %v7 %v31 HS
  rw [wp_bind]
  iapply (part2_full m c K fa W v7 v31 f7 f5 f3)
  iframe HS
  iintro %v37 %v40 %v46 %v51 %v54 %v60 HM
  rw [wp_bind]
  iapply (part3_run c (Mid5 m c K fa) v7 v54)
  iframe HM
  iintro %v65 %v68 %v74 %v79 %v82 %v88 %v90 %v91 HM
  rw [wp_bind]
  iapply (part4_run c (Mid5 m c K fa) v7 v82 v90 v91)
  iframe HM
  iintro %v93 %v96 %v102 %v107 %v110 %v116 %v121 %v122 %c512 HM
  rw [wp_bind]
  iapply (part5_run c (Mid5 m c K fa) v7 v122 c512)
  iframe HM
  iintro %v124 %v130 %v135 %v138 %v144 %v149 %v152 %v153 %v154 HM
  rw [wp_bind]
  iapply (part6_run m c K fa v37 v46 v79 v88 v121 v130 v153 v154)
  iframe HM
  iintro %v158 HM
  rw [wp_bind]
  iapply (part7_run m c K fa v40 v82 v124)
  iframe HM
  iintro HM
  rw [wp_bind]
  iapply (part8_run m c K fa v40 v46 v51 v60)
  iframe HM
  iintro HM
  rw [wp_bind]
  iapply (part9_run m c K fa v82 v88 v93 v102)
  iframe HM
  iintro HM
  rw [wp_bind]
  iapply (part10_run m c K fa v124 v130 v135 v144)
  iframe HM
  iintro HM
  rw [wp_bind]
  iapply (part11_run m c K fa v54 v60 v65 v74)
  iframe HM
  iintro HM
  rw [wp_bind]
  iapply (part12_alt m c K fa v96 v102 v107 v116 v144)
  iframe HM
  iintro HM
  rw [wp_bind]
  iapply (part13_run m c K fa v68 v74 v138 v149 v158)
  iframe HM
  iintro %v383 %v385 HM
  rw [wp_bind]
  iapply (part14_run m c K fa v68 v74 v110 v116 v383 v385)
  iframe HM
  iintro %v409 %v413 HM
  rw [wp_bind]
  iapply (part15_run m c K fa v110 v116 v152 v158 v409 v413)
  iframe HM
  iintro HM
  rw [wp_bind]
  iapply (part16_run m c K fa v54 v60 v74 v152 v158)
  iframe HM
  iintro HM
  rw [wp_bind]
  iapply (part17_run m c K fa v96 v102 v116)
  iframe HM
  iintro HM
  rw [wp_bind]
  iapply (part18_run m c K fa v60 v138 v144 v158)
  iframe HM
  iintro HM
  rw [wp_bind]
  iapply (part19_run m c K fa v40 v46 v82 v102)
  iframe HM
  iintro %c1_514 HM
  rw [wp_bind]
  iapply (part20_run m c K fa v82 v88 v124 v130 v144 c1_514)
  iframe HM
  iintro HM
  rw [wp_bind]
  iapply (part21_run m c K fa v46 v88 v124)
  iframe HM
  iintro %v596 HM
  rw [wp_bind]
  iapply (part22_run m c K fa v130 v596)
  iframe HM
  iintro HM
  unfold MidEnd
  icases HM with ⟨#HR, Hd, Hl, Hin, Hout, Hacc, Hstg, ⟨%W', HO⟩⟩
  simp only [Prog.pure_eq_ret, wp_ret]
  imod (close_body m K c) $$ [Hd Hl Hin Hout Hacc Hstg] with HΦ
  · isplitr; · iexact HR
    iframe
  imodintro
  rw [show (dats (F := F) m 0 c).Φ t0_0.succ = Φ₁ m c from rfl]
  isplitl [HΦ]; · iexact HΦ
  isplitl [HO]
  · unfold Dat.owesAt Pipeline.owesWithin
    iexists W'
    isplitr
    · ipureintro; exact fun _ _ => Or.inl trivial
    · iexact HO
  · rw [show (Finset.univ : Finset (Fin cfg0.W)) = ∅ from rfl, bigSep_empty]
    iempintro

end Cert.Kernel.Hyp

end
-- ==== Proof.KernelSide.Run.lean ====
import proofs.«901103_g7700000000001104_dist_treered_v7x_i8_m1024_n1024_f32_1_alg».proof.Proof.KernelSide.BodyAll

noncomputable section

namespace Cert.Kernel.Hyp

open Cert.Kernel Idealize.ShloMosaic Idealize.SL.Sem

variable {F : FTy → Type} [FloatOps F]

theorem run (m : (ℓ : Loc nD τ sig) → Buf (Elt F) ℓ) (ρ : Dev nD → PrngReg) :
    θ_run defs (onTc (τ := τ) (main (F := F))) (s₀ m ρ) (QC m) :=
  run_main m ρ (body_obligation m)

end Cert.Kernel.Hyp

end
-- ==== Proof.RefValue.lean ====
import proofs.«901103_g7700000000001104_dist_treered_v7x_i8_m1024_n1024_f32_1_alg».proof.Defs
import proofs.«901103_g7700000000001104_dist_treered_v7x_i8_m1024_n1024_f32_1_alg».proof.Proof.Vals
import proofs.«901103_g7700000000001104_dist_treered_v7x_i8_m1024_n1024_f32_1_alg».proof.Proof.Gen.ReferenceIdeal.Run
import proofs.«901103_g7700000000001104_dist_treered_v7x_i8_m1024_n1024_f32_1_alg».proof.Proof.Gen.ReferenceIdeal.Read
import proofs.«901103_g7700000000001104_dist_treered_v7x_i8_m1024_n1024_f32_1_alg».proof.Proof.Gen.Pre_finite_inputs_ReferenceIdeal

noncomputable section

namespace Cert.KernelIdeal.RefVal

open Idealize.ShloMosaic Idealize.SL.Sem Cert.KernelIdeal Cert.KernelIdeal.Hyp

theorem frame_ri : Cert.frame_ReferenceIdeal := fun m ρ _ =>
  (θ_run Cert.ReferenceIdeal.defs _ _).mono (fun _ h c => (h c).2) (Cert.ReferenceIdeal.Value.run (F := Ideal) m ρ)

abbrev Whole : Type := (⟨Cert.ReferenceIdeal.S8x1024x1024, .f32⟩ : BufTy).Contents (Elt Ideal)
abbrev Res : Type := (⟨Cert.ReferenceIdeal.S1024x1024, .f32⟩ : BufTy).Contents (Elt Ideal)

def refVal (X : Whole) : Res := Cert.ReferenceIdeal.Read.val_main_v0 (F := Ideal) X

theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r =>
        r.2.mem (((0 : Dev Cert.ReferenceIdeal.nD).tc : Thread Cert.ReferenceIdeal.nD Cert.ReferenceIdeal.τ).loc Cert.ReferenceIdeal.main_v0)
            = refVal (m' (((0 : Dev Cert.ReferenceIdeal.nD).tc : Thread Cert.ReferenceIdeal.nD Cert.ReferenceIdeal.τ).loc Cert.ReferenceIdeal.main_arg0))
        ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => h 0) (Cert.ReferenceIdeal.Value.run (F := Ideal) m' ρ')

theorem refVal_apply (X : Whole) (ij : Cert.ReferenceIdeal.S1024x1024.Idx) :
    refVal X ij = ∑ d : Fin 8, X (ValueIdx.ix3 d (ij 0) (ij 1)) := by
  unfold refVal
  rw [Cert.ReferenceIdeal.Read.val_main_v0_apply, Cert.ReferenceIdeal.Read.val_main_cst_apply]
  show Ideal.ofBits .f32 0x00000000#32 + _ = _
  rw [Ideal.ofBits_zero_f32, zero_add]
  refine Finset.sum_congr rfl fun k _ => congrArg X (funext fun a => ?_)
  match a with
  | ⟨0, _⟩ => rfl
  | ⟨1, _⟩ => rfl
  | ⟨2, _⟩ => rfl

theorem cube_sum (a : Fin 8 → EReal) (t : Fin 3) (c : Fin 8) :
    ((a c + a (nb (t + 0) c)) + (a (nb (t + 1) c) + a (nb (t + 0) (nb (t + 1) c))))
      + ((a (nb (t + 2) c) + a (nb (t + 0) (nb (t + 2) c)))
          + (a (nb (t + 1) (nb (t + 2) c)) + a (nb (t + 0) (nb (t + 1) (nb (t + 2) c))))) = ∑ d : Fin 8, a d := by
  fin_cases t <;> fin_cases c <;> simp [nb, Fin.sum_univ_eight] <;> abel

variable (X : Whole) (xs : Dev nD → Vec Ideal S1x1024x1024 .f32)
  (hx : ∀ c, xs c = Layout.block ⟨3, ![1, 1024, 1024]⟩ ⟨3, ![8, 1024, 1024]⟩ 0 8 c X)

include hx

theorem A0_apply (c : Dev nD) (ij : S1024x1024.Idx) : A0 xs c ij = X (ValueIdx.ix3 c (ij 0) (ij 1)) := by
  unfold A0
  rw [hx c, Layout.block_apply]
  refine congrArg X (funext fun b => Fin.ext ?_)
  rw [Layout.Tiles.idx_val]
  match b with
  | ⟨0, _⟩ => simp
  | ⟨1, _⟩ => rfl
  | ⟨2, _⟩ => rfl

theorem A3_apply (c : Dev nD) (ij : S1024x1024.Idx) :
    A3 xs c ij = ∑ d : Fin 8, X (ValueIdx.ix3 d (ij 0) (ij 1)) := by
  have h := cube_sum (fun d => A0 xs d ij) (tOf ij) c
  simp only [A0_apply X xs hx] at h
  rw [← h]
  simp only [A3, A2, A1, stepAdd, par, Ideal.addf_def, A0_apply X xs hx]

theorem B0_apply (c : Dev nD) (ij : S1024x1024.Idx) :
    B0 xs c ij = ∑ d : Fin 8, X (ValueIdx.ix3 d (ij 0) (ij 1)) := by
  simp only [B0, B1, B2, A3_apply X xs hx, ite_self]

theorem B0_eq_ref (c : Dev nD) : B0 (F := Ideal) xs c = refVal X :=
  funext fun ij => (B0_apply X xs hx c ij).trans (refVal_apply X ij).symm

end Cert.KernelIdeal.RefVal

end
-- ==== Proof.lean ====
/-
  Eight devices hold one block of x each; every device ends with the sum of the eight blocks in every entry of its
  result, which is the reference's sum over the first axis: addition on the extended reals is commutative and associative.
-/
import proofs.«901103_g7700000000001104_dist_treered_v7x_i8_m1024_n1024_f32_1_alg».proof.Defs
import proofs.«901103_g7700000000001104_dist_treered_v7x_i8_m1024_n1024_f32_1_alg».proof.Proof.Gen.Kernel
import proofs.«901103_g7700000000001104_dist_treered_v7x_i8_m1024_n1024_f32_1_alg».proof.Proof.Gen.KernelIdeal
import proofs.«901103_g7700000000001104_dist_treered_v7x_i8_m1024_n1024_f32_1_alg».proof.Proof.Gen.ReferenceIdeal
import proofs.«901103_g7700000000001104_dist_treered_v7x_i8_m1024_n1024_f32_1_alg».proof.Proof.Gen.Pre_finite_inputs_Kernel
import proofs.«901103_g7700000000001104_dist_treered_v7x_i8_m1024_n1024_f32_1_alg».proof.Proof.Gen.Pre_finite_inputs_ReferenceIdeal
import proofs.«901103_g7700000000001104_dist_treered_v7x_i8_m1024_n1024_f32_1_alg».proof.Proof.Run
import proofs.«901103_g7700000000001104_dist_treered_v7x_i8_m1024_n1024_f32_1_alg».proof.Proof.KernelSide.Run
import proofs.«901103_g7700000000001104_dist_treered_v7x_i8_m1024_n1024_f32_1_alg».proof.Proof.RefValue
import Idealize.ShloMosaic.Adequacy
import Idealize.ShloMosaic.Init

noncomputable section

namespace Cert.Proof

open Idealize.ShloMosaic Idealize.SL.Sem Cert.KernelIdeal.RefVal

theorem frame_p : Cert.frame_Kernel := fun m ρ _ =>
  (θ_run (Cert.Kernel.defs (F := Bits)) _ _).mono (fun _ h c => (h c).2) (Cert.Kernel.Hyp.run (F := Bits) m ρ)

theorem frame_pi : Cert.frame_KernelIdeal := fun m ρ _ =>
  (θ_run (Cert.KernelIdeal.defs (F := Ideal)) _ _).mono (fun _ h c => (h c).2) (Cert.KernelIdeal.Hyp.run (F := Ideal) m ρ)

theorem algebraic : Cert.algebraic_KernelIdeal_ReferenceIdeal := fun m ρ m' ρ' _ hagree =>
  ⟨refVal (m' (((0 : Dev Cert.ReferenceIdeal.nD).tc : Thread Cert.ReferenceIdeal.nD Cert.ReferenceIdeal.τ).loc Cert.ReferenceIdeal.main_arg0)),
   (θ_run (Cert.KernelIdeal.defs (F := Ideal)) _ _).mono
     (fun _ h c => ⟨(h c).1.trans (B0_eq_ref _ (fun c => m ((c.tc : Thread Cert.KernelIdeal.nD Cert.KernelIdeal.τ).loc Cert.KernelIdeal.main_arg0)) hagree c), (h c).2⟩)
     (Cert.KernelIdeal.Hyp.run (F := Ideal) m ρ),
   ref_run m' ρ'⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, frame_ri, trivial, algebraic⟩

end Cert.Proof

end
